-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v267)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v267) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x30 : Shape := ⟨2, ![50000, 30]⟩
abbrev S50000x2 : Shape := ⟨2, ![50000, 2]⟩
abbrev S800000x2 : Shape := ⟨2, ![800000, 2]⟩
abbrev S2x800000 : Shape := ⟨2, ![2, 800000]⟩
abbrev S25x32x64 : Shape := ⟨3, ![25, 32, 64]⟩
abbrev S32x64 : Shape := ⟨2, ![32, 64]⟩
abbrev S64 : Shape := ⟨1, ![64]⟩
abbrev S25x64x64 : Shape := ⟨3, ![25, 64, 64]⟩
abbrev S64x64 : Shape := ⟨2, ![64, 64]⟩
abbrev S_ : Shape := ⟨0, ![]⟩
abbrev S1x800000 : Shape := ⟨2, ![1, 800000]⟩
abbrev S800000 : Shape := ⟨1, ![800000]⟩

class Facts : Prop where
  bcast_S_S50000x30 : S_.BroadcastsInDim S50000x30 (![] : Fin 0 → Fin S50000x30.rank)
  reducesTo_S50000x30_S_d0_1 : S50000x30.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S800000x2 : S_.BroadcastsInDim S800000x2 (![] : Fin 0 → Fin S800000x2.rank)
  reducesTo_S800000x2_S_d0_1 : S800000x2.ReducesTo [0, 1] S_
  bcast_S_S25x32x64 : S_.BroadcastsInDim S25x32x64 (![] : Fin 0 → Fin S25x32x64.rank)
  reducesTo_S25x32x64_S_d0_1_2 : S25x32x64.ReducesTo [0, 1, 2] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S25x64x64 : S_.BroadcastsInDim S25x64x64 (![] : Fin 0 → Fin S25x64x64.rank)
  reducesTo_S25x64x64_S_d0_1_2 : S25x64x64.ReducesTo [0, 1, 2] S_
  bcast_S_S64x64 : S_.BroadcastsInDim S64x64 (![] : Fin 0 → Fin S64x64.rank)
  reducesTo_S64x64_S_d0_1 : S64x64.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg3 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![1, 0] · slices_S2x800000_S1x800000_1_0) main_arg3
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_v73 : IVec S1x800000 32 := (extractStridedSlice S1x800000 ![1, 0] · slices_S2x800000_S1x800000_1_0) main_arg3
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg3 : IVec S2x800000 32) (main_arg12 : FVec F S32x64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S32x64 .f32 := Host.absf main_arg12
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg3 main_v63 main_v67

def fn_part2 {F : FTy → Type} [FloatOps F] (main_arg3 : IVec S2x800000 32) (main_arg8 : FVec F S25x64x64 .f32) (main_arg9 : FVec F S64x64 .f32) (main_arg10 : FVec F S64 .f32) (main_arg11 : FVec F S64 .f32) (main_arg12 : FVec F S32x64 .f32) (main_arg13 : FVec F S64 .f32) (main_arg14 : FVec F S64 .f32) (main_v33 : IVec S_ 1) : IVec S_ 1 :=
  let main_v34 : FVec F S25x64x64 .f32 := Host.absf main_arg8
  let main_cst_12 : FVec F S_ .f32 := constant S_ .f32 0x7F800000#32
  let main_v35 : FVec F S25x64x64 .f32 := broadcastInDim S25x64x64 ![] bcast_S_S25x64x64 main_cst_12
  let main_v36 : IVec S25x64x64 1 := cmpf .olt main_v34 main_v35
  let main_c_13 : IVec S_ 1 := constantI S_ 1 1#1
  let main_v37 : IVec S_ 1 := (fun x v => Host.reduce IntOp.andi x v reducesTo_S25x64x64_S_d0_1_2 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg3 main_arg12 main_arg13 main_arg14 main_v48 main_v49 main_v50

def fn_part1 {F : FTy → Type} [FloatOps F] (main_arg3 : IVec S2x800000 32) (main_arg5 : FVec F S32x64 .f32) (main_arg6 : FVec F S64 .f32) (main_arg7 : FVec F S64 .f32) (main_arg8 : FVec F S25x64x64 .f32) (main_arg9 : FVec F S64x64 .f32) (main_arg10 : FVec F S64 .f32) (main_arg11 : FVec F S64 .f32) (main_arg12 : FVec F S32x64 .f32) (main_arg13 : FVec F S64 .f32) (main_arg14 : FVec F S64 .f32) (main_v13 : IVec S_ 1) (main_v16 : IVec S25x32x64 1) : IVec S_ 1 :=
  let main_c_5 : IVec S_ 1 := constantI S_ 1 1#1
  let main_v17 : IVec S_ 1 := (fun x v => Host.reduce IntOp.andi x v reducesTo_S25x32x64_S_d0_1_2 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg8 main_arg9 main_arg10 main_arg11 main_arg12 main_arg13 main_arg14 main_v33

def fn {F : FTy → Type} [FloatOps F] (main_arg0 : FVec F S50000x30 .f32) (main_arg1 : FVec F S50000x2 .f32) (main_arg2 : FVec F S800000x2 .f32) (main_arg3 : IVec S2x800000 32) (main_arg4 : FVec F S25x32x64 .f32) (main_arg5 : FVec F S32x64 .f32) (main_arg6 : FVec F S64 .f32) (main_arg7 : FVec F S64 .f32) (main_arg8 : FVec F S25x64x64 .f32) (main_arg9 : FVec F S64x64 .f32) (main_arg10 : FVec F S64 .f32) (main_arg11 : FVec F S64 .f32) (main_arg12 : FVec F S32x64 .f32) (main_arg13 : FVec F S64 .f32) (main_arg14 : FVec F S64 .f32) : IVec S_ 1 :=
  let main_v0 : FVec F S50000x30 .f32 := Host.absf main_arg0
  let main_cst : FVec F S_ .f32 := constant S_ .f32 0x7F800000#32
  let main_v1 : FVec F S50000x30 .f32 := broadcastInDim S50000x30 ![] bcast_S_S50000x30 main_cst
  let main_v2 : IVec S50000x30 1 := cmpf .olt main_v0 main_v1
  let main_c : IVec S_ 1 := constantI S_ 1 1#1
  let main_v3 : IVec S_ 1 := (fun x v => Host.reduce IntOp.andi x v reducesTo_S50000x30_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S800000x2 .f32 := Host.absf main_arg2
  let main_cst_2 : FVec F S_ .f32 := constant S_ .f32 0x7F800000#32
  let main_v10 : FVec F S800000x2 .f32 := broadcastInDim S800000x2 ![] bcast_S_S800000x2 main_cst_2
  let main_v11 : IVec S800000x2 1 := cmpf .olt main_v9 main_v10
  let main_c_3 : IVec S_ 1 := constantI S_ 1 1#1
  let main_v12 : IVec S_ 1 := (fun x v => Host.reduce IntOp.andi x v reducesTo_S800000x2_S_d0_1 h_S_) main_v11 main_c_3
  let main_v13 : IVec S_ 1 := andi main_v8 main_v12
  let main_v14 : FVec F S25x32x64 .f32 := Host.absf main_arg4
  let main_cst_4 : FVec F S_ .f32 := constant S_ .f32 0x7F800000#32
  let main_v15 : FVec F S25x32x64 .f32 := broadcastInDim S25x32x64 ![] bcast_S_S25x32x64 main_cst_4
  let main_v16 : IVec S25x32x64 1 := cmpf .olt main_v14 main_v15
  fn_part1 (F := F) main_arg3 main_arg5 main_arg6 main_arg7 main_arg8 main_arg9 main_arg10 main_arg11 main_arg12 main_arg13 main_arg14 main_v13 main_v16
-- ==== Kernel.lean ====
abbrev S50000x30 : Shape := ⟨2, ![50000, 30]⟩
abbrev S50000x2 : Shape := ⟨2, ![50000, 2]⟩
abbrev S800000x2 : Shape := ⟨2, ![800000, 2]⟩
abbrev S2x800000 : Shape := ⟨2, ![2, 800000]⟩
abbrev S25x32x64 : Shape := ⟨3, ![25, 32, 64]⟩
abbrev S32x64 : Shape := ⟨2, ![32, 64]⟩
abbrev S64 : Shape := ⟨1, ![64]⟩
abbrev S25x64x64 : Shape := ⟨3, ![25, 64, 64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x4 : Shape := ⟨2, ![800000, 4]⟩
abbrev S50000x32 : Shape := ⟨2, ![50000, 32]⟩
abbrev S50000 : Shape := ⟨1, ![50000]⟩
abbrev S50000x64 : Shape := ⟨2, ![50000, 64]⟩
abbrev S25x64 : Shape := ⟨2, ![25, 64]⟩
abbrev S2000x32 : Shape := ⟨2, ![2000, 32]⟩
abbrev S2000x64 : Shape := ⟨2, ![2000, 64]⟩
abbrev S1x64 : Shape := ⟨2, ![1, 64]⟩
abbrev S25000x128 : Shape := ⟨2, ![25000, 128]⟩
abbrev S128 : Shape := ⟨1, ![128]⟩
abbrev S1x128 : Shape := ⟨2, ![1, 128]⟩
abbrev S1000x128 : Shape := ⟨2, ![1000, 128]⟩
abbrev S800000x32 : Shape := ⟨2, ![800000, 32]⟩
abbrev S1250000x32 : Shape := ⟨2, ![1250000, 32]⟩
abbrev S50000x800 : Shape := ⟨2, ![50000, 800]⟩
abbrev S800x64 : Shape := ⟨2, ![800, 64]⟩
abbrev S2000x800 : Shape := ⟨2, ![2000, 800]⟩
abbrev S800000x64 : Shape := ⟨2, ![800000, 64]⟩
abbrev S1250000x64 : Shape := ⟨2, ![1250000, 64]⟩
abbrev S50000x1600 : Shape := ⟨2, ![50000, 1600]⟩
abbrev S1600x64 : Shape := ⟨2, ![1600, 64]⟩
abbrev S2000x1600 : Shape := ⟨2, ![2000, 1600]⟩

abbrev nBuf : Space → Nat
  | .hbm => 349
  | .vmem => 53
  | .smem => 0
  | _ => 0

abbrev hbmTy0_0 (i : Nat) : BufTy := match i % 128 with
  | 0 => ⟨S50000x30, .f32⟩
  | 1 => ⟨S50000x2, .f32⟩
  | 2 => ⟨S800000x2, .f32⟩
  | 3 => ⟨S2x800000, .i32⟩
  | 4 => ⟨S25x32x64, .f32⟩
  | 5 => ⟨S32x64, .f32⟩
  | 6 => ⟨S64, .f32⟩
  | 7 => ⟨S64, .f32⟩
  | 8 => ⟨S25x64x64, .f32⟩
  | 9 => ⟨S64x64, .f32⟩
  | 10 => ⟨S64, .f32⟩
  | 11 => ⟨S64, .f32⟩
  | 12 => ⟨S32x64, .f32⟩
  | 13 => ⟨S64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000x2, .f32⟩
  | 21 => ⟨S800000x2, .f32⟩
  | 22 => ⟨S800000x2, .f32⟩
  | 23 => ⟨S_, .f32⟩
  | 24 => ⟨S_, .i32⟩
  | 25 => ⟨S_, .f32⟩
  | 26 => ⟨S800000x2, .f32⟩
  | 27 => ⟨S800000x2, .f32⟩
  | 28 => ⟨S_, .f32⟩
  | 29 => ⟨S800000x2, .f32⟩
  | 30 => ⟨S800000x2, .f32⟩
  | 31 => ⟨S800000x2, .f32⟩
  | 32 => ⟨S800000x2, .i32⟩
  | 33 => ⟨S_, .i32⟩
  | 34 => ⟨S800000x2, .i32⟩
  | 35 => ⟨S800000x2, .i32⟩
  | 36 => ⟨S800000x1, .f32⟩
  | 37 => ⟨S800000, .f32⟩
  | 38 => ⟨S800000x1, .f32⟩
  | 39 => ⟨S800000, .f32⟩
  | 40 => ⟨S_, .f32⟩
  | 41 => ⟨S800000, .f32⟩
  | 42 => ⟨S800000, .f32⟩
  | 43 => ⟨S_, .f32⟩
  | 44 => ⟨S800000, .f32⟩
  | 45 => ⟨S800000, .f32⟩
  | 46 => ⟨S800000, .f32⟩
  | 47 => ⟨S_, .f32⟩
  | 48 => ⟨S800000, .f32⟩
  | 49 => ⟨S800000, .f32⟩
  | 50 => ⟨S800000, .f32⟩
  | 51 => ⟨S_, .f32⟩
  | 52 => ⟨S800000, .f32⟩
  | 53 => ⟨S800000, .f32⟩
  | 54 => ⟨S800000, .f32⟩
  | 55 => ⟨S800000, .f32⟩
  | 56 => ⟨S800000x1, .f32⟩
  | 57 => ⟨S800000x1, .f32⟩
  | 58 => ⟨S800000x1, .f32⟩
  | 59 => ⟨S800000x1, .f32⟩
  | 60 => ⟨S800000x4, .f32⟩
  | 61 => ⟨S800000x1, .i32⟩
  | 62 => ⟨S800000, .i32⟩
  | 63 => ⟨S800000x1, .i32⟩
  | 64 => ⟨S800000, .i32⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .i32⟩
  | 71 => ⟨S800000x1, .i32⟩
  | 72 => ⟨S800000, .i32⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .i32⟩
  | 79 => ⟨S800000x1, .i32⟩
  | 80 => ⟨S800000, .i32⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .i32⟩
  | 87 => ⟨S800000x1, .i32⟩
  | 88 => ⟨S800000, .i32⟩
  | 89 => ⟨S_, .i32⟩
  | 90 => ⟨S800000, .i32⟩
  | 91 => ⟨S800000, .i32⟩
  | 92 => ⟨S800000, .i32⟩
  | 93 => ⟨S800000x1, .i32⟩
  | 94 => ⟨S800000x1, .i32⟩
  | 95 => ⟨S800000x1, .i32⟩
  | 96 => ⟨S800000x1, .i32⟩
  | 97 => ⟨S800000x4, .i32⟩
  | 98 => ⟨S50000x32, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000x1, .f32⟩
  | 121 => ⟨S800000x4, .f32⟩
  | 122 => ⟨S800000x4, .f32⟩
  | 123 => ⟨S50000x64, .f32⟩
  | 124 => ⟨S25x64, .f32⟩
  | 125 => ⟨S25x64, .f32⟩
  | 126 => ⟨S_, .f32⟩
  | 127 => ⟨S64, .f32⟩
  | _ => ⟨S50000x30, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S_, .f32⟩
  | 6 => ⟨S64, .f32⟩
  | 7 => ⟨S64, .f32⟩
  | 8 => ⟨S64, .f32⟩
  | 9 => ⟨S64, .f32⟩
  | 10 => ⟨S_, .f32⟩
  | 11 => ⟨S64, .f32⟩
  | 12 => ⟨S64, .f32⟩
  | 13 => ⟨S25000x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S25000x128, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x32, .f32⟩
  | 33 => ⟨S_, .f32⟩
  | 34 => ⟨S1250000x32, .f32⟩
  | 35 => ⟨S800000x1, .f32⟩
  | 36 => ⟨S800000x32, .f32⟩
  | 37 => ⟨S800000x32, .f32⟩
  | 38 => ⟨S_, .i32⟩
  | 39 => ⟨S800000, .i32⟩
  | 40 => ⟨S800000, .i32⟩
  | 41 => ⟨S800000x1, .i32⟩
  | 42 => ⟨S800000, .i32⟩
  | 43 => ⟨S800000, .i32⟩
  | 44 => ⟨S_, .f32⟩
  | 45 => ⟨S1250000x32, .f32⟩
  | 46 => ⟨S800000x1, .i32⟩
  | 47 => ⟨S1250000x32, .f32⟩
  | 48 => ⟨S1250000x32, .f32⟩
  | 49 => ⟨S800000x1, .f32⟩
  | 50 => ⟨S800000x32, .f32⟩
  | 51 => ⟨S800000x32, .f32⟩
  | 52 => ⟨S_, .i32⟩
  | 53 => ⟨S800000, .i32⟩
  | 54 => ⟨S800000, .i32⟩
  | 55 => ⟨S800000x1, .i32⟩
  | 56 => ⟨S800000, .i32⟩
  | 57 => ⟨S800000, .i32⟩
  | 58 => ⟨S_, .f32⟩
  | 59 => ⟨S1250000x32, .f32⟩
  | 60 => ⟨S800000x1, .i32⟩
  | 61 => ⟨S1250000x32, .f32⟩
  | 62 => ⟨S1250000x32, .f32⟩
  | 63 => ⟨S800000x1, .f32⟩
  | 64 => ⟨S800000x32, .f32⟩
  | 65 => ⟨S800000x32, .f32⟩
  | 66 => ⟨S_, .i32⟩
  | 67 => ⟨S800000, .i32⟩
  | 68 => ⟨S800000, .i32⟩
  | 69 => ⟨S800000x1, .i32⟩
  | 70 => ⟨S800000, .i32⟩
  | 71 => ⟨S800000, .i32⟩
  | 72 => ⟨S_, .f32⟩
  | 73 => ⟨S1250000x32, .f32⟩
  | 74 => ⟨S800000x1, .i32⟩
  | 75 => ⟨S1250000x32, .f32⟩
  | 76 => ⟨S1250000x32, .f32⟩
  | 77 => ⟨S800000x1, .f32⟩
  | 78 => ⟨S800000x32, .f32⟩
  | 79 => ⟨S800000x32, .f32⟩
  | 80 => ⟨S_, .i32⟩
  | 81 => ⟨S800000, .i32⟩
  | 82 => ⟨S800000, .i32⟩
  | 83 => ⟨S800000x1, .i32⟩
  | 84 => ⟨S800000, .i32⟩
  | 85 => ⟨S800000, .i32⟩
  | 86 => ⟨S_, .f32⟩
  | 87 => ⟨S1250000x32, .f32⟩
  | 88 => ⟨S800000x1, .i32⟩
  | 89 => ⟨S1250000x32, .f32⟩
  | 90 => ⟨S1250000x32, .f32⟩
  | 91 => ⟨S50000x800, .f32⟩
  | 92 => ⟨S800x64, .f32⟩
  | 93 => ⟨S50000x64, .f32⟩
  | 94 => ⟨S25x64, .f32⟩
  | 95 => ⟨S25x64, .f32⟩
  | 96 => ⟨S_, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S_, .f32⟩
  | 104 => ⟨S64, .f32⟩
  | 105 => ⟨S64, .f32⟩
  | 106 => ⟨S64, .f32⟩
  | 107 => ⟨S64, .f32⟩
  | 108 => ⟨S_, .f32⟩
  | 109 => ⟨S64, .f32⟩
  | 110 => ⟨S64, .f32⟩
  | 111 => ⟨S25000x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S25000x128, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x30, .f32⟩

abbrev hbmTy0_2 (i : Nat) : BufTy := match i % 128 with
  | 0 => ⟨S800000, .i32⟩
  | 1 => ⟨S800000x1, .i32⟩
  | 2 => ⟨S800000x64, .f32⟩
  | 3 => ⟨S_, .f32⟩
  | 4 => ⟨S1250000x64, .f32⟩
  | 5 => ⟨S800000x1, .f32⟩
  | 6 => ⟨S800000x64, .f32⟩
  | 7 => ⟨S800000x64, .f32⟩
  | 8 => ⟨S_, .i32⟩
  | 9 => ⟨S800000, .i32⟩
  | 10 => ⟨S800000, .i32⟩
  | 11 => ⟨S800000x1, .i32⟩
  | 12 => ⟨S800000, .i32⟩
  | 13 => ⟨S800000, .i32⟩
  | 14 => ⟨S_, .f32⟩
  | 15 => ⟨S1250000x64, .f32⟩
  | 16 => ⟨S800000x1, .i32⟩
  | 17 => ⟨S1250000x64, .f32⟩
  | 18 => ⟨S1250000x64, .f32⟩
  | 19 => ⟨S800000x1, .f32⟩
  | 20 => ⟨S800000x64, .f32⟩
  | 21 => ⟨S800000x64, .f32⟩
  | 22 => ⟨S_, .i32⟩
  | 23 => ⟨S800000, .i32⟩
  | 24 => ⟨S800000, .i32⟩
  | 25 => ⟨S800000x1, .i32⟩
  | 26 => ⟨S800000, .i32⟩
  | 27 => ⟨S800000, .i32⟩
  | 28 => ⟨S_, .f32⟩
  | 29 => ⟨S1250000x64, .f32⟩
  | 30 => ⟨S800000x1, .i32⟩
  | 31 => ⟨S1250000x64, .f32⟩
  | 32 => ⟨S1250000x64, .f32⟩
  | 33 => ⟨S800000x1, .f32⟩
  | 34 => ⟨S800000x64, .f32⟩
  | 35 => ⟨S800000x64, .f32⟩
  | 36 => ⟨S_, .i32⟩
  | 37 => ⟨S800000, .i32⟩
  | 38 => ⟨S800000, .i32⟩
  | 39 => ⟨S800000x1, .i32⟩
  | 40 => ⟨S800000, .i32⟩
  | 41 => ⟨S800000, .i32⟩
  | 42 => ⟨S_, .f32⟩
  | 43 => ⟨S1250000x64, .f32⟩
  | 44 => ⟨S800000x1, .i32⟩
  | 45 => ⟨S1250000x64, .f32⟩
  | 46 => ⟨S1250000x64, .f32⟩
  | 47 => ⟨S800000x1, .f32⟩
  | 48 => ⟨S800000x64, .f32⟩
  | 49 => ⟨S800000x64, .f32⟩
  | 50 => ⟨S_, .i32⟩
  | 51 => ⟨S800000, .i32⟩
  | 52 => ⟨S800000, .i32⟩
  | 53 => ⟨S800000x1, .i32⟩
  | 54 => ⟨S800000, .i32⟩
  | 55 => ⟨S800000, .i32⟩
  | 56 => ⟨S_, .f32⟩
  | 57 => ⟨S1250000x64, .f32⟩
  | 58 => ⟨S800000x1, .i32⟩
  | 59 => ⟨S1250000x64, .f32⟩
  | 60 => ⟨S1250000x64, .f32⟩
  | 61 => ⟨S50000x1600, .f32⟩
  | 62 => ⟨S1600x64, .f32⟩
  | 63 => ⟨S50000x64, .f32⟩
  | 64 => ⟨S25x64, .f32⟩
  | 65 => ⟨S25x64, .f32⟩
  | 66 => ⟨S_, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S_, .f32⟩
  | 74 => ⟨S64, .f32⟩
  | 75 => ⟨S64, .f32⟩
  | 76 => ⟨S64, .f32⟩
  | 77 => ⟨S64, .f32⟩
  | 78 => ⟨S_, .f32⟩
  | 79 => ⟨S64, .f32⟩
  | 80 => ⟨S64, .f32⟩
  | 81 => ⟨S25000x128, .f32⟩
  | 82 => ⟨S25000x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S25000x128, .f32⟩
  | 92 => ⟨S50000x64, .f32⟩
  | _ => ⟨S50000x30, .f32⟩

abbrev hbmTy (i : Nat) : BufTy := match i / 128 with
  | 0 => hbmTy0_0 i
  | 1 => hbmTy0_1 i
  | 2 => hbmTy0_2 i
  | _ => ⟨S50000x30, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S32x64, .f32⟩
  | .local _ .vmem, ⟨3, _⟩ => ⟨S2000x64, .f32⟩
  | .local _ .vmem, ⟨4, _⟩ => ⟨S2000x64, .f32⟩
  | .local _ .vmem, ⟨5, _⟩ => ⟨S25x64, .f32⟩
  | .local _ .vmem, ⟨6, _⟩ => ⟨S25x64, .f32⟩
  | .local _ .vmem, ⟨7, _⟩ => ⟨S1000x128, .f32⟩
  | .local _ .vmem, ⟨8, _⟩ => ⟨S1000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1000x128, .f32⟩
  | .local _ .vmem, ⟨14, _⟩ => ⟨S1000x128, .f32⟩
  | .local _ .vmem, ⟨15, _⟩ => ⟨S2000x800, .f32⟩
  | .local _ .vmem, ⟨16, _⟩ => ⟨S2000x800, .f32⟩
  | .local _ .vmem, ⟨17, _⟩ => ⟨S800x64, .f32⟩
  | .local _ .vmem, ⟨18, _⟩ => ⟨S2000x32, .f32⟩
  | .local _ .vmem, ⟨19, _⟩ => ⟨S2000x32, .f32⟩
  | .local _ .vmem, ⟨20, _⟩ => ⟨S32x64, .f32⟩
  | .local _ .vmem, ⟨21, _⟩ => ⟨S2000x64, .f32⟩
  | .local _ .vmem, ⟨22, _⟩ => ⟨S2000x64, .f32⟩
  | .local _ .vmem, ⟨23, _⟩ => ⟨S25x64, .f32⟩
  | .local _ .vmem, ⟨24, _⟩ => ⟨S25x64, .f32⟩
  | .local _ .vmem, ⟨25, _⟩ => ⟨S1000x128, .f32⟩
  | .local _ .vmem, ⟨26, _⟩ => ⟨S1000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1000x128, .f32⟩
  | .local _ .vmem, ⟨32, _⟩ => ⟨S1000x128, .f32⟩
  | .local _ .vmem, ⟨33, _⟩ => ⟨S2000x1600, .f32⟩
  | .local _ .vmem, ⟨34, _⟩ => ⟨S2000x1600, .f32⟩
  | .local _ .vmem, ⟨35, _⟩ => ⟨S1600x64, .f32⟩
  | .local _ .vmem, ⟨36, _⟩ => ⟨S2000x64, .f32⟩
  | .local _ .vmem, ⟨37, _⟩ => ⟨S2000x64, .f32⟩
  | .local _ .vmem, ⟨38, _⟩ => ⟨S64x64, .f32⟩
  | .local _ .vmem, ⟨39, _⟩ => ⟨S2000x64, .f32⟩
  | .local _ .vmem, ⟨40, _⟩ => ⟨S2000x64, .f32⟩
  | .local _ .vmem, ⟨41, _⟩ => ⟨S25x64, .f32⟩
  | .local _ .vmem, ⟨42, _⟩ => ⟨S25x64, .f32⟩
  | .local _ .vmem, ⟨43, _⟩ => ⟨S1000x128, .f32⟩
  | .local _ .vmem, ⟨44, _⟩ => ⟨S1000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | .local _ .vmem, ⟨52, _⟩ => ⟨S1000x128, .f32⟩
  | _, _ => ⟨S50000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85_0 : Ref sig .tc := ⟨.hbm, 123, rfl⟩
abbrev main_v85_1 : Ref sig .tc := ⟨.hbm, 124, rfl⟩
abbrev main_v85_2 : Ref sig .tc := ⟨.hbm, 125, rfl⟩
abbrev main_cst_16 : Ref sig .tc := ⟨.hbm, 126, rfl⟩
abbrev main_v86 : Ref sig .tc := ⟨.hbm, 127, rfl⟩
abbrev main_cst_17 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_cst_19 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_21 : Ref sig .tc := ⟨.hbm, 152, rfl⟩
abbrev main_v107 : Ref sig .tc := ⟨.hbm, 153, rfl⟩
abbrev main_v108 : Ref sig .tc := ⟨.hbm, 154, rfl⟩
abbrev main_c_22 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_24 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_c_26 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_27 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_c_28 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_29 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_30 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_31 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165_0 : Ref sig .tc := ⟨.hbm, 221, rfl⟩
abbrev main_v165_1 : Ref sig .tc := ⟨.hbm, 222, rfl⟩
abbrev main_v165_2 : Ref sig .tc := ⟨.hbm, 223, rfl⟩
abbrev main_cst_32 : Ref sig .tc := ⟨.hbm, 224, rfl⟩
abbrev main_v166 : Ref sig .tc := ⟨.hbm, 225, rfl⟩
abbrev main_cst_33 : Ref sig .tc := ⟨.hbm, 226, rfl⟩
abbrev main_v167 : Ref sig .tc := ⟨.hbm, 227, rfl⟩
abbrev main_v168 : Ref sig .tc := ⟨.hbm, 228, rfl⟩
abbrev main_cst_34 : Ref sig .tc := ⟨.hbm, 229, rfl⟩
abbrev main_v169 : Ref sig .tc := ⟨.hbm, 230, rfl⟩
abbrev main_cst_35 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_36 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_c_37 : Ref sig .tc := ⟨.hbm, 250, rfl⟩
abbrev main_v187 : Ref sig .tc := ⟨.hbm, 251, rfl⟩
abbrev main_v188 : Ref sig .tc := ⟨.hbm, 252, rfl⟩
abbrev main_c_38 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_cst_39 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_c_40 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_41 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_c_42 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_cst_43 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_c_44 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_cst_45 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_c_46 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_cst_47 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245_0 : Ref sig .tc := ⟨.hbm, 319, rfl⟩
abbrev main_v245_1 : Ref sig .tc := ⟨.hbm, 320, rfl⟩
abbrev main_v245_2 : Ref sig .tc := ⟨.hbm, 321, rfl⟩
abbrev main_cst_48 : Ref sig .tc := ⟨.hbm, 322, rfl⟩
abbrev main_v246 : Ref sig .tc := ⟨.hbm, 323, rfl⟩
abbrev main_cst_49 : Ref sig .tc := ⟨.hbm, 324, rfl⟩
abbrev main_v247 : Ref sig .tc := ⟨.hbm, 325, rfl⟩
abbrev main_v248 : Ref sig .tc := ⟨.hbm, 326, rfl⟩
abbrev main_cst_50 : Ref sig .tc := ⟨.hbm, 327, rfl⟩
abbrev main_v249 : Ref sig .tc := ⟨.hbm, 328, rfl⟩
abbrev main_cst_51 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_cst_52 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg6_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg6_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc5_stg6_0 : Ref sig .tc := ⟨.vmem, 51, rfl⟩
abbrev cc5_stg6_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem6_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem6_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc5_sem6_0 : DmaSem sig := 51
abbrev cc5_sem6_1 : DmaSem sig := 52

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let v7 : Index := Scalar.indexCast arg0
  let c0_6 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_off1 (i : grid2.Coords) : Fin 2 → Nat :=
  let arg0 : BitVec 32 := BitVec.ofNat 32 (i 0).val
  let v13 : Index := Scalar.indexCast arg0
  let c0_11 : Index := 0#32
  ![v13.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x800 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S800x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S25x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S25x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_off1 (i : grid4.Coords) : Fin 2 → Nat :=
  let arg0 : BitVec 32 := BitVec.ofNat 32 (i 0).val
  let v13 : Index := Scalar.indexCast arg0
  let c0_11 : Index := 0#32
  ![v13.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1600 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1600x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S25x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S25x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x2 : S_.BroadcastsInDim S800000x2 (![] : Fin 0 → Fin S800000x2.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x1_S800000x1_S800000x4_d1 : Shape.Concatenates [S800000x1, S800000x1, S800000x1, S800000x1] S800000x4 1
  concatenates_S50000x30_S50000x2_S50000x32_d1 : Shape.Concatenates [S50000x30, S50000x2] S50000x32 1
  bcast_S_S50000 : S_.BroadcastsInDim S50000 (![] : Fin 0 → Fin S50000.rank)
  bcast_S800000x1_S800000x4_0_1 : S800000x1.BroadcastsInDim S800000x4 (![0, 1] : Fin 2 → Fin S800000x4.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  shapeCasts_S64_S1x64 : S64.ShapeCasts S1x64
  h_S1x64 : 0 < S1x64.numel
  reducesTo_S25x64_S64_d0 : S25x64.ReducesTo [0] S64
  h_S_ : 0 < S_.numel
  bcast_S_S64 : S_.BroadcastsInDim S64 (![] : Fin 0 → Fin S64.rank)
  shapeCasts_S50000x64_S25000x128 : S50000x64.ShapeCasts S25000x128
  concatenates_S64_S64_S128_d0 : Shape.Concatenates [S64, S64] S128 0
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  shapeCasts_S25000x128_S50000x64 : S25000x128.ShapeCasts S50000x64
  bcast_S_S1250000x32 : S_.BroadcastsInDim S1250000x32 (![] : Fin 0 → Fin S1250000x32.rank)
  slices_S800000x4_S800000x1_0_0 : S800000x4.Slices ![0, 0] S800000x1
  bcast_S800000x1_S800000x32_0_1 : S800000x1.BroadcastsInDim S800000x32 (![0, 1] : Fin 2 → Fin S800000x32.rank)
  slices_S800000x4_S800000x1_0_1 : S800000x4.Slices ![0, 1] S800000x1
  slices_S800000x4_S800000x1_0_2 : S800000x4.Slices ![0, 2] S800000x1
  slices_S800000x4_S800000x1_0_3 : S800000x4.Slices ![0, 3] S800000x1
  shapeCasts_S1250000x32_S50000x800 : S1250000x32.ShapeCasts S50000x800
  shapeCasts_S25x32x64_S800x64 : S25x32x64.ShapeCasts S800x64
  inb_S2000x800_S2000x800_0_0 : ∀ a, (![0, 0] : Fin 2 → Nat) a + S2000x800.size a ≤ S2000x800.size a
  h_S2000x800 : 0 < S2000x800.numel
  shapeCasts_S2000x800_S2000x800 : S2000x800.ShapeCasts S2000x800
  inb_S800x64_S800x64_0_0 : ∀ a, (![0, 0] : Fin 2 → Nat) a + S800x64.size a ≤ S800x64.size a
  h_S800x64 : 0 < S800x64.numel
  shapeCasts_S800x64_S800x64 : S800x64.ShapeCasts S800x64
  bcast_S_S1250000x64 : S_.BroadcastsInDim S1250000x64 (![] : Fin 0 → Fin S1250000x64.rank)
  bcast_S800000x1_S800000x64_0_1 : S800000x1.BroadcastsInDim S800000x64 (![0, 1] : Fin 2 → Fin S800000x64.rank)
  shapeCasts_S1250000x64_S50000x1600 : S1250000x64.ShapeCasts S50000x1600
  shapeCasts_S25x64x64_S1600x64 : S25x64x64.ShapeCasts S1600x64
  inb_S2000x1600_S2000x1600_0_0 : ∀ a, (![0, 0] : Fin 2 → Nat) a + S2000x1600.size a ≤ S2000x1600.size a
  h_S2000x1600 : 0 < S2000x1600.numel
  shapeCasts_S2000x1600_S2000x1600 : S2000x1600.ShapeCasts S2000x1600
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x32_S32x64_S2000x64_1_0_0_1_n_n_wf : DotDims.WF S2000x32 S32x64 S2000x64 [1] [0] [0] [1] [] []
  gather_S50000x32_S800000x1_S800000x32_1_0_n_n_0_1_132_wf : GatherDims.WF S50000x32 S800000x1 S800000x32 [1] [0] [] [0] [] 1 ![1, 32]
  scatter_S1250000x32_S800000x1_S800000x32_1_0_0_1_wf : ScatterDims.WF S1250000x32 S800000x1 S800000x32 [1] [0] [0] 1
  dot_S2000x800_S800x64_S2000x64_1_0_0_1_n_n_wf : DotDims.WF S2000x800 S800x64 S2000x64 [1] [0] [0] [1] [] []
  gather_S50000x64_S800000x1_S800000x64_1_0_n_n_0_1_164_wf : GatherDims.WF S50000x64 S800000x1 S800000x64 [1] [0] [] [0] [] 1 ![1, 64]
  scatter_S1250000x64_S800000x1_S800000x64_1_0_0_1_wf : ScatterDims.WF S1250000x64 S800000x1 S800000x64 [1] [0] [0] 1
  dot_S2000x1600_S1600x64_S2000x64_1_0_0_1_n_n_wf : DotDims.WF S2000x1600 S1600x64 S2000x64 [1] [0] [0] [1] [] []
  dot_S2000x64_S64x64_S2000x64_1_0_0_1_n_n_wf : DotDims.WF S2000x64 S64x64 S2000x64 [1] [0] [0] [1] [] []
  hrank0 : 0 < grid0.rank
  k0_off1_inb : ∀ i : grid0.Coords, ∀ a, (k0_off1 i) a + S1x64.size a ≤ S25x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x64.size a ≤ S25x64.size a
  hwx0_3 : ∀ i : grid0.Coords, EltTy.bits .f32 = 32 ∨ (Rect.block (s := S25x64) S25x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S25x64.size a ≤ S25x64.size a
  hwx0_4 : ∀ i : grid0.Coords, EltTy.bits .f32 = 32 ∨ (Rect.block (s := S25x64) S25x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S25000x128.size a
  hwx1_0 : ∀ i : grid1.Coords, EltTy.bits .f32 = 32 ∨ (Rect.block (s := S25000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S25000x128.size a
  hwx1_5 : ∀ i : grid1.Coords, EltTy.bits .f32 = 32 ∨ (Rect.block (s := S25000x128) S1000x128.size (cc1_transform_5 i) (hinb1_5 i)).WholeWords (EltTy.packing .f32)
  hrank2 : 0 < grid2.rank
  k2_off1_inb : ∀ i : grid2.Coords, ∀ a, (k2_off1 i) a + S1x64.size a ≤ S25x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x800.size a ≤ S50000x800.size a
  hwx2_0 : ∀ i : grid2.Coords, EltTy.bits .f32 = 32 ∨ (Rect.block (s := S50000x800) S2000x800.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S800x64.size a ≤ S800x64.size a
  hwx2_1 : ∀ i : grid2.Coords, EltTy.bits .f32 = 32 ∨ (Rect.block (s := S800x64) S800x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S50000x32.size a
  hwx2_2 : ∀ i : grid2.Coords, EltTy.bits .f32 = 32 ∨ (Rect.block (s := S50000x32) S2000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S25x64.size a ≤ S25x64.size a
  hwx2_5 : ∀ i : grid2.Coords, EltTy.bits .f32 = 32 ∨ (Rect.block (s := S25x64) S25x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S25x64.size a ≤ S25x64.size a
  hwx2_6 : ∀ i : grid2.Coords, EltTy.bits .f32 = 32 ∨ (Rect.block (s := S25x64) S25x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S25000x128.size a
  hwx3_0 : ∀ i : grid3.Coords, EltTy.bits .f32 = 32 ∨ (Rect.block (s := S25000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S25000x128.size a
  hwx3_5 : ∀ i : grid3.Coords, EltTy.bits .f32 = 32 ∨ (Rect.block (s := S25000x128) S1000x128.size (cc3_transform_5 i) (hinb3_5 i)).WholeWords (EltTy.packing .f32)
  hrank4 : 0 < grid4.rank
  k4_off1_inb : ∀ i : grid4.Coords, ∀ a, (k4_off1 i) a + S1x64.size a ≤ S25x64.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1600.size a ≤ S50000x1600.size a
  hwx4_0 : ∀ i : grid4.Coords, EltTy.bits .f32 = 32 ∨ (Rect.block (s := S50000x1600) S2000x1600.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1600x64.size a ≤ S1600x64.size a
  hwx4_1 : ∀ i : grid4.Coords, EltTy.bits .f32 = 32 ∨ (Rect.block (s := S1600x64) S1600x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .f32 = 32 ∨ (Rect.block (s := S50000x64) S2000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S25x64.size a ≤ S25x64.size a
  hwx4_5 : ∀ i : grid4.Coords, EltTy.bits .f32 = 32 ∨ (Rect.block (s := S25x64) S25x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S25x64.size a ≤ S25x64.size a
  hwx4_6 : ∀ i : grid4.Coords, EltTy.bits .f32 = 32 ∨ (Rect.block (s := S25x64) S25x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S25000x128.size a
  hwx5_0 : ∀ i : grid5.Coords, EltTy.bits .f32 = 32 ∨ (Rect.block (s := S25000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S25000x128.size a
  hwx5_5 : ∀ i : grid5.Coords, EltTy.bits .f32 = 32 ∨ (Rect.block (s := S25000x128) S1000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x128.size a ≤ S25000x128.size a
  hwx5_6 : ∀ i : grid5.Coords, EltTy.bits .f32 = 32 ∨ (Rect.block (s := S25000x128) S1000x128.size (cc5_transform_6 i) (hinb5_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S1250000x32_S800000x1_S800000x32_1_0_0_1 : ScatterDims S1250000x32 S800000x1 S800000x32 where
  updateWindowDims := [1]
  insertedWindowDims := [0]
  scatterDimsToOperandDims := [0]
  indexVectorDim := 1
  wf := scatter_S1250000x32_S800000x1_S800000x32_1_0_0_1_wf
def dot_S2000x800_S800x64_S2000x64_1_0_0_1_n_n : DotDims S2000x800 S800x64 S2000x64 where
  lhsContracting := [1]
  rhsContracting := [0]
  lhsNonContracting := [0]
  rhsNonContracting := [1]
  lhsBatch := []
  rhsBatch := []
  wf := dot_S2000x800_S800x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S1250000x64_S800000x1_S800000x64_1_0_0_1 : ScatterDims S1250000x64 S800000x1 S800000x64 where
  updateWindowDims := [1]
  insertedWindowDims := [0]
  scatterDimsToOperandDims := [0]
  indexVectorDim := 1
  wf := scatter_S1250000x64_S800000x1_S800000x64_1_0_0_1_wf
def dot_S2000x1600_S1600x64_S2000x64_1_0_0_1_n_n : DotDims S2000x1600 S1600x64 S2000x64 where
  lhsContracting := [1]
  rhsContracting := [0]
  lhsNonContracting := [0]
  rhsNonContracting := [1]
  lhsBatch := []
  rhsBatch := []
  wf := dot_S2000x1600_S1600x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v66) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v85_0) S2000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85_1) S25x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v85_2) S25x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v96) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v100) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v102) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v104) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v105) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v163) S2000x800.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v164) S800x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v165_0) S2000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v165_1) S25x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v165_2) S25x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v176) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v178) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v180) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v182) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v184) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v185) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v243) S2000x1600.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v244) S1600x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v186) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v245_0) S2000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v245_1) S25x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v245_2) S25x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v256) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v259) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v261) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v263) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v265) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v257) S1000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v266) S1000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x30 : Shape := ⟨2, ![50000, 30]⟩
abbrev S50000x2 : Shape := ⟨2, ![50000, 2]⟩
abbrev S800000x2 : Shape := ⟨2, ![800000, 2]⟩
abbrev S2x800000 : Shape := ⟨2, ![2, 800000]⟩
abbrev S25x32x64 : Shape := ⟨3, ![25, 32, 64]⟩
abbrev S32x64 : Shape := ⟨2, ![32, 64]⟩
abbrev S64 : Shape := ⟨1, ![64]⟩
abbrev S25x64x64 : Shape := ⟨3, ![25, 64, 64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x4 : Shape := ⟨2, ![800000, 4]⟩
abbrev S50000x32 : Shape := ⟨2, ![50000, 32]⟩
abbrev S50000x64 : Shape := ⟨2, ![50000, 64]⟩
abbrev S1x64 : Shape := ⟨2, ![1, 64]⟩
abbrev S800000x32 : Shape := ⟨2, ![800000, 32]⟩
abbrev S1250000x32 : Shape := ⟨2, ![1250000, 32]⟩
abbrev S50000x800 : Shape := ⟨2, ![50000, 800]⟩
abbrev S800x64 : Shape := ⟨2, ![800, 64]⟩
abbrev S50000 : Shape := ⟨1, ![50000]⟩
abbrev S50000x1 : Shape := ⟨2, ![50000, 1]⟩
abbrev S800000x64 : Shape := ⟨2, ![800000, 64]⟩
abbrev S1250000x64 : Shape := ⟨2, ![1250000, 64]⟩
abbrev S50000x1600 : Shape := ⟨2, ![50000, 1600]⟩
abbrev S1600x64 : Shape := ⟨2, ![1600, 64]⟩

abbrev nBuf : Space → Nat
  | .hbm => 365
  | .vmem => 0
  | .smem => 0
  | _ => 0

abbrev hbmTy0_0 (i : Nat) : BufTy := match i % 128 with
  | 0 => ⟨S50000x30, .f32⟩
  | 1 => ⟨S50000x2, .f32⟩
  | 2 => ⟨S800000x2, .f32⟩
  | 3 => ⟨S2x800000, .i32⟩
  | 4 => ⟨S25x32x64, .f32⟩
  | 5 => ⟨S32x64, .f32⟩
  | 6 => ⟨S64, .f32⟩
  | 7 => ⟨S64, .f32⟩
  | 8 => ⟨S25x64x64, .f32⟩
  | 9 => ⟨S64x64, .f32⟩
  | 10 => ⟨S64, .f32⟩
  | 11 => ⟨S64, .f32⟩
  | 12 => ⟨S32x64, .f32⟩
  | 13 => ⟨S64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000x2, .f32⟩
  | 21 => ⟨S800000x2, .f32⟩
  | 22 => ⟨S800000x2, .f32⟩
  | 23 => ⟨S_, .f32⟩
  | 24 => ⟨S_, .i32⟩
  | 25 => ⟨S_, .f32⟩
  | 26 => ⟨S800000x2, .f32⟩
  | 27 => ⟨S800000x2, .f32⟩
  | 28 => ⟨S_, .f32⟩
  | 29 => ⟨S800000x2, .f32⟩
  | 30 => ⟨S800000x2, .f32⟩
  | 31 => ⟨S800000x2, .f32⟩
  | 32 => ⟨S800000x2, .i32⟩
  | 33 => ⟨S_, .i32⟩
  | 34 => ⟨S800000x2, .i32⟩
  | 35 => ⟨S800000x2, .i32⟩
  | 36 => ⟨S800000x1, .f32⟩
  | 37 => ⟨S800000, .f32⟩
  | 38 => ⟨S800000x1, .f32⟩
  | 39 => ⟨S800000, .f32⟩
  | 40 => ⟨S_, .f32⟩
  | 41 => ⟨S800000, .f32⟩
  | 42 => ⟨S800000, .f32⟩
  | 43 => ⟨S_, .f32⟩
  | 44 => ⟨S800000, .f32⟩
  | 45 => ⟨S800000, .f32⟩
  | 46 => ⟨S800000, .f32⟩
  | 47 => ⟨S_, .f32⟩
  | 48 => ⟨S800000, .f32⟩
  | 49 => ⟨S800000, .f32⟩
  | 50 => ⟨S800000, .f32⟩
  | 51 => ⟨S_, .f32⟩
  | 52 => ⟨S800000, .f32⟩
  | 53 => ⟨S800000, .f32⟩
  | 54 => ⟨S800000, .f32⟩
  | 55 => ⟨S800000, .f32⟩
  | 56 => ⟨S800000x1, .f32⟩
  | 57 => ⟨S800000x1, .f32⟩
  | 58 => ⟨S800000x1, .f32⟩
  | 59 => ⟨S800000x1, .f32⟩
  | 60 => ⟨S800000x4, .f32⟩
  | 61 => ⟨S800000x1, .i32⟩
  | 62 => ⟨S800000, .i32⟩
  | 63 => ⟨S800000x1, .i32⟩
  | 64 => ⟨S800000, .i32⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .i32⟩
  | 71 => ⟨S800000x1, .i32⟩
  | 72 => ⟨S800000, .i32⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .i32⟩
  | 79 => ⟨S800000x1, .i32⟩
  | 80 => ⟨S800000, .i32⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .i32⟩
  | 87 => ⟨S800000x1, .i32⟩
  | 88 => ⟨S800000, .i32⟩
  | 89 => ⟨S_, .i32⟩
  | 90 => ⟨S800000, .i32⟩
  | 91 => ⟨S800000, .i32⟩
  | 92 => ⟨S800000, .i32⟩
  | 93 => ⟨S800000x1, .i32⟩
  | 94 => ⟨S800000x1, .i32⟩
  | 95 => ⟨S800000x1, .i32⟩
  | 96 => ⟨S800000x1, .i32⟩
  | 97 => ⟨S800000x4, .i32⟩
  | 98 => ⟨S50000x32, .f32⟩
  | 99 => ⟨S50000x64, .f32⟩
  | 100 => ⟨S_, .f32⟩
  | 101 => ⟨S64, .f32⟩
  | 102 => ⟨S_, .f32⟩
  | 103 => ⟨S64, .f32⟩
  | 104 => ⟨S64, .f32⟩
  | 105 => ⟨S1x64, .f32⟩
  | 106 => ⟨S50000x64, .f32⟩
  | 107 => ⟨S50000x64, .f32⟩
  | 108 => ⟨S50000x64, .f32⟩
  | 109 => ⟨S_, .f32⟩
  | 110 => ⟨S64, .f32⟩
  | 111 => ⟨S_, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S_, .f32⟩
  | 118 => ⟨S64, .f32⟩
  | 119 => ⟨S64, .f32⟩
  | 120 => ⟨S64, .f32⟩
  | 121 => ⟨S1x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S1x64, .f32⟩
  | _ => ⟨S50000x30, .f32⟩

abbrev hbmTy0_1 (i : Nat) : BufTy := match i % 128 with
  | 0 => ⟨S50000x64, .f32⟩
  | 1 => ⟨S50000x64, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x32, .f32⟩
  | 11 => ⟨S_, .f32⟩
  | 12 => ⟨S1250000x32, .f32⟩
  | 13 => ⟨S800000x1, .f32⟩
  | 14 => ⟨S800000x32, .f32⟩
  | 15 => ⟨S800000x32, .f32⟩
  | 16 => ⟨S_, .i32⟩
  | 17 => ⟨S800000, .i32⟩
  | 18 => ⟨S800000, .i32⟩
  | 19 => ⟨S800000x1, .i32⟩
  | 20 => ⟨S800000, .i32⟩
  | 21 => ⟨S800000, .i32⟩
  | 22 => ⟨S_, .f32⟩
  | 23 => ⟨S1250000x32, .f32⟩
  | 24 => ⟨S800000x1, .i32⟩
  | 25 => ⟨S1250000x32, .f32⟩
  | 26 => ⟨S1250000x32, .f32⟩
  | 27 => ⟨S800000x1, .f32⟩
  | 28 => ⟨S800000x32, .f32⟩
  | 29 => ⟨S800000x32, .f32⟩
  | 30 => ⟨S_, .i32⟩
  | 31 => ⟨S800000, .i32⟩
  | 32 => ⟨S800000, .i32⟩
  | 33 => ⟨S800000x1, .i32⟩
  | 34 => ⟨S800000, .i32⟩
  | 35 => ⟨S800000, .i32⟩
  | 36 => ⟨S_, .f32⟩
  | 37 => ⟨S1250000x32, .f32⟩
  | 38 => ⟨S800000x1, .i32⟩
  | 39 => ⟨S1250000x32, .f32⟩
  | 40 => ⟨S1250000x32, .f32⟩
  | 41 => ⟨S800000x1, .f32⟩
  | 42 => ⟨S800000x32, .f32⟩
  | 43 => ⟨S800000x32, .f32⟩
  | 44 => ⟨S_, .i32⟩
  | 45 => ⟨S800000, .i32⟩
  | 46 => ⟨S800000, .i32⟩
  | 47 => ⟨S800000x1, .i32⟩
  | 48 => ⟨S800000, .i32⟩
  | 49 => ⟨S800000, .i32⟩
  | 50 => ⟨S_, .f32⟩
  | 51 => ⟨S1250000x32, .f32⟩
  | 52 => ⟨S800000x1, .i32⟩
  | 53 => ⟨S1250000x32, .f32⟩
  | 54 => ⟨S1250000x32, .f32⟩
  | 55 => ⟨S800000x1, .f32⟩
  | 56 => ⟨S800000x32, .f32⟩
  | 57 => ⟨S800000x32, .f32⟩
  | 58 => ⟨S_, .i32⟩
  | 59 => ⟨S800000, .i32⟩
  | 60 => ⟨S800000, .i32⟩
  | 61 => ⟨S800000x1, .i32⟩
  | 62 => ⟨S800000, .i32⟩
  | 63 => ⟨S800000, .i32⟩
  | 64 => ⟨S_, .f32⟩
  | 65 => ⟨S1250000x32, .f32⟩
  | 66 => ⟨S800000x1, .i32⟩
  | 67 => ⟨S1250000x32, .f32⟩
  | 68 => ⟨S1250000x32, .f32⟩
  | 69 => ⟨S50000x800, .f32⟩
  | 70 => ⟨S800x64, .f32⟩
  | 71 => ⟨S50000x64, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x64, .f32⟩
  | 83 => ⟨S50000x64, .f32⟩
  | 84 => ⟨S50000x64, .f32⟩
  | 85 => ⟨S50000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S50000x64, .f32⟩
  | 95 => ⟨S_, .f32⟩
  | 96 => ⟨S64, .f32⟩
  | 97 => ⟨S_, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x30, .f32⟩

abbrev hbmTy0_2 (i : Nat) : BufTy := match i % 128 with
  | 0 => ⟨S_, .f32⟩
  | 1 => ⟨S1250000x64, .f32⟩
  | 2 => ⟨S800000x1, .f32⟩
  | 3 => ⟨S800000x64, .f32⟩
  | 4 => ⟨S800000x64, .f32⟩
  | 5 => ⟨S_, .i32⟩
  | 6 => ⟨S800000, .i32⟩
  | 7 => ⟨S800000, .i32⟩
  | 8 => ⟨S800000x1, .i32⟩
  | 9 => ⟨S800000, .i32⟩
  | 10 => ⟨S800000, .i32⟩
  | 11 => ⟨S_, .f32⟩
  | 12 => ⟨S1250000x64, .f32⟩
  | 13 => ⟨S800000x1, .i32⟩
  | 14 => ⟨S1250000x64, .f32⟩
  | 15 => ⟨S1250000x64, .f32⟩
  | 16 => ⟨S800000x1, .f32⟩
  | 17 => ⟨S800000x64, .f32⟩
  | 18 => ⟨S800000x64, .f32⟩
  | 19 => ⟨S_, .i32⟩
  | 20 => ⟨S800000, .i32⟩
  | 21 => ⟨S800000, .i32⟩
  | 22 => ⟨S800000x1, .i32⟩
  | 23 => ⟨S800000, .i32⟩
  | 24 => ⟨S800000, .i32⟩
  | 25 => ⟨S_, .f32⟩
  | 26 => ⟨S1250000x64, .f32⟩
  | 27 => ⟨S800000x1, .i32⟩
  | 28 => ⟨S1250000x64, .f32⟩
  | 29 => ⟨S1250000x64, .f32⟩
  | 30 => ⟨S800000x1, .f32⟩
  | 31 => ⟨S800000x64, .f32⟩
  | 32 => ⟨S800000x64, .f32⟩
  | 33 => ⟨S_, .i32⟩
  | 34 => ⟨S800000, .i32⟩
  | 35 => ⟨S800000, .i32⟩
  | 36 => ⟨S800000x1, .i32⟩
  | 37 => ⟨S800000, .i32⟩
  | 38 => ⟨S800000, .i32⟩
  | 39 => ⟨S_, .f32⟩
  | 40 => ⟨S1250000x64, .f32⟩
  | 41 => ⟨S800000x1, .i32⟩
  | 42 => ⟨S1250000x64, .f32⟩
  | 43 => ⟨S1250000x64, .f32⟩
  | 44 => ⟨S800000x1, .f32⟩
  | 45 => ⟨S800000x64, .f32⟩
  | 46 => ⟨S800000x64, .f32⟩
  | 47 => ⟨S_, .i32⟩
  | 48 => ⟨S800000, .i32⟩
  | 49 => ⟨S800000, .i32⟩
  | 50 => ⟨S800000x1, .i32⟩
  | 51 => ⟨S800000, .i32⟩
  | 52 => ⟨S800000, .i32⟩
  | 53 => ⟨S_, .f32⟩
  | 54 => ⟨S1250000x64, .f32⟩
  | 55 => ⟨S800000x1, .i32⟩
  | 56 => ⟨S1250000x64, .f32⟩
  | 57 => ⟨S1250000x64, .f32⟩
  | 58 => ⟨S50000x1600, .f32⟩
  | 59 => ⟨S1600x64, .f32⟩
  | 60 => ⟨S50000x64, .f32⟩
  | 61 => ⟨S_, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S50000, .f32⟩
  | 70 => ⟨S50000x1, .f32⟩
  | 71 => ⟨S50000x64, .f32⟩
  | 72 => ⟨S50000x64, .f32⟩
  | 73 => ⟨S50000x64, .f32⟩
  | 74 => ⟨S50000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S50000x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S_, .f32⟩
  | 93 => ⟨S64, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S50000x64, .f32⟩
  | 106 => ⟨S_, .f32⟩
  | 107 => ⟨S50000x64, .f32⟩
  | 108 => ⟨S50000x64, .f32⟩
  | _ => ⟨S50000x30, .f32⟩

abbrev hbmTy (i : Nat) : BufTy := match i / 128 with
  | 0 => hbmTy0_0 i
  | 1 => hbmTy0_1 i
  | 2 => hbmTy0_2 i
  | _ => ⟨S50000x30, .f32⟩

abbrev bufTy : (tb : Table) → Fin (tcTables nBuf tb) → BufTy
  | .hbm, ⟨i, _⟩ => hbmTy i
  | _, _ => ⟨S50000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_14 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_15 : Ref sig .tc := ⟨.hbm, 130, rfl⟩
abbrev main_v93 : Ref sig .tc := ⟨.hbm, 131, rfl⟩
abbrev main_v94 : Ref sig .tc := ⟨.hbm, 132, rfl⟩
abbrev main_c_16 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_17 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_18 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_19 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_20 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_21 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_22 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_23 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_24 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_25 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_26 : Ref sig .tc := ⟨.hbm, 200, rfl⟩
abbrev main_v152 : Ref sig .tc := ⟨.hbm, 201, rfl⟩
abbrev main_cst_27 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_28 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_29 : Ref sig .tc := ⟨.hbm, 214, rfl⟩
abbrev main_v163 : Ref sig .tc := ⟨.hbm, 215, rfl⟩
abbrev main_cst_30 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_31 : Ref sig .tc := ⟨.hbm, 223, rfl⟩
abbrev main_v170 : Ref sig .tc := ⟨.hbm, 224, rfl⟩
abbrev main_cst_32 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_33 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_call1_cst : Ref sig .tc := ⟨.hbm, 244, rfl⟩
abbrev main_call1_v0 : Ref sig .tc := ⟨.hbm, 245, rfl⟩
abbrev main_v188 : Ref sig .tc := ⟨.hbm, 246, rfl⟩
abbrev main_c_34 : Ref sig .tc := ⟨.hbm, 247, rfl⟩
abbrev main_v189 : Ref sig .tc := ⟨.hbm, 248, rfl⟩
abbrev main_v190 : Ref sig .tc := ⟨.hbm, 249, rfl⟩
abbrev main_c_35 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_cst_36 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_c_37 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_cst_38 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_c_39 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_40 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_c_41 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_cst_42 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_c_43 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_cst_44 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_cst_45 : Ref sig .tc := ⟨.hbm, 317, rfl⟩
abbrev main_v248 : Ref sig .tc := ⟨.hbm, 318, rfl⟩
abbrev main_cst_46 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_cst_47 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_cst_48 : Ref sig .tc := ⟨.hbm, 331, rfl⟩
abbrev main_v259 : Ref sig .tc := ⟨.hbm, 332, rfl⟩
abbrev main_cst_49 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_cst_50 : Ref sig .tc := ⟨.hbm, 340, rfl⟩
abbrev main_v266 : Ref sig .tc := ⟨.hbm, 341, rfl⟩
abbrev main_cst_51 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_cst_52 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_call2_cst : Ref sig .tc := ⟨.hbm, 362, rfl⟩
abbrev main_call2_v0 : Ref sig .tc := ⟨.hbm, 363, rfl⟩
abbrev main_v285 : Ref sig .tc := ⟨.hbm, 364, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x2 : S_.BroadcastsInDim S800000x2 (![] : Fin 0 → Fin S800000x2.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x1_S800000x1_S800000x4_d1 : Shape.Concatenates [S800000x1, S800000x1, S800000x1, S800000x1] S800000x4 1
  concatenates_S50000x30_S50000x2_S50000x32_d1 : Shape.Concatenates [S50000x30, S50000x2] S50000x32 1
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1250000x32 : S_.BroadcastsInDim S1250000x32 (![] : Fin 0 → Fin S1250000x32.rank)
  slices_S800000x4_S800000x1_0_0 : S800000x4.Slices ![0, 0] S800000x1
  bcast_S800000x1_S800000x32_0_1 : S800000x1.BroadcastsInDim S800000x32 (![0, 1] : Fin 2 → Fin S800000x32.rank)
  slices_S800000x4_S800000x1_0_1 : S800000x4.Slices ![0, 1] S800000x1
  slices_S800000x4_S800000x1_0_2 : S800000x4.Slices ![0, 2] S800000x1
  slices_S800000x4_S800000x1_0_3 : S800000x4.Slices ![0, 3] S800000x1
  shapeCasts_S1250000x32_S50000x800 : S1250000x32.ShapeCasts S50000x800
  shapeCasts_S25x32x64_S800x64 : S25x32x64.ShapeCasts S800x64
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S_S1250000x64 : S_.BroadcastsInDim S1250000x64 (![] : Fin 0 → Fin S1250000x64.rank)
  bcast_S800000x1_S800000x64_0_1 : S800000x1.BroadcastsInDim S800000x64 (![0, 1] : Fin 2 → Fin S800000x64.rank)
  shapeCasts_S1250000x64_S50000x1600 : S1250000x64.ShapeCasts S50000x1600
  shapeCasts_S25x64x64_S1600x64 : S25x64x64.ShapeCasts S1600x64
  dot_S50000x32_S32x64_S50000x64_1_0_0_1_n_n_wf : DotDims.WF S50000x32 S32x64 S50000x64 [1] [0] [0] [1] [] []
  gather_S50000x32_S800000x1_S800000x32_1_0_n_n_0_1_132_wf : GatherDims.WF S50000x32 S800000x1 S800000x32 [1] [0] [] [0] [] 1 ![1, 32]
  scatter_S1250000x32_S800000x1_S800000x32_1_0_0_1_wf : ScatterDims.WF S1250000x32 S800000x1 S800000x32 [1] [0] [0] 1
  dot_S50000x800_S800x64_S50000x64_1_0_0_1_n_n_wf : DotDims.WF S50000x800 S800x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S1250000x64_S800000x1_S800000x64_1_0_0_1_wf : ScatterDims.WF S1250000x64 S800000x1 S800000x64 [1] [0] [0] 1
  dot_S50000x1600_S1600x64_S50000x64_1_0_0_1_n_n_wf : DotDims.WF S50000x1600 S1600x64 S50000x64 [1] [0] [0] [1] [] []
  dot_S50000x64_S64x64_S50000x64_1_0_0_1_n_n_wf : DotDims.WF S50000x64 S64x64 S50000x64 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S1250000x32_S800000x1_S800000x32_1_0_0_1 : ScatterDims S1250000x32 S800000x1 S800000x32 where
  updateWindowDims := [1]
  insertedWindowDims := [0]
  scatterDimsToOperandDims := [0]
  indexVectorDim := 1
  wf := scatter_S1250000x32_S800000x1_S800000x32_1_0_0_1_wf
def dot_S50000x800_S800x64_S50000x64_1_0_0_1_n_n : DotDims S50000x800 S800x64 S50000x64 where
  lhsContracting := [1]
  rhsContracting := [0]
  lhsNonContracting := [0]
  rhsNonContracting := [1]
  lhsBatch := []
  rhsBatch := []
  wf := dot_S50000x800_S800x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S1250000x64_S800000x1_S800000x64_1_0_0_1 : ScatterDims S1250000x64 S800000x1 S800000x64 where
  updateWindowDims := [1]
  insertedWindowDims := [0]
  scatterDimsToOperandDims := [0]
  indexVectorDim := 1
  wf := scatter_S1250000x64_S800000x1_S800000x64_1_0_0_1_wf
def dot_S50000x1600_S1600x64_S50000x64_1_0_0_1_n_n : DotDims S50000x1600 S1600x64 S50000x64 where
  lhsContracting := [1]
  rhsContracting := [0]
  lhsNonContracting := [0]
  rhsNonContracting := [1]
  lhsBatch := []
  rhsBatch := []
  wf := dot_S50000x1600_S1600x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KI.Reg0.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Cells

set_option maxRecDepth 16384

namespace SplineRD

open Idealize.ShloMosaic Idealize.ShloMosaic.Pipeline

variable {nD : Nat} {τ : Topo} {sig : RefSig} {Val : EltTy → Type} {Λ₀ : Idealize.SL.Sem.Labels}
variable {Ix : Type} [DecidableEq Ix] {Name : Type} [DecidableEq Name] {U : Type} [Idealize.SL.RA.URA U] {Lvl : Type}
variable {cfg : Cfg sig Λ₀} {c : Dev nD} (rd : RDat τ Val Ix Name U Lvl cfg c)

-- By induction on `n`: no step below `n` changes the contents.
theorem arrAt_of_no_flush (w : Fin cfg.W) : ∀ (n : Nat),
    (∀ k (h : k < cfg.N), k < n → (cfg.win w).flush ⟨k, h⟩ = false) → ∀ G, rd.ArrAt w n G → G = rd.A w
  | 0, _, G, h => h
  | n + 1, hn, G, h => by
    simp only [RDat.ArrAt] at h
    by_cases hlt : n < cfg.N
    · rw [dif_pos hlt, if_neg (by rw [hn n hlt (Nat.lt_succ_self n)]; exact Bool.false_ne_true)] at h
      exact arrAt_of_no_flush w n (fun k hk hkn => hn k hk (Nat.lt_succ_of_lt hkn)) G h
    · rw [dif_neg hlt] at h
      exact arrAt_of_no_flush w n (fun k hk hkn => hn k hk (Nat.lt_succ_of_lt hkn)) G h

-- An invariant `P k` that every point carries from `k` to `k + 1` holds at `n + 1`; if only `T` satisfies it there, the final value is `T`.
theorem arrAt_once (w : Fin cfg.W) (n : Nat) (hlt : n < cfg.N) (hN : cfg.N = n + 1)
    (hfe : ∀ t, (cfg.win w).fetch t = false) (hfl : ∀ t : Fin cfg.N, (cfg.win w).flush t = true ↔ t.val % cfg.N = n)
    (P : Nat → ((cfg.win w).block.Idx → Val (cfg.win w).elt) → Prop) (h0 : ∀ Y, P 0 Y)
    (hstep : ∀ (t : Fin cfg.N) Y X, P t.val Y → rd.after w t Y X → P (t.val + 1) X)
    (T : (cfg.win w).block.Idx → Val (cfg.win w).elt) (hT : ∀ X, P (n + 1) X → X = T)
    (G : Buf Val ((cfg.win w).arr.view.loc (c.tc : Thread nD τ))) (hG : rd.ArrAt w cfg.N G) :
    G = ((cfg.win w).blk ⟨n, hlt⟩).view.write Val (rd.A w) ((cfg.win w).cut (cfg.grid.coords ⟨n, hlt⟩) T) Finset.univ := by
  have hfl' : ∀ t : Fin cfg.N, (cfg.win w).flush t = true ↔ t.val = n := fun t => by
    rw [hfl t, Nat.mod_eq_of_lt t.isLt]
  have hfinds : ∀ (t : Fin cfg.N) Y, rd.Finds w t Y → P t.val Y := by
    intro t
    induction hk : t.val using Nat.strong_induction_on generalizing t with
    | _ k ih =>
      subst hk
      intro Y hY
      by_cases ht : t.val = 0
      · rw [ht]; exact h0 Y
      · rcases (rd.finds_of_pos (hfe t) ht Y).mp hY with hf | ⟨Y', hY', hrel⟩
        · have h1 : t.val - 1 = n := (hfl' _).mp hf
          have h2 := t.isLt
          omega
        · have h : P (t.val - 1 + 1) Y :=
            hstep ⟨t.val - 1, Nat.lt_of_le_of_lt (Nat.sub_le _ _) t.isLt⟩ Y' Y (ih (t.val - 1) (by omega) _ rfl Y' hY') hrel
          rwa [Nat.sub_add_cancel (Nat.pos_of_ne_zero ht)] at h
  rw [hN] at hG
  simp only [RDat.ArrAt] at hG
  rw [dif_pos hlt, if_pos ((hfl' _).mpr rfl)] at hG
  obtain ⟨G₀, X, hG₀, ⟨Y, hY, hrel⟩, rfl⟩ := hG
  rw [hT X (hstep ⟨n, hlt⟩ Y X (hfinds _ Y hY) hrel), arrAt_of_no_flush rd w n
    (fun k h hk => eq_false_of_ne_true fun hf => by have h1 : k = n := (hfl' ⟨k, h⟩).mp hf; omega) G₀ hG₀]

section Exact

variable (dat : Dat τ Val Ix Name U Lvl cfg c)
  (ovr : (w : Fin cfg.W) → Option (Fin cfg.N → (Y X : (cfg.win w).block.Idx → Val (cfg.win w).elt) → Prop))

theorem arrAt_exact {w : Fin cfg.W} (h : ovr w = none) (n : Nat) (G : Buf Val ((cfg.win w).arr.view.loc (c.tc : Thread nD τ)))
    (hG : (dat.toR.override ovr).ArrAt w n G) : G = dat.arrAt w n :=
  dat.toR_arrAt w n G ((dat.toR.override_arrAt h n G).mp hG)

theorem after_exact {w : Fin cfg.W} (h : ovr w = none) (hlive : ∀ i, cfg.idle w i = false) (hl : cfg.loose w = false) (t : Fin cfg.N)
    (Y : (cfg.win w).block.Idx → Val (cfg.win w).elt) {X : (cfg.win w).block.Idx → Val (cfg.win w).elt} (hX : dat.after w t = X) :
    (dat.toR.override ovr).after w t Y X := by
  rw [dat.toR.override_after_of_eq_none h]
  exact (Dat.Leaves.live_iff dat (.inl (hlive _))).mpr (by rw [hl]; exact hX.symm)

theorem finds_in {w : Fin cfg.W} (h : ovr w = none) (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (dat.after w t) = dat.blockOf w t)
    {B : Fin cfg.N → (cfg.win w).block.Idx → Val (cfg.win w).elt} (hB : ∀ t d, dat.fetched w t d = B t)
    (t : Fin cfg.N) (Y : (cfg.win w).block.Idx → Val (cfg.win w).elt) (hY : (dat.toR.override ovr).Finds w t Y) : Y = B t := by
  obtain ⟨d, hd⟩ := dat.toR_finds w t Y ((dat.toR.override_finds h t Y).mp hY)
  rw [hd, dat.before_in_eq_fetched w hw hlive hclip hkeep t d, hB]

end Exact

end SplineRD

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S2000x32 := Rect.unit (s := S2000x32) ![0, 0] S2000x32.size inb_S2000x32_S2000x32_0_0
abbrev r0_w : Rect S32x64 := Rect.unit (s := S32x64) ![0, 0] S32x64.size inb_S32x64_S32x64_0_0
abbrev r0_y : Rect S2000x64 := Rect.unit (s := S2000x64) ![0, 0] S2000x64.size inb_S2000x64_S2000x64_0_0

def out0_2 (x0 : Vec F S2000x32 .f32) (x1 : Vec F S32x64 .f32) : Vec F S2000x64 .f32 :=
  View.canon [⟨r0_y, k0_pay1 (View.ld x0 r0_a) (View.ld x1 r0_w)⟩]

theorem cover0_2 (p0 : Vec F S2000x64 .f32) (y : S2000x64.Idx) :
    ∃ pc ∈ ([⟨r0_y, p0⟩] : List (View.Piece (Elt F) S2000x64 .f32)), y ∈ pc.1.set :=
  View.cover_of_tiled [⟨r0_y, p0⟩] S2000x64.size (by rfl) y

def updRow (o : ℕ) (p : Vec F S1x64 .f32) (y : Vec F S25x64 .f32) : Vec F S25x64 .f32 :=
  fun idx => if (idx (0 : Fin 2)).val = o then p (ValueIdx.ix2 (0 : Fin 1) (⟨(idx (1 : Fin 2)).val, (idx (1 : Fin 2)).isLt⟩ : Fin 64)) else y idx

theorem k0_off1_eq : ∀ t : Fin cfg0.N, k0_off1 (grid0.coords t) = ![t.val, 0] :=
  (by decide +kernel : ∀ t : Fin grid0.N, k0_off1 (grid0.coords t) = ![t.val, 0])

theorem read_writes_row {sp : Space} (v : View sig .tc sp S25x64 .f32) (f : v.ty.Contents (Elt F)) {off : Fin 2 → ℕ} (o : ℕ)
    (inb : ∀ a : Fin 2, off a + S1x64.size a ≤ S25x64.size a)
    (w : (Rect.unit (s := S25x64) off S1x64.size inb).shape.Idx → Elt F .f32) (hoff : off = ![o, 0]) :
    v.read (Elt F) (v.writes (Elt F) f [(⟨Rect.unit (s := S25x64) off S1x64.size inb, w⟩ : View.Piece (Elt F) S25x64 .f32)])
      = updRow o w (v.read (Elt F) f) := by
  funext idx
  unfold updRow
  by_cases h : (idx (0 : Fin 2)).val = o
  · rw [if_pos h]
    exact View.read_writes_cons_rows_of_mem v f inb w [] idx _ hoff (by rw [h]; rfl) rfl
  · rw [if_neg h]
    exact View.read_writes_cons_rows_of_not_mem (W := 1) v f inb w [] idx hoff rfl (by omega)

set_option maxHeartbeats 1000000 in
theorem sound_kernel0 (c : Dev nD) (E : Set ℕ) (t : Fin cfg0.N)
    (arg1 : Memref sig .tc .vmem S2000x32 .f32) (harg1 : arg1.IsWhole) (arg2 : Memref sig .tc .vmem S32x64 .f32) (harg2 : arg2.IsWhole)
    (arg3 : Memref sig .tc .vmem S2000x64 .f32) (harg3 : arg3.IsWhole) (arg4 : Memref sig .tc .vmem S25x64 .f32) (harg4 : arg4.IsWhole)
    (arg5 : Memref sig .tc .vmem S25x64 .f32) (harg5 : arg5.IsWhole)
    (x0 : Vec F S2000x32 .f32) (x1 : Vec F S32x64 .f32) (y3 y4 : Vec F S25x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (iprop(owns (c : Thread nD τ) arg1 fullShare x0 ∗ owns (c : Thread nD τ) arg2 fullShare x1 ∗ owns (c : Thread nD τ) arg3 fullShare (out0_2 x0 x1)
            ∗ owns (c : Thread nD τ) arg4 fullShare (updRow t.val (k0_pay2 (View.ld x0 r0_a) (View.ld x1 r0_w)) y3)
            ∗ owns (c : Thread nD τ) arg5 fullShare (updRow t.val (k0_pay3 (View.ld x0 r0_a) (View.ld x1 r0_w)) y4)) -∗ K ⟨⟩))
      ⊢ wp frame (wpE (defs₀ (F := F)) Variants.none c none) E (cc0__linear_stats_kernel (grid0.coords t) arg1 harg1 arg2 harg2 arg3 harg3 arg4 harg4 arg5 harg5) K := by
  simp only [cc0__linear_stats_kernel_eq_skeleton]; unfold cc0__linear_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact read_writes_row _ _ t.val _ _ (k0_off1_eq t)
  · iexists _; isplitr
    swap; · iexact H4
    ipureintro
    exact read_writes_row _ _ t.val _ _ (k0_off1_eq t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => Dat.unnamed 3 t
    | ⟨4, _⟩ => Dat.unnamed 4 t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = out0_2 (iblk0 V c 0 t) (iblk0 V c 1 t) := by dsimp only [dat0]

def sumRow0 (c : Dev nD) (t : Fin cfg0.N) : Vec F S1x64 .f32 :=
  k0_pay2 (View.ld (iblk0 V c 0 t) r0_a) (View.ld (iblk0 V c 1 t) r0_w)
def sqRow0 (c : Dev nD) (t : Fin cfg0.N) : Vec F S1x64 .f32 :=
  k0_pay3 (View.ld (iblk0 V c 0 t) r0_a) (View.ld (iblk0 V c 1 t) r0_w)

def rel0_3 (c : Dev nD) (t : Fin cfg0.N) (Y X : Vec F S25x64 .f32) : Prop := X = updRow t.val (sumRow0 V c t) Y
def rel0_4 (c : Dev nD) (t : Fin cfg0.N) (Y X : Vec F S25x64 .f32) : Prop := X = updRow t.val (sqRow0 V c t) Y

def ovr0 (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (rel0_3 V c)
  | ⟨4, _⟩ => some (rel0_4 V c)

def rdat0 (c : Dev nD) : RDat τ (Elt F) Unit ℕ (UR sig nD τ) ℕ cfg0 c := (dat0 V c).toR.override (ovr0 V c)

theorem rdat0_A (c : Dev nD) (w : Fin cfg0.W) : (rdat0 V c).A w = V c (Pipeline.arrRef spec0 w) := by
  show (dat0 V c).A w = _; exact A_eq0 V c w
theorem rdat0_after3 (c : Dev nD) : (rdat0 V c).after 3 = rel0_3 V c :=
  (dat0 V c).toR.override_after_of_eq_some (ovr := ovr0 V c) (w := 3) rfl
theorem rdat0_after4 (c : Dev nD) : (rdat0 V c).after 4 = rel0_4 V c :=
  (dat0 V c).toR.override_after_of_eq_some (ovr := ovr0 V c) (w := 4) rfl

theorem body_obligation0 (c : Dev nD) : (rdat0 (F := F) V c).BodyObligation (defs₀ (F := F)) Variants.none () Set.univ := fun t Y hY => by
  have h0 : Y 0 = iblk0 V c 0 t := SplineRD.finds_in (dat0 V c) (ovr0 V c) (w := 0) rfl rfl (fun _ => rfl) (fun _ _ _ => rfl) (fun _ => rfl) (fun _ _ => rfl) t _ (hY 0)
  have h1 : Y 1 = iblk0 V c 1 t := SplineRD.finds_in (dat0 V c) (ovr0 V c) (w := 1) rfl rfl (fun _ => rfl) (fun _ _ _ => rfl) (fun _ => rfl) (fun _ _ => rfl) t _ (hY 1)
  rw [bigSep_W0, bigSep_W0]
  show iprop(Pipeline.ΦA spec0 c ∗ _) ⊢ wp _ _ _ (bodyAt0 t) fun _ => iprop(Pipeline.ΦA spec0 c ∗ _)
  rw [h0, h1]
  unfold bodyAt0
  iintro ⟨HΦ, Ho, H0, H1, H2, H3, H4⟩
  iapply (sound_kernel0 c Set.univ t _ _ _ _ _ _ _ _ _ _ (iblk0 V c 0 t) (iblk0 V c 1 t) (Y 3) (Y 4) _)
  isplitl [H0]; · iexact H0
  isplitl [H1]; · iexact H1
  isplitl [H2]; · iexists _; iexact H2
  isplitl [H3]; · iexact H3
  isplitl [H4]; · iexact H4
  iintro ⟨H0, H1, H2, H3, H4⟩
  isplitl [HΦ]; · iexact HΦ
  isplitl [Ho]; · iexact Ho
  isplitl [H0]
  · iexists _; isplitr; · ipureintro; exact SplineRD.after_exact (dat0 V c) (ovr0 V c) (w := 0) rfl (fun _ => rfl) rfl t _ rfl
    iexact H0
  isplitl [H1]
  · iexists _; isplitr; · ipureintro; exact SplineRD.after_exact (dat0 V c) (ovr0 V c) (w := 1) rfl (fun _ => rfl) rfl t _ rfl
    iexact H1
  isplitl [H2]
  · iexists _; isplitr; · ipureintro; exact SplineRD.after_exact (dat0 V c) (ovr0 V c) (w := 2) rfl (fun _ => rfl) rfl t _ (after0_2 V c t)
    iexact H2
  isplitl [H3]
  · iexists _; isplitr; · ipureintro; rw [rdat0_after3]; exact rfl
    iexact H3
  · iexists _; isplitr; · ipureintro; rw [rdat0_after4]; exact rfl
    iexact H4

theorem fetch0_3 : ∀ t : Fin cfg0.N, (cfg0.win 3).fetch t = false :=
  (by decide +kernel : ∀ t : Fin grid0.N, win0_3.fetch t = false)
theorem fetch0_4 : ∀ t : Fin cfg0.N, (cfg0.win 4).fetch t = false :=
  (by decide +kernel : ∀ t : Fin grid0.N, win0_4.fetch t = false)

def tabOf (row : Fin 25 → Vec F S1x64 .f32) : Vec F S25x64 .f32 :=
  fun idx => row ⟨(idx (0 : Fin 2)).val, (idx (0 : Fin 2)).isLt⟩ (ValueIdx.ix2 (0 : Fin 1) (⟨(idx (1 : Fin 2)).val, (idx (1 : Fin 2)).isLt⟩ : Fin 64))

def rowsBelow (G : Vec F S25x64 .f32) (n : ℕ) (Y : Vec F S25x64 .f32) : Prop :=
  ∀ idx : S25x64.Idx, (idx (0 : Fin 2)).val < n → Y idx = G idx

theorem rowsBelow_zero (G Y : Vec F S25x64 .f32) : rowsBelow G 0 Y := fun _ h => absurd h (Nat.not_lt_zero _)

theorem rowsBelow_all {G X : Vec F S25x64 .f32} (h : rowsBelow G 25 X) : X = G :=
  funext fun idx => h idx (idx (0 : Fin 2)).isLt

-- Rows are replaced one at a time, in order: replacing row `o` by its final value extends the final rows by one.
theorem rowsBelow_updRow (row : Fin 25 → Vec F S1x64 .f32) (o : Fin 25) (Y X : Vec F S25x64 .f32)
    (hY : rowsBelow (tabOf row) o.val Y) (hX : X = updRow o.val (row o) Y) : rowsBelow (tabOf row) (o.val + 1) X := by
  intro idx h
  subst hX
  unfold updRow
  by_cases he : (idx (0 : Fin 2)).val = o.val
  · rw [if_pos he]
    show row o _ = row ⟨(idx (0 : Fin 2)).val, (idx (0 : Fin 2)).isLt⟩ _
    rw [show (⟨(idx (0 : Fin 2)).val, (idx (0 : Fin 2)).isLt⟩ : Fin 25) = o from Fin.ext he]
  · rw [if_neg he]; exact hY idx (by omega)

def tab0_3 (c : Dev nD) : Vec F S25x64 .f32 := tabOf (sumRow0 V c)
def tab0_4 (c : Dev nD) : Vec F S25x64 .f32 := tabOf (sqRow0 V c)

abbrev last0 : Fin cfg0.N := ⟨24, by decide⟩

def exit0 (c : Dev nD) : (w : Fin cfg0.W) → Buf (Elt F) ((cfg0.win w).arr.view.loc (c.tc : Thread nD τ))
  | ⟨0, h⟩ => (dat0 V c).arrAt ⟨0, h⟩ cfg0.N
  | ⟨1, h⟩ => (dat0 V c).arrAt ⟨1, h⟩ cfg0.N
  | ⟨2, h⟩ => (dat0 V c).arrAt ⟨2, h⟩ cfg0.N
  | ⟨3, _⟩ => ((cfg0.win 3).blk last0).view.write (Elt F) (V c (Pipeline.arrRef spec0 3)) ((cfg0.win 3).cut (cfg0.grid.coords last0) (tab0_3 V c)) Finset.univ
  | ⟨4, _⟩ => ((cfg0.win 4).blk last0).view.write (Elt F) (V c (Pipeline.arrRef spec0 4)) ((cfg0.win 4).cut (cfg0.grid.coords last0) (tab0_4 V c)) Finset.univ

theorem arrAt0_3 (c : Dev nD) (G) (h : (rdat0 V c).ArrAt 3 cfg0.N G) : G = exit0 V c 3 :=
  SplineRD.arrAt_once (rdat0 V c) 3 24 last0.isLt N_0 fetch0_3 flush0_3 (rowsBelow (tab0_3 V c)) (rowsBelow_zero _)
    (fun t Y X hY hX => rowsBelow_updRow _ t Y X hY (by rw [rdat0_after3] at hX; exact hX)) (tab0_3 V c) (fun _ => rowsBelow_all) G h
theorem arrAt0_4 (c : Dev nD) (G) (h : (rdat0 V c).ArrAt 4 cfg0.N G) : G = exit0 V c 4 :=
  SplineRD.arrAt_once (rdat0 V c) 4 24 last0.isLt N_0 fetch0_4 flush0_4 (rowsBelow (tab0_4 V c)) (rowsBelow_zero _)
    (fun t Y X hY hX => rowsBelow_updRow _ t Y X hY (by rw [rdat0_after4] at hX; exact hX)) (tab0_4 V c) (fun _ => rowsBelow_all) G h
theorem arrAt0 (c : Dev nD) : ∀ (w : Fin cfg0.W) G, (rdat0 V c).ArrAt w cfg0.N G → G = exit0 V c w
  | ⟨0, h⟩ => SplineRD.arrAt_exact (dat0 V c) (ovr0 V c) (w := ⟨0, h⟩) rfl _
  | ⟨1, h⟩ => SplineRD.arrAt_exact (dat0 V c) (ovr0 V c) (w := ⟨1, h⟩) rfl _
  | ⟨2, h⟩ => SplineRD.arrAt_exact (dat0 V c) (ovr0 V c) (w := ⟨2, h⟩) rfl _
  | ⟨3, _⟩ => arrAt0_3 V c
  | ⟨4, _⟩ => arrAt0_4 V c

end Cert.KernelIdeal.Hand

end
-- ==== Proof.KI.Reg1.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x128 := Rect.unit (s := S1x128) ![0, 0] S1x128.size inb_S1x128_S1x128_0_0
abbrev r1_1 : Rect S1000x128 := Rect.unit (s := S1000x128) ![0, 0] S1000x128.size inb_S1000x128_S1000x128_0_0

/-- The output block as one piece over the input blocks. -/
def out1_5 (x0 : Vec F S1000x128 .f32) (x1 : Vec F S1x128 .f32) (x2 : Vec F S1x128 .f32) (x3 : Vec F S1x128 .f32) (x4 : Vec F S1x128 .f32) : Vec F S1000x128 .f32 :=
  View.canon [⟨r1_1, k1_pay1 (View.ld x2 r1_0) (View.ld x0 r1_1) (View.ld x1 r1_0) (View.ld x3 r1_0) (View.ld x4 r1_0)⟩]

/-- The one stored piece covers the block. -/
theorem cover1_5 (p0 : Vec F S1000x128 .f32) (y : S1000x128.Idx) :
    ∃ pc ∈ ([⟨r1_1, p0⟩] : List (View.Piece (Elt F) S1000x128 .f32)), y ∈ pc.1.set :=
  View.cover_of_tiled [⟨r1_1, p0⟩] S1000x128.size (by rfl) y

set_option maxHeartbeats 1000000 in
/-- Run on whole blocks, the body leaves the inputs as they were and the output at `out1_5` of them. -/
theorem sound_kernel1 (c : Dev nD) (E : Set ℕ) (i : grid1.Coords) (arg1 : Memref sig .tc .vmem S1000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1000x128 .f32) (harg6 : arg6.IsWhole)
    (x0 : Vec F S1000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_kernel_packed i arg1 harg1 arg2 harg2 arg3 harg3 arg4 harg4 arg5 harg5 arg6 harg6) K := by
  simp only [cc1__bn_kernel_packed_eq_skeleton]; unfold cc1__bn_kernel_packed_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (t : Fin cfg1.N) : (∀ d, (dat1 V c).before 0 t d = iblk1 V c 0 t)
    ∧ (∀ d, (dat1 V c).before 1 t d = iblk1 V c 1 t)
    ∧ (∀ d, (dat1 V c).before 2 t d = iblk1 V c 2 t)
    ∧ (∀ d, (dat1 V c).before 3 t d = iblk1 V c 3 t)
    ∧ (∀ d, (dat1 V c).before 4 t d = iblk1 V c 4 t) := by
  refine ⟨?_, ?_, ?_, ?_, ?_⟩ <;> exact fun d => (dat1 V c).before_in_eq_fetched _ rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1 V c t]
  rw [show (dat1 V c).owesAt () t.succ = (dat1 V c).owesAt () t.castSucc from rfl]
  dsimp only [dat1]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

end Cert.KernelIdeal.Hand

end
-- ==== Proof.KI.Reg2.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import proofs.«412279_j89026082111590_3_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2000x800 := Rect.unit (s := S2000x800) ![0, 0] S2000x800.size inb_S2000x800_S2000x800_0_0
abbrev r2_w : Rect S800x64 := Rect.unit (s := S800x64) ![0, 0] S800x64.size inb_S800x64_S800x64_0_0
abbrev r2_x : Rect S2000x32 := Rect.unit (s := S2000x32) ![0, 0] S2000x32.size inb_S2000x32_S2000x32_0_0
abbrev r2_v : Rect S32x64 := Rect.unit (s := S32x64) ![0, 0] S32x64.size inb_S32x64_S32x64_0_0
abbrev r2_y : Rect S2000x64 := Rect.unit (s := S2000x64) ![0, 0] S2000x64.size inb_S2000x64_S2000x64_0_0

def out2_4 (x0 : Vec F S2000x800 .f32) (x1 : Vec F S800x64 .f32) (x2 : Vec F S2000x32 .f32) (x3 : Vec F S32x64 .f32) : Vec F S2000x64 .f32 :=
  View.canon [⟨r2_y, k2_pay1 (View.ld x0 r2_a) (View.ld x1 r2_w) (View.ld x2 r2_x) (View.ld x3 r2_v)⟩]

theorem cover2_4 (p0 : Vec F S2000x64 .f32) (y : S2000x64.Idx) :
    ∃ pc ∈ ([⟨r2_y, p0⟩] : List (View.Piece (Elt F) S2000x64 .f32)), y ∈ pc.1.set :=
  View.cover_of_tiled [⟨r2_y, p0⟩] S2000x64.size (by rfl) y

theorem k2_off1_eq : ∀ t : Fin cfg2.N, k2_off1 (grid2.coords t) = ![t.val, 0] :=
  (by decide +kernel : ∀ t : Fin grid2.N, k2_off1 (grid2.coords t) = ![t.val, 0])

set_option maxHeartbeats 1000000 in
theorem sound_kernel2 (c : Dev nD) (E : Set ℕ) (t : Fin cfg2.N)
    (arg1 : Memref sig .tc .vmem S2000x800 .f32) (harg1 : arg1.IsWhole) (arg2 : Memref sig .tc .vmem S800x64 .f32) (harg2 : arg2.IsWhole)
    (arg3 : Memref sig .tc .vmem S2000x32 .f32) (harg3 : arg3.IsWhole) (arg4 : Memref sig .tc .vmem S32x64 .f32) (harg4 : arg4.IsWhole)
    (arg5 : Memref sig .tc .vmem S2000x64 .f32) (harg5 : arg5.IsWhole) (arg6 : Memref sig .tc .vmem S25x64 .f32) (harg6 : arg6.IsWhole)
    (arg7 : Memref sig .tc .vmem S25x64 .f32) (harg7 : arg7.IsWhole)
    (x0 : Vec F S2000x800 .f32) (x1 : Vec F S800x64 .f32) (x2 : Vec F S2000x32 .f32) (x3 : Vec F S32x64 .f32)
    (y5 y6 : Vec F S25x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare y5 ∗ owns (c : Thread nD τ) arg7 fullShare y6
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)
            ∗ owns (c : Thread nD τ) arg6 fullShare (updRow t.val (k2_pay2 (View.ld x0 r2_a) (View.ld x1 r2_w) (View.ld x2 r2_x) (View.ld x3 r2_v)) y5)
            ∗ owns (c : Thread nD τ) arg7 fullShare (updRow t.val (k2_pay3 (View.ld x0 r2_a) (View.ld x1 r2_w) (View.ld x2 r2_x) (View.ld x3 r2_v)) y6)) -∗ K ⟨⟩))
      ⊢ wp frame (wpE (defs₀ (F := F)) Variants.none c none) E (cc2__conv_root_stats_kernel (grid2.coords t) arg1 harg1 arg2 harg2 arg3 harg3 arg4 harg4 arg5 harg5 arg6 harg6 arg7 harg7) K := by
  simp only [cc2__conv_root_stats_kernel_eq_skeleton]; unfold cc2__conv_root_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact read_writes_row _ _ t.val _ _ (k2_off1_eq t)
  · iexists _; isplitr
    swap; · iexact H6
    ipureintro
    exact read_writes_row _ _ t.val _ _ (k2_off1_eq t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => Dat.unnamed 5 t
    | ⟨6, _⟩ => Dat.unnamed 6 t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

def sumRow2 (c : Dev nD) (t : Fin cfg2.N) : Vec F S1x64 .f32 :=
  k2_pay2 (View.ld (iblk2 V c 0 t) r2_a) (View.ld (iblk2 V c 1 t) r2_w) (View.ld (iblk2 V c 2 t) r2_x) (View.ld (iblk2 V c 3 t) r2_v)
def sqRow2 (c : Dev nD) (t : Fin cfg2.N) : Vec F S1x64 .f32 :=
  k2_pay3 (View.ld (iblk2 V c 0 t) r2_a) (View.ld (iblk2 V c 1 t) r2_w) (View.ld (iblk2 V c 2 t) r2_x) (View.ld (iblk2 V c 3 t) r2_v)

def rel2_5 (c : Dev nD) (t : Fin cfg2.N) (Y X : Vec F S25x64 .f32) : Prop := X = updRow t.val (sumRow2 V c t) Y
def rel2_6 (c : Dev nD) (t : Fin cfg2.N) (Y X : Vec F S25x64 .f32) : Prop := X = updRow t.val (sqRow2 V c t) Y

def ovr2 (c : Dev nD) : (w : Fin cfg2.W) → Option (Fin cfg2.N → (Y X : (cfg2.win w).block.Idx → Elt F (cfg2.win w).elt) → Prop)
  | ⟨0, _⟩ => none
  | ⟨1, _⟩ => none
  | ⟨2, _⟩ => none
  | ⟨3, _⟩ => none
  | ⟨4, _⟩ => none
  | ⟨5, _⟩ => some (rel2_5 V c)
  | ⟨6, _⟩ => some (rel2_6 V c)

def rdat2 (c : Dev nD) : RDat τ (Elt F) Unit ℕ (UR sig nD τ) ℕ cfg2 c := (dat2 V c).toR.override (ovr2 V c)

theorem rdat2_A (c : Dev nD) (w : Fin cfg2.W) : (rdat2 V c).A w = V c (Pipeline.arrRef spec2 w) := by
  show (dat2 V c).A w = _; exact A_eq2 V c w
theorem rdat2_after5 (c : Dev nD) : (rdat2 V c).after 5 = rel2_5 V c :=
  (dat2 V c).toR.override_after_of_eq_some (ovr := ovr2 V c) (w := 5) rfl
theorem rdat2_after6 (c : Dev nD) : (rdat2 V c).after 6 = rel2_6 V c :=
  (dat2 V c).toR.override_after_of_eq_some (ovr := ovr2 V c) (w := 6) rfl

theorem body_obligation2 (c : Dev nD) : (rdat2 (F := F) V c).BodyObligation (defs₀ (F := F)) Variants.none () Set.univ := fun t Y hY => by
  have h0 : Y 0 = iblk2 V c 0 t := SplineRD.finds_in (dat2 V c) (ovr2 V c) (w := 0) rfl rfl (fun _ => rfl) (fun _ _ _ => rfl) (fun _ => rfl) (fun _ _ => rfl) t _ (hY 0)
  have h1 : Y 1 = iblk2 V c 1 t := SplineRD.finds_in (dat2 V c) (ovr2 V c) (w := 1) rfl rfl (fun _ => rfl) (fun _ _ _ => rfl) (fun _ => rfl) (fun _ _ => rfl) t _ (hY 1)
  have h2 : Y 2 = iblk2 V c 2 t := SplineRD.finds_in (dat2 V c) (ovr2 V c) (w := 2) rfl rfl (fun _ => rfl) (fun _ _ _ => rfl) (fun _ => rfl) (fun _ _ => rfl) t _ (hY 2)
  have h3 : Y 3 = iblk2 V c 3 t := SplineRD.finds_in (dat2 V c) (ovr2 V c) (w := 3) rfl rfl (fun _ => rfl) (fun _ _ _ => rfl) (fun _ => rfl) (fun _ _ => rfl) t _ (hY 3)
  rw [bigSep_W2, bigSep_W2]
  show iprop(Pipeline.ΦA spec2 c ∗ _) ⊢ wp _ _ _ (bodyAt2 t) fun _ => iprop(Pipeline.ΦA spec2 c ∗ _)
  rw [h0, h1, h2, h3]
  unfold bodyAt2
  iintro ⟨HΦ, Ho, H0, H1, H2, H3, H4, H5, H6⟩
  iapply (sound_kernel2 c Set.univ t _ _ _ _ _ _ _ _ _ _ _ _ _ _ (iblk2 V c 0 t) (iblk2 V c 1 t) (iblk2 V c 2 t) (iblk2 V c 3 t) (Y 5) (Y 6) _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists _; isplitr; · ipureintro; exact SplineRD.after_exact (dat2 V c) (ovr2 V c) (w := 0) rfl (fun _ => rfl) rfl t _ rfl
    iexact H0
  isplitl [H1]
  · iexists _; isplitr; · ipureintro; exact SplineRD.after_exact (dat2 V c) (ovr2 V c) (w := 1) rfl (fun _ => rfl) rfl t _ rfl
    iexact H1
  isplitl [H2]
  · iexists _; isplitr; · ipureintro; exact SplineRD.after_exact (dat2 V c) (ovr2 V c) (w := 2) rfl (fun _ => rfl) rfl t _ rfl
    iexact H2
  isplitl [H3]
  · iexists _; isplitr; · ipureintro; exact SplineRD.after_exact (dat2 V c) (ovr2 V c) (w := 3) rfl (fun _ => rfl) rfl t _ rfl
    iexact H3
  isplitl [H4]
  · iexists _; isplitr; · ipureintro; exact SplineRD.after_exact (dat2 V c) (ovr2 V c) (w := 4) rfl (fun _ => rfl) rfl t _ (after2_4 V c t)
    iexact H4
  isplitl [H5]
  · iexists _; isplitr; · ipureintro; rw [rdat2_after5]; exact rfl
    iexact H5
  · iexists _; isplitr; · ipureintro; rw [rdat2_after6]; exact rfl
    iexact H6

theorem fetch2_5 : ∀ t : Fin cfg2.N, (cfg2.win 5).fetch t = false :=
  (by decide +kernel : ∀ t : Fin grid2.N, win2_5.fetch t = false)
theorem fetch2_6 : ∀ t : Fin cfg2.N, (cfg2.win 6).fetch t = false :=
  (by decide +kernel : ∀ t : Fin grid2.N, win2_6.fetch t = false)

def tab2_5 (c : Dev nD) : Vec F S25x64 .f32 := tabOf (sumRow2 V c)
def tab2_6 (c : Dev nD) : Vec F S25x64 .f32 := tabOf (sqRow2 V c)

abbrev last2 : Fin cfg2.N := ⟨24, by decide⟩

def exit2 (c : Dev nD) : (w : Fin cfg2.W) → Buf (Elt F) ((cfg2.win w).arr.view.loc (c.tc : Thread nD τ))
  | ⟨0, h⟩ => (dat2 V c).arrAt ⟨0, h⟩ cfg2.N
  | ⟨1, h⟩ => (dat2 V c).arrAt ⟨1, h⟩ cfg2.N
  | ⟨2, h⟩ => (dat2 V c).arrAt ⟨2, h⟩ cfg2.N
  | ⟨3, h⟩ => (dat2 V c).arrAt ⟨3, h⟩ cfg2.N
  | ⟨4, h⟩ => (dat2 V c).arrAt ⟨4, h⟩ cfg2.N
  | ⟨5, _⟩ => ((cfg2.win 5).blk last2).view.write (Elt F) (V c (Pipeline.arrRef spec2 5)) ((cfg2.win 5).cut (cfg2.grid.coords last2) (tab2_5 V c)) Finset.univ
  | ⟨6, _⟩ => ((cfg2.win 6).blk last2).view.write (Elt F) (V c (Pipeline.arrRef spec2 6)) ((cfg2.win 6).cut (cfg2.grid.coords last2) (tab2_6 V c)) Finset.univ

theorem arrAt2_5 (c : Dev nD) (G) (h : (rdat2 V c).ArrAt 5 cfg2.N G) : G = exit2 V c 5 :=
  SplineRD.arrAt_once (rdat2 V c) 5 24 last2.isLt N_2 fetch2_5 flush2_5 (rowsBelow (tab2_5 V c)) (rowsBelow_zero _)
    (fun t Y X hY hX => rowsBelow_updRow _ t Y X hY (by rw [rdat2_after5] at hX; exact hX)) (tab2_5 V c) (fun _ => rowsBelow_all) G h
theorem arrAt2_6 (c : Dev nD) (G) (h : (rdat2 V c).ArrAt 6 cfg2.N G) : G = exit2 V c 6 :=
  SplineRD.arrAt_once (rdat2 V c) 6 24 last2.isLt N_2 fetch2_6 flush2_6 (rowsBelow (tab2_6 V c)) (rowsBelow_zero _)
    (fun t Y X hY hX => rowsBelow_updRow _ t Y X hY (by rw [rdat2_after6] at hX; exact hX)) (tab2_6 V c) (fun _ => rowsBelow_all) G h
theorem arrAt2 (c : Dev nD) : ∀ (w : Fin cfg2.W) G, (rdat2 V c).ArrAt w cfg2.N G → G = exit2 V c w
  | ⟨0, h⟩ => SplineRD.arrAt_exact (dat2 V c) (ovr2 V c) (w := ⟨0, h⟩) rfl _
  | ⟨1, h⟩ => SplineRD.arrAt_exact (dat2 V c) (ovr2 V c) (w := ⟨1, h⟩) rfl _
  | ⟨2, h⟩ => SplineRD.arrAt_exact (dat2 V c) (ovr2 V c) (w := ⟨2, h⟩) rfl _
  | ⟨3, h⟩ => SplineRD.arrAt_exact (dat2 V c) (ovr2 V c) (w := ⟨3, h⟩) rfl _
  | ⟨4, h⟩ => SplineRD.arrAt_exact (dat2 V c) (ovr2 V c) (w := ⟨4, h⟩) rfl _
  | ⟨5, _⟩ => arrAt2_5 V c
  | ⟨6, _⟩ => arrAt2_6 V c

end Cert.KernelIdeal.Hand

end
-- ==== Proof.KI.Reg3.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x128 := Rect.unit (s := S1x128) ![0, 0] S1x128.size inb_S1x128_S1x128_0_0
abbrev r3_1 : Rect S1000x128 := Rect.unit (s := S1000x128) ![0, 0] S1000x128.size inb_S1000x128_S1000x128_0_0

/-- The output block as one piece over the input blocks. -/
def out3_5 (x0 : Vec F S1000x128 .f32) (x1 : Vec F S1x128 .f32) (x2 : Vec F S1x128 .f32) (x3 : Vec F S1x128 .f32) (x4 : Vec F S1x128 .f32) : Vec F S1000x128 .f32 :=
  View.canon [⟨r3_1, k3_pay1 (View.ld x2 r3_0) (View.ld x0 r3_1) (View.ld x1 r3_0) (View.ld x3 r3_0) (View.ld x4 r3_0)⟩]

/-- The one stored piece covers the block. -/
theorem cover3_5 (p0 : Vec F S1000x128 .f32) (y : S1000x128.Idx) :
    ∃ pc ∈ ([⟨r3_1, p0⟩] : List (View.Piece (Elt F) S1000x128 .f32)), y ∈ pc.1.set :=
  View.cover_of_tiled [⟨r3_1, p0⟩] S1000x128.size (by rfl) y

set_option maxHeartbeats 1000000 in
/-- Run on whole blocks, the body leaves the inputs as they were and the output at `out3_5` of them. -/
theorem sound_kernel3 (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1000x128 .f32) (harg6 : arg6.IsWhole)
    (x0 : Vec F S1000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_kernel_packed i arg1 harg1 arg2 harg2 arg3 harg3 arg4 harg4 arg5 harg5 arg6 harg6) K := by
  simp only [cc3__bn_kernel_packed_eq_skeleton]; unfold cc3__bn_kernel_packed_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem before3 (c : Dev nD) (t : Fin cfg3.N) : (∀ d, (dat3 V c).before 0 t d = iblk3 V c 0 t)
    ∧ (∀ d, (dat3 V c).before 1 t d = iblk3 V c 1 t)
    ∧ (∀ d, (dat3 V c).before 2 t d = iblk3 V c 2 t)
    ∧ (∀ d, (dat3 V c).before 3 t d = iblk3 V c 3 t)
    ∧ (∀ d, (dat3 V c).before 4 t d = iblk3 V c 4 t) := by
  refine ⟨?_, ?_, ?_, ?_, ?_⟩ <;> exact fun d => (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3 V c t]
  rw [show (dat3 V c).owesAt () t.succ = (dat3 V c).owesAt () t.castSucc from rfl]
  dsimp only [dat3]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

end Cert.KernelIdeal.Hand

end
-- ==== Proof.KI.Reg4.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import proofs.«412279_j89026082111590_3_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S2000x1600 := Rect.unit (s := S2000x1600) ![0, 0] S2000x1600.size inb_S2000x1600_S2000x1600_0_0
abbrev r4_w : Rect S1600x64 := Rect.unit (s := S1600x64) ![0, 0] S1600x64.size inb_S1600x64_S1600x64_0_0
abbrev r4_x : Rect S2000x64 := Rect.unit (s := S2000x64) ![0, 0] S2000x64.size inb_S2000x64_S2000x64_0_0
abbrev r4_v : Rect S64x64 := Rect.unit (s := S64x64) ![0, 0] S64x64.size inb_S64x64_S64x64_0_0
abbrev r4_y : Rect S2000x64 := Rect.unit (s := S2000x64) ![0, 0] S2000x64.size inb_S2000x64_S2000x64_0_0

def out4_4 (x0 : Vec F S2000x1600 .f32) (x1 : Vec F S1600x64 .f32) (x2 : Vec F S2000x64 .f32) (x3 : Vec F S64x64 .f32) : Vec F S2000x64 .f32 :=
  View.canon [⟨r4_y, k4_pay1 (View.ld x0 r4_a) (View.ld x1 r4_w) (View.ld x2 r4_x) (View.ld x3 r4_v)⟩]

theorem cover4_4 (p0 : Vec F S2000x64 .f32) (y : S2000x64.Idx) :
    ∃ pc ∈ ([⟨r4_y, p0⟩] : List (View.Piece (Elt F) S2000x64 .f32)), y ∈ pc.1.set :=
  View.cover_of_tiled [⟨r4_y, p0⟩] S2000x64.size (by rfl) y

theorem k4_off1_eq : ∀ t : Fin cfg4.N, k4_off1 (grid4.coords t) = ![t.val, 0] :=
  (by decide +kernel : ∀ t : Fin grid4.N, k4_off1 (grid4.coords t) = ![t.val, 0])

set_option maxHeartbeats 1000000 in
theorem sound_kernel4 (c : Dev nD) (E : Set ℕ) (t : Fin cfg4.N)
    (arg1 : Memref sig .tc .vmem S2000x1600 .f32) (harg1 : arg1.IsWhole) (arg2 : Memref sig .tc .vmem S1600x64 .f32) (harg2 : arg2.IsWhole)
    (arg3 : Memref sig .tc .vmem S2000x64 .f32) (harg3 : arg3.IsWhole) (arg4 : Memref sig .tc .vmem S64x64 .f32) (harg4 : arg4.IsWhole)
    (arg5 : Memref sig .tc .vmem S2000x64 .f32) (harg5 : arg5.IsWhole) (arg6 : Memref sig .tc .vmem S25x64 .f32) (harg6 : arg6.IsWhole)
    (arg7 : Memref sig .tc .vmem S25x64 .f32) (harg7 : arg7.IsWhole)
    (x0 : Vec F S2000x1600 .f32) (x1 : Vec F S1600x64 .f32) (x2 : Vec F S2000x64 .f32) (x3 : Vec F S64x64 .f32)
    (y5 y6 : Vec F S25x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare y5 ∗ owns (c : Thread nD τ) arg7 fullShare y6
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)
            ∗ owns (c : Thread nD τ) arg6 fullShare (updRow t.val (k4_pay2 (View.ld x0 r4_a) (View.ld x1 r4_w) (View.ld x2 r4_x) (View.ld x3 r4_v)) y5)
            ∗ owns (c : Thread nD τ) arg7 fullShare (updRow t.val (k4_pay3 (View.ld x0 r4_a) (View.ld x1 r4_w) (View.ld x2 r4_x) (View.ld x3 r4_v)) y6)) -∗ K ⟨⟩))
      ⊢ wp frame (wpE (defs₀ (F := F)) Variants.none c none) E (cc4__conv_root_stats_kernel (grid4.coords t) arg1 harg1 arg2 harg2 arg3 harg3 arg4 harg4 arg5 harg5 arg6 harg6 arg7 harg7) K := by
  simp only [cc4__conv_root_stats_kernel_eq_skeleton]; unfold cc4__conv_root_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  isplitl [H5]
  · iexists _; isplitr
    swap; · iexact H5
    ipureintro
    exact read_writes_row _ _ t.val _ _ (k4_off1_eq t)
  · iexists _; isplitr
    swap; · iexact H6
    ipureintro
    exact read_writes_row _ _ t.val _ _ (k4_off1_eq t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => Dat.unnamed 5 t
    | ⟨6, _⟩ => Dat.unnamed 6 t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

def sumRow4 (c : Dev nD) (t : Fin cfg4.N) : Vec F S1x64 .f32 :=
  k4_pay2 (View.ld (iblk4 V c 0 t) r4_a) (View.ld (iblk4 V c 1 t) r4_w) (View.ld (iblk4 V c 2 t) r4_x) (View.ld (iblk4 V c 3 t) r4_v)
def sqRow4 (c : Dev nD) (t : Fin cfg4.N) : Vec F S1x64 .f32 :=
  k4_pay3 (View.ld (iblk4 V c 0 t) r4_a) (View.ld (iblk4 V c 1 t) r4_w) (View.ld (iblk4 V c 2 t) r4_x) (View.ld (iblk4 V c 3 t) r4_v)

def rel4_5 (c : Dev nD) (t : Fin cfg4.N) (Y X : Vec F S25x64 .f32) : Prop := X = updRow t.val (sumRow4 V c t) Y
def rel4_6 (c : Dev nD) (t : Fin cfg4.N) (Y X : Vec F S25x64 .f32) : Prop := X = updRow t.val (sqRow4 V c t) Y

def ovr4 (c : Dev nD) : (w : Fin cfg4.W) → Option (Fin cfg4.N → (Y X : (cfg4.win w).block.Idx → Elt F (cfg4.win w).elt) → Prop)
  | ⟨0, _⟩ => none
  | ⟨1, _⟩ => none
  | ⟨2, _⟩ => none
  | ⟨3, _⟩ => none
  | ⟨4, _⟩ => none
  | ⟨5, _⟩ => some (rel4_5 V c)
  | ⟨6, _⟩ => some (rel4_6 V c)

def rdat4 (c : Dev nD) : RDat τ (Elt F) Unit ℕ (UR sig nD τ) ℕ cfg4 c := (dat4 V c).toR.override (ovr4 V c)

theorem rdat4_A (c : Dev nD) (w : Fin cfg4.W) : (rdat4 V c).A w = V c (Pipeline.arrRef spec4 w) := by
  show (dat4 V c).A w = _; exact A_eq4 V c w
theorem rdat4_after5 (c : Dev nD) : (rdat4 V c).after 5 = rel4_5 V c :=
  (dat4 V c).toR.override_after_of_eq_some (ovr := ovr4 V c) (w := 5) rfl
theorem rdat4_after6 (c : Dev nD) : (rdat4 V c).after 6 = rel4_6 V c :=
  (dat4 V c).toR.override_after_of_eq_some (ovr := ovr4 V c) (w := 6) rfl

theorem body_obligation4 (c : Dev nD) : (rdat4 (F := F) V c).BodyObligation (defs₀ (F := F)) Variants.none () Set.univ := fun t Y hY => by
  have h0 : Y 0 = iblk4 V c 0 t := SplineRD.finds_in (dat4 V c) (ovr4 V c) (w := 0) rfl rfl (fun _ => rfl) (fun _ _ _ => rfl) (fun _ => rfl) (fun _ _ => rfl) t _ (hY 0)
  have h1 : Y 1 = iblk4 V c 1 t := SplineRD.finds_in (dat4 V c) (ovr4 V c) (w := 1) rfl rfl (fun _ => rfl) (fun _ _ _ => rfl) (fun _ => rfl) (fun _ _ => rfl) t _ (hY 1)
  have h2 : Y 2 = iblk4 V c 2 t := SplineRD.finds_in (dat4 V c) (ovr4 V c) (w := 2) rfl rfl (fun _ => rfl) (fun _ _ _ => rfl) (fun _ => rfl) (fun _ _ => rfl) t _ (hY 2)
  have h3 : Y 3 = iblk4 V c 3 t := SplineRD.finds_in (dat4 V c) (ovr4 V c) (w := 3) rfl rfl (fun _ => rfl) (fun _ _ _ => rfl) (fun _ => rfl) (fun _ _ => rfl) t _ (hY 3)
  rw [bigSep_W4, bigSep_W4]
  show iprop(Pipeline.ΦA spec4 c ∗ _) ⊢ wp _ _ _ (bodyAt4 t) fun _ => iprop(Pipeline.ΦA spec4 c ∗ _)
  rw [h0, h1, h2, h3]
  unfold bodyAt4
  iintro ⟨HΦ, Ho, H0, H1, H2, H3, H4, H5, H6⟩
  iapply (sound_kernel4 c Set.univ t _ _ _ _ _ _ _ _ _ _ _ _ _ _ (iblk4 V c 0 t) (iblk4 V c 1 t) (iblk4 V c 2 t) (iblk4 V c 3 t) (Y 5) (Y 6) _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists _; isplitr; · ipureintro; exact SplineRD.after_exact (dat4 V c) (ovr4 V c) (w := 0) rfl (fun _ => rfl) rfl t _ rfl
    iexact H0
  isplitl [H1]
  · iexists _; isplitr; · ipureintro; exact SplineRD.after_exact (dat4 V c) (ovr4 V c) (w := 1) rfl (fun _ => rfl) rfl t _ rfl
    iexact H1
  isplitl [H2]
  · iexists _; isplitr; · ipureintro; exact SplineRD.after_exact (dat4 V c) (ovr4 V c) (w := 2) rfl (fun _ => rfl) rfl t _ rfl
    iexact H2
  isplitl [H3]
  · iexists _; isplitr; · ipureintro; exact SplineRD.after_exact (dat4 V c) (ovr4 V c) (w := 3) rfl (fun _ => rfl) rfl t _ rfl
    iexact H3
  isplitl [H4]
  · iexists _; isplitr; · ipureintro; exact SplineRD.after_exact (dat4 V c) (ovr4 V c) (w := 4) rfl (fun _ => rfl) rfl t _ (after4_4 V c t)
    iexact H4
  isplitl [H5]
  · iexists _; isplitr; · ipureintro; rw [rdat4_after5]; exact rfl
    iexact H5
  · iexists _; isplitr; · ipureintro; rw [rdat4_after6]; exact rfl
    iexact H6

theorem fetch4_5 : ∀ t : Fin cfg4.N, (cfg4.win 5).fetch t = false :=
  (by decide +kernel : ∀ t : Fin grid4.N, win4_5.fetch t = false)
theorem fetch4_6 : ∀ t : Fin cfg4.N, (cfg4.win 6).fetch t = false :=
  (by decide +kernel : ∀ t : Fin grid4.N, win4_6.fetch t = false)

def tab4_5 (c : Dev nD) : Vec F S25x64 .f32 := tabOf (sumRow4 V c)
def tab4_6 (c : Dev nD) : Vec F S25x64 .f32 := tabOf (sqRow4 V c)

abbrev last4 : Fin cfg4.N := ⟨24, by decide⟩

def exit4 (c : Dev nD) : (w : Fin cfg4.W) → Buf (Elt F) ((cfg4.win w).arr.view.loc (c.tc : Thread nD τ))
  | ⟨0, h⟩ => (dat4 V c).arrAt ⟨0, h⟩ cfg4.N
  | ⟨1, h⟩ => (dat4 V c).arrAt ⟨1, h⟩ cfg4.N
  | ⟨2, h⟩ => (dat4 V c).arrAt ⟨2, h⟩ cfg4.N
  | ⟨3, h⟩ => (dat4 V c).arrAt ⟨3, h⟩ cfg4.N
  | ⟨4, h⟩ => (dat4 V c).arrAt ⟨4, h⟩ cfg4.N
  | ⟨5, _⟩ => ((cfg4.win 5).blk last4).view.write (Elt F) (V c (Pipeline.arrRef spec4 5)) ((cfg4.win 5).cut (cfg4.grid.coords last4) (tab4_5 V c)) Finset.univ
  | ⟨6, _⟩ => ((cfg4.win 6).blk last4).view.write (Elt F) (V c (Pipeline.arrRef spec4 6)) ((cfg4.win 6).cut (cfg4.grid.coords last4) (tab4_6 V c)) Finset.univ

theorem arrAt4_5 (c : Dev nD) (G) (h : (rdat4 V c).ArrAt 5 cfg4.N G) : G = exit4 V c 5 :=
  SplineRD.arrAt_once (rdat4 V c) 5 24 last4.isLt N_4 fetch4_5 flush4_5 (rowsBelow (tab4_5 V c)) (rowsBelow_zero _)
    (fun t Y X hY hX => rowsBelow_updRow _ t Y X hY (by rw [rdat4_after5] at hX; exact hX)) (tab4_5 V c) (fun _ => rowsBelow_all) G h
theorem arrAt4_6 (c : Dev nD) (G) (h : (rdat4 V c).ArrAt 6 cfg4.N G) : G = exit4 V c 6 :=
  SplineRD.arrAt_once (rdat4 V c) 6 24 last4.isLt N_4 fetch4_6 flush4_6 (rowsBelow (tab4_6 V c)) (rowsBelow_zero _)
    (fun t Y X hY hX => rowsBelow_updRow _ t Y X hY (by rw [rdat4_after6] at hX; exact hX)) (tab4_6 V c) (fun _ => rowsBelow_all) G h
theorem arrAt4 (c : Dev nD) : ∀ (w : Fin cfg4.W) G, (rdat4 V c).ArrAt w cfg4.N G → G = exit4 V c w
  | ⟨0, h⟩ => SplineRD.arrAt_exact (dat4 V c) (ovr4 V c) (w := ⟨0, h⟩) rfl _
  | ⟨1, h⟩ => SplineRD.arrAt_exact (dat4 V c) (ovr4 V c) (w := ⟨1, h⟩) rfl _
  | ⟨2, h⟩ => SplineRD.arrAt_exact (dat4 V c) (ovr4 V c) (w := ⟨2, h⟩) rfl _
  | ⟨3, h⟩ => SplineRD.arrAt_exact (dat4 V c) (ovr4 V c) (w := ⟨3, h⟩) rfl _
  | ⟨4, h⟩ => SplineRD.arrAt_exact (dat4 V c) (ovr4 V c) (w := ⟨4, h⟩) rfl _
  | ⟨5, _⟩ => arrAt4_5 V c
  | ⟨6, _⟩ => arrAt4_6 V c

end Cert.KernelIdeal.Hand

end
-- ==== Proof.KI.Reg5.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1x128 := Rect.unit (s := S1x128) ![0, 0] S1x128.size inb_S1x128_S1x128_0_0
abbrev r5_1 : Rect S1000x128 := Rect.unit (s := S1000x128) ![0, 0] S1000x128.size inb_S1000x128_S1000x128_0_0

/-- The output block as one piece over the input blocks. -/
def out5_6 (x0 : Vec F S1000x128 .f32) (x1 : Vec F S1x128 .f32) (x2 : Vec F S1x128 .f32) (x3 : Vec F S1x128 .f32) (x4 : Vec F S1x128 .f32) (x5 : Vec F S1000x128 .f32) : Vec F S1000x128 .f32 :=
  View.canon [⟨r5_1, k5_pay1 (View.ld x2 r5_0) (View.ld x0 r5_1) (View.ld x1 r5_0) (View.ld x3 r5_0) (View.ld x4 r5_0) (View.ld x5 r5_1)⟩]

/-- The one stored piece covers the block. -/
theorem cover5_6 (p0 : Vec F S1000x128 .f32) (y : S1000x128.Idx) :
    ∃ pc ∈ ([⟨r5_1, p0⟩] : List (View.Piece (Elt F) S1000x128 .f32)), y ∈ pc.1.set :=
  View.cover_of_tiled [⟨r5_1, p0⟩] S1000x128.size (by rfl) y

set_option maxHeartbeats 1000000 in
/-- Run on whole blocks, the body leaves the inputs as they were and the output at `out5_6` of them. -/
theorem sound_kernel5 (c : Dev nD) (E : Set ℕ) (i : grid5.Coords) (arg1 : Memref sig .tc .vmem S1000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1000x128 .f32) (harg6 : arg6.IsWhole) (arg7 : Memref sig .tc .vmem S1000x128 .f32) (harg7 : arg7.IsWhole)
    (x0 : Vec F S1000x128 .f32) (x1 : Vec F S1x128 .f32) (x2 : Vec F S1x128 .f32) (x3 : Vec F S1x128 .f32) (x4 : Vec F S1x128 .f32) (x5 : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_add_relu_kernel_packed i arg1 harg1 arg2 harg2 arg3 harg3 arg4 harg4 arg5 harg5 arg6 harg6 arg7 harg7) K := by
  simp only [cc5__bn_add_relu_kernel_packed_eq_skeleton]; unfold cc5__bn_add_relu_kernel_packed_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem before5 (c : Dev nD) (t : Fin cfg5.N) : (∀ d, (dat5 V c).before 0 t d = iblk5 V c 0 t)
    ∧ (∀ d, (dat5 V c).before 1 t d = iblk5 V c 1 t)
    ∧ (∀ d, (dat5 V c).before 2 t d = iblk5 V c 2 t)
    ∧ (∀ d, (dat5 V c).before 3 t d = iblk5 V c 3 t)
    ∧ (∀ d, (dat5 V c).before 4 t d = iblk5 V c 4 t)
    ∧ (∀ d, (dat5 V c).before 5 t d = iblk5 V c 5 t) := by
  refine ⟨?_, ?_, ?_, ?_, ?_, ?_⟩ <;> exact fun d => (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5 V c t]
  rw [show (dat5 V c).owesAt () t.succ = (dat5 V c).owesAt () t.castSucc from rfl]
  dsimp only [dat5]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe

end Cert.KernelIdeal.Hand

end
-- ==== Proof.KI.Fold.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import proofs.«412279_j89026082111590_3_alg».proof.Proof.KI.Reg0
import proofs.«412279_j89026082111590_3_alg».proof.Proof.KI.Reg1
import proofs.«412279_j89026082111590_3_alg».proof.Proof.KI.Reg2
import proofs.«412279_j89026082111590_3_alg».proof.Proof.KI.Reg3
import proofs.«412279_j89026082111590_3_alg».proof.Proof.KI.Reg4
import proofs.«412279_j89026082111590_3_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

section Exits
variable (V : (c : Dev nD) → (b : Ref sig .tc) → Buf (Elt F) ((c : Thread nD τ).loc b))

def exit1 (c : Dev nD) (w : Fin cfg1.W) : Buf (Elt F) ((cfg1.win w).arr.view.loc (c : Thread nD τ)) :=
  (dat1 V c).arrAt w cfg1.N
def exit3 (c : Dev nD) (w : Fin cfg3.W) : Buf (Elt F) ((cfg3.win w).arr.view.loc (c : Thread nD τ)) :=
  (dat3 V c).arrAt w cfg3.N
def exit5 (c : Dev nD) (w : Fin cfg5.W) : Buf (Elt F) ((cfg5.win w).arr.view.loc (c : Thread nD τ)) :=
  (dat5 V c).arrAt w cfg5.N

end Exits

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => exit0 (V3 m ρ) c w
theorem W4_arr (c : Dev nD) (w : Fin cfg0.W) :
    W4 m ρ c (Proc.devRef .tc (Pipeline.arrRef spec0 w)) = exit0 (V3 m ρ) c w :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => exit1 (V5 m ρ) c w
theorem W6_arr (c : Dev nD) (w : Fin cfg1.W) :
    W6 m ρ c (Proc.devRef .tc (Pipeline.arrRef spec1 w)) = exit1 (V5 m ρ) c w :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => exit2 (V7 m ρ) c w
theorem W8_arr (c : Dev nD) (w : Fin cfg2.W) :
    W8 m ρ c (Proc.devRef .tc (Pipeline.arrRef spec2 w)) = exit2 (V7 m ρ) c w :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => exit3 (V9 m ρ) c w
theorem W10_arr (c : Dev nD) (w : Fin cfg3.W) :
    W10 m ρ c (Proc.devRef .tc (Pipeline.arrRef spec3 w)) = exit3 (V9 m ρ) c w :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => exit4 (V11 m ρ) c w
theorem W12_arr (c : Dev nD) (w : Fin cfg4.W) :
    W12 m ρ c (Proc.devRef .tc (Pipeline.arrRef spec4 w)) = exit4 (V11 m ρ) c w :=
  Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) :=
  Pipeline.withArrays_of_ne spec4 c _ _ b hb
abbrev W13 : Dev nD → Valuation τ sig (Elt F) := fun c => StableHlo.after hostOps5 (W12 m ρ c)
abbrev V13 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => exit5 (V13 m ρ) c w
theorem W14_arr (c : Dev nD) (w : Fin cfg5.W) :
    W14 m ρ c (Proc.devRef .tc (Pipeline.arrRef spec5 w)) = exit5 (V13 m ρ) c w :=
  Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) :=
  Pipeline.withArrays_of_ne spec5 c _ _ b hb
abbrev W15 : Dev nD → Valuation τ sig (Elt F) := fun c => StableHlo.after hostOps6 (W14 m ρ c)

end Cert.KernelIdeal.Hand

end
-- ==== Proof.KI.Run.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import proofs.«412279_j89026082111590_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrays_of_arraysAt {cfg : Cfg sig Λ₀} {c : Dev nD} (rd : RDat τ (Elt F) Unit ℕ (UR sig nD τ) ℕ cfg c) (n : ℕ)
    (E : (w : Fin cfg.W) → Buf (Elt F) ((cfg.win w).arr.view.loc (c : Thread nD τ)))
    (h : ∀ w G, rd.ArrAt w n G → G = E w) : (rd.arraysAt n : sProp 𝕄) ⊢ rd.arrays E := by
  unfold RDat.arraysAt RDat.arrays
  exact bigSep_mono fun w _ =>
    show iprop(∃ G, ⌜rd.ArrAt w n G⌝ ∗ (cfg.win w).arr.view.loc (c : Thread nD τ) ↦[(cfg.win w).arr.view.set]{rd.share w} G)
        ⊢ ((cfg.win w).arr.view.loc (c : Thread nD τ) ↦[(cfg.win w).arr.view.set]{rd.share w} E w : sProp 𝕄) from by
      iintro ⟨%G, %hG, H⟩; rw [← h w G hG]; iexact H

abbrev adm : (p : Fin 6) → (pcfgs (F := F) p).Adm := fun p => (cfgs p).toPCfg_adm

theorem unscopedBufs_of_arraysR {p : Fin 6} (hw : Pipeline.WinFacts (Pipeline.pin (pcfgs (F := F)) adm p).spec)
    (harr : ∀ w, ((Pipeline.pin (pcfgs (F := F)) adm p).spec w).arr.IsWhole) (c : Dev nD)
    (rds : (p : Fin 6) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays G ∗ Pipeline.unscopedRest (Ix := Unit) (Name := ℕ) (U := UR sig nD τ) (Lvl := ℕ) (Pipeline.pin (pcfgs (F := F)) adm p).spec c V)
      ⊢ (unscopedBufs (Ix := Unit) (Name := ℕ) (U := UR sig nD τ) (Lvl := ℕ) c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hG])) (Entails.of_eq ?_)
  unfold Pipeline.unscopedRest
  exact bigSep_congr fun b hb => by rw [hrest b (Finset.mem_sdiff.mp hb).2]

def rdats : (p : Fin 6) → (c : Dev nD) → RDat τ (Elt F) Unit ℕ (UR sig nD τ) ℕ (Pipeline.pin (pcfgs (F := F)) adm p) c
  | ⟨0, _⟩ => fun c => rdat0 (V3 m ρ) c
  | ⟨1, _⟩ => fun c => (dat1 (V5 m ρ) c).toR
  | ⟨2, _⟩ => fun c => rdat2 (V7 m ρ) c
  | ⟨3, _⟩ => fun c => (dat3 (V9 m ρ) c).toR
  | ⟨4, _⟩ => fun c => rdat4 (V11 m ρ) c
  | ⟨5, _⟩ => fun c => (dat5 (V13 m ρ) c).toR
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig) (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

theorem rd_plain (p : Fin 6) (c : Dev nD) : (∀ w, (rdats m ρ p c).q w = fullShare) ∧ (∀ t, (rdats m ρ p c).owed t = 0)
    ∧ (∀ t x, x ∈ (rdats m ρ p c).recorded t) ∧ ∀ t, (rdats m ρ p c).Φ t = Pipeline.ΦA (Pipeline.pin (pcfgs (F := F)) adm p).spec c := by
  fin_cases p <;> exact ⟨fun _ => rfl, fun _ => rfl, fun _ _ => trivial, fun _ => rfl⟩

set_option backward.isDefEq.respectTransparency.types false in

def reg (p : Fin 6) (l : Pipeline.LaunchFacts (nD := nD) (τ := τ) cfgs p) (Wi Wo : Dev nD → Valuation τ sig (Elt F))
    (hbody : ∀ c, (rdats m ρ p c).BodyObligation (defs₀ (F := F)) 𝒱₀ () Set.univ)
    (hA : ∀ c w, (rdats m ρ p c).A w = Wi c (Proc.devRef .tc (Pipeline.arrRef (Pipeline.pin (pcfgs (F := F)) adm p).spec w)))
    (E : (c : Dev nD) → (w : Fin (Pipeline.pin (pcfgs (F := F)) adm p).W) → Buf (Elt F) (((Pipeline.pin (pcfgs (F := F)) adm p).spec w).arr.view.loc (c : Thread nD τ)))
    (hE : ∀ c w G, (rdats m ρ p c).ArrAt w (Pipeline.pin (pcfgs (F := F)) adm p).N G → G = E c w)
    (harr : ∀ c w, Wo c (Proc.devRef .tc (Pipeline.arrRef (Pipeline.pin (pcfgs (F := F)) adm p).spec w)) = E c w)
    (hne : ∀ c b, (∀ w, Pipeline.arrRef (Pipeline.pin (pcfgs (F := F)) adm p).spec w ≠ b) → Wo c (Proc.devRef .tc b) = Wi c (Proc.devRef .tc b)) :
    Pipeline.RDat.RegionSeg (pcfgs (F := F)) adm (rdats m ρ) () defs₀ 𝒱₀ L lv p where
  win := l.win.to₀
  block_pos := l.block_pos
  stage_whole := l.stage_whole
  K := PEmpty
  osem k := k.elim
  ho := Pipeline.OwnSemFacts.none _
  hbody := hbody
  hwaits := Pipeline.RDat.hwaits_of_owed_zero _ _ _ _ L lv p fun c => (rd_plain m ρ p c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Wi c b
  hentry c := by
    obtain ⟨hq, howed, hrec, -⟩ := rd_plain m ρ p c
    rw [Pipeline.ownSems0_none]
    have hsplit := Pipeline.RDat.arrays_of_unscopedBufs (p := p) (pcfgs (F := F)) adm (rdats m ρ) l.win l.arr_whole c
      ((rdats m ρ p c).share_full hq) (fun b => Wi c b) (hA c)
    rw [Pipeline.unscopedBufs_held] at hsplit
    unfold Pipeline.RDat.owesAt Pipeline.owesWithin
    rw [howed]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec 0 _)
      iexact HO
    isplitl [Hp]; · iexact Hp
    iexact Hrest
  hin c := by
    rw [(rd_plain m ρ p c).2.2.2]; unfold Pipeline.ΦA
    iintro ⟨Hp, -, Hr⟩
    isplitl [Hr]; · iexact Hr
    iexact Hp
  hout c := by
    rw [Pipeline.ownSems0_none, (rd_plain m ρ p c).2.2.2]; unfold Pipeline.ΦA
    iintro ⟨Hr, Hp⟩
    isplitl [Hp]; · iexact Hp
    isplitr; · iempintro
    iexact Hr
  hexit c := by
    obtain ⟨hq, howed, -, -⟩ := rd_plain m ρ p c
    have harrs := arrays_of_arraysAt (rdats m ρ p c) (Pipeline.pin (pcfgs (F := F)) adm p).N (E c) (hE c)
    have hjoin := unscopedBufs_of_arraysR (p := p) l.win l.arr_whole c (rdats m ρ) ((rdats m ρ p c).share_full hq)
      (fun b => Wi c b) (fun b => Wo c b) (E c) (fun w => (harr c w).symm)
      fun b hb => hne c b fun w e => hb (Finset.mem_image.mpr ⟨w, Finset.mem_univ _, e⟩)
    rw [Pipeline.unscopedBufs_held] at hjoin
    unfold Pipeline.RDat.owesAt Pipeline.owesWithin
    rw [howed]
    iintro ⟨Ha, HO, HY, Hrest⟩
    ihave Ha' := harrs $$ Ha
    imodintro
    isplitl [Ha' Hrest]
    · iapply hjoin; isplitl [Ha'] <;> iassumption
    isplitl [HY]; · iexact HY
    icases HO with ⟨%W, -, HO⟩; iexists W; iexact HO

set_option backward.isDefEq.respectTransparency.types false in
abbrev segs : List (Pipeline.RDat.Seg (pcfgs (F := F)) adm (rdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .region (reg m ρ 0 launch0 (W3 m ρ) (W4 m ρ) (body_obligation0 (V3 m ρ)) (rdat0_A (V3 m ρ)) (exit0 (V3 m ρ)) (arrAt0 (V3 m ρ)) (W4_arr m ρ) (W4_of_ne m ρ)),
    .host (hseg hostOps1 hostOps1_sub (W4 m ρ)),
    .region (reg m ρ 1 launch1 (W5 m ρ) (W6 m ρ) (fun c => (body_obligation1 (V5 m ρ) c).toR) (A_eq1 (V5 m ρ)) (exit1 (V5 m ρ)) (fun c w => (dat1 (V5 m ρ) c).toR_arrAt w cfg1.N) (W6_arr m ρ) (W6_of_ne m ρ)),
    .host (hseg hostOps2 hostOps2_sub (W6 m ρ)),
    .region (reg m ρ 2 launch2 (W7 m ρ) (W8 m ρ) (body_obligation2 (V7 m ρ)) (rdat2_A (V7 m ρ)) (exit2 (V7 m ρ)) (arrAt2 (V7 m ρ)) (W8_arr m ρ) (W8_of_ne m ρ)),
    .host (hseg hostOps3 hostOps3_sub (W8 m ρ)),
    .region (reg m ρ 3 launch3 (W9 m ρ) (W10 m ρ) (fun c => (body_obligation3 (V9 m ρ) c).toR) (A_eq3 (V9 m ρ)) (exit3 (V9 m ρ)) (fun c w => (dat3 (V9 m ρ) c).toR_arrAt w cfg3.N) (W10_arr m ρ) (W10_of_ne m ρ)),
    .host (hseg hostOps4 hostOps4_sub (W10 m ρ)),
    .region (reg m ρ 4 launch4 (W11 m ρ) (W12 m ρ) (body_obligation4 (V11 m ρ)) (rdat4_A (V11 m ρ)) (exit4 (V11 m ρ)) (arrAt4 (V11 m ρ)) (W12_arr m ρ) (W12_of_ne m ρ)),
    .host (hseg hostOps5 hostOps5_sub (W12 m ρ)),
    .region (reg m ρ 5 launch5 (W13 m ρ) (W14 m ρ) (fun c => (body_obligation5 (V13 m ρ) c).toR) (A_eq5 (V13 m ρ)) (exit5 (V13 m ρ)) (fun c w => (dat5 (V13 m ρ) c).toR_arrAt w cfg5.N) (W14_arr m ρ) (W14_of_ne m ρ)),
    .host (hseg hostOps6 hostOps6_sub (W14 m ρ)) ]
theorem main_run (c : Dev nD) : main (F := F) c = Pipeline.RDat.Seg.run (segs m ρ) :=
  (main_chain c).trans (by rw [Pipeline.RDat.Seg.run_eq_chain]; rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Hand

end
-- ==== Proof.KI.Args.lean ====
import proofs.«412279_j89026082111590_3_alg».proof.Proof.Gen.KernelIdeal.Launch
import proofs.«412279_j89026082111590_3_alg».proof.Proof.Gen.KernelIdeal.Skeleton
import proofs.«412279_j89026082111590_3_alg».proof.Proof.Gen.KernelIdeal.Points
import proofs.«412279_j89026082111590_3_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe

variable {F : FTy → Type} [FloatOps F]

local macro "wr_mem" : tactic =>
  `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

abbrev written0 : List (Ref sig .tc) := [main_v0, main_v1, main_v2, main_v3, main_cst, main_v4, main_v5, main_v6, main_cst_0, main_c]
theorem keep0 (W : Valuation τ sig (Elt F)) (r : Ref sig .tc) (h : r ∉ written0) :
    StableHlo.after (hostOps0 (F := F)) W (Proc.devRef .tc r) = W (Proc.devRef .tc r) :=
  StableHlo.after_of_writes_sub hostOps0 W (by simp only [List.Forall]; (repeat' apply And.intro); all_goals wr_mem) h

abbrev written0_1 : List (Ref sig .tc) := [main_call0_v0, main_call0_v1, main_call0_v2, main_call0_v3, main_call0_v4, main_v7]
theorem keep0_1 (W : Valuation τ sig (Elt F)) (r : Ref sig .tc) (h : r ∉ written0_1) :
    StableHlo.after (hostOps0_1 (F := F)) W (Proc.devRef .tc r) = W (Proc.devRef .tc r) :=
  StableHlo.after_of_writes_sub hostOps0_1 W (by simp only [List.Forall]; (repeat' apply And.intro); all_goals wr_mem) h

abbrev written0_2 : List (Ref sig .tc) := [main_v8, main_v9, main_c_1, main_v10, main_v11, main_v12, main_v13, main_v14, main_v15, main_cst_2, main_v16, main_v17, main_cst_3, main_v18, main_v19, main_v20, main_cst_4, main_v21, main_v22, main_v23, main_cst_5, main_v24, main_v25, main_v26, main_v27, main_v28, main_v29, main_v30, main_v31, main_v32, main_v33, main_v34, main_v35, main_v36, main_c_6, main_v37, main_v38, main_v39, main_v40, main_v41, main_v42, main_v43, main_c_7, main_v44, main_v45, main_v46, main_v47, main_v48, main_v49, main_v50, main_c_8, main_v51, main_v52, main_v53, main_v54, main_v55, main_v56, main_v57, main_c_9, main_v58, main_v59, main_v60, main_v61, main_v62, main_v63, main_v64, main_v65, main_v66, main_cst_10, main_v67, main_cst_11, main_v68, main_v69, main_v70, main_cst_12, main_v71, main_v72, main_cst_13, main_v73, main_v74, main_c_14, main_v75, main_v76, main_c_15, main_v77, main_v78, main_v79, main_v80, main_v81, main_v82, main_v83, main_v84]
set_option maxHeartbeats 4000000 in
theorem keep0_2 (W : Valuation τ sig (Elt F)) (r : Ref sig .tc) (h : r ∉ written0_2) :
    StableHlo.after (hostOps0_2 (F := F)) W (Proc.devRef .tc r) = W (Proc.devRef .tc r) :=
  StableHlo.after_of_writes_sub hostOps0_2 W (by simp only [List.Forall]; (repeat' apply And.intro); all_goals wr_mem) h

abbrev written1 : List (Ref sig .tc) := [main_cst_16, main_v86, main_cst_17, main_v87, main_v88, main_cst_18, main_v89, main_cst_19, main_v90, main_v91, main_v92, main_v93, main_cst_20, main_v94, main_v95, main_v96, main_v97, main_v98, main_v99, main_v100, main_v101, main_v102, main_v103, main_v104]
theorem keep1 (W : Valuation τ sig (Elt F)) (r : Ref sig .tc) (h : r ∉ written1) :
    StableHlo.after (hostOps1 (F := F)) W (Proc.devRef .tc r) = W (Proc.devRef .tc r) :=
  StableHlo.after_of_writes_sub hostOps1 W (by simp only [List.Forall]; (repeat' apply And.intro); all_goals wr_mem) h

abbrev written2 : List (Ref sig .tc) := [main_v106, main_c_21, main_v107, main_v108, main_c_22, main_v109, main_v110, main_v111, main_v112, main_v113, main_cst_23, main_v114, main_v115, main_v116, main_v117, main_c_24, main_v118, main_v119, main_v120, main_v121, main_v122, main_cst_25, main_v123, main_v124, main_v125, main_v126, main_v127, main_v128, main_v129, main_c_26, main_v130, main_v131, main_v132, main_v133, main_v134, main_cst_27, main_v135, main_v136, main_v137, main_v138, main_v139, main_v140, main_v141, main_c_28, main_v142, main_v143, main_v144, main_v145, main_v146, main_cst_29, main_v147, main_v148, main_v149, main_v150, main_v151, main_v152, main_v153, main_c_30, main_v154, main_v155, main_v156, main_v157, main_v158, main_cst_31, main_v159, main_v160, main_v161, main_v162, main_v163, main_v164]
set_option maxHeartbeats 4000000 in
theorem keep2 (W : Valuation τ sig (Elt F)) (r : Ref sig .tc) (h : r ∉ written2) :
    StableHlo.after (hostOps2 (F := F)) W (Proc.devRef .tc r) = W (Proc.devRef .tc r) :=
  StableHlo.after_of_writes_sub hostOps2 W (by simp only [List.Forall]; (repeat' apply And.intro); all_goals wr_mem) h

abbrev written3 : List (Ref sig .tc) := [main_cst_32, main_v166, main_cst_33, main_v167, main_v168, main_cst_34, main_v169, main_cst_35, main_v170, main_v171, main_v172, main_v173, main_cst_36, main_v174, main_v175, main_v176, main_v177, main_v178, main_v179, main_v180, main_v181, main_v182, main_v183, main_v184]
theorem keep3 (W : Valuation τ sig (Elt F)) (r : Ref sig .tc) (h : r ∉ written3) :
    StableHlo.after (hostOps3 (F := F)) W (Proc.devRef .tc r) = W (Proc.devRef .tc r) :=
  StableHlo.after_of_writes_sub hostOps3 W (by simp only [List.Forall]; (repeat' apply And.intro); all_goals wr_mem) h

abbrev written4 : List (Ref sig .tc) := [main_v186, main_c_37, main_v187, main_v188, main_c_38, main_v189, main_v190, main_v191, main_v192, main_v193, main_cst_39, main_v194, main_v195, main_v196, main_v197, main_c_40, main_v198, main_v199, main_v200, main_v201, main_v202, main_cst_41, main_v203, main_v204, main_v205, main_v206, main_v207, main_v208, main_v209, main_c_42, main_v210, main_v211, main_v212, main_v213, main_v214, main_cst_43, main_v215, main_v216, main_v217, main_v218, main_v219, main_v220, main_v221, main_c_44, main_v222, main_v223, main_v224, main_v225, main_v226, main_cst_45, main_v227, main_v228, main_v229, main_v230, main_v231, main_v232, main_v233, main_c_46, main_v234, main_v235, main_v236, main_v237, main_v238, main_cst_47, main_v239, main_v240, main_v241, main_v242, main_v243, main_v244]
set_option maxHeartbeats 4000000 in
theorem keep4 (W : Valuation τ sig (Elt F)) (r : Ref sig .tc) (h : r ∉ written4) :
    StableHlo.after (hostOps4 (F := F)) W (Proc.devRef .tc r) = W (Proc.devRef .tc r) :=
  StableHlo.after_of_writes_sub hostOps4 W (by simp only [List.Forall]; (repeat' apply And.intro); all_goals wr_mem) h

abbrev written5 : List (Ref sig .tc) := [main_cst_48, main_v246, main_cst_49, main_v247, main_v248, main_cst_50, main_v249, main_cst_51, main_v250, main_v251, main_v252, main_v253, main_cst_52, main_v254, main_v255, main_v256, main_v257, main_v258, main_v259, main_v260, main_v261, main_v262, main_v263, main_v264, main_v265]
theorem keep5 (W : Valuation τ sig (Elt F)) (r : Ref sig .tc) (h : r ∉ written5) :
    StableHlo.after (hostOps5 (F := F)) W (Proc.devRef .tc r) = W (Proc.devRef .tc r) :=
  StableHlo.after_of_writes_sub hostOps5 W (by simp only [List.Forall]; (repeat' apply And.intro); all_goals wr_mem) h

abbrev written6 : List (Ref sig .tc) := [main_v267]
theorem keep6 (W : Valuation τ sig (Elt F)) (r : Ref sig .tc) (h : r ∉ written6) :
    StableHlo.after (hostOps6 (F := F)) W (Proc.devRef .tc r) = W (Proc.devRef .tc r) :=
  StableHlo.after_of_writes_sub hostOps6 W (by simp only [List.Forall]; (repeat' apply And.intro); all_goals wr_mem) h

variable (m : (ℓ : Loc nD τ sig) → Buf (Elt F) ℓ) (ρ : Dev nD → PrngReg)

theorem W4_in1 (c : Dev nD) : W4 m ρ c (Proc.devRef .tc main_arg12) = W3 m ρ c (Proc.devRef .tc main_arg12) :=
  (W4_arr m ρ c 1).trans (((dat0 (V3 m ρ) c).arrAt_in 1 rfl cfg0.N).trans (A_eq0 (V3 m ρ) c 1))
theorem W8_in3 (c : Dev nD) : W8 m ρ c (Proc.devRef .tc main_arg5) = W7 m ρ c (Proc.devRef .tc main_arg5) :=
  (W8_arr m ρ c 3).trans (((dat2 (V7 m ρ) c).arrAt_in 3 rfl cfg2.N).trans (A_eq2 (V7 m ρ) c 3))
theorem W12_in3 (c : Dev nD) : W12 m ρ c (Proc.devRef .tc main_arg9) = W11 m ρ c (Proc.devRef .tc main_arg9) :=
  (W12_arr m ρ c 3).trans (((dat4 (V11 m ρ) c).arrAt_in 3 rfl cfg4.N).trans (A_eq4 (V11 m ρ) c 3))

abbrev argRefs : List (Ref sig .tc) := [main_arg0, main_arg1, main_arg2, main_arg3, main_arg4, main_arg5, main_arg6, main_arg7, main_arg8, main_arg9, main_arg10, main_arg11, main_arg12, main_arg13, main_arg14]

/-- No host operation writes an argument array and no region writes one back, so each ends as launched. -/
theorem W15_arg (c : Dev nD) (b : Ref sig .tc) (hb : b ∈ argRefs) : W15 m ρ c (Proc.devRef .tc b) = m ((c : Thread nD τ).loc b) := by
  have hw : ∀ b ∈ argRefs, b ∉ written0 ∧ b ∉ written0_1 ∧ b ∉ written0_2 ∧ b ∉ written1 ∧ b ∉ written2 ∧ b ∉ written3 ∧ b ∉ written4
      ∧ b ∉ written5 ∧ b ∉ written6 := by decide
  have hr : ∀ b ∈ argRefs, ((∀ w, Pipeline.arrRef spec0 w ≠ b) ∨ b = main_arg12) ∧ (∀ w, Pipeline.arrRef spec1 w ≠ b)
      ∧ ((∀ w, Pipeline.arrRef spec2 w ≠ b) ∨ b = main_arg5) ∧ (∀ w, Pipeline.arrRef spec3 w ≠ b)
      ∧ ((∀ w, Pipeline.arrRef spec4 w ≠ b) ∨ b = main_arg9) ∧ ∀ w, Pipeline.arrRef spec5 w ≠ b := by decide
  obtain ⟨h0, h0_1, h0_2, h1, h2, h3, h4, h5, h6⟩ := hw b hb
  obtain ⟨r0, r1, r2, r3, r4, r5⟩ := hr b hb
  calc W15 m ρ c (Proc.devRef .tc b)
    _ = W14 m ρ c (Proc.devRef .tc b) := keep6 _ b h6
    _ = W13 m ρ c (Proc.devRef .tc b) := W14_of_ne m ρ c b r5
    _ = W12 m ρ c (Proc.devRef .tc b) := keep5 _ b h5
    _ = W11 m ρ c (Proc.devRef .tc b) := r4.elim (W12_of_ne m ρ c b) fun e => e ▸ W12_in3 m ρ c
    _ = W10 m ρ c (Proc.devRef .tc b) := keep4 _ b h4
    _ = W9 m ρ c (Proc.devRef .tc b) := W10_of_ne m ρ c b r3
    _ = W8 m ρ c (Proc.devRef .tc b) := keep3 _ b h3
    _ = W7 m ρ c (Proc.devRef .tc b) := r2.elim (W8_of_ne m ρ c b) fun e => e ▸ W8_in3 m ρ c
    _ = W6 m ρ c (Proc.devRef .tc b) := keep2 _ b h2
    _ = W5 m ρ c (Proc.devRef .tc b) := W6_of_ne m ρ c b r1
    _ = W4 m ρ c (Proc.devRef .tc b) := keep1 _ b h1
    _ = W3 m ρ c (Proc.devRef .tc b) := r0.elim (W4_of_ne m ρ c b) fun e => e ▸ W4_in1 m ρ c
    _ = W2 m ρ c (Proc.devRef .tc b) := keep0_2 _ b h0_2
    _ = W1 m ρ c (Proc.devRef .tc b) := keep0_1 _ b h0_1
    _ = W0 m ρ c (Proc.devRef .tc b) := keep0 _ b h0
    _ = m ((c : Thread nD τ).loc b) := rfl

theorem run_value : θ_run defs (onTc (τ := τ) (main (F := F))) ⟨m, fun _ => 0, ρ⟩ (fun r => ∀ c : Dev nD,
      r.2.mem ((c : Thread nD τ).loc main_v267) = W15 m ρ c (Proc.devRef .tc main_v267)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)) :=
  (θ_run defs _ _).mono (fun r h c =>
    have H : ∀ b ∈ argRefs, r.2.mem ((c : Thread nD τ).loc b) = m ((c : Thread nD τ).loc b) := fun b hb =>
      (h c _ (mem_uc b ((by decide : ∀ b ∈ argRefs, ¬ (Proc.devRef .tc b : DevRef τ sig).isScoped) b hb))).trans (W15_arg m ρ c b hb)
    ⟨h c _ (mem_uc main_v267 (by decide)), H _ (by decide), H _ (by decide), H _ (by decide), H _ (by decide), H _ (by decide), H _ (by decide), H _ (by decide), H _ (by decide), H _ (by decide), H _ (by decide), H _ (by decide), H _ (by decide), H _ (by decide), H _ (by decide), H _ (by decide)⟩) (run m ρ)

theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)) :=
  (θ_run defs _ _).mono (fun r h c => (h c).2) (run_value m ρ)

end Cert.KernelIdeal.Hand

end
-- ==== Proof.Spec.lean ====
import Idealize.ShloMosaic.PureOps.Ideal
import Mathlib.Algebra.BigOperators.Group.Finset.Basic

noncomputable section

namespace Spline

open Idealize.ShloMosaic Finset

abbrev cN : EReal := Ideal.ofBits .f32 0x47435000#32

abbrev epsBN : EReal := Ideal.ofBits .f32 0x3727C5AC#32

def mm {N K : ℕ} (a : Fin N → Fin K → EReal) (w : Fin K → Fin 64 → EReal) (n : Fin N) (o : Fin 64) : EReal :=
  ∑ k : Fin K, a n k * w k o

def bnPt (x μ v g b : EReal) : EReal := ((x - μ) * Ideal.rsqrt (v + epsBN)) * g + b

def tileRow (t : Fin 25) (r : Fin 2000) : Fin 50000 := ⟨2000 * t.val + r.val, by have := t.isLt; have := r.isLt; omega⟩

def tileSum (y : Fin 50000 → Fin 64 → EReal) (t : Fin 25) (o : Fin 64) : EReal := ∑ r : Fin 2000, y (tileRow t r) o
def tileSq (y : Fin 50000 → Fin 64 → EReal) (t : Fin 25) (o : Fin 64) : EReal := ∑ r : Fin 2000, y (tileRow t r) o * y (tileRow t r) o
def meanK (y : Fin 50000 → Fin 64 → EReal) (o : Fin 64) : EReal := Ideal.div ((0 : EReal) + ∑ t : Fin 25, tileSum y t o) cN
def varK (y : Fin 50000 → Fin 64 → EReal) (o : Fin 64) : EReal :=
  max (Ideal.div ((0 : EReal) + ∑ t : Fin 25, tileSq y t o) cN - meanK y o * meanK y o) 0
def bnK (y : Fin 50000 → Fin 64 → EReal) (g b : Fin 64 → EReal) (n : Fin 50000) (o : Fin 64) : EReal :=
  bnPt (y n o) (meanK y o) (varK y o) (g o) (b o)

def meanR (y : Fin 50000 → Fin 64 → EReal) (o : Fin 64) : EReal := Ideal.div ((0 : EReal) + ∑ n : Fin 50000, y n o) cN
def varR (y : Fin 50000 → Fin 64 → EReal) (o : Fin 64) : EReal :=
  Ideal.div ((0 : EReal) + ∑ n : Fin 50000, (y n o - meanR y o) * (y n o - meanR y o)) cN
def bnR (y : Fin 50000 → Fin 64 → EReal) (g b : Fin 64 → EReal) (n : Fin 50000) (o : Fin 64) : EReal :=
  bnPt (y n o) (meanR y o) (varR y o) (g o) (b o)

def scat {C R : ℕ} (idx : Fin 800000 → BitVec 32) (upd : Fin 800000 → Fin C → EReal) (r : Fin R) (c : Fin C) : EReal :=
  (0 : EReal) + ∑ e ∈ univ.filter (fun e : Fin 800000 => (idx e).toInt = (r.val : ℤ)), upd e c

def deg (dst : Fin 800000 → BitVec 32) (n : Fin 50000) : EReal :=
  (0 : EReal) + ∑ _e ∈ univ.filter (fun e : Fin 800000 => (dst e).toInt = (n.val : ℤ)), (1 : EReal)

def degMax (dst : Fin 800000 → BitVec 32) (n : Fin 50000) : EReal := max (deg dst n) 1

def invDeg (dst : Fin 800000 → BitVec 32) (n : Fin 50000) : EReal := Ideal.div 1 (degMax dst n)

def slot (dst : Fin 800000 → BitVec 32) (wi : Fin 800000 → Fin 4 → BitVec 32) (b : Fin 4) (e : Fin 800000) : BitVec 32 :=
  dst e * 25#32 + wi e b

def acc {C : ℕ} (dst : Fin 800000 → BitVec 32) (wi : Fin 800000 → Fin 4 → BitVec 32) (xg : Fin 800000 → Fin C → EReal)
    (w : Fin 800000 → Fin 4 → EReal) (r : Fin 1250000) (c : Fin C) : EReal :=
  ((((0 : EReal) + scat (slot dst wi 0) (fun e c => xg e c * w e 0) r c) + scat (slot dst wi 1) (fun e c => xg e c * w e 1) r c)
    + scat (slot dst wi 2) (fun e c => xg e c * w e 2) r c) + scat (slot dst wi 3) (fun e c => xg e c * w e 3) r c

def accRow {C : ℕ} (hC : 0 < C) (A : Fin 1250000 → Fin C → EReal) (n : Fin 50000) (j : Fin (25 * C)) : EReal :=
  A ⟨25 * n.val + j.val / C, by
      have := n.isLt
      have h1 : j.val / C < 25 := Nat.div_lt_of_lt_mul (by have := j.isLt; omega)
      omega⟩ ⟨j.val % C, Nat.mod_lt _ hC⟩

def wFlat {C : ℕ} (hC : 0 < C) (W : Fin 25 → Fin C → Fin 64 → EReal) (j : Fin (25 * C)) (o : Fin 64) : EReal :=
  W ⟨j.val / C, Nat.div_lt_of_lt_mul (by have := j.isLt; omega)⟩ ⟨j.val % C, Nat.mod_lt _ hC⟩ o

def convK {C : ℕ} (hC : 0 < C) (dst : Fin 800000 → BitVec 32) (wi : Fin 800000 → Fin 4 → BitVec 32) (basis : Fin 800000 → Fin 4 → EReal)
    (dstRow : Fin 800000 → Fin 50000) (xg : Fin 800000 → Fin C → EReal) (feat : Fin 50000 → Fin C → EReal)
    (W : Fin 25 → Fin C → Fin 64 → EReal) (root : Fin C → Fin 64 → EReal) (n : Fin 50000) (o : Fin 64) : EReal :=
  (∑ j : Fin (25 * C), accRow hC (acc dst wi xg (fun e b => basis e b * invDeg dst (dstRow e))) n j * wFlat hC W j o)
    + ∑ k : Fin C, feat n k * root k o

def convR {C : ℕ} (hC : 0 < C) (dst : Fin 800000 → BitVec 32) (wi : Fin 800000 → Fin 4 → BitVec 32) (basis : Fin 800000 → Fin 4 → EReal)
    (xg : Fin 800000 → Fin C → EReal) (feat : Fin 50000 → Fin C → EReal)
    (W : Fin 25 → Fin C → Fin 64 → EReal) (root : Fin C → Fin 64 → EReal) (n : Fin 50000) (o : Fin 64) : EReal :=
  Ideal.div (∑ j : Fin (25 * C), accRow hC (acc dst wi xg basis) n j * wFlat hC W j o) (degMax dst n)
    + ∑ k : Fin C, feat n k * root k o

end Spline

end
-- ==== Proof.SpecInputs.lean ====
import proofs.«412279_j89026082111590_3_alg».proof.Proof.Spec
import proofs.«412279_j89026082111590_3_alg».proof.Proof.RefRead
import Idealize.ShloMosaic.Lib.ValueIdx

noncomputable section

namespace Spline

open Idealize.ShloMosaic ValueIdx

def xinF (X0 : (⟨2, ![50000, 30]⟩ : Shape).Idx → EReal) (X1 : (⟨2, ![50000, 2]⟩ : Shape).Idx → EReal) (n : Fin 50000) (k : Fin 32) : EReal :=
  if h : k.val < 30 then X0 (ix2 n ⟨k.val, h⟩) else X1 (ix2 n ⟨k.val - 30, by have := k.isLt; omega⟩)

def srcW (X3 : (⟨2, ![2, 800000]⟩ : Shape).Idx → BitVec 32) (e : Fin 800000) : BitVec 32 := X3 (ix2 (0 : Fin 2) e)
def dstW (X3 : (⟨2, ![2, 800000]⟩ : Shape).Idx → BitVec 32) (e : Fin 800000) : BitVec 32 := X3 (ix2 (1 : Fin 2) e)

def gIdx (w : BitVec 32) : Fin 50000 :=
  ⟨min (if w.toInt < 0 then w + 50000#32 else w).toInt.toNat 49999, by omega⟩

def basisF (X2 : (⟨2, ![800000, 2]⟩ : Shape).Idx → EReal) (e : Fin 800000) (b : Fin 4) : EReal :=
  Cert.ReferenceIdeal.ReadP.val_main_v32 (F := Ideal) X2 (ix2 e b)
def wiF (X2 : (⟨2, ![800000, 2]⟩ : Shape).Idx → EReal) (e : Fin 800000) (b : Fin 4) : BitVec 32 :=
  Cert.ReferenceIdeal.ReadP.val_main_v65 (F := Ideal) X2 (ix2 e b)

def w3 {C : ℕ} (X : (⟨3, ![25, C, 64]⟩ : Shape).Idx → EReal) (k : Fin 25) (c : Fin C) (o : Fin 64) : EReal := X (ix3 k c o)
def m2 {A B : ℕ} (X : (⟨2, ![A, B]⟩ : Shape).Idx → EReal) (a : Fin A) (b : Fin B) : EReal := X (ix2 a b)
def v1 {A : ℕ} (X : (⟨1, ![A]⟩ : Shape).Idx → EReal) (a : Fin A) : EReal := X (ix1 a)

def xg {C : ℕ} (X3 : (⟨2, ![2, 800000]⟩ : Shape).Idx → BitVec 32) (feat : Fin 50000 → Fin C → EReal) (e : Fin 800000) (c : Fin C) : EReal :=
  feat (gIdx (srcW X3 e)) c

section Layer

variable (X0 : (⟨2, ![50000, 30]⟩ : Shape).Idx → EReal) (X1 : (⟨2, ![50000, 2]⟩ : Shape).Idx → EReal)
  (X2 : (⟨2, ![800000, 2]⟩ : Shape).Idx → EReal) (X3 : (⟨2, ![2, 800000]⟩ : Shape).Idx → BitVec 32)
  (X4 : (⟨3, ![25, 32, 64]⟩ : Shape).Idx → EReal) (X5 : (⟨2, ![32, 64]⟩ : Shape).Idx → EReal)
  (X6 X7 : (⟨1, ![64]⟩ : Shape).Idx → EReal) (X8 : (⟨3, ![25, 64, 64]⟩ : Shape).Idx → EReal)
  (X9 : (⟨2, ![64, 64]⟩ : Shape).Idx → EReal) (X10 X11 : (⟨1, ![64]⟩ : Shape).Idx → EReal)
  (X12 : (⟨2, ![32, 64]⟩ : Shape).Idx → EReal) (X13 X14 : (⟨1, ![64]⟩ : Shape).Idx → EReal)

def skipK : Fin 50000 → Fin 64 → EReal := bnK (mm (xinF X0 X1) (m2 X12)) (v1 X13) (v1 X14)
def y1K : Fin 50000 → Fin 64 → EReal :=
  convK (by decide : 0 < 32) (dstW X3) (wiF X2) (basisF X2) (fun e => gIdx (dstW X3 e)) (xg X3 (xinF X0 X1)) (xinF X0 X1) (w3 X4) (m2 X5)
def h1K (n : Fin 50000) (o : Fin 64) : EReal := max (bnK (y1K X0 X1 X2 X3 X4 X5) (v1 X6) (v1 X7) n o) 0
def y2K : Fin 50000 → Fin 64 → EReal :=
  convK (by decide : 0 < 64) (dstW X3) (wiF X2) (basisF X2) (fun e => gIdx (dstW X3 e)) (xg X3 (h1K X0 X1 X2 X3 X4 X5 X6 X7)) (h1K X0 X1 X2 X3 X4 X5 X6 X7) (w3 X8) (m2 X9)
def outK (n : Fin 50000) (o : Fin 64) : EReal :=
  max (bnK (y2K X0 X1 X2 X3 X4 X5 X6 X7 X8 X9) (v1 X10) (v1 X11) n o + skipK X0 X1 X12 X13 X14 n o) 0

def skipR : Fin 50000 → Fin 64 → EReal := bnR (mm (xinF X0 X1) (m2 X12)) (v1 X13) (v1 X14)
def y1R : Fin 50000 → Fin 64 → EReal :=
  convR (by decide : 0 < 32) (dstW X3) (wiF X2) (basisF X2) (xg X3 (xinF X0 X1)) (xinF X0 X1) (w3 X4) (m2 X5)
def h1R (n : Fin 50000) (o : Fin 64) : EReal := max (bnR (y1R X0 X1 X2 X3 X4 X5) (v1 X6) (v1 X7) n o) 0
def y2R : Fin 50000 → Fin 64 → EReal :=
  convR (by decide : 0 < 64) (dstW X3) (wiF X2) (basisF X2) (xg X3 (h1R X0 X1 X2 X3 X4 X5 X6 X7)) (h1R X0 X1 X2 X3 X4 X5 X6 X7) (w3 X8) (m2 X9)
def outR (n : Fin 50000) (o : Fin 64) : EReal :=
  max (bnR (y2R X0 X1 X2 X3 X4 X5 X6 X7 X8 X9) (v1 X10) (v1 X11) n o + skipR X0 X1 X12 X13 X14 n o) 0

end Layer

end Spline

end
-- ==== Proof.KHostBN.lean ====
import proofs.«412279_j89026082111590_3_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«412279_j89026082111590_3_alg».proof.Proof.SpecInputs

set_option maxRecDepth 16384

noncomputable section

namespace Cert.KernelIdeal.KHost

open Cert.KernelIdeal Cert.KernelIdeal.Gen Idealize.ShloMosaic Idealize.ShloMosaic.ValueIdx

/-- The column mean from the twenty-five per-tile column sums: their total over the row count. -/
def meanOf (s : S25x64.Idx → EReal) (o : Fin 64) : EReal :=
  Ideal.div ((0 : EReal) + ∑ t : Fin 25, s (ix2 t o)) (Ideal.ofBits .f32 0x47435000#32)

/-- The column variance from the per-tile sums and sums of squares: mean square less squared mean, clamped at zero. -/
def varOf (s q : S25x64.Idx → EReal) (o : Fin 64) : EReal :=
  max (Ideal.div ((0 : EReal) + ∑ t : Fin 25, q (ix2 t o)) (Ideal.ofBits .f32 0x47435000#32)
    - meanOf s o * meanOf s o) 0

def meanTerm (s : S25x64.Idx → EReal) : S64.Idx → EReal :=
  (Host.divf (Host.reduceAdd (s : FVec Ideal S25x64 .f32) (constant (F := Ideal) S_ .f32 0x00000000#32) reducesTo_S25x64_S64_d0 h_S_)
    (broadcastInDim S64 ![] bcast_S_S64 (constant (F := Ideal) S_ .f32 0x47435000#32)) : FVec Ideal S64 .f32)

def varTerm (s q : S25x64.Idx → EReal) : S64.Idx → EReal :=
  (maximumf (subf (meanTerm q : FVec Ideal S64 .f32) (mulf (meanTerm s : FVec Ideal S64 .f32) (meanTerm s)))
    (broadcastInDim S64 ![] bcast_S_S64 (constant (F := Ideal) S_ .f32 0x00000000#32)) : FVec Ideal S64 .f32)

def packRow (x : S64.Idx → EReal) : S1x128.Idx → EReal :=
  shapeCast S1x128 (concatenate S128 0 [⟨S64, x⟩, ⟨S64, x⟩] concatenates_S64_S64_S128_d0) shapeCasts_S128_S1x128

def packRows (y : S50000x64.Idx → EReal) : S25000x128.Idx → EReal :=
  shapeCast S25000x128 y shapeCasts_S50000x64_S25000x128

theorem meanTerm_apply (s : S25x64.Idx → EReal) (o : Fin 64) : meanTerm s (ix1 o) = meanOf s o := by
  have hR : S25x64.Reduces [0] S64 := by decide
  unfold meanTerm
  rw [hostDivf_apply, hostReduceAdd_apply, broadcastInDim_scalar_apply, constant_apply, constant_apply,
    Ideal.ofBits_zero_f32, Ideal.hostReduceAdd_single reducesTo_S25x64_S64_d0 hR]
  have hl : ∀ k : Fin (S25x64.size 0), hR.lift (ix1 o) k = ix2 (k : Fin 25) o := fun k => funext fun c => Fin.ext (by
    match c with
    | ⟨0, _⟩ => rfl
    | ⟨1, _⟩ => rfl)
  simp only [hl]
  rfl

theorem varTerm_apply (s q : S25x64.Idx → EReal) (o : Fin 64) : varTerm s q (ix1 o) = varOf s q o := by
  unfold varTerm
  rw [maximumf_apply, subf_apply, mulf_apply, meanTerm_apply, meanTerm_apply, broadcastInDim_scalar_apply, constant_apply,
    Ideal.ofBits_zero_f32]
  rfl

/-- Position `l` of packed row `p` is column `l % 64` of row `2 p + l / 64`: both flatten to `128 p + l`. -/
theorem rows_at {A : S25000x128.Idx → EReal} {y : S50000x64.Idx → EReal} (h : A = packRows y) (p : Fin 25000) (l : Fin 128) :
    A (ix2 p l) = y (ix2 (⟨2 * p.val + l.val / 64, by omega⟩ : Fin 50000) (⟨l.val % 64, Nat.mod_lt _ (by norm_num)⟩ : Fin 64)) := by
  subst h
  exact shapeCast_apply y _ _ _ (by
    rw [Shape.rowMajor_val_two, Shape.rowMajor_val_two]
    show (2 * p.val + l.val / 64) * 64 + l.val % 64 = p.val * 128 + l.val
    omega)

/-- Of a row written twice side by side, position `l` is column `l % 64`. -/
theorem row_at {A : S1x128.Idx → EReal} {x : S64.Idx → EReal} (h : A = packRow x) (l : Fin 128) :
    A (ix2 (0 : Fin 1) l) = x (ix1 (⟨l.val % 64, Nat.mod_lt _ (by norm_num)⟩ : Fin 64)) := by
  subst h
  unfold packRow
  rw [shapeCast_a_1a_apply]
  exact concatenate_replicate_apply (t := S128) (s₁ := S64) 0 2 x concatenates_S64_S64_S128_d0 rfl (ix1 l)
    (ix1 (⟨l.val % 64, Nat.mod_lt _ (by norm_num)⟩ : Fin 64)) rfl (fun b hb => absurd (Subsingleton.elim _ _) hb)

theorem meanOf_tile {S : S25x64.Idx → EReal} {y : Fin 50000 → Fin 64 → EReal}
    (hS : ∀ t o, S (ix2 t o) = Spline.tileSum y t o) (o : Fin 64) : meanOf S o = Spline.meanK y o := by
  unfold meanOf Spline.meanK
  exact congrArg (fun s : EReal => Ideal.div ((0 : EReal) + s) Spline.cN) (Finset.sum_congr rfl fun t _ => hS t o)

theorem varOf_tile {S Q : S25x64.Idx → EReal} {y : Fin 50000 → Fin 64 → EReal}
    (hS : ∀ t o, S (ix2 t o) = Spline.tileSum y t o) (hQ : ∀ t o, Q (ix2 t o) = Spline.tileSq y t o) (o : Fin 64) :
    varOf S Q o = Spline.varK y o := by
  unfold varOf Spline.varK
  rw [meanOf_tile hS o]
  exact congrArg (fun s : EReal => max (Ideal.div ((0 : EReal) + s) Spline.cN - Spline.meanK y o * Spline.meanK y o) 0)
    (Finset.sum_congr rfl fun t _ => hQ t o)

/-- The five packed operands of a normalisation give at `(p, l)` the normalisation of the array at row `2 p + l / 64`, column `l % 64`. -/
theorem bnPt_packed {R : S25000x128.Idx → EReal} {M V G B : S1x128.Idx → EReal} {Y : S50000x64.Idx → EReal}
    {S Q : S25x64.Idx → EReal} {g b g' b' : S64.Idx → EReal} {y : Fin 50000 → Fin 64 → EReal}
    (hR : R = packRows Y) (hM : M = packRow (meanTerm S)) (hV : V = packRow (varTerm S Q))
    (hG : G = packRow g) (hB : B = packRow b) (hY : ∀ n o, Y (ix2 n o) = y n o)
    (hS : ∀ t o, S (ix2 t o) = Spline.tileSum y t o) (hQ : ∀ t o, Q (ix2 t o) = Spline.tileSq y t o)
    (hg : g = g') (hb : b = b') (p : Fin 25000) (l : Fin 128) :
    Spline.bnPt (R (ix2 p l)) (M (ix2 (0 : Fin 1) l)) (V (ix2 (0 : Fin 1) l)) (G (ix2 (0 : Fin 1) l)) (B (ix2 (0 : Fin 1) l))
      = Spline.bnK y (Spline.v1 g') (Spline.v1 b') (⟨2 * p.val + l.val / 64, by omega⟩ : Fin 50000)
          (⟨l.val % 64, Nat.mod_lt _ (by norm_num)⟩ : Fin 64) := by
  subst hg hb
  unfold Spline.bnK Spline.v1
  rw [rows_at hR, (row_at hM l).trans (meanTerm_apply S _), (row_at hV l).trans (varTerm_apply S Q _), row_at hG, row_at hB,
    hY, meanOf_tile hS, varOf_tile hS hQ]

variable (W : Valuation τ sig (Elt Ideal))

theorem h1_rows_eq : (StableHlo.after (hostOps1 (F := Ideal)) W (Proc.devRef .tc main_v96) : S25000x128.Idx → EReal) = packRows (W (Proc.devRef .tc main_v85_0) : S50000x64.Idx → EReal) := by
  dsimp only [hostOps1]; after_results; rfl

theorem h1_mean_eq : (StableHlo.after (hostOps1 (F := Ideal)) W (Proc.devRef .tc main_v98) : S1x128.Idx → EReal) = packRow (meanTerm (W (Proc.devRef .tc main_v85_1) : S25x64.Idx → EReal)) := by
  dsimp only [hostOps1]; after_results; rfl

set_option maxHeartbeats 4000000 in
theorem h1_var_eq : (StableHlo.after (hostOps1 (F := Ideal)) W (Proc.devRef .tc main_v100) : S1x128.Idx → EReal)
    = packRow (varTerm (W (Proc.devRef .tc main_v85_1) : S25x64.Idx → EReal) (W (Proc.devRef .tc main_v85_2) : S25x64.Idx → EReal)) := by
  dsimp only [hostOps1]; after_results; rfl

theorem h1_gain_eq : (StableHlo.after (hostOps1 (F := Ideal)) W (Proc.devRef .tc main_v102) : S1x128.Idx → EReal) = packRow (W (Proc.devRef .tc main_arg13) : S64.Idx → EReal) := by
  dsimp only [hostOps1]; after_results; rfl

theorem h1_bias_eq : (StableHlo.after (hostOps1 (F := Ideal)) W (Proc.devRef .tc main_v104) : S1x128.Idx → EReal) = packRow (W (Proc.devRef .tc main_arg14) : S64.Idx → EReal) := by
  dsimp only [hostOps1]; after_results; rfl

theorem h3_rows_eq : (StableHlo.after (hostOps3 (F := Ideal)) W (Proc.devRef .tc main_v176) : S25000x128.Idx → EReal) = packRows (W (Proc.devRef .tc main_v165_0) : S50000x64.Idx → EReal) := by
  dsimp only [hostOps3]; after_results; rfl

theorem h3_mean_eq : (StableHlo.after (hostOps3 (F := Ideal)) W (Proc.devRef .tc main_v178) : S1x128.Idx → EReal) = packRow (meanTerm (W (Proc.devRef .tc main_v165_1) : S25x64.Idx → EReal)) := by
  dsimp only [hostOps3]; after_results; rfl

set_option maxHeartbeats 4000000 in
theorem h3_var_eq : (StableHlo.after (hostOps3 (F := Ideal)) W (Proc.devRef .tc main_v180) : S1x128.Idx → EReal)
    = packRow (varTerm (W (Proc.devRef .tc main_v165_1) : S25x64.Idx → EReal) (W (Proc.devRef .tc main_v165_2) : S25x64.Idx → EReal)) := by
  dsimp only [hostOps3]; after_results; rfl

theorem h3_gain_eq : (StableHlo.after (hostOps3 (F := Ideal)) W (Proc.devRef .tc main_v182) : S1x128.Idx → EReal) = packRow (W (Proc.devRef .tc main_arg6) : S64.Idx → EReal) := by
  dsimp only [hostOps3]; after_results; rfl

theorem h3_bias_eq : (StableHlo.after (hostOps3 (F := Ideal)) W (Proc.devRef .tc main_v184) : S1x128.Idx → EReal) = packRow (W (Proc.devRef .tc main_arg7) : S64.Idx → EReal) := by
  dsimp only [hostOps3]; after_results; rfl

theorem h5_rows_eq : (StableHlo.after (hostOps5 (F := Ideal)) W (Proc.devRef .tc main_v256) : S25000x128.Idx → EReal) = packRows (W (Proc.devRef .tc main_v245_0) : S50000x64.Idx → EReal) := by
  dsimp only [hostOps5]; after_results; rfl

theorem h5_mean_eq : (StableHlo.after (hostOps5 (F := Ideal)) W (Proc.devRef .tc main_v259) : S1x128.Idx → EReal) = packRow (meanTerm (W (Proc.devRef .tc main_v245_1) : S25x64.Idx → EReal)) := by
  dsimp only [hostOps5]; after_results; rfl

set_option maxHeartbeats 4000000 in
theorem h5_var_eq : (StableHlo.after (hostOps5 (F := Ideal)) W (Proc.devRef .tc main_v261) : S1x128.Idx → EReal)
    = packRow (varTerm (W (Proc.devRef .tc main_v245_1) : S25x64.Idx → EReal) (W (Proc.devRef .tc main_v245_2) : S25x64.Idx → EReal)) := by
  dsimp only [hostOps5]; after_results; rfl

theorem h5_gain_eq : (StableHlo.after (hostOps5 (F := Ideal)) W (Proc.devRef .tc main_v263) : S1x128.Idx → EReal) = packRow (W (Proc.devRef .tc main_arg10) : S64.Idx → EReal) := by
  dsimp only [hostOps5]; after_results; rfl

theorem h5_bias_eq : (StableHlo.after (hostOps5 (F := Ideal)) W (Proc.devRef .tc main_v265) : S1x128.Idx → EReal) = packRow (W (Proc.devRef .tc main_arg11) : S64.Idx → EReal) := by
  dsimp only [hostOps5]; after_results; rfl

theorem h5_rows2_eq : (StableHlo.after (hostOps5 (F := Ideal)) W (Proc.devRef .tc main_v257) : S25000x128.Idx → EReal) = packRows (W (Proc.devRef .tc main_v106) : S50000x64.Idx → EReal) := by
  dsimp only [hostOps5]; after_results; rfl

end Cert.KernelIdeal.KHost
-- ==== Proof.ScatterGather.lean ====
import Idealize.ShloMosaic.PureOps.Ideal
import Idealize.ShloMosaic.PureOps.Ideal.Laws
import Idealize.ShloMosaic.Lib.ValueIdx
import Idealize.ShloMosaic.Lib.StableHlo.Predicate
import Mathlib.Algebra.BigOperators.Group.Finset.Basic

noncomputable section

open scoped BigOperators

namespace SplineSG

open Idealize.ShloMosaic Idealize.ShloMosaic.ValueIdx

theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro hf a
      rw [← hf]
      exact (Int.toNat_of_nonneg (h a).1).symm
    · intro hf
      funext a
      refine Fin.ext ?_
      show (d.start j idx a + (d.window j a : ℤ)).toNat = (i a).val
      rw [hf a]; exact Int.toNat_natCast _
  · constructor
    · intro hf; exact absurd hf (by simp)
    · intro hf
      exact absurd (fun a => by rw [hf a]; exact ⟨Int.natCast_nonneg _, by exact_mod_cast (i a).isLt⟩) h

section Rows
variable {R C E w : ℕ}

abbrev rowsDims (R C E : ℕ) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ := ⟨[1], [0], [0], 1, wf⟩

theorem rows_start0 (wf : ScatterDims.WF ⟨2, ![R, C]⟩ ⟨2, ![E, 1]⟩ ⟨2, ![E, C]⟩ [1] [0] [0] 1)
    (idx : IVec ⟨2, ![E, 1]⟩ w) (e : Fin E) (c' : Fin C) :
    (rowsDims R C E wf).start (ix2 e c') idx 0
      = (idx (ix2 e (0 : Fin 1))).toInt := by
  unfold ScatterDims.start
  rw [dif_pos (List.mem_singleton.mpr rfl)]
  congr 2
  funext b
  refine Fin.ext ?_
  match b with
  | ⟨0, _⟩ => rfl
  | ⟨1, _⟩ => rfl

theorem rows_start1 (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowsDims R C E wf).start j idx 1 = 0 := by
  unfold ScatterDims.start
  rw [dif_neg (by show (1 : Fin 2) ∉ [(0 : Fin 2)]; decide)]

theorem rows_window0 (wf : ScatterDims.WF ⟨2, ![R, C]⟩ ⟨2, ![E, 1]⟩ ⟨2, ![E, C]⟩ [1] [0] [0] 1)
    (j : (⟨2, ![E, C]⟩ : Shape).Idx) :
    (rowsDims R C E wf).window j 0 = 0 := by
  unfold ScatterDims.window
  rw [dif_neg (by show (0 : Fin 2) ∉ (List.finRange 2).filter (· ∉ [(0 : Fin 2)]); decide)]

theorem rows_window1 (wf : ScatterDims.WF ⟨2, ![R, C]⟩ ⟨2, ![E, 1]⟩ ⟨2, ![E, C]⟩ [1] [0] [0] 1)
    (j : (⟨2, ![E, C]⟩ : Shape).Idx) :
    (rowsDims R C E wf).window j 1 = (j 1).val := by
  unfold ScatterDims.window
  rw [dif_pos (by show (1 : Fin 2) ∈ (List.finRange 2).filter (· ∉ [(0 : Fin 2)]); decide)]
  rfl

theorem rows_lands_iff (wf : ScatterDims.WF ⟨2, ![R, C]⟩ ⟨2, ![E, 1]⟩ ⟨2, ![E, C]⟩ [1] [0] [0] 1)
    (idx : IVec ⟨2, ![E, 1]⟩ w) (e : Fin E) (c' : Fin C) (r : Fin R) (c : Fin C) :
    (rowsDims R C E wf).resultIdx? (ix2 e c') idx
        = some (ix2 r c)
      ↔ (idx (ix2 e (0 : Fin 1))).toInt = (r.val : ℤ) ∧ c' = c := by
  rw [resultIdx?_eq_some_iff]
  have e0 := rows_start0 wf idx e c'
  have e1 := rows_start1 wf idx (ix2 e c')
  have w0 := rows_window0 wf (ix2 e c')
  have w1 := rows_window1 wf (ix2 e c')
  constructor
  · intro h
    have h0 := h 0
    have h1 := h 1
    rw [e0, w0] at h0
    rw [e1, w1] at h1
    have h0' : (idx (ix2 e (0 : Fin 1))).toInt + ((0 : ℕ) : ℤ) = ((r.val : ℕ) : ℤ) := h0
    refine ⟨by omega, Fin.ext ?_⟩
    have h1' : (0 : ℤ) + ((c'.val : ℕ) : ℤ) = ((c.val : ℕ) : ℤ) := h1
    omega
  · rintro ⟨h0, rfl⟩ a
    match a with
    | ⟨0, _⟩ =>
      have : (rowsDims R C E wf).start (ix2 e c') idx 0 + ((rowsDims R C E wf).window (ix2 e c') 0 : ℤ)
          = ((r.val : ℕ) : ℤ) := by rw [e0, w0, h0]; exact add_zero _
      exact this
    | ⟨1, _⟩ =>
      have : (rowsDims R C E wf).start (ix2 e c') idx 1 + ((rowsDims R C E wf).window (ix2 e c') 1 : ℤ)
          = ((c'.val : ℕ) : ℤ) := by rw [e1, w1]; exact zero_add _
      exact this

-- A scatter-add of rows, read at (r, c): the operand there plus the sum of the updates whose index word is r.
theorem rows_host_scatterAdd_apply {φ : FTy} (d : ScatterDims ⟨2, ![R, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (x : FVec Ideal ⟨2, ![R, C]⟩ φ) (idx : IVec ⟨2, ![E, 1]⟩ w)
    (upd : FVec Ideal ⟨2, ![E, C]⟩ φ) (r : Fin R) (c : Fin C) :
    Host.scatterAdd (F := Ideal) d x idx upd (ix2 r c)
      = x (ix2 r c) + ∑ e ∈ Finset.univ.filter (fun e : Fin E => (idx (ix2 e (0 : Fin 1))).toInt = (r.val : ℤ)),
          upd (ix2 e c) := by
  obtain ⟨uw, iw, sd, iv, wf⟩ := d
  have h1 : uw = [1] := h1
  have h2 : iw = [0] := h2
  have h3 : sd = [0] := h3
  have h4 : iv = 1 := h4
  subst h1 h2 h3 h4
  show Ideal.hostScatterAdd (rowsDims R C E wf) x idx upd (ix2 r c) = _
  unfold Ideal.hostScatterAdd
  congr 1
  symm
  refine Finset.sum_nbij' (fun e => ix2 e c) (fun j => (⟨(j 0).val, idx2_lt0 j⟩ : Fin E)) ?_ ?_ ?_ ?_ ?_
  · intro e he
    rw [Finset.mem_filter] at he ⊢
    exact ⟨Finset.mem_univ _, (rows_lands_iff wf idx e c r c).2 ⟨he.2, rfl⟩⟩
  · intro j hj
    obtain ⟨a, b, rfl⟩ : ∃ (a : Fin E) (b : Fin C), j = ix2 a b := ⟨j 0, j 1, eq_ix2 j⟩
    rw [Finset.mem_filter] at hj ⊢
    exact ⟨Finset.mem_univ _, ((rows_lands_iff wf idx a b r c).1 hj.2).1⟩
  · intro e _; rfl
  · intro j hj
    obtain ⟨a, b, rfl⟩ : ∃ (a : Fin E) (b : Fin C), j = ix2 a b := ⟨j 0, j 1, eq_ix2 j⟩
    rw [Finset.mem_filter] at hj
    obtain rfl : b = c := ((rows_lands_iff wf idx a b r c).1 hj.2).2
    rfl
  · intro e _; rfl

end Rows

section Flat
variable {R E w : ℕ}

abbrev flatDims (R E : ℕ) (wf : ScatterDims.WF ⟨1, ![R]⟩ ⟨2, ![E, 1]⟩ ⟨1, ![E]⟩ [] [0] [0] 1) :
    ScatterDims ⟨1, ![R]⟩ ⟨2, ![E, 1]⟩ ⟨1, ![E]⟩ := ⟨[], [0], [0], 1, wf⟩

theorem flat_start0 (wf : ScatterDims.WF ⟨1, ![R]⟩ ⟨2, ![E, 1]⟩ ⟨1, ![E]⟩ [] [0] [0] 1)
    (idx : IVec ⟨2, ![E, 1]⟩ w) (e : Fin E) :
    (flatDims R E wf).start (ix1 e) idx 0 = (idx (ix2 e (0 : Fin 1))).toInt := by
  unfold ScatterDims.start
  rw [dif_pos (List.mem_singleton.mpr rfl)]
  congr 2
  funext b
  refine Fin.ext ?_
  match b with
  | ⟨0, _⟩ => rfl
  | ⟨1, _⟩ => rfl

theorem flat_window0 (wf : ScatterDims.WF ⟨1, ![R]⟩ ⟨2, ![E, 1]⟩ ⟨1, ![E]⟩ [] [0] [0] 1)
    (j : (⟨1, ![E]⟩ : Shape).Idx) :
    (flatDims R E wf).window j 0 = 0 := by
  unfold ScatterDims.window
  rw [dif_neg (by show (0 : Fin 1) ∉ (List.finRange 1).filter (· ∉ [(0 : Fin 1)]); decide)]

theorem flat_lands_iff (wf : ScatterDims.WF ⟨1, ![R]⟩ ⟨2, ![E, 1]⟩ ⟨1, ![E]⟩ [] [0] [0] 1)
    (idx : IVec ⟨2, ![E, 1]⟩ w) (e : Fin E) (r : Fin R) :
    (flatDims R E wf).resultIdx? (ix1 e) idx = some (ix1 r)
      ↔ (idx (ix2 e (0 : Fin 1))).toInt = (r.val : ℤ) := by
  rw [resultIdx?_eq_some_iff]
  have e0 := flat_start0 wf idx e
  have w0 := flat_window0 (R := R) wf (ix1 e)
  constructor
  · intro h
    have h0 := h 0
    rw [e0, w0] at h0
    have h0' : (idx (ix2 e (0 : Fin 1))).toInt + ((0 : ℕ) : ℤ) = ((r.val : ℕ) : ℤ) := h0
    omega
  · intro h0 a
    match a with
    | ⟨0, _⟩ =>
      have : (flatDims R E wf).start (ix1 e) idx 0 + ((flatDims R E wf).window (ix1 e) 0 : ℤ)
          = ((r.val : ℕ) : ℤ) := by rw [e0, w0, h0]; exact add_zero _
      exact this

-- The same for a flat operand: the sum runs over the updates whose index word is r.
theorem flat_host_scatterAdd_apply {φ : FTy} (d : ScatterDims ⟨1, ![R]⟩ ⟨2, ![E, 1]⟩ ⟨1, ![E]⟩)
    (h1 : d.updateWindowDims = []) (h2 : d.insertedWindowDims = [0])
    (h3 : d.scatterDimsToOperandDims = [0]) (h4 : d.indexVectorDim = 1)
    (x : FVec Ideal ⟨1, ![R]⟩ φ) (idx : IVec ⟨2, ![E, 1]⟩ w) (upd : FVec Ideal ⟨1, ![E]⟩ φ) (r : Fin R) :
    Host.scatterAdd (F := Ideal) d x idx upd (ix1 r)
      = x (ix1 r) + ∑ e ∈ Finset.univ.filter (fun e : Fin E => (idx (ix2 e (0 : Fin 1))).toInt = (r.val : ℤ)),
          upd (ix1 e) := by
  obtain ⟨uw, iw, sd, iv, wf⟩ := d
  have h1 : uw = [] := h1
  have h2 : iw = [0] := h2
  have h3 : sd = [0] := h3
  have h4 : iv = 1 := h4
  subst h1 h2 h3 h4
  show Ideal.hostScatterAdd (flatDims R E wf) x idx upd (ix1 r) = _
  unfold Ideal.hostScatterAdd
  congr 1
  symm
  refine Finset.sum_nbij' (fun e => ix1 e) (fun j => (⟨(j 0).val, (j 0).isLt⟩ : Fin E)) ?_ ?_ ?_ ?_ ?_
  · intro e he
    rw [Finset.mem_filter] at he ⊢
    exact ⟨Finset.mem_univ _, (flat_lands_iff wf idx e r).2 he.2⟩
  · intro j hj
    obtain ⟨a, rfl⟩ : ∃ (a : Fin E), j = ix1 a := ⟨j 0, eq_ix1 j⟩
    rw [Finset.mem_filter] at hj ⊢
    exact ⟨Finset.mem_univ _, (flat_lands_iff wf idx a r).1 hj.2⟩
  · intro e _; rfl
  · intro j hj
    obtain ⟨a, rfl⟩ : ∃ (a : Fin E), j = ix1 a := ⟨j 0, eq_ix1 j⟩
    rfl
  · intro e _; rfl

end Flat

section RowGather
variable {α : Type} {R C E w : ℕ}

abbrev rowsGatherDims (R C E : ℕ)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ := ⟨[1], [0], [], [], [0], 1, ![1, C], wf⟩

-- A gather of rows reads row (index word, clamped into range) at column c.
theorem rows_gather_apply (hR : 0 < R) (d : GatherDims ⟨2, ![R, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![E, 1]⟩ w) (e : Fin E) (c : Fin C) :
    Host.gather d x idx (ix2 e c)
      = x (ix2 (⟨min (idx (ix2 e (0 : Fin 1))).toInt.toNat (R - 1), by omega⟩ : Fin R) c) := by
  obtain ⟨od, cd, ob, sb, sm, iv, ss, wf⟩ := d
  have h1 : od = [1] := h1
  have h2 : cd = [0] := h2
  have h3 : ob = [] := h3
  have h4 : sb = [] := h4
  have h5 : sm = [0] := h5
  have h6 : iv = 1 := h6
  have h7 : ss = ![1, C] := h7
  subst h1 h2 h3 h4 h5 h6 h7
  show Host.gather (rowsGatherDims R C E wf) x idx (ix2 e c) = _
  unfold Host.gather
  congr 1
  funext a
  refine Fin.ext ?_
  match a with
  | ⟨0, _⟩ =>
    show (rowsGatherDims R C E wf).start (ix2 e c) idx 0 + (rowsGatherDims R C E wf).batchCoord (ix2 e c) 0
      + (rowsGatherDims R C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims R C E wf).startIndexMap from List.mem_singleton.mpr rfl)]
    have hsi : (rowsGatherDims R C E wf).siIdx (ix2 e c)
        ⟨List.idxOf (0 : Fin 2) (rowsGatherDims R C E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsGatherDims R C E wf).start (ix2 e c) idx 1 + (rowsGatherDims R C E wf).batchCoord (ix2 e c) 1
      + (rowsGatherDims R C E wf).offCoord (ix2 e c) 1 = c.val
    have hs : (rowsGatherDims R C E wf).start (ix2 e c) idx 1 = 0 := by
      unfold GatherDims.start
      rw [dif_neg (by show (1 : Fin 2) ∉ [(0 : Fin 2)]; decide)]
    have ho : (rowsGatherDims R C E wf).offCoord (ix2 e c) 1 = c.val := by
      unfold GatherDims.offCoord
      rw [dif_pos (by show (1 : Fin 2) ∈ (List.finRange 2).filter (· ∉ [(0 : Fin 2)] ++ []); decide)]
      rfl
    rw [GatherDims.batchCoord_eq_zero _ _ _ List.not_mem_nil, hs, ho]
    omega

end RowGather

section FlatGather
variable {α : Type} {R E w : ℕ}

theorem ofFin_eq_ix1 {n : ℕ} (k : Fin n) : Shape.Idx.ofFin k = ix1 k :=
  (eq_ix1 _).trans (congrArg ix1 (Shape.Idx.ofFin_zero k))

-- A flat gather reads the operand at the index word, clamped into range.
theorem flat_gather_apply (hR : 0 < R) (d : GatherDims ⟨1, ![R]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![R]⟩ : Shape).Idx → α) (idx : IVec ⟨2, ![E, 1]⟩ w) (e : Fin E) :
    Host.gather d x idx (ix1 e)
      = x (ix1 (⟨min (idx (ix2 e (0 : Fin 1))).toInt.toNat (R - 1), by omega⟩ : Fin R)) := by
  have h := StableHlo.Predicate.gather_take d h2 h3 h5 h6 x idx e hR
  have e2 : StableHlo.Predicate.ixP e = ix2 e (0 : Fin 1) := eq_ix2 _
  simp only [ofFin_eq_ix1, e2] at h
  exact h

end FlatGather

section Words

theorem toInt_mul_add (a k b : BitVec 32) (ha : 0 ≤ a.toInt) (hk : 0 ≤ k.toInt) (hb : 0 ≤ b.toInt)
    (h : a.toInt * k.toInt + b.toInt < 2147483648) :
    (a * k + b).toInt = a.toInt * k.toInt + b.toInt := by
  have hm : 0 ≤ a.toInt * k.toInt := Int.mul_nonneg ha hk
  rw [BitVec.toInt_add, BitVec.toInt_mul]
  have h1 : (a.toInt * k.toInt).bmod (2 ^ 32) = a.toInt * k.toInt := by
    rw [Int.bmod_def]; omega
  rw [h1, Int.bmod_def]; omega

end Words

end SplineSG

end
-- ==== Proof.KHostConv.lean ====
import proofs.«412279_j89026082111590_3_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«412279_j89026082111590_3_alg».proof.Proof.ScatterGather
import proofs.«412279_j89026082111590_3_alg».proof.Proof.Spec
import proofs.«412279_j89026082111590_3_alg».proof.Proof.SpecInputs

set_option maxRecDepth 16384

noncomputable section

namespace Cert.KernelIdeal.KHost

open Cert.KernelIdeal Cert.KernelIdeal.Gen Idealize.ShloMosaic Idealize.ShloMosaic.ValueIdx

def srcCol (v1 : S800000.Idx → BitVec 32) : S800000x1.Idx → BitVec 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

def slotCol (off : Fin 2 → ℕ) (hs : S800000x4.Slices off S800000x1) (v3 : S800000.Idx → BitVec 32)
    (v65 : S800000x4.Idx → BitVec 32) : S800000x1.Idx → BitVec 32 :=
  broadcastInDim S800000x1 ![0] bcast_S800000_S800000x1_0
    (addi (muli v3 (broadcastInDim S800000 ![] bcast_S_S800000 (constantI S_ 32 25#32)))
      (shapeCast S800000 (extractStridedSlice S800000x1 off v65 hs) shapeCasts_S800000x1_S800000))

section Chan

variable {C : ℕ} (hz : S_.BroadcastsInDim (⟨2, ![1250000, C]⟩ : Shape) ![])
  (hb : S800000x1.BroadcastsInDim (⟨2, ![800000, C]⟩ : Shape) ![0, 1])
  (dg : GatherDims (⟨2, ![50000, C]⟩ : Shape) S800000x1 (⟨2, ![800000, C]⟩ : Shape))
  (ds : ScatterDims (⟨2, ![1250000, C]⟩ : Shape) S800000x1 (⟨2, ![800000, C]⟩ : Shape))

def zerosC : (⟨2, ![1250000, C]⟩ : Shape).Idx → EReal :=
  broadcastInDim (⟨2, ![1250000, C]⟩ : Shape) ![] hz (constant (F := Ideal) S_ .f32 0x00000000#32)

def updC (off : Fin 2 → ℕ) (hs : S800000x4.Slices off S800000x1) (g : (⟨2, ![800000, C]⟩ : Shape).Idx → EReal)
    (v84 : S800000x4.Idx → EReal) : (⟨2, ![800000, C]⟩ : Shape).Idx → EReal :=
  (mulf (g : FVec Ideal (⟨2, ![800000, C]⟩ : Shape) .f32)
    (broadcastInDim (⟨2, ![800000, C]⟩ : Shape) ![0, 1] hb (extractStridedSlice S800000x1 off v84 hs)) :
    FVec Ideal (⟨2, ![800000, C]⟩ : Shape) .f32)

def scatTC (off : Fin 2 → ℕ) (hs : S800000x4.Slices off S800000x1) (g : (⟨2, ![800000, C]⟩ : Shape).Idx → EReal)
    (v3 : S800000.Idx → BitVec 32) (v65 : S800000x4.Idx → BitVec 32) (v84 : S800000x4.Idx → EReal) :
    (⟨2, ![1250000, C]⟩ : Shape).Idx → EReal :=
  Host.scatterAdd (F := Ideal) (φ := .f32) ds (zerosC hz : FVec Ideal (⟨2, ![1250000, C]⟩ : Shape) .f32)
    (slotCol off hs v3 v65) (updC hb off hs g v84 : FVec Ideal (⟨2, ![800000, C]⟩ : Shape) .f32)

/-- The four weighted scatter-adds of the gathered rows, added up from zeros. -/
def accTC (feat : (⟨2, ![50000, C]⟩ : Shape).Idx → EReal) (v1 v3 : S800000.Idx → BitVec 32) (v65 : S800000x4.Idx → BitVec 32)
    (v84 : S800000x4.Idx → EReal) : (⟨2, ![1250000, C]⟩ : Shape).Idx → EReal :=
  (addf (addf (addf (addf (zerosC hz : FVec Ideal (⟨2, ![1250000, C]⟩ : Shape) .f32)
      (scatTC hz hb ds ![0, 0] slices_S800000x4_S800000x1_0_0 (Host.gather dg feat (srcCol v1)) v3 v65 v84))
      (scatTC hz hb ds ![0, 1] slices_S800000x4_S800000x1_0_1 (Host.gather dg feat (srcCol v1)) v3 v65 v84))
      (scatTC hz hb ds ![0, 2] slices_S800000x4_S800000x1_0_2 (Host.gather dg feat (srcCol v1)) v3 v65 v84))
      (scatTC hz hb ds ![0, 3] slices_S800000x4_S800000x1_0_3 (Host.gather dg feat (srcCol v1)) v3 v65 v84) :
    FVec Ideal (⟨2, ![1250000, C]⟩ : Shape) .f32)

end Chan

theorem srcCol_apply (v1 : S800000.Idx → BitVec 32) (e : Fin 800000) :
    srcCol v1 (ix2 e (0 : Fin 1)) = if (v1 (ix1 e)).toInt < 0 then v1 (ix1 e) + 50000#32 else v1 (ix1 e) := by
  unfold srcCol
  rw [broadcastInDim_apply ![0] bcast_S800000_S800000x1_0 _ (ix2 e (0 : Fin 1)) (ix1 e) (fun a => by
    match a with
    | ⟨0, _⟩ => rfl)]
  show Scalar.select (IntOp.cmpi .slt (v1 (ix1 e)) (broadcastInDim S800000 ![] bcast_S_S800000 (constantI S_ 32 0#32) (ix1 e)))
      (IntOp.addi (v1 (ix1 e)) (broadcastInDim S800000 ![] bcast_S_S800000 (constantI S_ 32 50000#32) (ix1 e))) (v1 (ix1 e)) = _
  rw [broadcastInDim_scalar_apply, broadcastInDim_scalar_apply, constantI_apply, constantI_apply]
  generalize v1 (ix1 e) = w
  show (if BitVec.ofBool (w.slt 0#32) = 1 then w + 50000#32 else w) = _
  rw [BitVec.slt_eq_decide, BitVec.toInt_zero]
  by_cases h : w.toInt < 0
  · rw [if_pos h, decide_eq_true h]; rfl
  · rw [if_neg h, decide_eq_false h]; rfl

theorem slotCol_apply (b : ℕ) (hb : b < 4) (hs : S800000x4.Slices ![0, b] S800000x1) (v3 : S800000.Idx → BitVec 32)
    (v65 : S800000x4.Idx → BitVec 32) (e : Fin 800000) :
    slotCol ![0, b] hs v3 v65 (ix2 e (0 : Fin 1)) = v3 (ix1 e) * 25#32 + v65 (ix2 e (⟨b, hb⟩ : Fin 4)) := by
  unfold slotCol
  rw [broadcastInDim_apply ![0] bcast_S800000_S800000x1_0 _ (ix2 e (0 : Fin 1)) (ix1 e) (fun a => by
    match a with
    | ⟨0, _⟩ => rfl)]
  show IntOp.addi (IntOp.muli (v3 (ix1 e)) (broadcastInDim S800000 ![] bcast_S_S800000 (constantI S_ 32 25#32) (ix1 e)))
      (shapeCast S800000 (extractStridedSlice S800000x1 ![0, b] v65 hs) shapeCasts_S800000x1_S800000 (ix1 e)) = _
  rw [broadcastInDim_scalar_apply, constantI_apply,
    shapeCast_apply _ shapeCasts_S800000x1_S800000 (ix1 e) (ix2 e (0 : Fin 1)) (by
      rw [Shape.rowMajor_val_two, Shape.rowMajor_val_one]
      show e.val * 1 + 0 = e.val
      omega),
    slice2_axis1_apply b v65 hs e (0 : Fin 1) (⟨b, hb⟩ : Fin 4) rfl]
  rfl

theorem unpack_rows_apply {α : Type} (y : S25000x128.Idx → α) (n : Fin 50000) (o : Fin 64) :
    shapeCast S50000x64 y shapeCasts_S25000x128_S50000x64 (ix2 n o)
      = y (ix2 (⟨n.val / 2, by omega⟩ : Fin 25000) (⟨64 * (n.val % 2) + o.val, by omega⟩ : Fin 128)) :=
  shapeCast_apply y _ _ _ (by
    rw [Shape.rowMajor_val_two, Shape.rowMajor_val_two]
    show (n.val / 2) * 128 + (64 * (n.val % 2) + o.val) = n.val * 64 + o.val
    omega)

section Chan

variable {C : ℕ} (hz : S_.BroadcastsInDim (⟨2, ![1250000, C]⟩ : Shape) ![])
  (hb : S800000x1.BroadcastsInDim (⟨2, ![800000, C]⟩ : Shape) ![0, 1])
  (dg : GatherDims (⟨2, ![50000, C]⟩ : Shape) S800000x1 (⟨2, ![800000, C]⟩ : Shape))
  (ds : ScatterDims (⟨2, ![1250000, C]⟩ : Shape) S800000x1 (⟨2, ![800000, C]⟩ : Shape))

theorem zerosC_apply (i : (⟨2, ![1250000, C]⟩ : Shape).Idx) : zerosC hz i = 0 := by
  unfold zerosC
  rw [broadcastInDim_scalar_apply, constant_apply, Ideal.ofBits_zero_f32]

theorem updC_apply (b : ℕ) (hb4 : b < 4) (hs : S800000x4.Slices ![0, b] S800000x1) (g : (⟨2, ![800000, C]⟩ : Shape).Idx → EReal)
    (v84 : S800000x4.Idx → EReal) (e : Fin 800000) (c : Fin C) :
    updC hb ![0, b] hs g v84 (ix2 e c) = g (ix2 e c) * v84 (ix2 e (⟨b, hb4⟩ : Fin 4)) := by
  unfold updC
  rw [mulf_apply, broadcastInDim_apply ![0, 1] hb _ (ix2 e c) (ix2 e (0 : Fin 1)) (fun a => by
    match a with
    | ⟨0, _⟩ => rfl
    | ⟨1, _⟩ => rfl),
    slice2_axis1_apply b v84 hs e (0 : Fin 1) (⟨b, hb4⟩ : Fin 4) rfl]

variable (h1 : ds.updateWindowDims = [1]) (h2 : ds.insertedWindowDims = [0])
  (h3 : ds.scatterDimsToOperandDims = [0]) (h4 : ds.indexVectorDim = 1)
include h1 h2 h3 h4

/-- One scatter-add into zeros sums, at a slot, the weighted rows of the edges whose slot word names it. -/
theorem scatTC_apply (b : ℕ) (hb4 : b < 4) (hs : S800000x4.Slices ![0, b] S800000x1) (g : (⟨2, ![800000, C]⟩ : Shape).Idx → EReal)
    (v3 : S800000.Idx → BitVec 32) (v65 : S800000x4.Idx → BitVec 32) (v84 : S800000x4.Idx → EReal)
    (r : Fin 1250000) (c : Fin C) :
    scatTC hz hb ds ![0, b] hs g v3 v65 v84 (ix2 r c)
      = Spline.scat (fun e => v3 (ix1 e) * 25#32 + v65 (ix2 e (⟨b, hb4⟩ : Fin 4)))
          (fun e c => g (ix2 e c) * v84 (ix2 e (⟨b, hb4⟩ : Fin 4))) r c := by
  unfold scatTC Spline.scat
  rw [SplineSG.rows_host_scatterAdd_apply ds h1 h2 h3 h4 _ _ _ r c, zerosC_apply,
    Finset.filter_congr (fun e _ => by rw [slotCol_apply b hb4 hs v3 v65 e])]
  exact congrArg _ (Finset.sum_congr rfl (fun e _ => updC_apply hb b hb4 hs g v84 e c))

/-- The accumulator is `Spline.acc` over the contents read by coordinates, a gathered row being the feature row of the edge's source. -/
theorem accTC_apply (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C]) (feat : (⟨2, ![50000, C]⟩ : Shape).Idx → EReal) (v1 v3 : S800000.Idx → BitVec 32)
    (v65 : S800000x4.Idx → BitVec 32) (v84 : S800000x4.Idx → EReal) (r : Fin 1250000) (c : Fin C) :
    accTC hz hb dg ds feat v1 v3 v65 v84 (ix2 r c)
      = Spline.acc (fun e => v3 (ix1 e)) (fun e b => v65 (ix2 e b))
          (fun e c => feat (ix2 (Spline.gIdx (v1 (ix1 e))) c)) (fun e b => v84 (ix2 e b)) r c := by
  have hgath : ∀ (e : Fin 800000) (c : Fin C),
      Host.gather dg feat (srcCol v1) (ix2 e c) = feat (ix2 (Spline.gIdx (v1 (ix1 e))) c) := fun e c => by
    rw [SplineSG.rows_gather_apply (by norm_num) dg g1 g2 g3 g4 g5 g6 g7 feat (srcCol v1) e c]
    exact congrArg (fun r : Fin 50000 => feat (ix2 r c)) (Fin.ext (by
      show min (srcCol v1 (ix2 e (0 : Fin 1))).toInt.toNat (50000 - 1) = (Spline.gIdx (v1 (ix1 e))).val
      rw [srcCol_apply]
      rfl))
  unfold accTC Spline.acc
  rw [addf_apply, addf_apply, addf_apply, addf_apply, zerosC_apply,
    scatTC_apply hz hb ds h1 h2 h3 h4 0 (by norm_num), scatTC_apply hz hb ds h1 h2 h3 h4 1 (by norm_num),
    scatTC_apply hz hb ds h1 h2 h3 h4 2 (by norm_num), scatTC_apply hz hb ds h1 h2 h3 h4 3 (by norm_num)]
  simp only [hgath]
  rfl

end Chan

theorem accRows32_apply (A : S1250000x32.Idx → EReal) (n : Fin 50000) (j : Fin 800) :
    shapeCast S50000x800 A shapeCasts_S1250000x32_S50000x800 (ix2 n j)
      = A (ix2 (⟨25 * n.val + j.val / 32, by omega⟩ : Fin 1250000) (⟨j.val % 32, Nat.mod_lt _ (by norm_num)⟩ : Fin 32)) :=
  shapeCast_apply A _ _ _ (by
    rw [Shape.rowMajor_val_two, Shape.rowMajor_val_two]
    show (25 * n.val + j.val / 32) * 32 + j.val % 32 = n.val * 800 + j.val
    omega)

theorem wRows32_apply (X : S25x32x64.Idx → EReal) (j : Fin 800) (o : Fin 64) :
    shapeCast S800x64 X shapeCasts_S25x32x64_S800x64 (ix2 j o)
      = X (ix3 (⟨j.val / 32, by omega⟩ : Fin 25) (⟨j.val % 32, Nat.mod_lt _ (by norm_num)⟩ : Fin 32) o) :=
  shapeCast_apply X _ _ _ (by
    rw [Shape.rowMajor_val_three, Shape.rowMajor_val_two]
    show ((j.val / 32) * 32 + j.val % 32) * 64 + o.val = j.val * 64 + o.val
    omega)

theorem accRows64_apply (A : S1250000x64.Idx → EReal) (n : Fin 50000) (j : Fin 1600) :
    shapeCast S50000x1600 A shapeCasts_S1250000x64_S50000x1600 (ix2 n j)
      = A (ix2 (⟨25 * n.val + j.val / 64, by omega⟩ : Fin 1250000) (⟨j.val % 64, Nat.mod_lt _ (by norm_num)⟩ : Fin 64)) :=
  shapeCast_apply A _ _ _ (by
    rw [Shape.rowMajor_val_two, Shape.rowMajor_val_two]
    show (25 * n.val + j.val / 64) * 64 + j.val % 64 = n.val * 1600 + j.val
    omega)

theorem wRows64_apply (X : S25x64x64.Idx → EReal) (j : Fin 1600) (o : Fin 64) :
    shapeCast S1600x64 X shapeCasts_S25x64x64_S1600x64 (ix2 j o)
      = X (ix3 (⟨j.val / 64, by omega⟩ : Fin 25) (⟨j.val % 64, Nat.mod_lt _ (by norm_num)⟩ : Fin 64) o) :=
  shapeCast_apply X _ _ _ (by
    rw [Shape.rowMajor_val_three, Shape.rowMajor_val_two]
    show ((j.val / 64) * 64 + j.val % 64) * 64 + o.val = j.val * 64 + o.val
    omega)

section Stretch2

variable (W : Valuation τ sig (Elt Ideal))

set_option maxHeartbeats 4000000 in
theorem h2_rows_eq : (StableHlo.after (hostOps2 (F := Ideal)) W (Proc.devRef .tc main_v106) : S50000x64.Idx → EReal)
    = shapeCast S50000x64 (W (Proc.devRef .tc main_v105) : S25000x128.Idx → EReal) shapeCasts_S25000x128_S50000x64 := by
  dsimp only [hostOps2]; after_results_simp; rfl

set_option maxHeartbeats 40000000 in
theorem h2_acc_eq : (StableHlo.after (hostOps2 (F := Ideal)) W (Proc.devRef .tc main_v163) : S50000x800.Idx → EReal)
    = shapeCast S50000x800 (accTC bcast_S_S1250000x32 bcast_S800000x1_S800000x32_0_1
        gather_S50000x32_S800000x1_S800000x32_1_0_n_n_0_1_132 scatter_S1250000x32_S800000x1_S800000x32_1_0_0_1
        (W (Proc.devRef .tc main_v66) : S50000x32.Idx → EReal)
        (W (Proc.devRef .tc main_v1) : S800000.Idx → BitVec 32) (W (Proc.devRef .tc main_v3) : S800000.Idx → BitVec 32)
        (W (Proc.devRef .tc main_v65) : S800000x4.Idx → BitVec 32) (W (Proc.devRef .tc main_v84) : S800000x4.Idx → EReal))
      shapeCasts_S1250000x32_S50000x800 := by
  dsimp only [hostOps2]; after_results_simp; rfl

set_option maxHeartbeats 4000000 in
theorem h2_w_eq : (StableHlo.after (hostOps2 (F := Ideal)) W (Proc.devRef .tc main_v164) : S800x64.Idx → EReal)
    = shapeCast S800x64 (W (Proc.devRef .tc main_arg4) : S25x32x64.Idx → EReal) shapeCasts_S25x32x64_S800x64 := by
  dsimp only [hostOps2]; after_results_simp; rfl

theorem h2_acc (n : Fin 50000) (j : Fin 800) :
    (StableHlo.after (hostOps2 (F := Ideal)) W (Proc.devRef .tc main_v163) : S50000x800.Idx → EReal) (ix2 n j)
      = Spline.accRow (by decide : 0 < 32)
          (Spline.acc (fun e => (W (Proc.devRef .tc main_v3) : S800000.Idx → BitVec 32) (ix1 e))
            (fun e b => (W (Proc.devRef .tc main_v65) : S800000x4.Idx → BitVec 32) (ix2 e b))
            (fun e c => (W (Proc.devRef .tc main_v66) : S50000x32.Idx → EReal)
              (ix2 (Spline.gIdx ((W (Proc.devRef .tc main_v1) : S800000.Idx → BitVec 32) (ix1 e))) c))
            (fun e b => (W (Proc.devRef .tc main_v84) : S800000x4.Idx → EReal) (ix2 e b))) n j := by
  rw [h2_acc_eq, accRows32_apply, accTC_apply bcast_S_S1250000x32 bcast_S800000x1_S800000x32_0_1 gather_S50000x32_S800000x1_S800000x32_1_0_n_n_0_1_132 scatter_S1250000x32_S800000x1_S800000x32_1_0_0_1
    rfl rfl rfl rfl rfl rfl rfl rfl rfl rfl rfl]
  rfl

theorem h2_w (j : Fin 800) (o : Fin 64) :
    (StableHlo.after (hostOps2 (F := Ideal)) W (Proc.devRef .tc main_v164) : S800x64.Idx → EReal) (ix2 j o)
      = Spline.wFlat (by decide : 0 < 32)
          (fun k c o => (W (Proc.devRef .tc main_arg4) : S25x32x64.Idx → EReal) (ix3 k c o)) j o := by
  rw [h2_w_eq, wRows32_apply]
  rfl

end Stretch2

section Stretch4

variable (W : Valuation τ sig (Elt Ideal))

set_option maxHeartbeats 4000000 in
theorem h4_rows_eq : (StableHlo.after (hostOps4 (F := Ideal)) W (Proc.devRef .tc main_v186) : S50000x64.Idx → EReal)
    = shapeCast S50000x64 (W (Proc.devRef .tc main_v185) : S25000x128.Idx → EReal) shapeCasts_S25000x128_S50000x64 := by
  dsimp only [hostOps4]; after_results_simp; rfl

set_option maxHeartbeats 40000000 in
theorem h4_acc_eq : (StableHlo.after (hostOps4 (F := Ideal)) W (Proc.devRef .tc main_v243) : S50000x1600.Idx → EReal)
    = shapeCast S50000x1600 (accTC bcast_S_S1250000x64 bcast_S800000x1_S800000x64_0_1
        gather_S50000x64_S800000x1_S800000x64_1_0_n_n_0_1_164 scatter_S1250000x64_S800000x1_S800000x64_1_0_0_1
        (shapeCast S50000x64 (W (Proc.devRef .tc main_v185) : S25000x128.Idx → EReal) shapeCasts_S25000x128_S50000x64)
        (W (Proc.devRef .tc main_v1) : S800000.Idx → BitVec 32) (W (Proc.devRef .tc main_v3) : S800000.Idx → BitVec 32)
        (W (Proc.devRef .tc main_v65) : S800000x4.Idx → BitVec 32) (W (Proc.devRef .tc main_v84) : S800000x4.Idx → EReal))
      shapeCasts_S1250000x64_S50000x1600 := by
  dsimp only [hostOps4]; after_results_simp; rfl

set_option maxHeartbeats 4000000 in
theorem h4_w_eq : (StableHlo.after (hostOps4 (F := Ideal)) W (Proc.devRef .tc main_v244) : S1600x64.Idx → EReal)
    = shapeCast S1600x64 (W (Proc.devRef .tc main_arg8) : S25x64x64.Idx → EReal) shapeCasts_S25x64x64_S1600x64 := by
  dsimp only [hostOps4]; after_results_simp; rfl

theorem h4_acc (n : Fin 50000) (j : Fin 1600) :
    (StableHlo.after (hostOps4 (F := Ideal)) W (Proc.devRef .tc main_v243) : S50000x1600.Idx → EReal) (ix2 n j)
      = Spline.accRow (by decide : 0 < 64)
          (Spline.acc (fun e => (W (Proc.devRef .tc main_v3) : S800000.Idx → BitVec 32) (ix1 e))
            (fun e b => (W (Proc.devRef .tc main_v65) : S800000x4.Idx → BitVec 32) (ix2 e b))
            (fun e c => (StableHlo.after (hostOps4 (F := Ideal)) W (Proc.devRef .tc main_v186) : S50000x64.Idx → EReal)
              (ix2 (Spline.gIdx ((W (Proc.devRef .tc main_v1) : S800000.Idx → BitVec 32) (ix1 e))) c))
            (fun e b => (W (Proc.devRef .tc main_v84) : S800000x4.Idx → EReal) (ix2 e b))) n j := by
  rw [h4_acc_eq, accRows64_apply, accTC_apply bcast_S_S1250000x64 bcast_S800000x1_S800000x64_0_1 gather_S50000x64_S800000x1_S800000x64_1_0_n_n_0_1_164 scatter_S1250000x64_S800000x1_S800000x64_1_0_0_1
    rfl rfl rfl rfl rfl rfl rfl rfl rfl rfl rfl, h4_rows_eq]
  rfl

theorem h4_w (j : Fin 1600) (o : Fin 64) :
    (StableHlo.after (hostOps4 (F := Ideal)) W (Proc.devRef .tc main_v244) : S1600x64.Idx → EReal) (ix2 j o)
      = Spline.wFlat (by decide : 0 < 64)
          (fun k c o => (W (Proc.devRef .tc main_arg8) : S25x64x64.Idx → EReal) (ix3 k c o)) j o := by
  rw [h4_w_eq, wRows64_apply]
  rfl

end Stretch4

section Stretch6

variable (W : Valuation τ sig (Elt Ideal))

theorem h6_rows_eq : (StableHlo.after (hostOps6 (F := Ideal)) W (Proc.devRef .tc main_v267) : S50000x64.Idx → EReal)
    = shapeCast S50000x64 (W (Proc.devRef .tc main_v266) : S25000x128.Idx → EReal) shapeCasts_S25000x128_S50000x64 := by
  dsimp only [hostOps6]; after_results; rfl

end Stretch6

end Cert.KernelIdeal.KHost

end
-- ==== Proof.KI.Val0.lean ====
import proofs.«412279_j89026082111590_3_alg».proof.Proof.KI.Reg0
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- Rows `2000 t … 2000 t + 1999` of an array of 50000 rows.
def rowBlk {α : Type} {K : ℕ} (A : (⟨2, ![50000, K]⟩ : Shape).Idx → α) (t : ℕ) (ht : t < 25) : (⟨2, ![2000, K]⟩ : Shape).Idx → α :=
  fun y => A (ix2 ⟨2000 * t + (y 0).val, by have := idx2_lt0 y; omega⟩ ⟨(y 1).val, idx2_lt1 y⟩)

-- Row `n` is row `n % 2000` of the block of rows `n / 2000`.
theorem rowBlk_divmod {α : Type} {K : ℕ} (A : (⟨2, ![50000, K]⟩ : Shape).Idx → α) (n : Fin 50000) (k : Fin K) (h h') :
    rowBlk A (n.val / 2000) h (ix2 ⟨n.val % 2000, h'⟩ k) = A (ix2 n k) :=
  congrArg A (Shape.idx_ext₂ (Nat.div_add_mod n.val 2000) rfl)

theorem off00 : (![0, 0] : Fin 2 → Nat) = fun _ => 0 := funext fun a => by fin_cases a <;> rfl

theorem rowBlk_lt (n : Fin 50000) : n.val / 2000 < 25 := by omega

variable {F : FTy → Type} [FloatOps F]
variable (V : (c : Dev nD) → (b : Ref sig .tc) → Buf (Elt F) ((c : Thread nD τ).loc b))

theorem point_lt0 (t : Fin cfg0.N) : t.val < 25 := Nat.lt_of_lt_of_eq t.isLt N_0

theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_eq (c : Dev nD) (t : Fin cfg0.N) :
    (iblk0 V c 0 t : Vec F S2000x32 .f32) = rowBlk (V c main_v66 : S50000x32.Idx → Elt F .f32) t.val (point_lt0 t) := by
  obtain ⟨e0, e1, -⟩ := index_facts0 t
  funext y
  unfold iblk0
  rw [View.read_apply]
  refine congrArg (V c main_v66 : S50000x32.Idx → Elt F .f32) (Shape.idx_ext₂ ?_ ?_)
  · show win0_0.index t (0 : Fin 2) * 2000 + 1 * (y 0).val = 2000 * t.val + (y 0).val; rw [e0]; omega
  · show win0_0.index t (1 : Fin 2) * 32 + 1 * (y 1).val = (y 1).val; rw [e1]; omega

theorem iblk0_1_eq (c : Dev nD) (t : Fin cfg0.N) :
    (iblk0 V c 1 t : Vec F S32x64 .f32) = (V c main_arg12 : S32x64.Idx → Elt F .f32) := by
  obtain ⟨-, -, e0, e1, -⟩ := index_facts0 t
  funext y
  unfold iblk0
  rw [View.read_apply]
  refine congrArg (V c main_arg12 : S32x64.Idx → Elt F .f32) (Shape.idx_ext₂ ?_ ?_)
  · show win0_1.index t (0 : Fin 2) * 32 + 1 * (y 0).val = (y 0).val; rw [e0]; omega
  · show win0_1.index t (1 : Fin 2) * 64 + 1 * (y 1).val = (y 1).val; rw [e1]; omega

-- The product array after the region: row `n` is row `n % 2000` of what the point `n / 2000` stores.
def G0 (c : Dev nD) : Vec F S50000x64 .f32 := fun i =>
  k0_pay1 (F := F) (rowBlk (V c main_v66 : S50000x32.Idx → Elt F .f32) ((i 0).val / 2000) (rowBlk_lt (i 0))) (V c main_arg12 : S32x64.Idx → Elt F .f32)
    (ix2 ⟨(i 0).val % 2000, Nat.mod_lt _ (by decide)⟩ ⟨(i 1).val, (i 1).isLt⟩)

theorem G0_apply (c : Dev nD) (n : Fin 50000) (o : Fin 64) :
    G0 V c (ix2 n o) = k0_pay1 (F := F) (rowBlk (V c main_v66 : S50000x32.Idx → Elt F .f32) (n.val / 2000) (rowBlk_lt n)) (V c main_arg12 : S32x64.Idx → Elt F .f32)
      (ix2 ⟨n.val % 2000, Nat.mod_lt _ (by decide)⟩ o) := rfl

theorem G0_at (c : Dev nD) (t : Nat) (ht : t < 25) (j : S2000x64.Idx) (i : S50000x64.Idx)
    (h0 : (i 0).val = 2000 * t + (j 0).val) (h1 : (i 1).val = (j 1).val) :
    G0 V c i = k0_pay1 (F := F) (rowBlk (V c main_v66 : S50000x32.Idx → Elt F .f32) t ht) (V c main_arg12 : S32x64.Idx → Elt F .f32) j := by
  have hj0 : (j 0).val < 2000 := (j 0).isLt
  have hq : (i 0).val / 2000 = t := by omega
  have hj : (ix2 ⟨(i 0).val % 2000, Nat.mod_lt _ (by decide)⟩ ⟨(i 1).val, (i 1).isLt⟩ : S2000x64.Idx) = j :=
    Shape.idx_ext₂ (by show (i 0).val % 2000 = (j 0).val; omega) h1
  unfold G0
  rw [hj]
  subst hq
  rfl

theorem flushed0_eq (c : Dev nD) (t : Fin cfg0.N) :
    (dat0 V c).flushed 2 t = ((cfg0.win 2).blk t).view.read (Elt F) (G0 V c) := by
  obtain ⟨-, -, -, -, e0, e1⟩ := index_facts0 t
  show (cfg0.win 2).cut (grid0.coords t) ((dat0 V c).after 2 t) = _
  rw [after0_2]
  unfold out0_2
  rw [View.canon_unit_zero off00]
  simp only [View.ld_unit_zero (S := S2000x32) off00, View.ld_unit_zero (S := S32x64) off00]
  rw [iblk0_0_eq, iblk0_1_eq]
  funext j
  refine (G0_at V c t.val (point_lt0 t) j _ ?_ ?_).symm
  · show win0_2.index t (0 : Fin 2) * 2000 + 1 * (j 0).val = 2000 * t.val + (j 0).val
    rw [e0]; omega
  · show win0_2.index t (1 : Fin 2) * 64 + 1 * (j 1).val = (j 1).val
    rw [e1]; omega

theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v85_0).slice (win0_2.rect t)).set ↔ _
  rw [View.set_slice_whole, Rect.mem_set_unit]
  exact Iff.rfl

-- Row `n` lies in the block of point `n / 2000`.
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e0, e1⟩ := index_facts0 t
  refine ⟨t, flush0_2 t, (mem_blk0 t i).mpr fun a => ?_⟩
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 64 ≤ (i 1).val ∧ (i 1).val < win0_2.index t (1 : Fin 2) * 64 + 64; rw [e1]; omega

theorem final0 (c : Dev nD) : (dat0 V c).arrAt 2 cfg0.N = G0 V c :=
  (dat0 V c).arrAt_eq_of_cover 2 (G0 V c) (fun t _ => flushed0_eq V c t) cover0

theorem sumRow0_eq (c : Dev nD) (t : Fin cfg0.N) :
    sumRow0 V c t = k0_pay2 (F := F) (rowBlk (V c main_v66 : S50000x32.Idx → Elt F .f32) t.val (point_lt0 t)) (V c main_arg12 : S32x64.Idx → Elt F .f32) := by
  unfold sumRow0
  simp only [View.ld_unit_zero (S := S2000x32) off00, View.ld_unit_zero (S := S32x64) off00]
  rw [iblk0_0_eq, iblk0_1_eq]

theorem sqRow0_eq (c : Dev nD) (t : Fin cfg0.N) :
    sqRow0 V c t = k0_pay3 (F := F) (rowBlk (V c main_v66 : S50000x32.Idx → Elt F .f32) t.val (point_lt0 t)) (V c main_arg12 : S32x64.Idx → Elt F .f32) := by
  unfold sqRow0
  simp only [View.ld_unit_zero (S := S2000x32) off00, View.ld_unit_zero (S := S32x64) off00]
  rw [iblk0_0_eq, iblk0_1_eq]

end Cert.KernelIdeal.Hand

end
-- ==== Proof.KI.Tab0.lean ====
import proofs.«412279_j89026082111590_3_alg».proof.Proof.KI.Reg0

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem tab_index0 : ∀ t : Fin cfg0.N, win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem exit0_3_eq (c : Dev nD) : (exit0 V c 3 : S25x64.Idx → Elt F .f32) = tab0_3 V c := by
  obtain ⟨e0, e1, -, -⟩ := tab_index0 last0
  funext i
  have hemb : ((cfg0.win 3).blk last0).view.emb (i : S25x64.Idx) = i := by
    funext a
    apply Fin.ext
    match a with
    | ⟨0, _⟩ => show win0_3.index last0 (0 : Fin 2) * 25 + 1 * (i 0).val = (i 0).val; rw [e0]; omega
    | ⟨1, _⟩ => show win0_3.index last0 (1 : Fin 2) * 64 + 1 * (i 1).val = (i 1).val; rw [e1]; omega
  have h := View.write_emb_of_mem (v := ((cfg0.win 3).blk last0).view) (V c (Pipeline.arrRef spec0 3))
    ((cfg0.win 3).cut (cfg0.grid.coords last0) (tab0_3 V c)) (M := Finset.univ) (x := (i : S25x64.Idx)) (Finset.mem_univ _)
  rw [hemb] at h
  exact h

theorem exit0_4_eq (c : Dev nD) : (exit0 V c 4 : S25x64.Idx → Elt F .f32) = tab0_4 V c := by
  obtain ⟨-, -, e0, e1⟩ := tab_index0 last0
  funext i
  have hemb : ((cfg0.win 4).blk last0).view.emb (i : S25x64.Idx) = i := by
    funext a
    apply Fin.ext
    match a with
    | ⟨0, _⟩ => show win0_4.index last0 (0 : Fin 2) * 25 + 1 * (i 0).val = (i 0).val; rw [e0]; omega
    | ⟨1, _⟩ => show win0_4.index last0 (1 : Fin 2) * 64 + 1 * (i 1).val = (i 1).val; rw [e1]; omega
  have h := View.write_emb_of_mem (v := ((cfg0.win 4).blk last0).view) (V c (Pipeline.arrRef spec0 4))
    ((cfg0.win 4).cut (cfg0.grid.coords last0) (tab0_4 V c)) (M := Finset.univ) (x := (i : S25x64.Idx)) (Finset.mem_univ _)
  rw [hemb] at h
  exact h

end Cert.KernelIdeal.Hand

end
-- ==== Proof.PayIdx0.lean ====
import proofs.«412279_j89026082111590_3_alg».proof.Proof.Gen.KernelIdeal.Skeleton
import Idealize.ShloMosaic.Lib.StackMember
import Idealize.ShloMosaic.Lib.ValueLayout

noncomputable section

namespace Cert.KernelIdeal.PayIdx

open Cert.KernelIdeal Cert.KernelIdeal.Gen Idealize.ShloMosaic
open Idealize.ShloMosaic.ValueIdx
open scoped BigOperators

-- A plain matrix product into a zero accumulator, at `(r, o)`, is the sum over the contracted coordinate.
theorem plainDot_apply {M K N : ℕ} (D : DotDims ⟨2, ![M, K]⟩ ⟨2, ![K, N]⟩ ⟨2, ![M, N]⟩) (hD : D = DotDims.plain M K N)
    (a : FVec Ideal ⟨2, ![M, K]⟩ .f32) (w : FVec Ideal ⟨2, ![K, N]⟩ .f32) (r : Fin M) (o : Fin N) :
    matmul D none a w (constant (F := Ideal) ⟨2, ![M, N]⟩ .f32 0x00000000#32) (ix2 r o) = ∑ k : Fin K, a (ix2 r k) * w (ix2 k o) := by
  subst hD
  rw [matmul_zero_eq_dotGeneral]
  exact StackMember.dotGeneral_plain_apply none a w r o

-- The sum over the rows of a `[2000, 64]` array, kept as a `[1, 64]` row, reads at `(u, o)` the sum of column `o`.
theorem colsum_apply (y : FVec Ideal S2000x64 .f32) (u : Fin 1) (o : Fin 64) :
    shapeCast S1x64 (multiReduction (F := Ideal) .add [0] S64 y 0x00000000#32 reduces_S2000x64_S64 (.inl rfl) rfl) shapeCasts_S64_S1x64 (ix2 u o)
      = ∑ r : Fin 2000, y (ix2 r o) := by
  refine (shapeCast_a_1a_apply _ shapeCasts_S64_S1x64 u o).trans ?_
  refine (Ideal.multiReduction_add_single y 0x00000000#32 reduces_S2000x64_S64 (.inl rfl) rfl (ix1 o)).trans ?_
  show ∑ k : Fin 2000, y (reduces_S2000x64_S64.lift (ix1 o) k) = _
  refine Finset.sum_congr rfl fun k _ => congrArg y (funext fun c => Fin.ext ?_)
  match c with
  | ⟨0, _⟩ => rfl
  | ⟨1, _⟩ => rfl

section K0
variable (v0 : Vec Ideal S2000x32 .f32) (v2 : Vec Ideal S32x64 .f32)

theorem k0_pay1_apply (r : Fin 2000) (o : Fin 64) :
    k0_pay1 (F := Ideal) v0 v2 (ix2 r o) = ∑ k : Fin 32, v0 (ix2 r k) * v2 (ix2 k o) := by
  unfold k0_pay1
  rw [shapeCast_self]
  exact plainDot_apply _ rfl v0 v2 r o

theorem k0_pay2_apply (u : Fin 1) (o : Fin 64) :
    k0_pay2 (F := Ideal) v0 v2 (ix2 u o) = ∑ r : Fin 2000, k0_pay1 (F := Ideal) v0 v2 (ix2 r o) :=
  colsum_apply _ u o

theorem k0_pay3_apply (u : Fin 1) (o : Fin 64) :
    k0_pay3 (F := Ideal) v0 v2 (ix2 u o) = ∑ r : Fin 2000, k0_pay1 (F := Ideal) v0 v2 (ix2 r o) * k0_pay1 (F := Ideal) v0 v2 (ix2 r o) :=
  colsum_apply (mulf _ _) u o

end K0

section K2
variable (v0 : Vec Ideal S2000x800 .f32) (v2 : Vec Ideal S800x64 .f32) (v5 : Vec Ideal S2000x32 .f32) (v7 : Vec Ideal S32x64 .f32)

theorem k2_pay1_apply (r : Fin 2000) (o : Fin 64) :
    k2_pay1 (F := Ideal) v0 v2 v5 v7 (ix2 r o) = (∑ j : Fin 800, v0 (ix2 r j) * v2 (ix2 j o)) + ∑ k : Fin 32, v5 (ix2 r k) * v7 (ix2 k o) := by
  unfold k2_pay1
  simp only [shapeCast_self]
  exact congrArg₂ (· + ·) (plainDot_apply _ rfl v0 v2 r o) (plainDot_apply _ rfl v5 v7 r o)

theorem k2_pay2_apply (u : Fin 1) (o : Fin 64) :
    k2_pay2 (F := Ideal) v0 v2 v5 v7 (ix2 u o) = ∑ r : Fin 2000, k2_pay1 (F := Ideal) v0 v2 v5 v7 (ix2 r o) :=
  colsum_apply _ u o

theorem k2_pay3_apply (u : Fin 1) (o : Fin 64) :
    k2_pay3 (F := Ideal) v0 v2 v5 v7 (ix2 u o) = ∑ r : Fin 2000, k2_pay1 (F := Ideal) v0 v2 v5 v7 (ix2 r o) * k2_pay1 (F := Ideal) v0 v2 v5 v7 (ix2 r o) :=
  colsum_apply (mulf _ _) u o

end K2

section K4
variable (v0 : Vec Ideal S2000x1600 .f32) (v2 : Vec Ideal S1600x64 .f32) (v5 : Vec Ideal S2000x64 .f32) (v7 : Vec Ideal S64x64 .f32)

theorem k4_pay1_apply (r : Fin 2000) (o : Fin 64) :
    k4_pay1 (F := Ideal) v0 v2 v5 v7 (ix2 r o) = (∑ j : Fin 1600, v0 (ix2 r j) * v2 (ix2 j o)) + ∑ k : Fin 64, v5 (ix2 r k) * v7 (ix2 k o) := by
  unfold k4_pay1
  simp only [shapeCast_self]
  exact congrArg₂ (· + ·) (plainDot_apply _ rfl v0 v2 r o) (plainDot_apply _ rfl v5 v7 r o)

theorem k4_pay2_apply (u : Fin 1) (o : Fin 64) :
    k4_pay2 (F := Ideal) v0 v2 v5 v7 (ix2 u o) = ∑ r : Fin 2000, k4_pay1 (F := Ideal) v0 v2 v5 v7 (ix2 r o) :=
  colsum_apply _ u o

theorem k4_pay3_apply (u : Fin 1) (o : Fin 64) :
    k4_pay3 (F := Ideal) v0 v2 v5 v7 (ix2 u o) = ∑ r : Fin 2000, k4_pay1 (F := Ideal) v0 v2 v5 v7 (ix2 r o) * k4_pay1 (F := Ideal) v0 v2 v5 v7 (ix2 r o) :=
  colsum_apply (mulf _ _) u o

end K4

end Cert.KernelIdeal.PayIdx
end
-- ==== Proof.KRegValue0.lean ====
import proofs.«412279_j89026082111590_3_alg».proof.Proof.KI.Val0
import proofs.«412279_j89026082111590_3_alg».proof.Proof.KI.Tab0
import proofs.«412279_j89026082111590_3_alg».proof.Proof.PayIdx0
import proofs.«412279_j89026082111590_3_alg».proof.Proof.SpecInputs

noncomputable section

namespace Cert.KernelIdeal.KVal

open Cert.KernelIdeal Cert.KernelIdeal.Gen Cert.KernelIdeal.Hand Cert.KernelIdeal.PayIdx
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

open Spline (m2)

-- The product array at `(n, o)`: row `n` of the left factor times column `o` of the right factor.
theorem exit0_2_apply (c : Dev nD) (n : Fin 50000) (o : Fin 64) :
    m2 (exit0 V c 2) n o = ∑ k : Fin 32, m2 (V c main_v66) n k * m2 (V c main_arg12) k o := by
  have h : (exit0 V c 2 : S50000x64.Idx → EReal) = G0 V c := final0 V c
  unfold Spline.m2
  rw [h, G0_apply, k0_pay1_apply]
  simp only [rowBlk_divmod]

-- Row `t` of the first table: the column sums of the product over the rows of tile `t`.
theorem exit0_3_apply (c : Dev nD) (t : Fin 25) (o : Fin 64) :
    m2 (exit0 V c 3) t o
      = ∑ r : Fin 2000, ∑ k : Fin 32, m2 (V c main_v66) (Spline.tileRow t r) k * m2 (V c main_arg12) k o := by
  show (exit0 V c 3 : S25x64.Idx → EReal) (ix2 t o) = _
  rw [exit0_3_eq]
  show sumRow0 V c (⟨t.val, _⟩ : Fin cfg0.N) (ix2 (0 : Fin 1) (⟨o.val, _⟩ : Fin 64)) = _
  rw [sumRow0_eq, k0_pay2_apply]
  refine Finset.sum_congr rfl fun r _ => ?_
  rw [k0_pay1_apply]
  rfl

-- Row `t` of the second table: the column sums of the squares.
theorem exit0_4_apply (c : Dev nD) (t : Fin 25) (o : Fin 64) :
    m2 (exit0 V c 4) t o
      = ∑ r : Fin 2000, (∑ k : Fin 32, m2 (V c main_v66) (Spline.tileRow t r) k * m2 (V c main_arg12) k o)
          * (∑ k : Fin 32, m2 (V c main_v66) (Spline.tileRow t r) k * m2 (V c main_arg12) k o) := by
  show (exit0 V c 4 : S25x64.Idx → EReal) (ix2 t o) = _
  rw [exit0_4_eq]
  show sqRow0 V c (⟨t.val, _⟩ : Fin cfg0.N) (ix2 (0 : Fin 1) (⟨o.val, _⟩ : Fin 64)) = _
  rw [sqRow0_eq, k0_pay3_apply]
  refine Finset.sum_congr rfl fun r _ => ?_
  rw [k0_pay1_apply]
  rfl

end Cert.KernelIdeal.KVal

end
-- ==== Proof.KI.Val1.lean ====
import proofs.«412279_j89026082111590_3_alg».proof.Proof.KI.Reg1
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off1 : (![0, 0] : Fin 2 → Nat) = fun _ => 0 := funext fun a => by fin_cases a <;> rfl

/-- The windows' block indices at every point, decided over the grid. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row-block input's block at point `t` sits in its array where the output's block sits in the output array. -/
theorem iblk1_0_apply (c : Dev nD) (t : Fin cfg1.N) (y : S1000x128.Idx) :
    (iblk1 V c 0 t : Vec F S1000x128 .f32) y = (V c main_v96 : S25000x128.Idx → Elt F .f32) (((cfg1.win 5).blk t).view.emb y) := by
  obtain ⟨e0, e1, -, -, -, -, -, -, -, -, f0, f1⟩ := index_facts1 t
  unfold iblk1
  rw [View.read_apply]
  exact congrArg (V c main_v96 : S25000x128.Idx → Elt F .f32) (Shape.idx_ext₂
    (show win1_0.index t (0 : Fin 2) * 1000 + 1 * (y 0).val = win1_5.index t (0 : Fin 2) * 1000 + 1 * (y 0).val by rw [e0, f0])
    (show win1_0.index t (1 : Fin 2) * 128 + 1 * (y 1).val = win1_5.index t (1 : Fin 2) * 128 + 1 * (y 1).val by rw [e1, f1]))

/-- A one-row input's block is its whole array at every point. -/
theorem iblk1_1_eq (c : Dev nD) (t : Fin cfg1.N) :
    (iblk1 V c 1 t : Vec F S1x128 .f32) = (V c main_v98 : S1x128.Idx → Elt F .f32) := by
  obtain ⟨-, -, e0, e1, -, -, -, -, -, -, -, -⟩ := index_facts1 t
  funext y
  unfold iblk1
  rw [View.read_apply]
  exact congrArg (V c main_v98 : S1x128.Idx → Elt F .f32) (Shape.idx_ext₂
    (show win1_1.index t (0 : Fin 2) * 1 + 1 * (y 0).val = (y 0).val by rw [e0]; omega)
    (show win1_1.index t (1 : Fin 2) * 128 + 1 * (y 1).val = (y 1).val by rw [e1]; omega))
theorem iblk1_2_eq (c : Dev nD) (t : Fin cfg1.N) :
    (iblk1 V c 2 t : Vec F S1x128 .f32) = (V c main_v100 : S1x128.Idx → Elt F .f32) := by
  obtain ⟨-, -, -, -, e0, e1, -, -, -, -, -, -⟩ := index_facts1 t
  funext y
  unfold iblk1
  rw [View.read_apply]
  exact congrArg (V c main_v100 : S1x128.Idx → Elt F .f32) (Shape.idx_ext₂
    (show win1_2.index t (0 : Fin 2) * 1 + 1 * (y 0).val = (y 0).val by rw [e0]; omega)
    (show win1_2.index t (1 : Fin 2) * 128 + 1 * (y 1).val = (y 1).val by rw [e1]; omega))
theorem iblk1_3_eq (c : Dev nD) (t : Fin cfg1.N) :
    (iblk1 V c 3 t : Vec F S1x128 .f32) = (V c main_v102 : S1x128.Idx → Elt F .f32) := by
  obtain ⟨-, -, -, -, -, -, e0, e1, -, -, -, -⟩ := index_facts1 t
  funext y
  unfold iblk1
  rw [View.read_apply]
  exact congrArg (V c main_v102 : S1x128.Idx → Elt F .f32) (Shape.idx_ext₂
    (show win1_3.index t (0 : Fin 2) * 1 + 1 * (y 0).val = (y 0).val by rw [e0]; omega)
    (show win1_3.index t (1 : Fin 2) * 128 + 1 * (y 1).val = (y 1).val by rw [e1]; omega))
theorem iblk1_4_eq (c : Dev nD) (t : Fin cfg1.N) :
    (iblk1 V c 4 t : Vec F S1x128 .f32) = (V c main_v104 : S1x128.Idx → Elt F .f32) := by
  obtain ⟨-, -, -, -, -, -, -, -, e0, e1, -, -⟩ := index_facts1 t
  funext y
  unfold iblk1
  rw [View.read_apply]
  exact congrArg (V c main_v104 : S1x128.Idx → Elt F .f32) (Shape.idx_ext₂
    (show win1_4.index t (0 : Fin 2) * 1 + 1 * (y 0).val = (y 0).val by rw [e0]; omega)
    (show win1_4.index t (1 : Fin 2) * 128 + 1 * (y 1).val = (y 1).val by rw [e1]; omega))

/-- An element of the output block at point `t` keeps its lane in the array. -/
theorem lane1 (t : Fin cfg1.N) (y : S1000x128.Idx) : ((((cfg1.win 5).blk t).view.emb y : S25000x128.Idx) 1 : Fin 128) = y 1 := by
  obtain ⟨-, -, -, -, -, -, -, -, -, -, -, f1⟩ := index_facts1 t
  exact Fin.ext (show win1_5.index t (1 : Fin 2) * 128 + 1 * (y 1).val = (y 1).val by rw [f1]; omega)

/-- The output block at point `t` is the payload of the input blocks at `t`. -/
theorem flushed1 (c : Dev nD) (t : Fin cfg1.N) :
    (dat1 V c).flushed 5 t = k1_pay1 (F := F) (iblk1 V c 2 t) (iblk1 V c 0 t) (iblk1 V c 1 t) (iblk1 V c 3 t) (iblk1 V c 4 t) := by
  show (cfg1.win 5).cut (grid1.coords t) ((dat1 V c).after 5 t) = _
  dsimp only [dat1]
  unfold out1_5
  rw [View.canon_unit_zero zero_off1]
  simp only [View.ld_unit_zero (S := S1000x128) zero_off1, View.ld_unit_zero (S := S1x128) zero_off1]
  rfl

/-- An index lies in point `t`'s block iff each coordinate lies in the block's range on its axis. -/
theorem mem_blk1 (t : Fin cfg1.N) (i : S25000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v105).slice (win1_5.rect t)).set ↔ _
  rw [View.set_slice_whole, Rect.mem_set_unit]
  exact Iff.rfl

/-- Row `n` lies in the block of point `n / 1000`. -/
theorem cover1 (i : S25000x128.Idx) : ∃ t : Fin cfg1.N, (cfg1.win 5).flush t = true ∧ i ∈ ((cfg1.win 5).blk t).view.set := by
  have hi0 : (i 0).val < 25000 := (i 0).isLt
  have hi1 : (i 1).val < 128 := (i 1).isLt
  obtain ⟨t, ht⟩ : ∃ t : Fin cfg1.N, t.val = (i 0).val / 1000 :=
    ⟨⟨(i 0).val / 1000, by rw [show cfg1.N = 25 from N_1]; omega⟩, rfl⟩
  obtain ⟨-, -, -, -, -, -, -, -, -, -, e0, e1⟩ := index_facts1 t
  refine ⟨t, flush1_5 t, ?_⟩
  rw [mem_blk1]
  intro a
  match a with
  | ⟨0, _⟩ => show win1_5.index t (0 : Fin 2) * 1000 ≤ (i 0).val ∧ (i 0).val < win1_5.index t (0 : Fin 2) * 1000 + 1000; rw [e0, ht]; omega
  | ⟨1, _⟩ => show win1_5.index t (1 : Fin 2) * 128 ≤ (i 1).val ∧ (i 1).val < win1_5.index t (1 : Fin 2) * 128 + 128; rw [e1]; omega

end Cert.KernelIdeal.Hand

end
-- ==== Proof.PayIdx1.lean ====
import proofs.«412279_j89026082111590_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Ideal

noncomputable section

namespace Cert.KernelIdeal.PayIdx

open Cert.KernelIdeal Cert.KernelIdeal.Gen Idealize.ShloMosaic
open Idealize.ShloMosaic.ValueIdx
open scoped BigOperators

/-- At the ideal values a vector's reciprocal square root is taken element by element. -/
theorem rsqrt_apply {s : Shape} {φ : FTy} (a : FVec Ideal s φ) (i : s.Idx) : rsqrt a i = Ideal.rsqrt (a i) := rfl

/-- The normalised block at `(r, l)`: every one-row operand is read at lane `l`. -/
theorem k1_pay1_apply (v0 : Vec Ideal S1x128 .f32) (v5 : Vec Ideal S1000x128 .f32) (v7 v13 v17 : Vec Ideal S1x128 .f32)
    (r : Fin 1000) (l : Fin 128) :
    k1_pay1 (F := Ideal) v0 v5 v7 v13 v17 (ix2 r l)
      = ((v5 (ix2 r l) - v7 (ix2 (0 : Fin 1) l)) * Ideal.rsqrt (v0 (ix2 (0 : Fin 1) l) + Ideal.ofBits .f32 0x3727C5AC#32)) * v13 (ix2 (0 : Fin 1) l) + v17 (ix2 (0 : Fin 1) l) := by
  unfold k1_pay1
  simp only [shapeCast_self, addf_apply, mulf_apply, subf_apply, maximumf_apply, rsqrt_apply, broadcastTo_1b_ab_apply, broadcast_apply, Ideal.ofBits_def, Ideal.ofBits_zero_f32]

/-- The normalised block at `(r, l)`, clamped below at zero. -/
theorem k3_pay1_apply (v0 : Vec Ideal S1x128 .f32) (v5 : Vec Ideal S1000x128 .f32) (v7 v13 v17 : Vec Ideal S1x128 .f32)
    (r : Fin 1000) (l : Fin 128) :
    k3_pay1 (F := Ideal) v0 v5 v7 v13 v17 (ix2 r l)
      = max (((v5 (ix2 r l) - v7 (ix2 (0 : Fin 1) l)) * Ideal.rsqrt (v0 (ix2 (0 : Fin 1) l) + Ideal.ofBits .f32 0x3727C5AC#32)) * v13 (ix2 (0 : Fin 1) l) + v17 (ix2 (0 : Fin 1) l)) 0 := by
  unfold k3_pay1
  simp only [shapeCast_self, addf_apply, mulf_apply, subf_apply, maximumf_apply, rsqrt_apply, broadcastTo_1b_ab_apply, broadcast_apply, Ideal.ofBits_def, Ideal.ofBits_zero_f32]

/-- The normalised block plus the second block at `(r, l)`, clamped below at zero. -/
theorem k5_pay1_apply (v0 : Vec Ideal S1x128 .f32) (v5 : Vec Ideal S1000x128 .f32) (v7 v13 v17 : Vec Ideal S1x128 .f32)
    (v21 : Vec Ideal S1000x128 .f32) (r : Fin 1000) (l : Fin 128) :
    k5_pay1 (F := Ideal) v0 v5 v7 v13 v17 v21 (ix2 r l)
      = max (((v5 (ix2 r l) - v7 (ix2 (0 : Fin 1) l)) * Ideal.rsqrt (v0 (ix2 (0 : Fin 1) l) + Ideal.ofBits .f32 0x3727C5AC#32)) * v13 (ix2 (0 : Fin 1) l) + v17 (ix2 (0 : Fin 1) l) + v21 (ix2 r l)) 0 := by
  unfold k5_pay1
  simp only [shapeCast_self, addf_apply, mulf_apply, subf_apply, maximumf_apply, rsqrt_apply, broadcastTo_1b_ab_apply, broadcast_apply, Ideal.ofBits_def, Ideal.ofBits_zero_f32]

end Cert.KernelIdeal.PayIdx
end
-- ==== Proof.KRegValue1.lean ====
import proofs.«412279_j89026082111590_3_alg».proof.Proof.KI.Val1
import proofs.«412279_j89026082111590_3_alg».proof.Proof.PayIdx1
import proofs.«412279_j89026082111590_3_alg».proof.Proof.SpecInputs

noncomputable section

namespace Cert.KernelIdeal.KVal

open Cert.KernelIdeal Cert.KernelIdeal.Gen Cert.KernelIdeal.Hand Cert.KernelIdeal.PayIdx
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

open Spline (m2)

/-- Each output element is the payload at its own place: every point's block has it, and the blocks cover the array. -/
theorem exit1_5_apply (c : Dev nD) (p : Fin 25000) (l : Fin 128) :
    m2 ((dat1 V c).arrAt 5 cfg1.N) p l
      = Spline.bnPt (m2 (V c main_v96) p l) (m2 (V c main_v98) (0 : Fin 1) l) (m2 (V c main_v100) (0 : Fin 1) l) (m2 (V c main_v102) (0 : Fin 1) l) (m2 (V c main_v104) (0 : Fin 1) l) := by
  refine (dat1 V c).arrAt_forall_of_cover 5 (fun i v => v = Spline.bnPt ((V c main_v96 : S25000x128.Idx → EReal) i) (m2 (V c main_v98) (0 : Fin 1) (i 1)) (m2 (V c main_v100) (0 : Fin 1) (i 1)) (m2 (V c main_v102) (0 : Fin 1) (i 1)) (m2 (V c main_v104) (0 : Fin 1) (i 1)))
    (fun t _ (y : S1000x128.Idx) => ?_) cover1 (ix2 p l)
  obtain ⟨r, l', rfl⟩ : ∃ a b, y = ix2 a b := ⟨_, _, eq_ix2 y⟩
  show (dat1 V c).flushed 5 t (ix2 r l') = _
  rw [lane1 t (ix2 r l'), flushed1, k1_pay1_apply, iblk1_0_apply V c t, iblk1_1_eq, iblk1_2_eq, iblk1_3_eq, iblk1_4_eq]
  rfl

end Cert.KernelIdeal.KVal

end
-- ==== Proof.KI.Val2.lean ====
import proofs.«412279_j89026082111590_3_alg».proof.Proof.KI.Reg2
import proofs.«412279_j89026082111590_3_alg».proof.Proof.KI.Val0

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem point_lt2 (t : Fin cfg2.N) : t.val < 25 := Nat.lt_of_lt_of_eq t.isLt N_2

theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem iblk2_0_eq (c : Dev nD) (t : Fin cfg2.N) :
    (iblk2 V c 0 t : Vec F S2000x800 .f32) = rowBlk (V c main_v163 : S50000x800.Idx → Elt F .f32) t.val (point_lt2 t) := by
  obtain ⟨e0, e1, -⟩ := index_facts2 t
  funext y
  unfold iblk2
  rw [View.read_apply]
  refine congrArg (V c main_v163 : S50000x800.Idx → Elt F .f32) (Shape.idx_ext₂ ?_ ?_)
  · show win2_0.index t (0 : Fin 2) * 2000 + 1 * (y 0).val = 2000 * t.val + (y 0).val; rw [e0]; omega
  · show win2_0.index t (1 : Fin 2) * 800 + 1 * (y 1).val = (y 1).val; rw [e1]; omega

theorem iblk2_1_eq (c : Dev nD) (t : Fin cfg2.N) :
    (iblk2 V c 1 t : Vec F S800x64 .f32) = (V c main_v164 : S800x64.Idx → Elt F .f32) := by
  obtain ⟨-, -, e0, e1, -⟩ := index_facts2 t
  funext y
  unfold iblk2
  rw [View.read_apply]
  refine congrArg (V c main_v164 : S800x64.Idx → Elt F .f32) (Shape.idx_ext₂ ?_ ?_)
  · show win2_1.index t (0 : Fin 2) * 800 + 1 * (y 0).val = (y 0).val; rw [e0]; omega
  · show win2_1.index t (1 : Fin 2) * 64 + 1 * (y 1).val = (y 1).val; rw [e1]; omega

theorem iblk2_2_eq (c : Dev nD) (t : Fin cfg2.N) :
    (iblk2 V c 2 t : Vec F S2000x32 .f32) = rowBlk (V c main_v66 : S50000x32.Idx → Elt F .f32) t.val (point_lt2 t) := by
  obtain ⟨-, -, -, -, e0, e1, -⟩ := index_facts2 t
  funext y
  unfold iblk2
  rw [View.read_apply]
  refine congrArg (V c main_v66 : S50000x32.Idx → Elt F .f32) (Shape.idx_ext₂ ?_ ?_)
  · show win2_2.index t (0 : Fin 2) * 2000 + 1 * (y 0).val = 2000 * t.val + (y 0).val; rw [e0]; omega
  · show win2_2.index t (1 : Fin 2) * 32 + 1 * (y 1).val = (y 1).val; rw [e1]; omega

theorem iblk2_3_eq (c : Dev nD) (t : Fin cfg2.N) :
    (iblk2 V c 3 t : Vec F S32x64 .f32) = (V c main_arg5 : S32x64.Idx → Elt F .f32) := by
  obtain ⟨-, -, -, -, -, -, e0, e1, -⟩ := index_facts2 t
  funext y
  unfold iblk2
  rw [View.read_apply]
  refine congrArg (V c main_arg5 : S32x64.Idx → Elt F .f32) (Shape.idx_ext₂ ?_ ?_)
  · show win2_3.index t (0 : Fin 2) * 32 + 1 * (y 0).val = (y 0).val; rw [e0]; omega
  · show win2_3.index t (1 : Fin 2) * 64 + 1 * (y 1).val = (y 1).val; rw [e1]; omega

-- The result array after the region: row `n` is row `n % 2000` of what the point `n / 2000` stores.
def G2 (c : Dev nD) : Vec F S50000x64 .f32 := fun i =>
  k2_pay1 (F := F) (rowBlk (V c main_v163 : S50000x800.Idx → Elt F .f32) ((i 0).val / 2000) (rowBlk_lt (i 0))) (V c main_v164 : S800x64.Idx → Elt F .f32)
    (rowBlk (V c main_v66 : S50000x32.Idx → Elt F .f32) ((i 0).val / 2000) (rowBlk_lt (i 0))) (V c main_arg5 : S32x64.Idx → Elt F .f32)
    (ix2 ⟨(i 0).val % 2000, Nat.mod_lt _ (by decide)⟩ ⟨(i 1).val, (i 1).isLt⟩)

theorem G2_apply (c : Dev nD) (n : Fin 50000) (o : Fin 64) :
    G2 V c (ix2 n o) = k2_pay1 (F := F) (rowBlk (V c main_v163 : S50000x800.Idx → Elt F .f32) (n.val / 2000) (rowBlk_lt n)) (V c main_v164 : S800x64.Idx → Elt F .f32)
      (rowBlk (V c main_v66 : S50000x32.Idx → Elt F .f32) (n.val / 2000) (rowBlk_lt n)) (V c main_arg5 : S32x64.Idx → Elt F .f32)
      (ix2 ⟨n.val % 2000, Nat.mod_lt _ (by decide)⟩ o) := rfl

theorem G2_at (c : Dev nD) (t : Nat) (ht : t < 25) (j : S2000x64.Idx) (i : S50000x64.Idx)
    (h0 : (i 0).val = 2000 * t + (j 0).val) (h1 : (i 1).val = (j 1).val) :
    G2 V c i = k2_pay1 (F := F) (rowBlk (V c main_v163 : S50000x800.Idx → Elt F .f32) t ht) (V c main_v164 : S800x64.Idx → Elt F .f32)
      (rowBlk (V c main_v66 : S50000x32.Idx → Elt F .f32) t ht) (V c main_arg5 : S32x64.Idx → Elt F .f32) j := by
  have hj0 : (j 0).val < 2000 := (j 0).isLt
  have hq : (i 0).val / 2000 = t := by omega
  have hj : (ix2 ⟨(i 0).val % 2000, Nat.mod_lt _ (by decide)⟩ ⟨(i 1).val, (i 1).isLt⟩ : S2000x64.Idx) = j :=
    Shape.idx_ext₂ (by show (i 0).val % 2000 = (j 0).val; omega) h1
  unfold G2
  rw [hj]
  subst hq
  rfl

theorem flushed2_eq (c : Dev nD) (t : Fin cfg2.N) :
    (dat2 V c).flushed 4 t = ((cfg2.win 4).blk t).view.read (Elt F) (G2 V c) := by
  obtain ⟨-, -, -, -, -, -, -, -, e0, e1⟩ := index_facts2 t
  show (cfg2.win 4).cut (grid2.coords t) ((dat2 V c).after 4 t) = _
  rw [after2_4]
  unfold out2_4
  rw [View.canon_unit_zero off00]
  simp only [View.ld_unit_zero (S := S2000x800) off00, View.ld_unit_zero (S := S800x64) off00, View.ld_unit_zero (S := S2000x32) off00, View.ld_unit_zero (S := S32x64) off00]
  rw [iblk2_0_eq, iblk2_1_eq, iblk2_2_eq, iblk2_3_eq]
  funext j
  refine (G2_at V c t.val (point_lt2 t) j _ ?_ ?_).symm
  · show win2_4.index t (0 : Fin 2) * 2000 + 1 * (j 0).val = 2000 * t.val + (j 0).val
    rw [e0]; omega
  · show win2_4.index t (1 : Fin 2) * 64 + 1 * (j 1).val = (j 1).val
    rw [e1]; omega

theorem mem_blk2 (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v165_0).slice (win2_4.rect t)).set ↔ _
  rw [View.set_slice_whole, Rect.mem_set_unit]
  exact Iff.rfl

-- Row `n` lies in the block of point `n / 2000`.
theorem cover2 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, e0, e1⟩ := index_facts2 t
  refine ⟨t, flush2_4 t, (mem_blk2 t i).mpr fun a => ?_⟩
  match a with
  | ⟨0, _⟩ => show win2_4.index t (0 : Fin 2) * 2000 ≤ (i 0).val ∧ (i 0).val < win2_4.index t (0 : Fin 2) * 2000 + 2000; rw [e0, ht]; omega
  | ⟨1, _⟩ => show win2_4.index t (1 : Fin 2) * 64 ≤ (i 1).val ∧ (i 1).val < win2_4.index t (1 : Fin 2) * 64 + 64; rw [e1]; omega

theorem final2 (c : Dev nD) : (dat2 V c).arrAt 4 cfg2.N = G2 V c :=
  (dat2 V c).arrAt_eq_of_cover 4 (G2 V c) (fun t _ => flushed2_eq V c t) cover2

theorem sumRow2_eq (c : Dev nD) (t : Fin cfg2.N) :
    sumRow2 V c t = k2_pay2 (F := F) (rowBlk (V c main_v163 : S50000x800.Idx → Elt F .f32) t.val (point_lt2 t)) (V c main_v164 : S800x64.Idx → Elt F .f32)
      (rowBlk (V c main_v66 : S50000x32.Idx → Elt F .f32) t.val (point_lt2 t)) (V c main_arg5 : S32x64.Idx → Elt F .f32) := by
  unfold sumRow2
  simp only [View.ld_unit_zero (S := S2000x800) off00, View.ld_unit_zero (S := S800x64) off00, View.ld_unit_zero (S := S2000x32) off00, View.ld_unit_zero (S := S32x64) off00]
  rw [iblk2_0_eq, iblk2_1_eq, iblk2_2_eq, iblk2_3_eq]

theorem sqRow2_eq (c : Dev nD) (t : Fin cfg2.N) :
    sqRow2 V c t = k2_pay3 (F := F) (rowBlk (V c main_v163 : S50000x800.Idx → Elt F .f32) t.val (point_lt2 t)) (V c main_v164 : S800x64.Idx → Elt F .f32)
      (rowBlk (V c main_v66 : S50000x32.Idx → Elt F .f32) t.val (point_lt2 t)) (V c main_arg5 : S32x64.Idx → Elt F .f32) := by
  unfold sqRow2
  simp only [View.ld_unit_zero (S := S2000x800) off00, View.ld_unit_zero (S := S800x64) off00, View.ld_unit_zero (S := S2000x32) off00, View.ld_unit_zero (S := S32x64) off00]
  rw [iblk2_0_eq, iblk2_1_eq, iblk2_2_eq, iblk2_3_eq]

end Cert.KernelIdeal.Hand

end
-- ==== Proof.KI.Tab2.lean ====
import proofs.«412279_j89026082111590_3_alg».proof.Proof.KI.Reg2

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem tab_index2 : ∀ t : Fin cfg2.N, win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem exit2_5_eq (c : Dev nD) : (exit2 V c 5 : S25x64.Idx → Elt F .f32) = tab2_5 V c := by
  obtain ⟨e0, e1, -, -⟩ := tab_index2 last2
  funext i
  have hemb : ((cfg2.win 5).blk last2).view.emb (i : S25x64.Idx) = i := by
    funext a
    apply Fin.ext
    match a with
    | ⟨0, _⟩ => show win2_5.index last2 (0 : Fin 2) * 25 + 1 * (i 0).val = (i 0).val; rw [e0]; omega
    | ⟨1, _⟩ => show win2_5.index last2 (1 : Fin 2) * 64 + 1 * (i 1).val = (i 1).val; rw [e1]; omega
  have h := View.write_emb_of_mem (v := ((cfg2.win 5).blk last2).view) (V c (Pipeline.arrRef spec2 5))
    ((cfg2.win 5).cut (cfg2.grid.coords last2) (tab2_5 V c)) (M := Finset.univ) (x := (i : S25x64.Idx)) (Finset.mem_univ _)
  rw [hemb] at h
  exact h

theorem exit2_6_eq (c : Dev nD) : (exit2 V c 6 : S25x64.Idx → Elt F .f32) = tab2_6 V c := by
  obtain ⟨-, -, e0, e1⟩ := tab_index2 last2
  funext i
  have hemb : ((cfg2.win 6).blk last2).view.emb (i : S25x64.Idx) = i := by
    funext a
    apply Fin.ext
    match a with
    | ⟨0, _⟩ => show win2_6.index last2 (0 : Fin 2) * 25 + 1 * (i 0).val = (i 0).val; rw [e0]; omega
    | ⟨1, _⟩ => show win2_6.index last2 (1 : Fin 2) * 64 + 1 * (i 1).val = (i 1).val; rw [e1]; omega
  have h := View.write_emb_of_mem (v := ((cfg2.win 6).blk last2).view) (V c (Pipeline.arrRef spec2 6))
    ((cfg2.win 6).cut (cfg2.grid.coords last2) (tab2_6 V c)) (M := Finset.univ) (x := (i : S25x64.Idx)) (Finset.mem_univ _)
  rw [hemb] at h
  exact h

end Cert.KernelIdeal.Hand

end
-- ==== Proof.KRegValue2.lean ====
import proofs.«412279_j89026082111590_3_alg».proof.Proof.KI.Val2
import proofs.«412279_j89026082111590_3_alg».proof.Proof.KI.Tab2
import proofs.«412279_j89026082111590_3_alg».proof.Proof.PayIdx0
import proofs.«412279_j89026082111590_3_alg».proof.Proof.SpecInputs

noncomputable section

namespace Cert.KernelIdeal.KVal

open Cert.KernelIdeal Cert.KernelIdeal.Gen Cert.KernelIdeal.Hand Cert.KernelIdeal.PayIdx
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

open Spline (m2)

-- The result array at `(n, o)`: the sum of the two products of row `n` with column `o`.
theorem exit2_4_apply (c : Dev nD) (n : Fin 50000) (o : Fin 64) :
    m2 (exit2 V c 4) n o
      = (∑ j : Fin 800, m2 (V c main_v163) n j * m2 (V c main_v164) j o) + ∑ k : Fin 32, m2 (V c main_v66) n k * m2 (V c main_arg5) k o := by
  have h : (exit2 V c 4 : S50000x64.Idx → EReal) = G2 V c := final2 V c
  unfold Spline.m2
  rw [h, G2_apply, k2_pay1_apply]
  simp only [rowBlk_divmod]

-- Row `t` of the first table: the column sums of the result over the rows of tile `t`.
theorem exit2_5_apply (c : Dev nD) (t : Fin 25) (o : Fin 64) :
    m2 (exit2 V c 5) t o
      = ∑ r : Fin 2000, ((∑ j : Fin 800, m2 (V c main_v163) (Spline.tileRow t r) j * m2 (V c main_v164) j o) + ∑ k : Fin 32, m2 (V c main_v66) (Spline.tileRow t r) k * m2 (V c main_arg5) k o) := by
  show (exit2 V c 5 : S25x64.Idx → EReal) (ix2 t o) = _
  rw [exit2_5_eq]
  show sumRow2 V c (⟨t.val, _⟩ : Fin cfg2.N) (ix2 (0 : Fin 1) (⟨o.val, _⟩ : Fin 64)) = _
  rw [sumRow2_eq, k2_pay2_apply]
  refine Finset.sum_congr rfl fun r _ => ?_
  rw [k2_pay1_apply]
  rfl

-- Row `t` of the second table: the column sums of the squares.
theorem exit2_6_apply (c : Dev nD) (t : Fin 25) (o : Fin 64) :
    m2 (exit2 V c 6) t o
      = ∑ r : Fin 2000, ((∑ j : Fin 800, m2 (V c main_v163) (Spline.tileRow t r) j * m2 (V c main_v164) j o) + ∑ k : Fin 32, m2 (V c main_v66) (Spline.tileRow t r) k * m2 (V c main_arg5) k o)
          * ((∑ j : Fin 800, m2 (V c main_v163) (Spline.tileRow t r) j * m2 (V c main_v164) j o) + ∑ k : Fin 32, m2 (V c main_v66) (Spline.tileRow t r) k * m2 (V c main_arg5) k o) := by
  show (exit2 V c 6 : S25x64.Idx → EReal) (ix2 t o) = _
  rw [exit2_6_eq]
  show sqRow2 V c (⟨t.val, _⟩ : Fin cfg2.N) (ix2 (0 : Fin 1) (⟨o.val, _⟩ : Fin 64)) = _
  rw [sqRow2_eq, k2_pay3_apply]
  refine Finset.sum_congr rfl fun r _ => ?_
  rw [k2_pay1_apply]
  rfl

end Cert.KernelIdeal.KVal

end
-- ==== Proof.KI.Val3.lean ====
import proofs.«412279_j89026082111590_3_alg».proof.Proof.KI.Reg3
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off3 : (![0, 0] : Fin 2 → Nat) = fun _ => 0 := funext fun a => by fin_cases a <;> rfl

/-- The windows' block indices at every point, decided over the grid. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A row-block input's block at point `t` sits in its array where the output's block sits in the output array. -/
theorem iblk3_0_apply (c : Dev nD) (t : Fin cfg3.N) (y : S1000x128.Idx) :
    (iblk3 V c 0 t : Vec F S1000x128 .f32) y = (V c main_v176 : S25000x128.Idx → Elt F .f32) (((cfg3.win 5).blk t).view.emb y) := by
  obtain ⟨e0, e1, -, -, -, -, -, -, -, -, f0, f1⟩ := index_facts3 t
  unfold iblk3
  rw [View.read_apply]
  exact congrArg (V c main_v176 : S25000x128.Idx → Elt F .f32) (Shape.idx_ext₂
    (show win3_0.index t (0 : Fin 2) * 1000 + 1 * (y 0).val = win3_5.index t (0 : Fin 2) * 1000 + 1 * (y 0).val by rw [e0, f0])
    (show win3_0.index t (1 : Fin 2) * 128 + 1 * (y 1).val = win3_5.index t (1 : Fin 2) * 128 + 1 * (y 1).val by rw [e1, f1]))

/-- A one-row input's block is its whole array at every point. -/
theorem iblk3_1_eq (c : Dev nD) (t : Fin cfg3.N) :
    (iblk3 V c 1 t : Vec F S1x128 .f32) = (V c main_v178 : S1x128.Idx → Elt F .f32) := by
  obtain ⟨-, -, e0, e1, -, -, -, -, -, -, -, -⟩ := index_facts3 t
  funext y
  unfold iblk3
  rw [View.read_apply]
  exact congrArg (V c main_v178 : S1x128.Idx → Elt F .f32) (Shape.idx_ext₂
    (show win3_1.index t (0 : Fin 2) * 1 + 1 * (y 0).val = (y 0).val by rw [e0]; omega)
    (show win3_1.index t (1 : Fin 2) * 128 + 1 * (y 1).val = (y 1).val by rw [e1]; omega))
theorem iblk3_2_eq (c : Dev nD) (t : Fin cfg3.N) :
    (iblk3 V c 2 t : Vec F S1x128 .f32) = (V c main_v180 : S1x128.Idx → Elt F .f32) := by
  obtain ⟨-, -, -, -, e0, e1, -, -, -, -, -, -⟩ := index_facts3 t
  funext y
  unfold iblk3
  rw [View.read_apply]
  exact congrArg (V c main_v180 : S1x128.Idx → Elt F .f32) (Shape.idx_ext₂
    (show win3_2.index t (0 : Fin 2) * 1 + 1 * (y 0).val = (y 0).val by rw [e0]; omega)
    (show win3_2.index t (1 : Fin 2) * 128 + 1 * (y 1).val = (y 1).val by rw [e1]; omega))
theorem iblk3_3_eq (c : Dev nD) (t : Fin cfg3.N) :
    (iblk3 V c 3 t : Vec F S1x128 .f32) = (V c main_v182 : S1x128.Idx → Elt F .f32) := by
  obtain ⟨-, -, -, -, -, -, e0, e1, -, -, -, -⟩ := index_facts3 t
  funext y
  unfold iblk3
  rw [View.read_apply]
  exact congrArg (V c main_v182 : S1x128.Idx → Elt F .f32) (Shape.idx_ext₂
    (show win3_3.index t (0 : Fin 2) * 1 + 1 * (y 0).val = (y 0).val by rw [e0]; omega)
    (show win3_3.index t (1 : Fin 2) * 128 + 1 * (y 1).val = (y 1).val by rw [e1]; omega))
theorem iblk3_4_eq (c : Dev nD) (t : Fin cfg3.N) :
    (iblk3 V c 4 t : Vec F S1x128 .f32) = (V c main_v184 : S1x128.Idx → Elt F .f32) := by
  obtain ⟨-, -, -, -, -, -, -, -, e0, e1, -, -⟩ := index_facts3 t
  funext y
  unfold iblk3
  rw [View.read_apply]
  exact congrArg (V c main_v184 : S1x128.Idx → Elt F .f32) (Shape.idx_ext₂
    (show win3_4.index t (0 : Fin 2) * 1 + 1 * (y 0).val = (y 0).val by rw [e0]; omega)
    (show win3_4.index t (1 : Fin 2) * 128 + 1 * (y 1).val = (y 1).val by rw [e1]; omega))

/-- An element of the output block at point `t` keeps its lane in the array. -/
theorem lane3 (t : Fin cfg3.N) (y : S1000x128.Idx) : ((((cfg3.win 5).blk t).view.emb y : S25000x128.Idx) 1 : Fin 128) = y 1 := by
  obtain ⟨-, -, -, -, -, -, -, -, -, -, -, f1⟩ := index_facts3 t
  exact Fin.ext (show win3_5.index t (1 : Fin 2) * 128 + 1 * (y 1).val = (y 1).val by rw [f1]; omega)

/-- The output block at point `t` is the payload of the input blocks at `t`. -/
theorem flushed3 (c : Dev nD) (t : Fin cfg3.N) :
    (dat3 V c).flushed 5 t = k3_pay1 (F := F) (iblk3 V c 2 t) (iblk3 V c 0 t) (iblk3 V c 1 t) (iblk3 V c 3 t) (iblk3 V c 4 t) := by
  show (cfg3.win 5).cut (grid3.coords t) ((dat3 V c).after 5 t) = _
  dsimp only [dat3]
  unfold out3_5
  rw [View.canon_unit_zero zero_off3]
  simp only [View.ld_unit_zero (S := S1000x128) zero_off3, View.ld_unit_zero (S := S1x128) zero_off3]
  rfl

/-- An index lies in point `t`'s block iff each coordinate lies in the block's range on its axis. -/
theorem mem_blk3 (t : Fin cfg3.N) (i : S25000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v185).slice (win3_5.rect t)).set ↔ _
  rw [View.set_slice_whole, Rect.mem_set_unit]
  exact Iff.rfl

/-- Row `n` lies in the block of point `n / 1000`. -/
theorem cover3 (i : S25000x128.Idx) : ∃ t : Fin cfg3.N, (cfg3.win 5).flush t = true ∧ i ∈ ((cfg3.win 5).blk t).view.set := by
  have hi0 : (i 0).val < 25000 := (i 0).isLt
  have hi1 : (i 1).val < 128 := (i 1).isLt
  obtain ⟨t, ht⟩ : ∃ t : Fin cfg3.N, t.val = (i 0).val / 1000 :=
    ⟨⟨(i 0).val / 1000, by rw [show cfg3.N = 25 from N_3]; omega⟩, rfl⟩
  obtain ⟨-, -, -, -, -, -, -, -, -, -, e0, e1⟩ := index_facts3 t
  refine ⟨t, flush3_5 t, ?_⟩
  rw [mem_blk3]
  intro a
  match a with
  | ⟨0, _⟩ => show win3_5.index t (0 : Fin 2) * 1000 ≤ (i 0).val ∧ (i 0).val < win3_5.index t (0 : Fin 2) * 1000 + 1000; rw [e0, ht]; omega
  | ⟨1, _⟩ => show win3_5.index t (1 : Fin 2) * 128 ≤ (i 1).val ∧ (i 1).val < win3_5.index t (1 : Fin 2) * 128 + 128; rw [e1]; omega

end Cert.KernelIdeal.Hand

end
-- ==== Proof.KRegValue3.lean ====
import proofs.«412279_j89026082111590_3_alg».proof.Proof.KI.Val3
import proofs.«412279_j89026082111590_3_alg».proof.Proof.PayIdx1
import proofs.«412279_j89026082111590_3_alg».proof.Proof.SpecInputs

noncomputable section

namespace Cert.KernelIdeal.KVal

open Cert.KernelIdeal Cert.KernelIdeal.Gen Cert.KernelIdeal.Hand Cert.KernelIdeal.PayIdx
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

open Spline (m2)

/-- Each output element is the payload at its own place: every point's block has it, and the blocks cover the array. -/
theorem exit3_5_apply (c : Dev nD) (p : Fin 25000) (l : Fin 128) :
    m2 ((dat3 V c).arrAt 5 cfg3.N) p l
      = max (Spline.bnPt (m2 (V c main_v176) p l) (m2 (V c main_v178) (0 : Fin 1) l) (m2 (V c main_v180) (0 : Fin 1) l) (m2 (V c main_v182) (0 : Fin 1) l) (m2 (V c main_v184) (0 : Fin 1) l)) 0 := by
  refine (dat3 V c).arrAt_forall_of_cover 5 (fun i v => v = max (Spline.bnPt ((V c main_v176 : S25000x128.Idx → EReal) i) (m2 (V c main_v178) (0 : Fin 1) (i 1)) (m2 (V c main_v180) (0 : Fin 1) (i 1)) (m2 (V c main_v182) (0 : Fin 1) (i 1)) (m2 (V c main_v184) (0 : Fin 1) (i 1))) 0)
    (fun t _ (y : S1000x128.Idx) => ?_) cover3 (ix2 p l)
  obtain ⟨r, l', rfl⟩ : ∃ a b, y = ix2 a b := ⟨_, _, eq_ix2 y⟩
  show (dat3 V c).flushed 5 t (ix2 r l') = _
  rw [lane3 t (ix2 r l'), flushed3, k3_pay1_apply, iblk3_0_apply V c t, iblk3_1_eq, iblk3_2_eq, iblk3_3_eq, iblk3_4_eq]
  rfl

end Cert.KernelIdeal.KVal

end
-- ==== Proof.KAsmA.lean ====
import proofs.«412279_j89026082111590_3_alg».proof.Proof.KI.Args
import proofs.«412279_j89026082111590_3_alg».proof.Proof.KHostBN
import proofs.«412279_j89026082111590_3_alg».proof.Proof.KHostConv
import proofs.«412279_j89026082111590_3_alg».proof.Proof.KRegValue0
import proofs.«412279_j89026082111590_3_alg».proof.Proof.KRegValue1
import proofs.«412279_j89026082111590_3_alg».proof.Proof.KRegValue2
import proofs.«412279_j89026082111590_3_alg».proof.Proof.KRegValue3
import proofs.«412279_j89026082111590_3_alg».proof.Proof.Spec
import proofs.«412279_j89026082111590_3_alg».proof.Proof.SpecInputs

set_option maxRecDepth 16384

noncomputable section

namespace Cert.KernelIdeal.KAsm

open Cert.KernelIdeal Cert.KernelIdeal.Gen Cert.KernelIdeal.Hand
open Idealize.ShloMosaic Idealize.ShloMosaic.TcCoe Idealize.SL.Sem Idealize.ShloMosaic.ValueIdx
open scoped BigOperators

/-- The prefix's results and the launched arguments, at the contents `W3`. -/
structure Entry3 (m : (ℓ : Loc nD τ sig) → Buf (Elt Ideal) ℓ) (ρ : Dev nD → PrngReg) (c : Dev nD)
    (X0 : S50000x30.Idx → EReal) (X1 : S50000x2.Idx → EReal) (X2 : S800000x2.Idx → EReal)
    (X3 : S2x800000.Idx → BitVec 32) (X4 : S25x32x64.Idx → EReal) (X5 : S32x64.Idx → EReal)
    (X6 X7 : S64.Idx → EReal) (X8 : S25x64x64.Idx → EReal) (X9 : S64x64.Idx → EReal)
    (X10 X11 : S64.Idx → EReal) (X12 : S32x64.Idx → EReal) (X13 X14 : S64.Idx → EReal) : Prop where
  xin : ∀ (n : Fin 50000) (k : Fin 32),
    (W3 m ρ c (Proc.devRef .tc main_v66) : S50000x32.Idx → EReal) (ix2 n k) = Spline.xinF X0 X1 n k
  v1 : ∀ e : Fin 800000, (W3 m ρ c (Proc.devRef .tc main_v1) : S800000.Idx → BitVec 32) (ix1 e) = Spline.srcW X3 e
  v3 : ∀ e : Fin 800000, (W3 m ρ c (Proc.devRef .tc main_v3) : S800000.Idx → BitVec 32) (ix1 e) = Spline.dstW X3 e
  v65 : ∀ (e : Fin 800000) (b : Fin 4),
    (W3 m ρ c (Proc.devRef .tc main_v65) : S800000x4.Idx → BitVec 32) (ix2 e b) = Spline.wiF X2 e b
  v84 : ∀ (e : Fin 800000) (b : Fin 4), (W3 m ρ c (Proc.devRef .tc main_v84) : S800000x4.Idx → EReal) (ix2 e b)
    = Spline.basisF X2 e b * Spline.invDeg (Spline.dstW X3) (Spline.gIdx (Spline.dstW X3 e))
  arg4 : (W3 m ρ c (Proc.devRef .tc main_arg4) : S25x32x64.Idx → EReal) = X4
  arg5 : (W3 m ρ c (Proc.devRef .tc main_arg5) : S32x64.Idx → EReal) = X5
  arg6 : (W3 m ρ c (Proc.devRef .tc main_arg6) : S64.Idx → EReal) = X6
  arg7 : (W3 m ρ c (Proc.devRef .tc main_arg7) : S64.Idx → EReal) = X7
  arg8 : (W3 m ρ c (Proc.devRef .tc main_arg8) : S25x64x64.Idx → EReal) = X8
  arg9 : (W3 m ρ c (Proc.devRef .tc main_arg9) : S64x64.Idx → EReal) = X9
  arg10 : (W3 m ρ c (Proc.devRef .tc main_arg10) : S64.Idx → EReal) = X10
  arg11 : (W3 m ρ c (Proc.devRef .tc main_arg11) : S64.Idx → EReal) = X11
  arg12 : (W3 m ρ c (Proc.devRef .tc main_arg12) : S32x64.Idx → EReal) = X12
  arg13 : (W3 m ρ c (Proc.devRef .tc main_arg13) : S64.Idx → EReal) = X13
  arg14 : (W3 m ρ c (Proc.devRef .tc main_arg14) : S64.Idx → EReal) = X14

/-- The first layer's results and what the second layer still reads, at the contents `W10`. -/
structure Exit10 (m : (ℓ : Loc nD τ sig) → Buf (Elt Ideal) ℓ) (ρ : Dev nD → PrngReg) (c : Dev nD)
    (X0 : S50000x30.Idx → EReal) (X1 : S50000x2.Idx → EReal) (X2 : S800000x2.Idx → EReal)
    (X3 : S2x800000.Idx → BitVec 32) (X4 : S25x32x64.Idx → EReal) (X5 : S32x64.Idx → EReal)
    (X6 X7 : S64.Idx → EReal) (X8 : S25x64x64.Idx → EReal) (X9 : S64x64.Idx → EReal)
    (X10 X11 : S64.Idx → EReal) (X12 : S32x64.Idx → EReal) (X13 X14 : S64.Idx → EReal) : Prop where
  skip : ∀ (n : Fin 50000) (o : Fin 64),
    (W10 m ρ c (Proc.devRef .tc main_v106) : S50000x64.Idx → EReal) (ix2 n o) = Spline.skipK X0 X1 X12 X13 X14 n o
  h1 : ∀ (p : Fin 25000) (l : Fin 128),
    (W10 m ρ c (Proc.devRef .tc main_v185) : S25000x128.Idx → EReal) (ix2 p l) = Spline.h1K X0 X1 X2 X3 X4 X5 X6 X7 (⟨2 * p.val + l.val / 64, by omega⟩ : Fin 50000) (⟨l.val % 64, Nat.mod_lt _ (by norm_num)⟩ : Fin 64)
  v1 : ∀ e : Fin 800000, (W10 m ρ c (Proc.devRef .tc main_v1) : S800000.Idx → BitVec 32) (ix1 e) = Spline.srcW X3 e
  v3 : ∀ e : Fin 800000, (W10 m ρ c (Proc.devRef .tc main_v3) : S800000.Idx → BitVec 32) (ix1 e) = Spline.dstW X3 e
  v65 : ∀ (e : Fin 800000) (b : Fin 4),
    (W10 m ρ c (Proc.devRef .tc main_v65) : S800000x4.Idx → BitVec 32) (ix2 e b) = Spline.wiF X2 e b
  v84 : ∀ (e : Fin 800000) (b : Fin 4), (W10 m ρ c (Proc.devRef .tc main_v84) : S800000x4.Idx → EReal) (ix2 e b)
    = Spline.basisF X2 e b * Spline.invDeg (Spline.dstW X3) (Spline.gIdx (Spline.dstW X3 e))
  arg8 : (W10 m ρ c (Proc.devRef .tc main_arg8) : S25x64x64.Idx → EReal) = X8
  arg9 : (W10 m ρ c (Proc.devRef .tc main_arg9) : S64x64.Idx → EReal) = X9
  arg10 : (W10 m ρ c (Proc.devRef .tc main_arg10) : S64.Idx → EReal) = X10
  arg11 : (W10 m ρ c (Proc.devRef .tc main_arg11) : S64.Idx → EReal) = X11

section FirstHalf

variable {m : (ℓ : Loc nD τ sig) → Buf (Elt Ideal) ℓ} {ρ : Dev nD → PrngReg} {c : Dev nD}
variable {X0 : S50000x30.Idx → EReal} {X1 : S50000x2.Idx → EReal} {X2 : S800000x2.Idx → EReal}
  {X3 : S2x800000.Idx → BitVec 32} {X4 : S25x32x64.Idx → EReal} {X5 : S32x64.Idx → EReal}
  {X6 X7 : S64.Idx → EReal} {X8 : S25x64x64.Idx → EReal} {X9 : S64x64.Idx → EReal}
  {X10 X11 : S64.Idx → EReal} {X12 : S32x64.Idx → EReal} {X13 X14 : S64.Idx → EReal}

/-- Row `n` read back out of the two-to-a-row layout of `f`. -/
theorem unpack_at {B : S50000x64.Idx → EReal} {A : S25000x128.Idx → EReal} {f : Fin 50000 → Fin 64 → EReal}
    (hB : B = shapeCast S50000x64 A shapeCasts_S25000x128_S50000x64)
    (hA : ∀ (p : Fin 25000) (l : Fin 128), A (ix2 p l) = f (⟨2 * p.val + l.val / 64, by omega⟩ : Fin 50000) (⟨l.val % 64, Nat.mod_lt _ (by norm_num)⟩ : Fin 64)) (n : Fin 50000) (o : Fin 64) : B (ix2 n o) = f n o := by
  subst hB
  rw [KHost.unpack_rows_apply, hA]
  exact congrArg₂ f (Fin.ext (by show 2 * (n.val / 2) + (64 * (n.val % 2) + o.val) / 64 = n.val; omega))
    (Fin.ext (by show (64 * (n.val % 2) + o.val) % 64 = o.val; omega))

theorem W4_in0 : W4 m ρ c (Proc.devRef .tc main_v66) = W3 m ρ c (Proc.devRef .tc main_v66) :=
  (W4_arr m ρ c 0).trans (((dat0 (V3 m ρ) c).arrAt_in 0 rfl cfg0.N).trans (A_eq0 (V3 m ρ) c 0))

/-- `b` is written by no stretch and no region from the first region's entry to the second region's exit. -/
abbrev Idle6 (b : Ref sig .tc) : Prop :=
  b ∉ written1 ∧ (∀ w, Pipeline.arrRef spec0 w ≠ b) ∧ ∀ w, Pipeline.arrRef spec1 w ≠ b
/-- … to the third region's exit. -/
abbrev Idle8 (b : Ref sig .tc) : Prop := Idle6 b ∧ b ∉ written2 ∧ ∀ w, Pipeline.arrRef spec2 w ≠ b
/-- … to the fourth region's exit. -/
abbrev Idle10 (b : Ref sig .tc) : Prop := Idle8 b ∧ b ∉ written3 ∧ ∀ w, Pipeline.arrRef spec3 w ≠ b

theorem carry6 (b : Ref sig .tc) (h : Idle6 b) : W6 m ρ c (Proc.devRef .tc b) = W3 m ρ c (Proc.devRef .tc b) :=
  (W6_of_ne m ρ c b h.2.2).trans ((keep1 _ b h.1).trans (W4_of_ne m ρ c b h.2.1))
theorem carry8 (b : Ref sig .tc) (h : Idle8 b) : W8 m ρ c (Proc.devRef .tc b) = W3 m ρ c (Proc.devRef .tc b) :=
  (W8_of_ne m ρ c b h.2.2).trans ((keep2 _ b h.2.1).trans (carry6 b h.1))
theorem carry10 (b : Ref sig .tc) (h : Idle10 b) : W10 m ρ c (Proc.devRef .tc b) = W3 m ρ c (Proc.devRef .tc b) :=
  (W10_of_ne m ρ c b h.2.2).trans ((keep3 _ b h.2.1).trans (carry8 b h.1))

variable (H : Entry3 m ρ c X0 X1 X2 X3 X4 X5 X6 X7 X8 X9 X10 X11 X12 X13 X14)
include H

theorem pre_skip (n : Fin 50000) (o : Fin 64) :
    ∑ k : Fin 32, Spline.m2 (V3 m ρ c main_v66) n k * Spline.m2 (V3 m ρ c main_arg12) k o
      = Spline.mm (Spline.xinF X0 X1) (Spline.m2 X12) n o := by
  unfold Spline.mm
  exact Finset.sum_congr rfl fun k _ =>
    congrArg₂ (fun a b : EReal => a * b) (H.xin n k) (congrFun H.arg12 (ix2 k o))

theorem ys_4 (n : Fin 50000) (o : Fin 64) :
    (W4 m ρ c (Proc.devRef .tc main_v85_0) : S50000x64.Idx → EReal) (ix2 n o) = Spline.mm (Spline.xinF X0 X1) (Spline.m2 X12) n o := by
  have e : (W4 m ρ c (Proc.devRef .tc main_v85_0) : S50000x64.Idx → EReal) = (exit0 (V3 m ρ) c 2 : S50000x64.Idx → EReal) := W4_arr m ρ c 2
  rw [e]
  exact (KVal.exit0_2_apply (V3 m ρ) c n o).trans (pre_skip H n o)

theorem ssum_4 (t : Fin 25) (o : Fin 64) :
    (W4 m ρ c (Proc.devRef .tc main_v85_1) : S25x64.Idx → EReal) (ix2 t o) = Spline.tileSum (Spline.mm (Spline.xinF X0 X1) (Spline.m2 X12)) t o := by
  have e : (W4 m ρ c (Proc.devRef .tc main_v85_1) : S25x64.Idx → EReal) = (exit0 (V3 m ρ) c 3 : S25x64.Idx → EReal) := W4_arr m ρ c 3
  rw [e]
  refine (KVal.exit0_3_apply (V3 m ρ) c t o).trans ?_
  unfold Spline.tileSum
  exact Finset.sum_congr rfl fun r _ => pre_skip H (Spline.tileRow t r) o

theorem ssq_4 (t : Fin 25) (o : Fin 64) :
    (W4 m ρ c (Proc.devRef .tc main_v85_2) : S25x64.Idx → EReal) (ix2 t o) = Spline.tileSq (Spline.mm (Spline.xinF X0 X1) (Spline.m2 X12)) t o := by
  have e : (W4 m ρ c (Proc.devRef .tc main_v85_2) : S25x64.Idx → EReal) = (exit0 (V3 m ρ) c 4 : S25x64.Idx → EReal) := W4_arr m ρ c 4
  rw [e]
  refine (KVal.exit0_4_apply (V3 m ρ) c t o).trans ?_
  unfold Spline.tileSq
  exact Finset.sum_congr rfl fun r _ =>
    congrArg₂ (fun a b : EReal => a * b) (pre_skip H (Spline.tileRow t r) o) (pre_skip H (Spline.tileRow t r) o)

theorem skip_6 (p : Fin 25000) (l : Fin 128) :
    (W6 m ρ c (Proc.devRef .tc main_v105) : S25000x128.Idx → EReal) (ix2 p l) = Spline.skipK X0 X1 X12 X13 X14 (⟨2 * p.val + l.val / 64, by omega⟩ : Fin 50000) (⟨l.val % 64, Nat.mod_lt _ (by norm_num)⟩ : Fin 64) := by
  have e : (W6 m ρ c (Proc.devRef .tc main_v105) : S25000x128.Idx → EReal) = ((dat1 (V5 m ρ) c).arrAt 5 cfg1.N : S25000x128.Idx → EReal) := W6_arr m ρ c 5
  rw [e]
  exact (KVal.exit1_5_apply (V5 m ρ) c p l).trans (KHost.bnPt_packed (KHost.h1_rows_eq _) (KHost.h1_mean_eq _) (KHost.h1_var_eq _)
    (KHost.h1_gain_eq _) (KHost.h1_bias_eq _) (ys_4 H) (ssum_4 H) (ssq_4 H)
    ((W4_of_ne m ρ c main_arg13 (by decide)).trans H.arg13) ((W4_of_ne m ρ c main_arg14 (by decide)).trans H.arg14) p l)

theorem v1_6 (e : Fin 800000) : (W6 m ρ c (Proc.devRef .tc main_v1) : S800000.Idx → BitVec 32) (ix1 e) = Spline.srcW X3 e :=
  (congrFun (carry6 main_v1 (by decide)) (ix1 e)).trans (H.v1 e)
theorem v3_6 (e : Fin 800000) : (W6 m ρ c (Proc.devRef .tc main_v3) : S800000.Idx → BitVec 32) (ix1 e) = Spline.dstW X3 e :=
  (congrFun (carry6 main_v3 (by decide)) (ix1 e)).trans (H.v3 e)
theorem v65_6 (e : Fin 800000) (b : Fin 4) : (W6 m ρ c (Proc.devRef .tc main_v65) : S800000x4.Idx → BitVec 32) (ix2 e b) = Spline.wiF X2 e b :=
  (congrFun (carry6 main_v65 (by decide)) (ix2 e b)).trans (H.v65 e b)
theorem v84_6 (e : Fin 800000) (b : Fin 4) : (W6 m ρ c (Proc.devRef .tc main_v84) : S800000x4.Idx → EReal) (ix2 e b)
    = Spline.basisF X2 e b * Spline.invDeg (Spline.dstW X3) (Spline.gIdx (Spline.dstW X3 e)) :=
  (congrFun (carry6 main_v84 (by decide)) (ix2 e b)).trans (H.v84 e b)
theorem xin_6 (n : Fin 50000) (k : Fin 32) : (W6 m ρ c (Proc.devRef .tc main_v66) : S50000x32.Idx → EReal) (ix2 n k) = Spline.xinF X0 X1 n k :=
  (congrFun ((W6_of_ne m ρ c main_v66 (by decide)).trans ((keep1 _ main_v66 (by decide)).trans W4_in0)) (ix2 n k)).trans (H.xin n k)

theorem v163_7 (n : Fin 50000) (j : Fin 800) :
    (W7 m ρ c (Proc.devRef .tc main_v163) : S50000x800.Idx → EReal) (ix2 n j)
      = Spline.accRow (by decide : 0 < 32) (Spline.acc (Spline.dstW X3) (Spline.wiF X2) (Spline.xg X3 (Spline.xinF X0 X1)) (fun e b => Spline.basisF X2 e b * Spline.invDeg (Spline.dstW X3) (Spline.gIdx (Spline.dstW X3 e)))) n j := by
  refine (KHost.h2_acc (W6 m ρ c) n j).trans ?_
  have e1 : (fun e => (W6 m ρ c (Proc.devRef .tc main_v3) : S800000.Idx → BitVec 32) (ix1 e)) = Spline.dstW X3 := funext (v3_6 H)
  have e2 : (fun e b => (W6 m ρ c (Proc.devRef .tc main_v65) : S800000x4.Idx → BitVec 32) (ix2 e b)) = Spline.wiF X2 :=
    funext fun e => funext fun b => v65_6 H e b
  have e3 : (fun e c' => (W6 m ρ c (Proc.devRef .tc main_v66) : S50000x32.Idx → EReal)
        (ix2 (Spline.gIdx ((W6 m ρ c (Proc.devRef .tc main_v1) : S800000.Idx → BitVec 32) (ix1 e))) c'))
      = Spline.xg X3 (Spline.xinF X0 X1) := by
    funext e c'
    rw [v1_6 H e]
    exact xin_6 H (Spline.gIdx (Spline.srcW X3 e)) c'
  have e4 : (fun e b => (W6 m ρ c (Proc.devRef .tc main_v84) : S800000x4.Idx → EReal) (ix2 e b)) = (fun e b => Spline.basisF X2 e b * Spline.invDeg (Spline.dstW X3) (Spline.gIdx (Spline.dstW X3 e))) :=
    funext fun e => funext fun b => v84_6 H e b
  rw [e1, e2, e3, e4]

theorem pre_y1 (n : Fin 50000) (o : Fin 64) :
    (∑ j : Fin 800, Spline.m2 (V7 m ρ c main_v163) n j * Spline.m2 (V7 m ρ c main_v164) j o)
        + ∑ k : Fin 32, Spline.m2 (V7 m ρ c main_v66) n k * Spline.m2 (V7 m ρ c main_arg5) k o
      = Spline.y1K X0 X1 X2 X3 X4 X5 n o := by
  unfold Spline.y1K Spline.convK
  refine congrArg₂ (fun a b : EReal => a + b) (Finset.sum_congr rfl fun j _ => ?_) (Finset.sum_congr rfl fun k _ => ?_)
  · refine congrArg₂ (fun a b : EReal => a * b) (v163_7 H n j) ((KHost.h2_w (W6 m ρ c) j o).trans ?_)
    rw [(carry6 main_arg4 (by decide)).trans H.arg4]
    rfl
  · exact congrArg₂ (fun a b : EReal => a * b) ((congrFun (keep2 (W6 m ρ c) main_v66 (by decide)) (ix2 n k)).trans (xin_6 H n k))
      (congrFun ((keep2 _ main_arg5 (by decide)).trans ((carry6 main_arg5 (by decide)).trans H.arg5)) (ix2 k o))

theorem y1_8 (n : Fin 50000) (o : Fin 64) :
    (W8 m ρ c (Proc.devRef .tc main_v165_0) : S50000x64.Idx → EReal) (ix2 n o) = Spline.y1K X0 X1 X2 X3 X4 X5 n o := by
  have e : (W8 m ρ c (Proc.devRef .tc main_v165_0) : S50000x64.Idx → EReal) = (exit2 (V7 m ρ) c 4 : S50000x64.Idx → EReal) := W8_arr m ρ c 4
  rw [e]
  exact (KVal.exit2_4_apply (V7 m ρ) c n o).trans (pre_y1 H n o)

theorem tsum_8 (t : Fin 25) (o : Fin 64) :
    (W8 m ρ c (Proc.devRef .tc main_v165_1) : S25x64.Idx → EReal) (ix2 t o) = Spline.tileSum (Spline.y1K X0 X1 X2 X3 X4 X5) t o := by
  have e : (W8 m ρ c (Proc.devRef .tc main_v165_1) : S25x64.Idx → EReal) = (exit2 (V7 m ρ) c 5 : S25x64.Idx → EReal) := W8_arr m ρ c 5
  rw [e]
  refine (KVal.exit2_5_apply (V7 m ρ) c t o).trans ?_
  unfold Spline.tileSum
  exact Finset.sum_congr rfl fun r _ => pre_y1 H (Spline.tileRow t r) o

theorem tsq_8 (t : Fin 25) (o : Fin 64) :
    (W8 m ρ c (Proc.devRef .tc main_v165_2) : S25x64.Idx → EReal) (ix2 t o) = Spline.tileSq (Spline.y1K X0 X1 X2 X3 X4 X5) t o := by
  have e : (W8 m ρ c (Proc.devRef .tc main_v165_2) : S25x64.Idx → EReal) = (exit2 (V7 m ρ) c 6 : S25x64.Idx → EReal) := W8_arr m ρ c 6
  rw [e]
  refine (KVal.exit2_6_apply (V7 m ρ) c t o).trans ?_
  unfold Spline.tileSq
  exact Finset.sum_congr rfl fun r _ =>
    congrArg₂ (fun a b : EReal => a * b) (pre_y1 H (Spline.tileRow t r) o) (pre_y1 H (Spline.tileRow t r) o)

/-- `Entry3` carried to `W10`. -/
theorem exit10 : Exit10 m ρ c X0 X1 X2 X3 X4 X5 X6 X7 X8 X9 X10 X11 X12 X13 X14 where
  skip := fun n o => by
    have h : (W10 m ρ c (Proc.devRef .tc main_v106) : S50000x64.Idx → EReal) = (W7 m ρ c (Proc.devRef .tc main_v106) : S50000x64.Idx → EReal) :=
      (W10_of_ne m ρ c main_v106 (by decide)).trans ((keep3 _ main_v106 (by decide)).trans (W8_of_ne m ρ c main_v106 (by decide)))
    rw [h]
    exact unpack_at (KHost.h2_rows_eq (W6 m ρ c)) (skip_6 H) n o
  h1 := fun p l => by
    have e : (W10 m ρ c (Proc.devRef .tc main_v185) : S25000x128.Idx → EReal) = ((dat3 (V9 m ρ) c).arrAt 5 cfg3.N : S25000x128.Idx → EReal) := W10_arr m ρ c 5
    rw [e]
    exact (KVal.exit3_5_apply (V9 m ρ) c p l).trans (congrArg (fun x : EReal => max x 0)
      (KHost.bnPt_packed (KHost.h3_rows_eq _) (KHost.h3_mean_eq _) (KHost.h3_var_eq _) (KHost.h3_gain_eq _) (KHost.h3_bias_eq _)
        (y1_8 H) (tsum_8 H) (tsq_8 H) ((carry8 main_arg6 (by decide)).trans H.arg6) ((carry8 main_arg7 (by decide)).trans H.arg7) p l))
  v1 := fun e => (congrFun (carry10 main_v1 (by decide)) (ix1 e)).trans (H.v1 e)
  v3 := fun e => (congrFun (carry10 main_v3 (by decide)) (ix1 e)).trans (H.v3 e)
  v65 := fun e b => (congrFun (carry10 main_v65 (by decide)) (ix2 e b)).trans (H.v65 e b)
  v84 := fun e b => (congrFun (carry10 main_v84 (by decide)) (ix2 e b)).trans (H.v84 e b)
  arg8 := (carry10 main_arg8 (by decide)).trans H.arg8
  arg9 := (carry10 main_arg9 (by decide)).trans H.arg9
  arg10 := (carry10 main_arg10 (by decide)).trans H.arg10
  arg11 := (carry10 main_arg11 (by decide)).trans H.arg11

end FirstHalf

end Cert.KernelIdeal.KAsm

end
-- ==== Proof.KI.Val4.lean ====
import proofs.«412279_j89026082111590_3_alg».proof.Proof.KI.Reg4
import proofs.«412279_j89026082111590_3_alg».proof.Proof.KI.Val0

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem point_lt4 (t : Fin cfg4.N) : t.val < 25 := Nat.lt_of_lt_of_eq t.isLt N_4

theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem iblk4_0_eq (c : Dev nD) (t : Fin cfg4.N) :
    (iblk4 V c 0 t : Vec F S2000x1600 .f32) = rowBlk (V c main_v243 : S50000x1600.Idx → Elt F .f32) t.val (point_lt4 t) := by
  obtain ⟨e0, e1, -⟩ := index_facts4 t
  funext y
  unfold iblk4
  rw [View.read_apply]
  refine congrArg (V c main_v243 : S50000x1600.Idx → Elt F .f32) (Shape.idx_ext₂ ?_ ?_)
  · show win4_0.index t (0 : Fin 2) * 2000 + 1 * (y 0).val = 2000 * t.val + (y 0).val; rw [e0]; omega
  · show win4_0.index t (1 : Fin 2) * 1600 + 1 * (y 1).val = (y 1).val; rw [e1]; omega

theorem iblk4_1_eq (c : Dev nD) (t : Fin cfg4.N) :
    (iblk4 V c 1 t : Vec F S1600x64 .f32) = (V c main_v244 : S1600x64.Idx → Elt F .f32) := by
  obtain ⟨-, -, e0, e1, -⟩ := index_facts4 t
  funext y
  unfold iblk4
  rw [View.read_apply]
  refine congrArg (V c main_v244 : S1600x64.Idx → Elt F .f32) (Shape.idx_ext₂ ?_ ?_)
  · show win4_1.index t (0 : Fin 2) * 1600 + 1 * (y 0).val = (y 0).val; rw [e0]; omega
  · show win4_1.index t (1 : Fin 2) * 64 + 1 * (y 1).val = (y 1).val; rw [e1]; omega

theorem iblk4_2_eq (c : Dev nD) (t : Fin cfg4.N) :
    (iblk4 V c 2 t : Vec F S2000x64 .f32) = rowBlk (V c main_v186 : S50000x64.Idx → Elt F .f32) t.val (point_lt4 t) := by
  obtain ⟨-, -, -, -, e0, e1, -⟩ := index_facts4 t
  funext y
  unfold iblk4
  rw [View.read_apply]
  refine congrArg (V c main_v186 : S50000x64.Idx → Elt F .f32) (Shape.idx_ext₂ ?_ ?_)
  · show win4_2.index t (0 : Fin 2) * 2000 + 1 * (y 0).val = 2000 * t.val + (y 0).val; rw [e0]; omega
  · show win4_2.index t (1 : Fin 2) * 64 + 1 * (y 1).val = (y 1).val; rw [e1]; omega

theorem iblk4_3_eq (c : Dev nD) (t : Fin cfg4.N) :
    (iblk4 V c 3 t : Vec F S64x64 .f32) = (V c main_arg9 : S64x64.Idx → Elt F .f32) := by
  obtain ⟨-, -, -, -, -, -, e0, e1, -⟩ := index_facts4 t
  funext y
  unfold iblk4
  rw [View.read_apply]
  refine congrArg (V c main_arg9 : S64x64.Idx → Elt F .f32) (Shape.idx_ext₂ ?_ ?_)
  · show win4_3.index t (0 : Fin 2) * 64 + 1 * (y 0).val = (y 0).val; rw [e0]; omega
  · show win4_3.index t (1 : Fin 2) * 64 + 1 * (y 1).val = (y 1).val; rw [e1]; omega

-- The result array after the region: row `n` is row `n % 2000` of what the point `n / 2000` stores.
def G4 (c : Dev nD) : Vec F S50000x64 .f32 := fun i =>
  k4_pay1 (F := F) (rowBlk (V c main_v243 : S50000x1600.Idx → Elt F .f32) ((i 0).val / 2000) (rowBlk_lt (i 0))) (V c main_v244 : S1600x64.Idx → Elt F .f32)
    (rowBlk (V c main_v186 : S50000x64.Idx → Elt F .f32) ((i 0).val / 2000) (rowBlk_lt (i 0))) (V c main_arg9 : S64x64.Idx → Elt F .f32)
    (ix2 ⟨(i 0).val % 2000, Nat.mod_lt _ (by decide)⟩ ⟨(i 1).val, (i 1).isLt⟩)

theorem G4_apply (c : Dev nD) (n : Fin 50000) (o : Fin 64) :
    G4 V c (ix2 n o) = k4_pay1 (F := F) (rowBlk (V c main_v243 : S50000x1600.Idx → Elt F .f32) (n.val / 2000) (rowBlk_lt n)) (V c main_v244 : S1600x64.Idx → Elt F .f32)
      (rowBlk (V c main_v186 : S50000x64.Idx → Elt F .f32) (n.val / 2000) (rowBlk_lt n)) (V c main_arg9 : S64x64.Idx → Elt F .f32)
      (ix2 ⟨n.val % 2000, Nat.mod_lt _ (by decide)⟩ o) := rfl

theorem G4_at (c : Dev nD) (t : Nat) (ht : t < 25) (j : S2000x64.Idx) (i : S50000x64.Idx)
    (h0 : (i 0).val = 2000 * t + (j 0).val) (h1 : (i 1).val = (j 1).val) :
    G4 V c i = k4_pay1 (F := F) (rowBlk (V c main_v243 : S50000x1600.Idx → Elt F .f32) t ht) (V c main_v244 : S1600x64.Idx → Elt F .f32)
      (rowBlk (V c main_v186 : S50000x64.Idx → Elt F .f32) t ht) (V c main_arg9 : S64x64.Idx → Elt F .f32) j := by
  have hj0 : (j 0).val < 2000 := (j 0).isLt
  have hq : (i 0).val / 2000 = t := by omega
  have hj : (ix2 ⟨(i 0).val % 2000, Nat.mod_lt _ (by decide)⟩ ⟨(i 1).val, (i 1).isLt⟩ : S2000x64.Idx) = j :=
    Shape.idx_ext₂ (by show (i 0).val % 2000 = (j 0).val; omega) h1
  unfold G4
  rw [hj]
  subst hq
  rfl

theorem flushed4_eq (c : Dev nD) (t : Fin cfg4.N) :
    (dat4 V c).flushed 4 t = ((cfg4.win 4).blk t).view.read (Elt F) (G4 V c) := by
  obtain ⟨-, -, -, -, -, -, -, -, e0, e1⟩ := index_facts4 t
  show (cfg4.win 4).cut (grid4.coords t) ((dat4 V c).after 4 t) = _
  rw [after4_4]
  unfold out4_4
  rw [View.canon_unit_zero off00]
  simp only [View.ld_unit_zero (S := S2000x1600) off00, View.ld_unit_zero (S := S1600x64) off00, View.ld_unit_zero (S := S2000x64) off00, View.ld_unit_zero (S := S64x64) off00]
  rw [iblk4_0_eq, iblk4_1_eq, iblk4_2_eq, iblk4_3_eq]
  funext j
  refine (G4_at V c t.val (point_lt4 t) j _ ?_ ?_).symm
  · show win4_4.index t (0 : Fin 2) * 2000 + 1 * (j 0).val = 2000 * t.val + (j 0).val
    rw [e0]; omega
  · show win4_4.index t (1 : Fin 2) * 64 + 1 * (j 1).val = (j 1).val
    rw [e1]; omega

theorem mem_blk4 (t : Fin cfg4.N) (i : S50000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v245_0).slice (win4_4.rect t)).set ↔ _
  rw [View.set_slice_whole, Rect.mem_set_unit]
  exact Iff.rfl

-- Row `n` lies in the block of point `n / 2000`.
theorem cover4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, -, -, -, -, e0, e1⟩ := index_facts4 t
  refine ⟨t, flush4_4 t, (mem_blk4 t i).mpr fun a => ?_⟩
  match a with
  | ⟨0, _⟩ => show win4_4.index t (0 : Fin 2) * 2000 ≤ (i 0).val ∧ (i 0).val < win4_4.index t (0 : Fin 2) * 2000 + 2000; rw [e0, ht]; omega
  | ⟨1, _⟩ => show win4_4.index t (1 : Fin 2) * 64 ≤ (i 1).val ∧ (i 1).val < win4_4.index t (1 : Fin 2) * 64 + 64; rw [e1]; omega

theorem final4 (c : Dev nD) : (dat4 V c).arrAt 4 cfg4.N = G4 V c :=
  (dat4 V c).arrAt_eq_of_cover 4 (G4 V c) (fun t _ => flushed4_eq V c t) cover4

theorem sumRow4_eq (c : Dev nD) (t : Fin cfg4.N) :
    sumRow4 V c t = k4_pay2 (F := F) (rowBlk (V c main_v243 : S50000x1600.Idx → Elt F .f32) t.val (point_lt4 t)) (V c main_v244 : S1600x64.Idx → Elt F .f32)
      (rowBlk (V c main_v186 : S50000x64.Idx → Elt F .f32) t.val (point_lt4 t)) (V c main_arg9 : S64x64.Idx → Elt F .f32) := by
  unfold sumRow4
  simp only [View.ld_unit_zero (S := S2000x1600) off00, View.ld_unit_zero (S := S1600x64) off00, View.ld_unit_zero (S := S2000x64) off00, View.ld_unit_zero (S := S64x64) off00]
  rw [iblk4_0_eq, iblk4_1_eq, iblk4_2_eq, iblk4_3_eq]

theorem sqRow4_eq (c : Dev nD) (t : Fin cfg4.N) :
    sqRow4 V c t = k4_pay3 (F := F) (rowBlk (V c main_v243 : S50000x1600.Idx → Elt F .f32) t.val (point_lt4 t)) (V c main_v244 : S1600x64.Idx → Elt F .f32)
      (rowBlk (V c main_v186 : S50000x64.Idx → Elt F .f32) t.val (point_lt4 t)) (V c main_arg9 : S64x64.Idx → Elt F .f32) := by
  unfold sqRow4
  simp only [View.ld_unit_zero (S := S2000x1600) off00, View.ld_unit_zero (S := S1600x64) off00, View.ld_unit_zero (S := S2000x64) off00, View.ld_unit_zero (S := S64x64) off00]
  rw [iblk4_0_eq, iblk4_1_eq, iblk4_2_eq, iblk4_3_eq]

end Cert.KernelIdeal.Hand

end
-- ==== Proof.KI.Tab4.lean ====
import proofs.«412279_j89026082111590_3_alg».proof.Proof.KI.Reg4

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem tab_index4 : ∀ t : Fin cfg4.N, win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem exit4_5_eq (c : Dev nD) : (exit4 V c 5 : S25x64.Idx → Elt F .f32) = tab4_5 V c := by
  obtain ⟨e0, e1, -, -⟩ := tab_index4 last4
  funext i
  have hemb : ((cfg4.win 5).blk last4).view.emb (i : S25x64.Idx) = i := by
    funext a
    apply Fin.ext
    match a with
    | ⟨0, _⟩ => show win4_5.index last4 (0 : Fin 2) * 25 + 1 * (i 0).val = (i 0).val; rw [e0]; omega
    | ⟨1, _⟩ => show win4_5.index last4 (1 : Fin 2) * 64 + 1 * (i 1).val = (i 1).val; rw [e1]; omega
  have h := View.write_emb_of_mem (v := ((cfg4.win 5).blk last4).view) (V c (Pipeline.arrRef spec4 5))
    ((cfg4.win 5).cut (cfg4.grid.coords last4) (tab4_5 V c)) (M := Finset.univ) (x := (i : S25x64.Idx)) (Finset.mem_univ _)
  rw [hemb] at h
  exact h

theorem exit4_6_eq (c : Dev nD) : (exit4 V c 6 : S25x64.Idx → Elt F .f32) = tab4_6 V c := by
  obtain ⟨-, -, e0, e1⟩ := tab_index4 last4
  funext i
  have hemb : ((cfg4.win 6).blk last4).view.emb (i : S25x64.Idx) = i := by
    funext a
    apply Fin.ext
    match a with
    | ⟨0, _⟩ => show win4_6.index last4 (0 : Fin 2) * 25 + 1 * (i 0).val = (i 0).val; rw [e0]; omega
    | ⟨1, _⟩ => show win4_6.index last4 (1 : Fin 2) * 64 + 1 * (i 1).val = (i 1).val; rw [e1]; omega
  have h := View.write_emb_of_mem (v := ((cfg4.win 6).blk last4).view) (V c (Pipeline.arrRef spec4 6))
    ((cfg4.win 6).cut (cfg4.grid.coords last4) (tab4_6 V c)) (M := Finset.univ) (x := (i : S25x64.Idx)) (Finset.mem_univ _)
  rw [hemb] at h
  exact h

end Cert.KernelIdeal.Hand

end
-- ==== Proof.KRegValue4.lean ====
import proofs.«412279_j89026082111590_3_alg».proof.Proof.KI.Val4
import proofs.«412279_j89026082111590_3_alg».proof.Proof.KI.Tab4
import proofs.«412279_j89026082111590_3_alg».proof.Proof.PayIdx0
import proofs.«412279_j89026082111590_3_alg».proof.Proof.SpecInputs

noncomputable section

namespace Cert.KernelIdeal.KVal

open Cert.KernelIdeal Cert.KernelIdeal.Gen Cert.KernelIdeal.Hand Cert.KernelIdeal.PayIdx
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

open Spline (m2)

-- The result array at `(n, o)`: the sum of the two products of row `n` with column `o`.
theorem exit4_4_apply (c : Dev nD) (n : Fin 50000) (o : Fin 64) :
    m2 (exit4 V c 4) n o
      = (∑ j : Fin 1600, m2 (V c main_v243) n j * m2 (V c main_v244) j o) + ∑ k : Fin 64, m2 (V c main_v186) n k * m2 (V c main_arg9) k o := by
  have h : (exit4 V c 4 : S50000x64.Idx → EReal) = G4 V c := final4 V c
  unfold Spline.m2
  rw [h, G4_apply, k4_pay1_apply]
  simp only [rowBlk_divmod]

-- Row `t` of the first table: the column sums of the result over the rows of tile `t`.
theorem exit4_5_apply (c : Dev nD) (t : Fin 25) (o : Fin 64) :
    m2 (exit4 V c 5) t o
      = ∑ r : Fin 2000, ((∑ j : Fin 1600, m2 (V c main_v243) (Spline.tileRow t r) j * m2 (V c main_v244) j o) + ∑ k : Fin 64, m2 (V c main_v186) (Spline.tileRow t r) k * m2 (V c main_arg9) k o) := by
  show (exit4 V c 5 : S25x64.Idx → EReal) (ix2 t o) = _
  rw [exit4_5_eq]
  show sumRow4 V c (⟨t.val, _⟩ : Fin cfg4.N) (ix2 (0 : Fin 1) (⟨o.val, _⟩ : Fin 64)) = _
  rw [sumRow4_eq, k4_pay2_apply]
  refine Finset.sum_congr rfl fun r _ => ?_
  rw [k4_pay1_apply]
  rfl

-- Row `t` of the second table: the column sums of the squares.
theorem exit4_6_apply (c : Dev nD) (t : Fin 25) (o : Fin 64) :
    m2 (exit4 V c 6) t o
      = ∑ r : Fin 2000, ((∑ j : Fin 1600, m2 (V c main_v243) (Spline.tileRow t r) j * m2 (V c main_v244) j o) + ∑ k : Fin 64, m2 (V c main_v186) (Spline.tileRow t r) k * m2 (V c main_arg9) k o)
          * ((∑ j : Fin 1600, m2 (V c main_v243) (Spline.tileRow t r) j * m2 (V c main_v244) j o) + ∑ k : Fin 64, m2 (V c main_v186) (Spline.tileRow t r) k * m2 (V c main_arg9) k o) := by
  show (exit4 V c 6 : S25x64.Idx → EReal) (ix2 t o) = _
  rw [exit4_6_eq]
  show sqRow4 V c (⟨t.val, _⟩ : Fin cfg4.N) (ix2 (0 : Fin 1) (⟨o.val, _⟩ : Fin 64)) = _
  rw [sqRow4_eq, k4_pay3_apply]
  refine Finset.sum_congr rfl fun r _ => ?_
  rw [k4_pay1_apply]
  rfl

end Cert.KernelIdeal.KVal

end
-- ==== Proof.KI.Val5.lean ====
import proofs.«412279_j89026082111590_3_alg».proof.Proof.KI.Reg5
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off5 : (![0, 0] : Fin 2 → Nat) = fun _ => 0 := funext fun a => by fin_cases a <;> rfl

/-- The windows' block indices at every point, decided over the grid. -/
theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- A row-block input's block at point `t` sits in its array where the output's block sits in the output array. -/
theorem iblk5_0_apply (c : Dev nD) (t : Fin cfg5.N) (y : S1000x128.Idx) :
    (iblk5 V c 0 t : Vec F S1000x128 .f32) y = (V c main_v256 : S25000x128.Idx → Elt F .f32) (((cfg5.win 6).blk t).view.emb y) := by
  obtain ⟨e0, e1, -, -, -, -, -, -, -, -, -, -, f0, f1⟩ := index_facts5 t
  unfold iblk5
  rw [View.read_apply]
  exact congrArg (V c main_v256 : S25000x128.Idx → Elt F .f32) (Shape.idx_ext₂
    (show win5_0.index t (0 : Fin 2) * 1000 + 1 * (y 0).val = win5_6.index t (0 : Fin 2) * 1000 + 1 * (y 0).val by rw [e0, f0])
    (show win5_0.index t (1 : Fin 2) * 128 + 1 * (y 1).val = win5_6.index t (1 : Fin 2) * 128 + 1 * (y 1).val by rw [e1, f1]))
theorem iblk5_5_apply (c : Dev nD) (t : Fin cfg5.N) (y : S1000x128.Idx) :
    (iblk5 V c 5 t : Vec F S1000x128 .f32) y = (V c main_v257 : S25000x128.Idx → Elt F .f32) (((cfg5.win 6).blk t).view.emb y) := by
  obtain ⟨-, -, -, -, -, -, -, -, -, -, e0, e1, f0, f1⟩ := index_facts5 t
  unfold iblk5
  rw [View.read_apply]
  exact congrArg (V c main_v257 : S25000x128.Idx → Elt F .f32) (Shape.idx_ext₂
    (show win5_5.index t (0 : Fin 2) * 1000 + 1 * (y 0).val = win5_6.index t (0 : Fin 2) * 1000 + 1 * (y 0).val by rw [e0, f0])
    (show win5_5.index t (1 : Fin 2) * 128 + 1 * (y 1).val = win5_6.index t (1 : Fin 2) * 128 + 1 * (y 1).val by rw [e1, f1]))

/-- A one-row input's block is its whole array at every point. -/
theorem iblk5_1_eq (c : Dev nD) (t : Fin cfg5.N) :
    (iblk5 V c 1 t : Vec F S1x128 .f32) = (V c main_v259 : S1x128.Idx → Elt F .f32) := by
  obtain ⟨-, -, e0, e1, -, -, -, -, -, -, -, -, -, -⟩ := index_facts5 t
  funext y
  unfold iblk5
  rw [View.read_apply]
  exact congrArg (V c main_v259 : S1x128.Idx → Elt F .f32) (Shape.idx_ext₂
    (show win5_1.index t (0 : Fin 2) * 1 + 1 * (y 0).val = (y 0).val by rw [e0]; omega)
    (show win5_1.index t (1 : Fin 2) * 128 + 1 * (y 1).val = (y 1).val by rw [e1]; omega))
theorem iblk5_2_eq (c : Dev nD) (t : Fin cfg5.N) :
    (iblk5 V c 2 t : Vec F S1x128 .f32) = (V c main_v261 : S1x128.Idx → Elt F .f32) := by
  obtain ⟨-, -, -, -, e0, e1, -, -, -, -, -, -, -, -⟩ := index_facts5 t
  funext y
  unfold iblk5
  rw [View.read_apply]
  exact congrArg (V c main_v261 : S1x128.Idx → Elt F .f32) (Shape.idx_ext₂
    (show win5_2.index t (0 : Fin 2) * 1 + 1 * (y 0).val = (y 0).val by rw [e0]; omega)
    (show win5_2.index t (1 : Fin 2) * 128 + 1 * (y 1).val = (y 1).val by rw [e1]; omega))
theorem iblk5_3_eq (c : Dev nD) (t : Fin cfg5.N) :
    (iblk5 V c 3 t : Vec F S1x128 .f32) = (V c main_v263 : S1x128.Idx → Elt F .f32) := by
  obtain ⟨-, -, -, -, -, -, e0, e1, -, -, -, -, -, -⟩ := index_facts5 t
  funext y
  unfold iblk5
  rw [View.read_apply]
  exact congrArg (V c main_v263 : S1x128.Idx → Elt F .f32) (Shape.idx_ext₂
    (show win5_3.index t (0 : Fin 2) * 1 + 1 * (y 0).val = (y 0).val by rw [e0]; omega)
    (show win5_3.index t (1 : Fin 2) * 128 + 1 * (y 1).val = (y 1).val by rw [e1]; omega))
theorem iblk5_4_eq (c : Dev nD) (t : Fin cfg5.N) :
    (iblk5 V c 4 t : Vec F S1x128 .f32) = (V c main_v265 : S1x128.Idx → Elt F .f32) := by
  obtain ⟨-, -, -, -, -, -, -, -, e0, e1, -, -, -, -⟩ := index_facts5 t
  funext y
  unfold iblk5
  rw [View.read_apply]
  exact congrArg (V c main_v265 : S1x128.Idx → Elt F .f32) (Shape.idx_ext₂
    (show win5_4.index t (0 : Fin 2) * 1 + 1 * (y 0).val = (y 0).val by rw [e0]; omega)
    (show win5_4.index t (1 : Fin 2) * 128 + 1 * (y 1).val = (y 1).val by rw [e1]; omega))

/-- An element of the output block at point `t` keeps its lane in the array. -/
theorem lane5 (t : Fin cfg5.N) (y : S1000x128.Idx) : ((((cfg5.win 6).blk t).view.emb y : S25000x128.Idx) 1 : Fin 128) = y 1 := by
  obtain ⟨-, -, -, -, -, -, -, -, -, -, -, -, -, f1⟩ := index_facts5 t
  exact Fin.ext (show win5_6.index t (1 : Fin 2) * 128 + 1 * (y 1).val = (y 1).val by rw [f1]; omega)

/-- The output block at point `t` is the payload of the input blocks at `t`. -/
theorem flushed5 (c : Dev nD) (t : Fin cfg5.N) :
    (dat5 V c).flushed 6 t = k5_pay1 (F := F) (iblk5 V c 2 t) (iblk5 V c 0 t) (iblk5 V c 1 t) (iblk5 V c 3 t) (iblk5 V c 4 t) (iblk5 V c 5 t) := by
  show (cfg5.win 6).cut (grid5.coords t) ((dat5 V c).after 6 t) = _
  dsimp only [dat5]
  unfold out5_6
  rw [View.canon_unit_zero zero_off5]
  simp only [View.ld_unit_zero (S := S1000x128) zero_off5, View.ld_unit_zero (S := S1x128) zero_off5]
  rfl

/-- An index lies in point `t`'s block iff each coordinate lies in the block's range on its axis. -/
theorem mem_blk5 (t : Fin cfg5.N) (i : S25000x128.Idx) :
    i ∈ ((cfg5.win 6).blk t).view.set ↔ ∀ a : Fin 2, win5_6.index t a * S1000x128.size a ≤ (i a).val ∧ (i a).val < win5_6.index t a * S1000x128.size a + S1000x128.size a := by
  show i ∈ ((View.whole main_v266).slice (win5_6.rect t)).set ↔ _
  rw [View.set_slice_whole, Rect.mem_set_unit]
  exact Iff.rfl

/-- Row `n` lies in the block of point `n / 1000`. -/
theorem cover5 (i : S25000x128.Idx) : ∃ t : Fin cfg5.N, (cfg5.win 6).flush t = true ∧ i ∈ ((cfg5.win 6).blk t).view.set := by
  have hi0 : (i 0).val < 25000 := (i 0).isLt
  have hi1 : (i 1).val < 128 := (i 1).isLt
  obtain ⟨t, ht⟩ : ∃ t : Fin cfg5.N, t.val = (i 0).val / 1000 :=
    ⟨⟨(i 0).val / 1000, by rw [show cfg5.N = 25 from N_5]; omega⟩, rfl⟩
  obtain ⟨-, -, -, -, -, -, -, -, -, -, -, -, e0, e1⟩ := index_facts5 t
  refine ⟨t, flush5_6 t, ?_⟩
  rw [mem_blk5]
  intro a
  match a with
  | ⟨0, _⟩ => show win5_6.index t (0 : Fin 2) * 1000 ≤ (i 0).val ∧ (i 0).val < win5_6.index t (0 : Fin 2) * 1000 + 1000; rw [e0, ht]; omega
  | ⟨1, _⟩ => show win5_6.index t (1 : Fin 2) * 128 ≤ (i 1).val ∧ (i 1).val < win5_6.index t (1 : Fin 2) * 128 + 128; rw [e1]; omega

end Cert.KernelIdeal.Hand

end
-- ==== Proof.KRegValue5.lean ====
import proofs.«412279_j89026082111590_3_alg».proof.Proof.KI.Val5
import proofs.«412279_j89026082111590_3_alg».proof.Proof.PayIdx1
import proofs.«412279_j89026082111590_3_alg».proof.Proof.SpecInputs

noncomputable section

namespace Cert.KernelIdeal.KVal

open Cert.KernelIdeal Cert.KernelIdeal.Gen Cert.KernelIdeal.Hand Cert.KernelIdeal.PayIdx
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

open Spline (m2)

/-- Each output element is the payload at its own place: every point's block has it, and the blocks cover the array. -/
theorem exit5_6_apply (c : Dev nD) (p : Fin 25000) (l : Fin 128) :
    m2 ((dat5 V c).arrAt 6 cfg5.N) p l
      = max (Spline.bnPt (m2 (V c main_v256) p l) (m2 (V c main_v259) (0 : Fin 1) l) (m2 (V c main_v261) (0 : Fin 1) l) (m2 (V c main_v263) (0 : Fin 1) l) (m2 (V c main_v265) (0 : Fin 1) l) + m2 (V c main_v257) p l) 0 := by
  refine (dat5 V c).arrAt_forall_of_cover 6 (fun i v => v = max (Spline.bnPt ((V c main_v256 : S25000x128.Idx → EReal) i) (m2 (V c main_v259) (0 : Fin 1) (i 1)) (m2 (V c main_v261) (0 : Fin 1) (i 1)) (m2 (V c main_v263) (0 : Fin 1) (i 1)) (m2 (V c main_v265) (0 : Fin 1) (i 1)) + (V c main_v257 : S25000x128.Idx → EReal) i) 0)
    (fun t _ (y : S1000x128.Idx) => ?_) cover5 (ix2 p l)
  obtain ⟨r, l', rfl⟩ : ∃ a b, y = ix2 a b := ⟨_, _, eq_ix2 y⟩
  show (dat5 V c).flushed 6 t (ix2 r l') = _
  rw [lane5 t (ix2 r l'), flushed5, k5_pay1_apply, iblk5_0_apply V c t, iblk5_5_apply V c t, iblk5_1_eq, iblk5_2_eq, iblk5_3_eq, iblk5_4_eq]
  rfl

end Cert.KernelIdeal.KVal

end
-- ==== Proof.KAsmB.lean ====
import proofs.«412279_j89026082111590_3_alg».proof.Proof.KAsmA
import proofs.«412279_j89026082111590_3_alg».proof.Proof.KRegValue4
import proofs.«412279_j89026082111590_3_alg».proof.Proof.KRegValue5

set_option maxRecDepth 16384

noncomputable section

namespace Cert.KernelIdeal.KAsm

open Cert.KernelIdeal Cert.KernelIdeal.Gen Cert.KernelIdeal.Hand
open Idealize.ShloMosaic Idealize.ShloMosaic.TcCoe Idealize.SL.Sem Idealize.ShloMosaic.ValueIdx
open scoped BigOperators

section SecondHalf

variable {m : (ℓ : Loc nD τ sig) → Buf (Elt Ideal) ℓ} {ρ : Dev nD → PrngReg} {c : Dev nD}
variable {X0 : S50000x30.Idx → EReal} {X1 : S50000x2.Idx → EReal} {X2 : S800000x2.Idx → EReal}
  {X3 : S2x800000.Idx → BitVec 32} {X4 : S25x32x64.Idx → EReal} {X5 : S32x64.Idx → EReal}
  {X6 X7 : S64.Idx → EReal} {X8 : S25x64x64.Idx → EReal} {X9 : S64x64.Idx → EReal}
  {X10 X11 : S64.Idx → EReal} {X12 : S32x64.Idx → EReal} {X13 X14 : S64.Idx → EReal}

/-- A reference neither the stretch before the fifth region nor that region writes. -/
theorem carry12 (b : Ref sig .tc) (h : b ∉ written4 ∧ ∀ w, Pipeline.arrRef spec4 w ≠ b) :
    W12 m ρ c (Proc.devRef .tc b) = W10 m ρ c (Proc.devRef .tc b) :=
  (W12_of_ne m ρ c b h.2).trans (keep4 (W10 m ρ c) b h.1)

variable (H : Exit10 m ρ c X0 X1 X2 X3 X4 X5 X6 X7 X8 X9 X10 X11 X12 X13 X14)
include H

theorem v186_11 (n : Fin 50000) (o : Fin 64) :
    (W11 m ρ c (Proc.devRef .tc main_v186) : S50000x64.Idx → EReal) (ix2 n o) = Spline.h1K X0 X1 X2 X3 X4 X5 X6 X7 n o :=
  unpack_at (KHost.h4_rows_eq (W10 m ρ c)) H.h1 n o

theorem v243_11 (n : Fin 50000) (j : Fin 1600) :
    (W11 m ρ c (Proc.devRef .tc main_v243) : S50000x1600.Idx → EReal) (ix2 n j)
      = Spline.accRow (by decide : 0 < 64) (Spline.acc (Spline.dstW X3) (Spline.wiF X2) (Spline.xg X3 (Spline.h1K X0 X1 X2 X3 X4 X5 X6 X7)) (fun e b => Spline.basisF X2 e b * Spline.invDeg (Spline.dstW X3) (Spline.gIdx (Spline.dstW X3 e)))) n j := by
  refine (KHost.h4_acc (W10 m ρ c) n j).trans ?_
  have e1 : (fun e => (W10 m ρ c (Proc.devRef .tc main_v3) : S800000.Idx → BitVec 32) (ix1 e)) = Spline.dstW X3 := funext H.v3
  have e2 : (fun e b => (W10 m ρ c (Proc.devRef .tc main_v65) : S800000x4.Idx → BitVec 32) (ix2 e b)) = Spline.wiF X2 :=
    funext fun e => funext fun b => H.v65 e b
  have e3 : (fun e c' => (StableHlo.after (hostOps4 (F := Ideal)) (W10 m ρ c) (Proc.devRef .tc main_v186) : S50000x64.Idx → EReal)
        (ix2 (Spline.gIdx ((W10 m ρ c (Proc.devRef .tc main_v1) : S800000.Idx → BitVec 32) (ix1 e))) c'))
      = Spline.xg X3 (Spline.h1K X0 X1 X2 X3 X4 X5 X6 X7) := by
    funext e c'
    rw [H.v1 e]
    exact v186_11 H (Spline.gIdx (Spline.srcW X3 e)) c'
  have e4 : (fun e b => (W10 m ρ c (Proc.devRef .tc main_v84) : S800000x4.Idx → EReal) (ix2 e b)) = (fun e b => Spline.basisF X2 e b * Spline.invDeg (Spline.dstW X3) (Spline.gIdx (Spline.dstW X3 e))) :=
    funext fun e => funext fun b => H.v84 e b
  rw [e1, e2, e3, e4]

theorem pre_y2 (n : Fin 50000) (o : Fin 64) :
    (∑ j : Fin 1600, Spline.m2 (V11 m ρ c main_v243) n j * Spline.m2 (V11 m ρ c main_v244) j o)
        + ∑ k : Fin 64, Spline.m2 (V11 m ρ c main_v186) n k * Spline.m2 (V11 m ρ c main_arg9) k o
      = Spline.y2K X0 X1 X2 X3 X4 X5 X6 X7 X8 X9 n o := by
  unfold Spline.y2K Spline.convK
  refine congrArg₂ (fun a b : EReal => a + b) (Finset.sum_congr rfl fun j _ => ?_) (Finset.sum_congr rfl fun k _ => ?_)
  · refine congrArg₂ (fun a b : EReal => a * b) (v243_11 H n j) ((KHost.h4_w (W10 m ρ c) j o).trans ?_)
    rw [H.arg8]
    rfl
  · exact congrArg₂ (fun a b : EReal => a * b) (v186_11 H n k)
      (congrFun ((keep4 (W10 m ρ c) main_arg9 (by decide)).trans H.arg9) (ix2 k o))

theorem y2_12 (n : Fin 50000) (o : Fin 64) :
    (W12 m ρ c (Proc.devRef .tc main_v245_0) : S50000x64.Idx → EReal) (ix2 n o) = Spline.y2K X0 X1 X2 X3 X4 X5 X6 X7 X8 X9 n o := by
  have e : (W12 m ρ c (Proc.devRef .tc main_v245_0) : S50000x64.Idx → EReal) = (exit4 (V11 m ρ) c 4 : S50000x64.Idx → EReal) := W12_arr m ρ c 4
  rw [e]
  exact (KVal.exit4_4_apply (V11 m ρ) c n o).trans (pre_y2 H n o)

theorem tsum_12 (t : Fin 25) (o : Fin 64) :
    (W12 m ρ c (Proc.devRef .tc main_v245_1) : S25x64.Idx → EReal) (ix2 t o) = Spline.tileSum (Spline.y2K X0 X1 X2 X3 X4 X5 X6 X7 X8 X9) t o := by
  have e : (W12 m ρ c (Proc.devRef .tc main_v245_1) : S25x64.Idx → EReal) = (exit4 (V11 m ρ) c 5 : S25x64.Idx → EReal) := W12_arr m ρ c 5
  rw [e]
  refine (KVal.exit4_5_apply (V11 m ρ) c t o).trans ?_
  unfold Spline.tileSum
  exact Finset.sum_congr rfl fun r _ => pre_y2 H (Spline.tileRow t r) o

theorem tsq_12 (t : Fin 25) (o : Fin 64) :
    (W12 m ρ c (Proc.devRef .tc main_v245_2) : S25x64.Idx → EReal) (ix2 t o) = Spline.tileSq (Spline.y2K X0 X1 X2 X3 X4 X5 X6 X7 X8 X9) t o := by
  have e : (W12 m ρ c (Proc.devRef .tc main_v245_2) : S25x64.Idx → EReal) = (exit4 (V11 m ρ) c 6 : S25x64.Idx → EReal) := W12_arr m ρ c 6
  rw [e]
  refine (KVal.exit4_6_apply (V11 m ρ) c t o).trans ?_
  unfold Spline.tileSq
  exact Finset.sum_congr rfl fun r _ =>
    congrArg₂ (fun a b : EReal => a * b) (pre_y2 H (Spline.tileRow t r) o) (pre_y2 H (Spline.tileRow t r) o)

theorem out_14 (p : Fin 25000) (l : Fin 128) :
    (W14 m ρ c (Proc.devRef .tc main_v266) : S25000x128.Idx → EReal) (ix2 p l) = Spline.outK X0 X1 X2 X3 X4 X5 X6 X7 X8 X9 X10 X11 X12 X13 X14 (⟨2 * p.val + l.val / 64, by omega⟩ : Fin 50000) (⟨l.val % 64, Nat.mod_lt _ (by norm_num)⟩ : Fin 64) := by
  have e : (W14 m ρ c (Proc.devRef .tc main_v266) : S25000x128.Idx → EReal) = ((dat5 (V13 m ρ) c).arrAt 6 cfg5.N : S25000x128.Idx → EReal) := W14_arr m ρ c 6
  rw [e]
  refine (KVal.exit5_6_apply (V13 m ρ) c p l).trans (congrArg₂ (fun a s : EReal => max (a + s) 0)
    (KHost.bnPt_packed (KHost.h5_rows_eq _) (KHost.h5_mean_eq _) (KHost.h5_var_eq _) (KHost.h5_gain_eq _) (KHost.h5_bias_eq _)
      (y2_12 H) (tsum_12 H) (tsq_12 H) ((carry12 main_arg10 (by decide)).trans H.arg10) ((carry12 main_arg11 (by decide)).trans H.arg11) p l) ?_)
  refine (KHost.rows_at (KHost.h5_rows2_eq (W12 m ρ c)) p l).trans ?_
  rw [carry12 main_v106 (by decide)]
  exact H.skip _ _

theorem out_15 (n : Fin 50000) (o : Fin 64) :
    (W15 m ρ c (Proc.devRef .tc main_v267) : S50000x64.Idx → EReal) (ix2 n o) = Spline.outK X0 X1 X2 X3 X4 X5 X6 X7 X8 X9 X10 X11 X12 X13 X14 n o :=
  unpack_at (KHost.h6_rows_eq (W14 m ρ c)) (out_14 H) n o

end SecondHalf

end Cert.KernelIdeal.KAsm

end
-- ==== Proof.KHostPrefixD.lean ====
import proofs.«412279_j89026082111590_3_alg».proof.Proof.Gen.KernelIdeal.Launch
import proofs.«412279_j89026082111590_3_alg».proof.Proof.ScatterGather
import proofs.«412279_j89026082111590_3_alg».proof.Proof.Spec
import proofs.«412279_j89026082111590_3_alg».proof.Proof.SpecInputs
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.KHost

open Cert.KernelIdeal Cert.KernelIdeal.Gen Idealize.ShloMosaic Idealize.ShloMosaic.ValueIdx

def onesE : S800000.Idx → EReal :=
  broadcastInDim S800000 ![] bcast_S_S800000 (constant (F := Ideal) S_ .f32 0x3F800000#32)

def zerosN : S50000.Idx → EReal :=
  broadcastInDim S50000 ![] bcast_S_S50000 (constant (F := Ideal) S_ .f32 0x00000000#32)

def onesN : S50000.Idx → EReal :=
  broadcastInDim S50000 ![] bcast_S_S50000 (constant (F := Ideal) S_ .f32 0x3F800000#32)

def dstCol (v3 : S800000.Idx → BitVec 32) : S800000x1.Idx → BitVec 32 :=
  broadcastInDim S800000x1 ![0] bcast_S800000_S800000x1_0 v3

def degT (v3 : S800000.Idx → BitVec 32) : S50000.Idx → EReal :=
  Host.scatterAdd (F := Ideal) (φ := .f32) scatter_S50000_S800000x1_S800000_n_0_0_1 (zerosN : FVec Ideal S50000 .f32)
    (dstCol v3) (onesE : FVec Ideal S800000 .f32)

def invDegT (v3 : S800000.Idx → BitVec 32) : S50000.Idx → EReal :=
  (Host.divf (onesN : FVec Ideal S50000 .f32)
    (maximumf (degT v3 : FVec Ideal S50000 .f32) (onesN : FVec Ideal S50000 .f32)) : FVec Ideal S50000 .f32)

def wrapCol (v3 : S800000.Idx → BitVec 32) : S800000x1.Idx → BitVec 32 :=
  broadcastInDim S800000x1 ![0] bcast_S800000_S800000x1_0
    (select (cmpi .slt v3 (broadcastInDim S800000 ![] bcast_S_S800000 (constantI S_ 32 0#32)))
      (addi v3 (broadcastInDim S800000 ![] bcast_S_S800000 (constantI S_ 32 50000#32))) v3)

def gathT (v74 : S50000.Idx → EReal) (v3 : S800000.Idx → BitVec 32) : S800000.Idx → EReal :=
  Host.gather gather_S50000_S800000x1_S800000_n_0_n_n_0_1_1 v74 (wrapCol v3)

def scaledT (v32 : S800000x4.Idx → EReal) (v74 : S50000.Idx → EReal) (v3 : S800000.Idx → BitVec 32) : S800000x4.Idx → EReal :=
  (mulf (v32 : FVec Ideal S800000x4 .f32)
    (broadcastInDim S800000x4 ![0, 1] bcast_S800000x1_S800000x4_0_1
      (broadcastInDim S800000x1 ![0] bcast_S800000_S800000x1_0 (gathT v74 v3))) : FVec Ideal S800000x4 .f32)

theorem onesE_apply (i : S800000.Idx) : onesE i = 1 := by
  unfold onesE
  rw [broadcastInDim_scalar_apply, constant_apply, Ideal.ofBits_one_f32]
theorem zerosN_apply (i : S50000.Idx) : zerosN i = 0 := by
  unfold zerosN
  rw [broadcastInDim_scalar_apply, constant_apply, Ideal.ofBits_zero_f32]
theorem onesN_apply (i : S50000.Idx) : onesN i = 1 := by
  unfold onesN
  rw [broadcastInDim_scalar_apply, constant_apply, Ideal.ofBits_one_f32]

-- A vector spread into a one-column array is read back at a row as the vector at that row.
theorem col_apply {α : Type} (v : S800000.Idx → α) (e : Fin 800000) :
    broadcastInDim S800000x1 ![0] bcast_S800000_S800000x1_0 v (ix2 e (0 : Fin 1)) = v (ix1 e) :=
  broadcastInDim_apply ![0] bcast_S800000_S800000x1_0 v (ix2 e (0 : Fin 1)) (ix1 e) (fun a => match a with | ⟨0, _⟩ => rfl)

-- Ones added at the target words count, for each node, the edges that end at it.
theorem degT_apply (v3 : S800000.Idx → BitVec 32) (n : Fin 50000) :
    degT v3 (ix1 n) = Spline.deg (fun e => v3 (ix1 e)) n := by
  unfold degT Spline.deg
  rw [SplineSG.flat_host_scatterAdd_apply scatter_S50000_S800000x1_S800000_n_0_0_1 rfl rfl rfl rfl _ _ _ n,
    zerosN_apply, Finset.filter_congr (fun e _ => by rw [show dstCol v3 (ix2 e (0 : Fin 1)) = v3 (ix1 e) from col_apply v3 e])]
  exact congrArg _ (Finset.sum_congr rfl (fun e _ => onesE_apply (ix1 e)))

theorem invDegT_apply (v3 : S800000.Idx → BitVec 32) (n : Fin 50000) :
    invDegT v3 (ix1 n) = Spline.invDeg (fun e => v3 (ix1 e)) n := by
  unfold invDegT Spline.invDeg Spline.degMax
  rw [hostDivf_apply, maximumf_apply, onesN_apply, degT_apply]

-- A negative word is moved up by the number of nodes; any other word is kept.
theorem wrapCol_apply (v3 : S800000.Idx → BitVec 32) (e : Fin 800000) :
    wrapCol v3 (ix2 e (0 : Fin 1)) = if (v3 (ix1 e)).toInt < 0 then v3 (ix1 e) + 50000#32 else v3 (ix1 e) := by
  unfold wrapCol
  rw [col_apply]
  show (if BitVec.ofBool ((v3 (ix1 e)).slt 0#32) = 1 then v3 (ix1 e) + 50000#32 else v3 (ix1 e)) = _
  rw [BitVec.slt_eq_decide, BitVec.toInt_zero]
  by_cases h : (v3 (ix1 e)).toInt < 0
  · rw [if_pos h, decide_eq_true h]; rfl
  · rw [if_neg h, decide_eq_false h]; rfl

-- A gathered entry is the table at the row the edge's target word names.
theorem gathT_apply (v74 : S50000.Idx → EReal) (v3 : S800000.Idx → BitVec 32) (e : Fin 800000) :
    gathT v74 v3 (ix1 e) = v74 (ix1 (Spline.gIdx (v3 (ix1 e)))) := by
  unfold gathT
  rw [SplineSG.flat_gather_apply (by norm_num) gather_S50000_S800000x1_S800000_n_0_n_n_0_1_1 rfl rfl rfl rfl rfl rfl rfl
    v74 (wrapCol v3) e]
  exact congrArg (fun r : Fin 50000 => v74 (ix1 r)) (Fin.ext (by
    show min (wrapCol v3 (ix2 e (0 : Fin 1))).toInt.toNat (50000 - 1) = (Spline.gIdx (v3 (ix1 e))).val
    rw [wrapCol_apply]
    rfl))

theorem scaledT_apply (v32 : S800000x4.Idx → EReal) (v74 : S50000.Idx → EReal) (v3 : S800000.Idx → BitVec 32)
    (e : Fin 800000) (b : Fin 4) :
    scaledT v32 v74 v3 (ix2 e b) = v32 (ix2 e b) * v74 (ix1 (Spline.gIdx (v3 (ix1 e)))) := by
  unfold scaledT
  rw [mulf_apply, broadcastInDim_apply ![0, 1] bcast_S800000x1_S800000x4_0_1 _ (ix2 e b) (ix2 e (0 : Fin 1)) (fun a => by
    match a with
    | ⟨0, _⟩ => rfl
    | ⟨1, _⟩ => rfl),
    col_apply, gathT_apply]

end Cert.KernelIdeal.KHost

end
-- ==== Proof.KHostPrefixSpec.lean ====
import proofs.«412279_j89026082111590_3_alg».proof.Proof.RefRead
import proofs.«412279_j89026082111590_3_alg».proof.Proof.SpecInputs
import Idealize.ShloMosaic.Lib.ValueIdx
import Idealize.ShloMosaic.Lib.ValueLayout
import Idealize.ShloMosaic.Lib.Pipeline.Value

noncomputable section

namespace Cert.KernelIdeal.KHost

open Idealize.ShloMosaic Idealize.ShloMosaic.ValueIdx
open Cert.ReferenceIdeal Cert.ReferenceIdeal.Gen

theorem val_v66_apply (x0 : (⟨2, ![50000, 30]⟩ : Shape).Idx → EReal) (x1 : (⟨2, ![50000, 2]⟩ : Shape).Idx → EReal)
    (n : Fin 50000) (k : Fin 32) :
    Cert.ReferenceIdeal.ReadP.val_main_v66 (F := Ideal) x0 x1 (ix2 n k) = Spline.xinF x0 x1 n k := by
  unfold Cert.ReferenceIdeal.ReadP.val_main_v66 Spline.xinF
  by_cases h : k.val < 30
  · rw [dif_pos h]
    exact concatenate_pair_apply_left (1 : Fin S50000x32.rank) x0 x1 concatenates_S50000x30_S50000x2_S50000x32_d1 (ix2 n k) rfl
      (ix2 n (⟨k.val, h⟩ : Fin 30)) (fun b => match b with
        | ⟨0, _⟩ => rfl
        | ⟨1, _⟩ => rfl)
  · rw [dif_neg h]
    exact concatenate_pair_apply_right (1 : Fin S50000x32.rank) x0 x1 concatenates_S50000x30_S50000x2_S50000x32_d1 (ix2 n k) rfl rfl
      (ix2 n (⟨k.val - 30, by have := k.isLt; omega⟩ : Fin 2)) (fun b => match b with
        | ⟨0, _⟩ => fun _ => rfl
        | ⟨1, _⟩ => fun hne => absurd rfl hne)
      (by show (k.val - 30) + 30 = k.val; omega)

theorem val_v1_apply (x3 : (⟨2, ![2, 800000]⟩ : Shape).Idx → BitVec 32) (e : Fin 800000) :
    Cert.ReferenceIdeal.ReadP.val_main_v1 (F := Ideal) x3 (ix1 e) = Spline.srcW x3 e := by
  rw [Cert.ReferenceIdeal.ReadP.val_main_v1_apply, Cert.ReferenceIdeal.ReadP.val_main_v0_apply]
  unfold Spline.srcW
  refine congrArg x3 (funext fun a => ?_)
  match a with
  | ⟨0, _⟩ => exact Fin.ext rfl
  | ⟨1, _⟩ => exact Fin.ext (Nat.mod_eq_of_lt e.isLt)

theorem val_v3_apply (x3 : (⟨2, ![2, 800000]⟩ : Shape).Idx → BitVec 32) (e : Fin 800000) :
    Cert.ReferenceIdeal.ReadP.val_main_v3 (F := Ideal) x3 (ix1 e) = Spline.dstW x3 e := by
  rw [Cert.ReferenceIdeal.ReadP.val_main_v3_apply, Cert.ReferenceIdeal.ReadP.val_main_v2_apply]
  unfold Spline.dstW
  refine congrArg x3 (funext fun a => ?_)
  match a with
  | ⟨0, _⟩ => exact Fin.ext rfl
  | ⟨1, _⟩ => exact Fin.ext (Nat.mod_eq_of_lt e.isLt)

end Cert.KernelIdeal.KHost

end
-- ==== Proof.KHostPrefix.lean ====
import proofs.«412279_j89026082111590_3_alg».proof.Proof.KHostPrefixD
import proofs.«412279_j89026082111590_3_alg».proof.Proof.KHostPrefixSpec
import Idealize.ShloMosaic.Lib.StableHlo.Run

noncomputable section

namespace Cert.KernelIdeal.KHost

open Cert.KernelIdeal Cert.KernelIdeal.Gen Idealize.ShloMosaic Idealize.ShloMosaic.ValueIdx
open Cert.ReferenceIdeal.ReadP

variable {F : FTy → Type} [FloatOps F] (W : Valuation τ sig (Elt F))

abbrev pre3 : Valuation τ sig (Elt F) :=
  StableHlo.after (hostOps0_2 (F := F)) (StableHlo.after (hostOps0_1 (F := F)) (StableHlo.after (hostOps0 (F := F)) W))

-- Each value the three lists leave is the same composition of the same operations as the reference's stage of that name.
theorem pre3_v1 : (pre3 W (Proc.devRef .tc main_v1) : (⟨S800000, .i32⟩ : BufTy).Contents (Elt F)) = val_main_v1 (F := F) (W (Proc.devRef .tc main_arg3)) := by
  dsimp only [pre3, hostOps0_2, hostOps0_1, hostOps0]; after_results_simp; rfl
theorem pre3_v3 : (pre3 W (Proc.devRef .tc main_v3) : (⟨S800000, .i32⟩ : BufTy).Contents (Elt F)) = val_main_v3 (F := F) (W (Proc.devRef .tc main_arg3)) := by
  dsimp only [pre3, hostOps0_2, hostOps0_1, hostOps0]; after_results_simp; rfl
theorem pre3_v65 : (pre3 W (Proc.devRef .tc main_v65) : (⟨S800000x4, .i32⟩ : BufTy).Contents (Elt F)) = val_main_v65 (F := F) (W (Proc.devRef .tc main_arg2)) := by
  dsimp only [pre3, hostOps0_2, hostOps0_1, hostOps0]; after_results_simp; rfl
theorem pre3_v66 : (pre3 W (Proc.devRef .tc main_v66) : (⟨S50000x32, .f32⟩ : BufTy).Contents (Elt F)) = val_main_v66 (F := F) (W (Proc.devRef .tc main_arg0)) (W (Proc.devRef .tc main_arg1)) := by
  dsimp only [pre3, hostOps0_2, hostOps0_1, hostOps0]; after_results_simp; rfl

section AtIdeal

variable (W : Valuation τ sig (Elt Ideal))

-- The scaled basis is the reference's basis times the gathered reciprocal in-degree of the target words.
theorem pre3_v84 : (pre3 W (Proc.devRef .tc main_v84) : S800000x4.Idx → EReal)
    = scaledT (val_main_v32 (F := Ideal) (W (Proc.devRef .tc main_arg2))) (invDegT (val_main_v3 (F := Ideal) (W (Proc.devRef .tc main_arg3))))
        (val_main_v3 (F := Ideal) (W (Proc.devRef .tc main_arg3))) := by
  dsimp only [pre3, hostOps0_2, hostOps0_1, hostOps0]; after_results_simp; rfl

theorem hp_xin (n : Fin 50000) (k : Fin 32) :
    (pre3 W (Proc.devRef .tc main_v66) : S50000x32.Idx → EReal) (ix2 n k) = Spline.xinF (W (Proc.devRef .tc main_arg0) : S50000x30.Idx → EReal) (W (Proc.devRef .tc main_arg1) : S50000x2.Idx → EReal) n k :=
  (congrFun (pre3_v66 W) (ix2 n k)).trans (val_v66_apply _ _ n k)

theorem hp_src (e : Fin 800000) :
    (pre3 W (Proc.devRef .tc main_v1) : S800000.Idx → BitVec 32) (ix1 e) = Spline.srcW (W (Proc.devRef .tc main_arg3) : S2x800000.Idx → BitVec 32) e :=
  (congrFun (pre3_v1 W) (ix1 e)).trans (val_v1_apply _ e)

theorem hp_dst (e : Fin 800000) :
    (pre3 W (Proc.devRef .tc main_v3) : S800000.Idx → BitVec 32) (ix1 e) = Spline.dstW (W (Proc.devRef .tc main_arg3) : S2x800000.Idx → BitVec 32) e :=
  (congrFun (pre3_v3 W) (ix1 e)).trans (val_v3_apply _ e)

theorem hp_wi_apply (e : Fin 800000) (b : Fin 4) :
    (pre3 W (Proc.devRef .tc main_v65) : S800000x4.Idx → BitVec 32) (ix2 e b) = Spline.wiF (W (Proc.devRef .tc main_arg2) : S800000x2.Idx → EReal) e b :=
  congrFun (pre3_v65 W) (ix2 e b)

theorem hp_scaled (e : Fin 800000) (b : Fin 4) :
    (pre3 W (Proc.devRef .tc main_v84) : S800000x4.Idx → EReal) (ix2 e b)
      = Spline.basisF (W (Proc.devRef .tc main_arg2) : S800000x2.Idx → EReal) e b * Spline.invDeg (Spline.dstW (W (Proc.devRef .tc main_arg3) : S2x800000.Idx → BitVec 32)) (Spline.gIdx (Spline.dstW (W (Proc.devRef .tc main_arg3) : S2x800000.Idx → BitVec 32) e)) := by
  rw [pre3_v84, scaledT_apply, invDegT_apply, val_v3_apply, funext (val_v3_apply (W (Proc.devRef .tc main_arg3)))]
  rfl

end AtIdeal

end Cert.KernelIdeal.KHost

end
-- ==== Proof.KAsm.lean ====
import proofs.«412279_j89026082111590_3_alg».proof.Proof.KAsmB
import proofs.«412279_j89026082111590_3_alg».proof.Proof.KI.Args
import proofs.«412279_j89026082111590_3_alg».proof.Proof.KHostPrefix

set_option maxRecDepth 16384

noncomputable section

namespace Cert.KernelIdeal.KAsm

open Cert.KernelIdeal Cert.KernelIdeal.Gen Cert.KernelIdeal.Hand
open Idealize.ShloMosaic Idealize.ShloMosaic.TcCoe Idealize.SL.Sem Idealize.ShloMosaic.ValueIdx
open scoped BigOperators

/-- None of the three stretches before the first region writes an argument. -/
theorem W3_of_unwritten (m : (ℓ : Loc nD τ sig) → Buf (Elt Ideal) ℓ) (ρ : Dev nD → PrngReg) (c : Dev nD) (b : Ref sig .tc)
    (h : b ∉ written0 ∧ b ∉ written0_1 ∧ b ∉ written0_2) : W3 m ρ c (Proc.devRef .tc b) = m ((c : Thread nD τ).loc b) :=
  (keep0_2 _ b h.2.2).trans ((keep0_1 _ b h.2.1).trans ((keep0 _ b h.1).trans rfl))

/-- The prefix's results at the first region's entry, carried through the two halves. -/
theorem kernel_value (m : (ℓ : Loc nD τ sig) → Buf (Elt Ideal) ℓ) (ρ : Dev nD → PrngReg) (c : Dev nD) (n : Fin 50000) (o : Fin 64) :
    (W15 m ρ c (Proc.devRef .tc main_v267) : S50000x64.Idx → EReal) (ix2 n o)
      = Spline.outK
      (m ((c : Thread nD τ).loc main_arg0) : S50000x30.Idx → EReal)
      (m ((c : Thread nD τ).loc main_arg1) : S50000x2.Idx → EReal)
      (m ((c : Thread nD τ).loc main_arg2) : S800000x2.Idx → EReal)
      (m ((c : Thread nD τ).loc main_arg3) : S2x800000.Idx → BitVec 32)
      (m ((c : Thread nD τ).loc main_arg4) : S25x32x64.Idx → EReal)
      (m ((c : Thread nD τ).loc main_arg5) : S32x64.Idx → EReal)
      (m ((c : Thread nD τ).loc main_arg6) : S64.Idx → EReal)
      (m ((c : Thread nD τ).loc main_arg7) : S64.Idx → EReal)
      (m ((c : Thread nD τ).loc main_arg8) : S25x64x64.Idx → EReal)
      (m ((c : Thread nD τ).loc main_arg9) : S64x64.Idx → EReal)
      (m ((c : Thread nD τ).loc main_arg10) : S64.Idx → EReal)
      (m ((c : Thread nD τ).loc main_arg11) : S64.Idx → EReal)
      (m ((c : Thread nD τ).loc main_arg12) : S32x64.Idx → EReal)
      (m ((c : Thread nD τ).loc main_arg13) : S64.Idx → EReal)
      (m ((c : Thread nD τ).loc main_arg14) : S64.Idx → EReal) n o :=
  out_15 (exit10 ⟨fun n k => KHost.hp_xin (W0 m ρ c) n k, fun e => KHost.hp_src (W0 m ρ c) e, fun e => KHost.hp_dst (W0 m ρ c) e,
    fun e b => KHost.hp_wi_apply (W0 m ρ c) e b, fun e b => KHost.hp_scaled (W0 m ρ c) e b,
    W3_of_unwritten m ρ c main_arg4 (by decide), W3_of_unwritten m ρ c main_arg5 (by decide),
    W3_of_unwritten m ρ c main_arg6 (by decide), W3_of_unwritten m ρ c main_arg7 (by decide),
    W3_of_unwritten m ρ c main_arg8 (by decide), W3_of_unwritten m ρ c main_arg9 (by decide),
    W3_of_unwritten m ρ c main_arg10 (by decide), W3_of_unwritten m ρ c main_arg11 (by decide),
    W3_of_unwritten m ρ c main_arg12 (by decide), W3_of_unwritten m ρ c main_arg13 (by decide),
    W3_of_unwritten m ρ c main_arg14 (by decide)⟩) n o

end Cert.KernelIdeal.KAsm

end
-- ==== Proof.Ref.Ops0.lean ====
import proofs.«412279_j89026082111590_3_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_c0 : List (HloOp τ sig (Elt F)) :=
  [ unary main_arg3 main_v0 (extractStridedSlice S1x800000 ![0, 0] · slices_S2x800000_S1x800000_0_0),
    reshape main_v0 main_v1 rfl shapeCasts_S1x800000_S800000,
    unary main_arg3 main_v2 (extractStridedSlice S1x800000 ![1, 0] · slices_S2x800000_S1x800000_1_0),
    reshape main_v2 main_v3 rfl shapeCasts_S1x800000_S800000,
    nullary main_cst (constant S_ .f32 0x40800000#32),
    unary main_cst main_v4 (broadcastInDim S800000x2 ![] bcast_S_S800000x2),
    binary main_arg2 main_v4 main_v5 mulf,
    unary main_v5 main_v6 Host.floor,
    nullary main_cst_0 (constant S_ .f32 0x00000000#32),
    nullary main_c (constantI S_ 32 3#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S800000x2, .f32⟩) main_call0_v1) (broadcastInDim S800000x2 ![] bcast_S_S800000x2),
    TRef.binary (TRef.of (T := ⟨S800000x2, .f32⟩) main_call0_v1) (TRef.of (T := ⟨S800000x2, .f32⟩) main_v6) (TRef.of (T := ⟨S800000x2, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S800000x2, .f32⟩) main_call0_v4) (broadcastInDim S800000x2 ![] bcast_S_S800000x2),
    TRef.binary (TRef.of (T := ⟨S800000x2, .f32⟩) main_call0_v4) (TRef.of (T := ⟨S800000x2, .f32⟩) main_call0_v2) (TRef.of (T := ⟨S800000x2, .f32⟩) main_v7) minimumf,
    binary main_v5 main_v7 main_v8 subf,
    unary main_v7 main_v9 (fptosi 32),
    nullary main_c_1 (constantI S_ 32 1#32),
    unary main_c_1 main_v10 (broadcastInDim S800000x2 ![] bcast_S_S800000x2) ]
theorem ops_c0_sub : (ops_c0 : List (HloOp τ sig (Elt F))).Forall fun op => op.bufs ⊆ tcRefs τ sig :=
  ⟨unary_bufs_sub ..,
    reshape_bufs_sub ..,
    unary_bufs_sub ..,
    reshape_bufs_sub ..,
    nullary_bufs_sub ..,
    unary_bufs_sub ..,
    binary_bufs_sub ..,
    unary_bufs_sub ..,
    nullary_bufs_sub ..,
    nullary_bufs_sub ..,
    unary_bufs_sub ..,
    unary_bufs_sub ..,
    binary_bufs_sub ..,
    unary_bufs_sub ..,
    unary_bufs_sub ..,
    binary_bufs_sub ..,
    binary_bufs_sub ..,
    unary_bufs_sub ..,
    nullary_bufs_sub ..,
    unary_bufs_sub ..⟩
theorem ops_c0_fresh : (ops_c0 : List (HloOp τ sig (Elt F))).Forall fun op => op.fresh = ∅ := by
  simp only [List.Forall]; repeat' constructor

abbrev ops_c0_W : List (Ref sig .tc) := [main_v0, main_v1, main_v2, main_v3, main_cst, main_v4, main_v5, main_v6, main_cst_0, main_c, main_call0_v0, main_call0_v1, main_call0_v2, main_call0_v3, main_call0_v4, main_v7, main_v8, main_v9, main_c_1, main_v10]
theorem ops_c0_writes : (ops_c0 : List (HloOp τ sig (Elt F))).Forall fun op => op.writes ⊆ (ops_c0_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c1 : List (HloOp τ sig (Elt F)) :=
  [ binary main_v9 main_v10 main_v11 addi,
    unary main_v8 main_v12 (extractStridedSlice S800000x1 ![0, 0] · slices_S800000x2_S800000x1_0_0),
    reshape main_v12 main_v13 rfl shapeCasts_S800000x1_S800000,
    unary main_v8 main_v14 (extractStridedSlice S800000x1 ![0, 1] · slices_S800000x2_S800000x1_0_1),
    reshape main_v14 main_v15 rfl shapeCasts_S800000x1_S800000,
    nullary main_cst_2 (constant S_ .f32 0x3F800000#32),
    unary main_cst_2 main_v16 (broadcastInDim S800000 ![] bcast_S_S800000),
    binary main_v16 main_v13 main_v17 subf,
    nullary main_cst_3 (constant S_ .f32 0x3F800000#32),
    unary main_cst_3 main_v18 (broadcastInDim S800000 ![] bcast_S_S800000),
    binary main_v18 main_v15 main_v19 subf,
    binary main_v17 main_v19 main_v20 mulf,
    nullary main_cst_4 (constant S_ .f32 0x3F800000#32),
    unary main_cst_4 main_v21 (broadcastInDim S800000 ![] bcast_S_S800000),
    binary main_v21 main_v15 main_v22 subf,
    binary main_v13 main_v22 main_v23 mulf,
    nullary main_cst_5 (constant S_ .f32 0x3F800000#32),
    unary main_cst_5 main_v24 (broadcastInDim S800000 ![] bcast_S_S800000),
    binary main_v24 main_v13 main_v25 subf,
    binary main_v25 main_v15 main_v26 mulf ]
theorem ops_c1_sub : (ops_c1 : List (HloOp τ sig (Elt F))).Forall fun op => op.bufs ⊆ tcRefs τ sig :=
  ⟨binary_bufs_sub ..,
    unary_bufs_sub ..,
    reshape_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    binary_bufs_sub ..,
    nullary_bufs_sub ..,
    unary_bufs_sub ..,
    binary_bufs_sub ..,
    binary_bufs_sub ..,
    nullary_bufs_sub ..,
    unary_bufs_sub ..,
    binary_bufs_sub ..,
    binary_bufs_sub ..⟩
theorem ops_c1_fresh : (ops_c1 : List (HloOp τ sig (Elt F))).Forall fun op => op.fresh = ∅ := by
  simp only [List.Forall]; repeat' constructor

abbrev ops_c1_W : List (Ref sig .tc) := [main_v11, main_v12, main_v13, main_v14, main_v15, main_cst_2, main_v16, main_v17, main_cst_3, main_v18, main_v19, main_v20, main_cst_4, main_v21, main_v22, main_v23, main_cst_5, main_v24, main_v25, main_v26]
theorem ops_c1_writes : (ops_c1 : List (HloOp τ sig (Elt F))).Forall fun op => op.writes ⊆ (ops_c1_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c2 : List (HloOp τ sig (Elt F)) :=
  [ binary main_v13 main_v15 main_v27 mulf,
    unary main_v20 main_v28 (broadcastInDim S800000x1 ![0] bcast_S800000_S800000x1_0),
    unary main_v23 main_v29 (broadcastInDim S800000x1 ![0] bcast_S800000_S800000x1_0),
    unary main_v26 main_v30 (broadcastInDim S800000x1 ![0] bcast_S800000_S800000x1_0),
    unary main_v27 main_v31 (broadcastInDim S800000x1 ![0] bcast_S800000_S800000x1_0) ]
theorem ops_c2_sub : (ops_c2 : List (HloOp τ sig (Elt F))).Forall fun op => op.bufs ⊆ tcRefs τ sig :=
  ⟨binary_bufs_sub ..,
    unary_bufs_sub ..,
    unary_bufs_sub ..,
    unary_bufs_sub ..,
    unary_bufs_sub ..⟩
theorem ops_c2_fresh : (ops_c2 : List (HloOp τ sig (Elt F))).Forall fun op => op.fresh = ∅ := by
  simp only [List.Forall]; repeat' constructor

abbrev ops_c2_W : List (Ref sig .tc) := [main_v27, main_v28, main_v29, main_v30, main_v31]
theorem ops_c2_writes : (ops_c2 : List (HloOp τ sig (Elt F))).Forall fun op => op.writes ⊆ (ops_c2_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c3a : List (HloOp τ sig (Elt F)) :=
  [ nary ![main_v28, main_v29, main_v30, main_v31] main_v32 (fun u => concatenate S800000x4 1 [⟨S800000x1, u 0⟩, ⟨S800000x1, u 1⟩, ⟨S800000x1, u 2⟩, ⟨S800000x1, u 3⟩] concatenates_S800000x1_S800000x1_S800000x1_S800000x1_S800000x4_d1) ]
theorem ops_c3a_sub : (ops_c3a : List (HloOp τ sig (Elt F))).Forall fun op => op.bufs ⊆ tcRefs τ sig :=
  (nary_bufs_sub ..)
theorem ops_c3a_fresh : (ops_c3a : List (HloOp τ sig (Elt F))).Forall fun op => op.fresh = ∅ := by
  simp only [List.Forall]; repeat' constructor

abbrev ops_c3a_W : List (Ref sig .tc) := [main_v32]
theorem ops_c3a_writes : (ops_c3a : List (HloOp τ sig (Elt F))).Forall fun op => op.writes ⊆ (ops_c3a_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c3b : List (HloOp τ sig (Elt F)) :=
  [ unary main_v9 main_v33 (extractStridedSlice S800000x1 ![0, 0] · slices_S800000x2_S800000x1_0_0),
    reshape main_v33 main_v34 rfl shapeCasts_S800000x1_S800000,
    unary main_v9 main_v35 (extractStridedSlice S800000x1 ![0, 1] · slices_S800000x2_S800000x1_0_1),
    reshape main_v35 main_v36 rfl shapeCasts_S800000x1_S800000,
    nullary main_c_6 (constantI S_ 32 5#32),
    unary main_c_6 main_v37 (broadcastInDim S800000 ![] bcast_S_S800000),
    binary main_v37 main_v36 main_v38 muli,
    binary main_v34 main_v38 main_v39 addi,
    unary main_v11 main_v40 (extractStridedSlice S800000x1 ![0, 0] · slices_S800000x2_S800000x1_0_0),
    reshape main_v40 main_v41 rfl shapeCasts_S800000x1_S800000,
    unary main_v9 main_v42 (extractStridedSlice S800000x1 ![0, 1] · slices_S800000x2_S800000x1_0_1),
    reshape main_v42 main_v43 rfl shapeCasts_S800000x1_S800000,
    nullary main_c_7 (constantI S_ 32 5#32),
    unary main_c_7 main_v44 (broadcastInDim S800000 ![] bcast_S_S800000),
    binary main_v44 main_v43 main_v45 muli,
    binary main_v41 main_v45 main_v46 addi,
    unary main_v9 main_v47 (extractStridedSlice S800000x1 ![0, 0] · slices_S800000x2_S800000x1_0_0),
    reshape main_v47 main_v48 rfl shapeCasts_S800000x1_S800000,
    unary main_v11 main_v49 (extractStridedSlice S800000x1 ![0, 1] · slices_S800000x2_S800000x1_0_1) ]
theorem ops_c3b_sub : (ops_c3b : List (HloOp τ sig (Elt F))).Forall fun op => op.bufs ⊆ tcRefs τ sig :=
  ⟨unary_bufs_sub ..,
    reshape_bufs_sub ..,
    unary_bufs_sub ..,
    reshape_bufs_sub ..,
    nullary_bufs_sub ..,
    unary_bufs_sub ..,
    binary_bufs_sub ..,
    binary_bufs_sub ..,
    unary_bufs_sub ..,
    reshape_bufs_sub ..,
    unary_bufs_sub ..,
    reshape_bufs_sub ..,
    nullary_bufs_sub ..,
    unary_bufs_sub ..,
    binary_bufs_sub ..,
    binary_bufs_sub ..,
    unary_bufs_sub ..,
    reshape_bufs_sub ..,
    unary_bufs_sub ..⟩
theorem ops_c3b_fresh : (ops_c3b : List (HloOp τ sig (Elt F))).Forall fun op => op.fresh = ∅ := by
  simp only [List.Forall]; repeat' constructor

abbrev ops_c3b_W : List (Ref sig .tc) := [main_v33, main_v34, main_v35, main_v36, main_c_6, main_v37, main_v38, main_v39, main_v40, main_v41, main_v42, main_v43, main_c_7, main_v44, main_v45, main_v46, main_v47, main_v48, main_v49]
theorem ops_c3b_writes : (ops_c3b : List (HloOp τ sig (Elt F))).Forall fun op => op.writes ⊆ (ops_c3b_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_part0 : List (HloOp τ sig (Elt F)) := ops_c0 ++ ops_c1 ++ ops_c2 ++ ops_c3a ++ ops_c3b

theorem main_part0_eq (c : Dev nD) : main_part0 (F := F) c = seq ops_part0 := rfl

end Cert.ReferenceIdeal.RunP

end
-- ==== Proof.Ref.Ops1.lean ====
import proofs.«412279_j89026082111590_3_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_c4 : List (HloOp τ sig (Elt F)) :=
  [ reshape main_v49 main_v50 rfl shapeCasts_S800000x1_S800000,
    nullary main_c_8 (constantI S_ 32 5#32),
    unary main_c_8 main_v51 (broadcastInDim S800000 ![] bcast_S_S800000),
    binary main_v51 main_v50 main_v52 muli,
    binary main_v48 main_v52 main_v53 addi,
    unary main_v11 main_v54 (extractStridedSlice S800000x1 ![0, 0] · slices_S800000x2_S800000x1_0_0),
    reshape main_v54 main_v55 rfl shapeCasts_S800000x1_S800000,
    unary main_v11 main_v56 (extractStridedSlice S800000x1 ![0, 1] · slices_S800000x2_S800000x1_0_1),
    reshape main_v56 main_v57 rfl shapeCasts_S800000x1_S800000,
    nullary main_c_9 (constantI S_ 32 5#32),
    unary main_c_9 main_v58 (broadcastInDim S800000 ![] bcast_S_S800000),
    binary main_v58 main_v57 main_v59 muli,
    binary main_v55 main_v59 main_v60 addi,
    unary main_v39 main_v61 (broadcastInDim S800000x1 ![0] bcast_S800000_S800000x1_0),
    unary main_v46 main_v62 (broadcastInDim S800000x1 ![0] bcast_S800000_S800000x1_0),
    unary main_v53 main_v63 (broadcastInDim S800000x1 ![0] bcast_S800000_S800000x1_0),
    unary main_v60 main_v64 (broadcastInDim S800000x1 ![0] bcast_S800000_S800000x1_0) ]
theorem ops_c4_sub : (ops_c4 : List (HloOp τ sig (Elt F))).Forall fun op => op.bufs ⊆ tcRefs τ sig :=
  ⟨reshape_bufs_sub ..,
    nullary_bufs_sub ..,
    unary_bufs_sub ..,
    binary_bufs_sub ..,
    binary_bufs_sub ..,
    unary_bufs_sub ..,
    reshape_bufs_sub ..,
    unary_bufs_sub ..,
    reshape_bufs_sub ..,
    nullary_bufs_sub ..,
    unary_bufs_sub ..,
    binary_bufs_sub ..,
    binary_bufs_sub ..,
    unary_bufs_sub ..,
    unary_bufs_sub ..,
    unary_bufs_sub ..,
    unary_bufs_sub ..⟩
theorem ops_c4_fresh : (ops_c4 : List (HloOp τ sig (Elt F))).Forall fun op => op.fresh = ∅ := by
  simp only [List.Forall]; repeat' constructor

abbrev ops_c4_W : List (Ref sig .tc) := [main_v50, main_c_8, main_v51, main_v52, main_v53, main_v54, main_v55, main_v56, main_v57, main_c_9, main_v58, main_v59, main_v60, main_v61, main_v62, main_v63, main_v64]
theorem ops_c4_writes : (ops_c4 : List (HloOp τ sig (Elt F))).Forall fun op => op.writes ⊆ (ops_c4_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c5 : List (HloOp τ sig (Elt F)) :=
  [ nary ![main_v61, main_v62, main_v63, main_v64] main_v65 (fun u => concatenate S800000x4 1 [⟨S800000x1, u 0⟩, ⟨S800000x1, u 1⟩, ⟨S800000x1, u 2⟩, ⟨S800000x1, u 3⟩] concatenates_S800000x1_S800000x1_S800000x1_S800000x1_S800000x4_d1) ]
theorem ops_c5_sub : (ops_c5 : List (HloOp τ sig (Elt F))).Forall fun op => op.bufs ⊆ tcRefs τ sig :=
  (nary_bufs_sub ..)
theorem ops_c5_fresh : (ops_c5 : List (HloOp τ sig (Elt F))).Forall fun op => op.fresh = ∅ := by
  simp only [List.Forall]; repeat' constructor

abbrev ops_c5_W : List (Ref sig .tc) := [main_v65]
theorem ops_c5_writes : (ops_c5 : List (HloOp τ sig (Elt F))).Forall fun op => op.writes ⊆ (ops_c5_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c6a : List (HloOp τ sig (Elt F)) :=
  [ binary main_arg0 main_arg1 main_v66 (fun a b => concatenate S50000x32 1 [⟨S50000x30, a⟩, ⟨S50000x2, b⟩] concatenates_S50000x30_S50000x2_S50000x32_d1) ]
theorem ops_c6a_sub : (ops_c6a : List (HloOp τ sig (Elt F))).Forall fun op => op.bufs ⊆ tcRefs τ sig :=
  (binary_bufs_sub ..)
theorem ops_c6a_fresh : (ops_c6a : List (HloOp τ sig (Elt F))).Forall fun op => op.fresh = ∅ := by
  simp only [List.Forall]; repeat' constructor

abbrev ops_c6a_W : List (Ref sig .tc) := [main_v66]
theorem ops_c6a_writes : (ops_c6a : List (HloOp τ sig (Elt F))).Forall fun op => op.writes ⊆ (ops_c6a_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c6b : List (HloOp τ sig (Elt F)) :=
  [ binary main_v66 main_arg12 main_v67 (fun l r => Host.dotGeneral dot_S50000x32_S32x64_S50000x64_1_0_0_1_n_n none l r),
    nullary main_cst_10 (constant S_ .f32 0x00000000#32),
    binary main_v67 main_cst_10 main_v68 (fun x v => Host.reduceAdd x v reducesTo_S50000x64_S64_d0 h_S_),
    nullary main_cst_11 (constant S_ .f32 0x47435000#32),
    unary main_cst_11 main_v69 (broadcastInDim S64 ![] bcast_S_S64),
    binary main_v68 main_v69 main_v70 Host.divf,
    unary main_v70 main_v71 (broadcastInDim S1x64 ![1] bcast_S64_S1x64_1),
    unary main_v71 main_v72 (broadcastInDim S50000x64 ![0, 1] bcast_S1x64_S50000x64_0_1),
    binary main_v67 main_v72 main_v73 subf,
    binary main_v73 main_v73 main_v74 mulf,
    nullary main_cst_12 (constant S_ .f32 0x00000000#32),
    binary main_v74 main_cst_12 main_v75 (fun x v => Host.reduceAdd x v reducesTo_S50000x64_S64_d0 h_S_),
    nullary main_cst_13 (constant S_ .f32 0x47435000#32),
    unary main_cst_13 main_v76 (broadcastInDim S64 ![] bcast_S_S64),
    binary main_v75 main_v76 main_v77 Host.divf,
    unary main_v70 main_v78 (broadcastInDim S1x64 ![1] bcast_S64_S1x64_1),
    unary main_v78 main_v79 (broadcastInDim S50000x64 ![0, 1] bcast_S1x64_S50000x64_0_1),
    binary main_v67 main_v79 main_v80 subf,
    nullary main_cst_14 (constant S_ .f32 0x3727C5AC#32) ]
theorem ops_c6b_sub : (ops_c6b : List (HloOp τ sig (Elt F))).Forall fun op => op.bufs ⊆ tcRefs τ sig :=
  ⟨binary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    binary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    nullary_bufs_sub ..⟩
theorem ops_c6b_fresh : (ops_c6b : List (HloOp τ sig (Elt F))).Forall fun op => op.fresh = ∅ := by
  simp only [List.Forall]; repeat' constructor

abbrev ops_c6b_W : List (Ref sig .tc) := [main_v67, main_cst_10, main_v68, main_cst_11, main_v69, main_v70, main_v71, main_v72, main_v73, main_v74, main_cst_12, main_v75, main_cst_13, main_v76, main_v77, main_v78, main_v79, main_v80, main_cst_14]
theorem ops_c6b_writes : (ops_c6b : List (HloOp τ sig (Elt F))).Forall fun op => op.writes ⊆ (ops_c6b_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c7 : List (HloOp τ sig (Elt F)) :=
  [ unary main_cst_14 main_v81 (broadcastInDim S64 ![] bcast_S_S64),
    binary main_v77 main_v81 main_v82 addf,
    unary main_v82 main_v83 Host.rsqrt,
    unary main_v83 main_v84 (broadcastInDim S1x64 ![1] bcast_S64_S1x64_1),
    unary main_v84 main_v85 (broadcastInDim S50000x64 ![0, 1] bcast_S1x64_S50000x64_0_1),
    binary main_v80 main_v85 main_v86 mulf,
    unary main_arg13 main_v87 (broadcastInDim S1x64 ![1] bcast_S64_S1x64_1),
    unary main_v87 main_v88 (broadcastInDim S50000x64 ![0, 1] bcast_S1x64_S50000x64_0_1),
    binary main_v86 main_v88 main_v89 mulf,
    unary main_arg14 main_v90 (broadcastInDim S1x64 ![1] bcast_S64_S1x64_1),
    unary main_v90 main_v91 (broadcastInDim S50000x64 ![0, 1] bcast_S1x64_S50000x64_0_1),
    binary main_v89 main_v91 main_v92 addf,
    nullary main_c_15 (constantI S_ 32 0#32),
    unary main_c_15 main_v93 (broadcastInDim S800000 ![] bcast_S_S800000),
    binary main_v1 main_v93 main_v94 (cmpi .slt),
    nullary main_c_16 (constantI S_ 32 50000#32),
    unary main_c_16 main_v95 (broadcastInDim S800000 ![] bcast_S_S800000),
    binary main_v1 main_v95 main_v96 addi,
    ternary main_v94 main_v96 main_v1 main_v97 select,
    unary main_v97 main_v98 (broadcastInDim S800000x1 ![0] bcast_S800000_S800000x1_0) ]
theorem ops_c7_sub : (ops_c7 : List (HloOp τ sig (Elt F))).Forall fun op => op.bufs ⊆ tcRefs τ sig :=
  ⟨unary_bufs_sub ..,
    binary_bufs_sub ..,
    unary_bufs_sub ..,
    unary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..⟩
theorem ops_c7_fresh : (ops_c7 : List (HloOp τ sig (Elt F))).Forall fun op => op.fresh = ∅ := by
  simp only [List.Forall]; repeat' constructor

abbrev ops_c7_W : List (Ref sig .tc) := [main_v81, main_v82, main_v83, main_v84, main_v85, main_v86, main_v87, main_v88, main_v89, main_v90, main_v91, main_v92, main_c_15, main_v93, main_v94, main_c_16, main_v95, main_v96, main_v97, main_v98]
theorem ops_c7_writes : (ops_c7 : List (HloOp τ sig (Elt F))).Forall fun op => op.writes ⊆ (ops_c7_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c8 : List (HloOp τ sig (Elt F)) :=
  [ binary main_v66 main_v98 main_v99 (fun x i => Host.gather gather_S50000x32_S800000x1_S800000x32_1_0_n_n_0_1_132 x i),
    nullary main_cst_17 (constant S_ .f32 0x00000000#32) ]
theorem ops_c8_sub : (ops_c8 : List (HloOp τ sig (Elt F))).Forall fun op => op.bufs ⊆ tcRefs τ sig :=
  ⟨binary_bufs_sub ..,
    nullary_bufs_sub ..⟩
theorem ops_c8_fresh : (ops_c8 : List (HloOp τ sig (Elt F))).Forall fun op => op.fresh = ∅ := by
  simp only [List.Forall]; repeat' constructor

abbrev ops_c8_W : List (Ref sig .tc) := [main_v99, main_cst_17]
theorem ops_c8_writes : (ops_c8 : List (HloOp τ sig (Elt F))).Forall fun op => op.writes ⊆ (ops_c8_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_part1 : List (HloOp τ sig (Elt F)) := ops_c4 ++ ops_c5 ++ ops_c6a ++ ops_c6b ++ ops_c7 ++ ops_c8

theorem main_part1_eq (c : Dev nD) : main_part1 (F := F) c = seq ops_part1 := rfl

end Cert.ReferenceIdeal.RunP

end
-- ==== Proof.Ref.Vals0.lean ====
import proofs.«412279_j89026082111590_3_alg».proof.Proof.RefRead
import proofs.«412279_j89026082111590_3_alg».proof.Proof.Ref.Ops0
import proofs.«412279_j89026082111590_3_alg».proof.Proof.Ref.Ops1

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14]
def val0 (V0 : Valuation τ sig (Elt F)) : Valuation τ sig (Elt F) := V0
theorem val0_arg (V0 : Valuation τ sig (Elt F)) (r : Ref sig .tc) (h : r ∈ argRefs := by decide) :
    val0 V0 (no_index (Proc.devRef .tc r)) = V0 (Proc.devRef .tc r) := rfl

def val1 (V0 : Valuation τ sig (Elt F)) : Valuation τ sig (Elt F) := after ops_c0 (val0 V0)

theorem val1_keep (V0 : Valuation τ sig (Elt F)) (r : Ref sig .tc) (h : r ∉ ops_c0_W) :
    val1 V0 (Proc.devRef .tc r) = val0 V0 (Proc.devRef .tc r) :=
  after_of_writes_sub ops_c0 _ ops_c0_writes h
-- No chunk writes an argument of the program, so each argument keeps its launch contents through every chunk.
theorem val1_arg (V0 : Valuation τ sig (Elt F)) (r : Ref sig .tc) (h : r ∈ argRefs := by decide) :
    val1 V0 (no_index (Proc.devRef .tc r)) = V0 (Proc.devRef .tc r) :=
  (val1_keep V0 r ((by decide : ∀ r ∈ argRefs, r ∉ ops_c0_W) r h)).trans (val0_arg V0 r h)
theorem val1_main_v1 (V0 : Valuation τ sig (Elt F)) : val1 V0 (no_index (Proc.devRef .tc main_v1)) = ReadP.val_main_v1 (F := F) (V0 (Proc.devRef .tc main_arg3)) := by
  unfold val1
  simp only [ops_c0]
  after_results_simp
  simp only [val0_arg _ main_arg3] <;> rfl
theorem val1_main_v3 (V0 : Valuation τ sig (Elt F)) : val1 V0 (no_index (Proc.devRef .tc main_v3)) = ReadP.val_main_v3 (F := F) (V0 (Proc.devRef .tc main_arg3)) := by
  unfold val1
  simp only [ops_c0]
  after_results_simp
  simp only [val0_arg _ main_arg3] <;> rfl
theorem val1_main_v8 (V0 : Valuation τ sig (Elt F)) : val1 V0 (no_index (Proc.devRef .tc main_v8)) = ReadP.val_main_v8 (F := F) (V0 (Proc.devRef .tc main_arg2)) := by
  unfold val1
  simp only [ops_c0]
  after_results_simp
  simp only [val0_arg _ main_arg2] <;> rfl
theorem val1_main_v9 (V0 : Valuation τ sig (Elt F)) : val1 V0 (no_index (Proc.devRef .tc main_v9)) = ReadP.val_main_v9 (F := F) (V0 (Proc.devRef .tc main_arg2)) := by
  unfold val1
  simp only [ops_c0]
  after_results_simp
  simp only [val0_arg _ main_arg2] <;> rfl
theorem val1_main_v10 (V0 : Valuation τ sig (Elt F)) : val1 V0 (no_index (Proc.devRef .tc main_v10)) = ReadP.val_main_v10 (F := F) := by
  unfold val1
  simp only [ops_c0]
  after_results_simp
  all_goals rfl

def val2 (V0 : Valuation τ sig (Elt F)) : Valuation τ sig (Elt F) := after ops_c1 (val1 V0)

theorem val2_keep (V0 : Valuation τ sig (Elt F)) (r : Ref sig .tc) (h : r ∉ ops_c1_W) :
    val2 V0 (Proc.devRef .tc r) = val1 V0 (Proc.devRef .tc r) :=
  after_of_writes_sub ops_c1 _ ops_c1_writes h
theorem val2_arg (V0 : Valuation τ sig (Elt F)) (r : Ref sig .tc) (h : r ∈ argRefs := by decide) :
    val2 V0 (no_index (Proc.devRef .tc r)) = V0 (Proc.devRef .tc r) :=
  (val2_keep V0 r ((by decide : ∀ r ∈ argRefs, r ∉ ops_c1_W) r h)).trans (val1_arg V0 r h)
theorem val2_main_v1 (V0 : Valuation τ sig (Elt F)) : val2 V0 (no_index (Proc.devRef .tc main_v1)) = ReadP.val_main_v1 (F := F) (V0 (Proc.devRef .tc main_arg3)) :=
  (val2_keep V0 main_v1 (by decide)).trans (val1_main_v1 V0)
theorem val2_main_v3 (V0 : Valuation τ sig (Elt F)) : val2 V0 (no_index (Proc.devRef .tc main_v3)) = ReadP.val_main_v3 (F := F) (V0 (Proc.devRef .tc main_arg3)) :=
  (val2_keep V0 main_v3 (by decide)).trans (val1_main_v3 V0)
theorem val2_main_v9 (V0 : Valuation τ sig (Elt F)) : val2 V0 (no_index (Proc.devRef .tc main_v9)) = ReadP.val_main_v9 (F := F) (V0 (Proc.devRef .tc main_arg2)) :=
  (val2_keep V0 main_v9 (by decide)).trans (val1_main_v9 V0)
theorem val2_main_v11 (V0 : Valuation τ sig (Elt F)) : val2 V0 (no_index (Proc.devRef .tc main_v11)) = ReadP.val_main_v11 (F := F) (V0 (Proc.devRef .tc main_arg2)) := by
  unfold val2
  simp only [ops_c1]
  after_results_simp
  simp only [val1_main_v10, val1_main_v9] <;> rfl
theorem val2_main_v13 (V0 : Valuation τ sig (Elt F)) : val2 V0 (no_index (Proc.devRef .tc main_v13)) = ReadP.val_main_v13 (F := F) (V0 (Proc.devRef .tc main_arg2)) := by
  unfold val2
  simp only [ops_c1]
  after_results_simp
  simp only [val1_main_v8] <;> rfl
theorem val2_main_v15 (V0 : Valuation τ sig (Elt F)) : val2 V0 (no_index (Proc.devRef .tc main_v15)) = ReadP.val_main_v15 (F := F) (V0 (Proc.devRef .tc main_arg2)) := by
  unfold val2
  simp only [ops_c1]
  after_results_simp
  simp only [val1_main_v8] <;> rfl
theorem val2_main_v20 (V0 : Valuation τ sig (Elt F)) : val2 V0 (no_index (Proc.devRef .tc main_v20)) = ReadP.val_main_v20 (F := F) (V0 (Proc.devRef .tc main_arg2)) := by
  unfold val2
  simp only [ops_c1]
  after_results_simp
  simp only [val1_main_v8] <;> rfl
theorem val2_main_v23 (V0 : Valuation τ sig (Elt F)) : val2 V0 (no_index (Proc.devRef .tc main_v23)) = ReadP.val_main_v23 (F := F) (V0 (Proc.devRef .tc main_arg2)) := by
  unfold val2
  simp only [ops_c1]
  after_results_simp
  simp only [val1_main_v8] <;> rfl
theorem val2_main_v26 (V0 : Valuation τ sig (Elt F)) : val2 V0 (no_index (Proc.devRef .tc main_v26)) = ReadP.val_main_v26 (F := F) (V0 (Proc.devRef .tc main_arg2)) := by
  unfold val2
  simp only [ops_c1]
  after_results_simp
  simp only [val1_main_v8] <;> rfl

def val3 (V0 : Valuation τ sig (Elt F)) : Valuation τ sig (Elt F) := after ops_c2 (val2 V0)

theorem val3_keep (V0 : Valuation τ sig (Elt F)) (r : Ref sig .tc) (h : r ∉ ops_c2_W) :
    val3 V0 (Proc.devRef .tc r) = val2 V0 (Proc.devRef .tc r) :=
  after_of_writes_sub ops_c2 _ ops_c2_writes h
theorem val3_arg (V0 : Valuation τ sig (Elt F)) (r : Ref sig .tc) (h : r ∈ argRefs := by decide) :
    val3 V0 (no_index (Proc.devRef .tc r)) = V0 (Proc.devRef .tc r) :=
  (val3_keep V0 r ((by decide : ∀ r ∈ argRefs, r ∉ ops_c2_W) r h)).trans (val2_arg V0 r h)
theorem val3_main_v1 (V0 : Valuation τ sig (Elt F)) : val3 V0 (no_index (Proc.devRef .tc main_v1)) = ReadP.val_main_v1 (F := F) (V0 (Proc.devRef .tc main_arg3)) :=
  (val3_keep V0 main_v1 (by decide)).trans (val2_main_v1 V0)
theorem val3_main_v3 (V0 : Valuation τ sig (Elt F)) : val3 V0 (no_index (Proc.devRef .tc main_v3)) = ReadP.val_main_v3 (F := F) (V0 (Proc.devRef .tc main_arg3)) :=
  (val3_keep V0 main_v3 (by decide)).trans (val2_main_v3 V0)
theorem val3_main_v9 (V0 : Valuation τ sig (Elt F)) : val3 V0 (no_index (Proc.devRef .tc main_v9)) = ReadP.val_main_v9 (F := F) (V0 (Proc.devRef .tc main_arg2)) :=
  (val3_keep V0 main_v9 (by decide)).trans (val2_main_v9 V0)
theorem val3_main_v11 (V0 : Valuation τ sig (Elt F)) : val3 V0 (no_index (Proc.devRef .tc main_v11)) = ReadP.val_main_v11 (F := F) (V0 (Proc.devRef .tc main_arg2)) :=
  (val3_keep V0 main_v11 (by decide)).trans (val2_main_v11 V0)
theorem val3_main_v28 (V0 : Valuation τ sig (Elt F)) : val3 V0 (no_index (Proc.devRef .tc main_v28)) = ReadP.val_main_v28 (F := F) (V0 (Proc.devRef .tc main_arg2)) := by
  unfold val3
  simp only [ops_c2]
  after_results_simp
  simp only [val2_main_v20] <;> rfl
theorem val3_main_v29 (V0 : Valuation τ sig (Elt F)) : val3 V0 (no_index (Proc.devRef .tc main_v29)) = ReadP.val_main_v29 (F := F) (V0 (Proc.devRef .tc main_arg2)) := by
  unfold val3
  simp only [ops_c2]
  after_results_simp
  simp only [val2_main_v23] <;> rfl
theorem val3_main_v30 (V0 : Valuation τ sig (Elt F)) : val3 V0 (no_index (Proc.devRef .tc main_v30)) = ReadP.val_main_v30 (F := F) (V0 (Proc.devRef .tc main_arg2)) := by
  unfold val3
  simp only [ops_c2]
  after_results_simp
  simp only [val2_main_v26] <;> rfl
theorem val3_main_v31 (V0 : Valuation τ sig (Elt F)) : val3 V0 (no_index (Proc.devRef .tc main_v31)) = ReadP.val_main_v31 (F := F) (V0 (Proc.devRef .tc main_arg2)) := by
  unfold val3
  simp only [ops_c2]
  after_results_simp
  simp only [val2_main_v15, val2_main_v13] <;> rfl

def val4 (V0 : Valuation τ sig (Elt F)) : Valuation τ sig (Elt F) := after ops_c3a (val3 V0)

theorem val4_keep (V0 : Valuation τ sig (Elt F)) (r : Ref sig .tc) (h : r ∉ ops_c3a_W) :
    val4 V0 (Proc.devRef .tc r) = val3 V0 (Proc.devRef .tc r) :=
  after_of_writes_sub ops_c3a _ ops_c3a_writes h
theorem val4_arg (V0 : Valuation τ sig (Elt F)) (r : Ref sig .tc) (h : r ∈ argRefs := by decide) :
    val4 V0 (no_index (Proc.devRef .tc r)) = V0 (Proc.devRef .tc r) :=
  (val4_keep V0 r ((by decide : ∀ r ∈ argRefs, r ∉ ops_c3a_W) r h)).trans (val3_arg V0 r h)
theorem val4_main_v1 (V0 : Valuation τ sig (Elt F)) : val4 V0 (no_index (Proc.devRef .tc main_v1)) = ReadP.val_main_v1 (F := F) (V0 (Proc.devRef .tc main_arg3)) :=
  (val4_keep V0 main_v1 (by decide)).trans (val3_main_v1 V0)
theorem val4_main_v3 (V0 : Valuation τ sig (Elt F)) : val4 V0 (no_index (Proc.devRef .tc main_v3)) = ReadP.val_main_v3 (F := F) (V0 (Proc.devRef .tc main_arg3)) :=
  (val4_keep V0 main_v3 (by decide)).trans (val3_main_v3 V0)
theorem val4_main_v9 (V0 : Valuation τ sig (Elt F)) : val4 V0 (no_index (Proc.devRef .tc main_v9)) = ReadP.val_main_v9 (F := F) (V0 (Proc.devRef .tc main_arg2)) :=
  (val4_keep V0 main_v9 (by decide)).trans (val3_main_v9 V0)
theorem val4_main_v11 (V0 : Valuation τ sig (Elt F)) : val4 V0 (no_index (Proc.devRef .tc main_v11)) = ReadP.val_main_v11 (F := F) (V0 (Proc.devRef .tc main_arg2)) :=
  (val4_keep V0 main_v11 (by decide)).trans (val3_main_v11 V0)
theorem val4_main_v32 (V0 : Valuation τ sig (Elt F)) : val4 V0 (no_index (Proc.devRef .tc main_v32)) = ReadP.val_main_v32 (F := F) (V0 (Proc.devRef .tc main_arg2)) := by
  unfold val4
  simp only [ops_c3a]
  after_results_simp
  try dsimp only [Matrix.cons_val]
  rw [val3_main_v31 V0, val3_main_v30 V0, val3_main_v29 V0, val3_main_v28 V0]
  rfl

def val5 (V0 : Valuation τ sig (Elt F)) : Valuation τ sig (Elt F) := after ops_c3b (val4 V0)

theorem val5_keep (V0 : Valuation τ sig (Elt F)) (r : Ref sig .tc) (h : r ∉ ops_c3b_W) :
    val5 V0 (Proc.devRef .tc r) = val4 V0 (Proc.devRef .tc r) :=
  after_of_writes_sub ops_c3b _ ops_c3b_writes h
theorem val5_arg (V0 : Valuation τ sig (Elt F)) (r : Ref sig .tc) (h : r ∈ argRefs := by decide) :
    val5 V0 (no_index (Proc.devRef .tc r)) = V0 (Proc.devRef .tc r) :=
  (val5_keep V0 r ((by decide : ∀ r ∈ argRefs, r ∉ ops_c3b_W) r h)).trans (val4_arg V0 r h)
theorem val5_main_v1 (V0 : Valuation τ sig (Elt F)) : val5 V0 (no_index (Proc.devRef .tc main_v1)) = ReadP.val_main_v1 (F := F) (V0 (Proc.devRef .tc main_arg3)) :=
  (val5_keep V0 main_v1 (by decide)).trans (val4_main_v1 V0)
theorem val5_main_v3 (V0 : Valuation τ sig (Elt F)) : val5 V0 (no_index (Proc.devRef .tc main_v3)) = ReadP.val_main_v3 (F := F) (V0 (Proc.devRef .tc main_arg3)) :=
  (val5_keep V0 main_v3 (by decide)).trans (val4_main_v3 V0)
theorem val5_main_v11 (V0 : Valuation τ sig (Elt F)) : val5 V0 (no_index (Proc.devRef .tc main_v11)) = ReadP.val_main_v11 (F := F) (V0 (Proc.devRef .tc main_arg2)) :=
  (val5_keep V0 main_v11 (by decide)).trans (val4_main_v11 V0)
theorem val5_main_v32 (V0 : Valuation τ sig (Elt F)) : val5 V0 (no_index (Proc.devRef .tc main_v32)) = ReadP.val_main_v32 (F := F) (V0 (Proc.devRef .tc main_arg2)) :=
  (val5_keep V0 main_v32 (by decide)).trans (val4_main_v32 V0)
theorem val5_main_v39 (V0 : Valuation τ sig (Elt F)) : val5 V0 (no_index (Proc.devRef .tc main_v39)) = ReadP.val_main_v39 (F := F) (V0 (Proc.devRef .tc main_arg2)) := by
  unfold val5
  simp only [ops_c3b]
  after_results_simp
  simp only [val4_main_v9] <;> rfl
theorem val5_main_v46 (V0 : Valuation τ sig (Elt F)) : val5 V0 (no_index (Proc.devRef .tc main_v46)) = ReadP.val_main_v46 (F := F) (V0 (Proc.devRef .tc main_arg2)) := by
  unfold val5
  simp only [ops_c3b]
  after_results_simp
  simp only [val4_main_v9, val4_main_v11] <;> rfl
theorem val5_main_v48 (V0 : Valuation τ sig (Elt F)) : val5 V0 (no_index (Proc.devRef .tc main_v48)) = ReadP.val_main_v48 (F := F) (V0 (Proc.devRef .tc main_arg2)) := by
  unfold val5
  simp only [ops_c3b]
  after_results_simp
  simp only [val4_main_v9] <;> rfl
theorem val5_main_v49 (V0 : Valuation τ sig (Elt F)) : val5 V0 (no_index (Proc.devRef .tc main_v49)) = ReadP.val_main_v49 (F := F) (V0 (Proc.devRef .tc main_arg2)) := by
  unfold val5
  simp only [ops_c3b]
  after_results_simp
  simp only [val4_main_v11] <;> rfl

def val6 (V0 : Valuation τ sig (Elt F)) : Valuation τ sig (Elt F) := after ops_c4 (val5 V0)

theorem val6_keep (V0 : Valuation τ sig (Elt F)) (r : Ref sig .tc) (h : r ∉ ops_c4_W) :
    val6 V0 (Proc.devRef .tc r) = val5 V0 (Proc.devRef .tc r) :=
  after_of_writes_sub ops_c4 _ ops_c4_writes h
theorem val6_arg (V0 : Valuation τ sig (Elt F)) (r : Ref sig .tc) (h : r ∈ argRefs := by decide) :
    val6 V0 (no_index (Proc.devRef .tc r)) = V0 (Proc.devRef .tc r) :=
  (val6_keep V0 r ((by decide : ∀ r ∈ argRefs, r ∉ ops_c4_W) r h)).trans (val5_arg V0 r h)
theorem val6_main_v1 (V0 : Valuation τ sig (Elt F)) : val6 V0 (no_index (Proc.devRef .tc main_v1)) = ReadP.val_main_v1 (F := F) (V0 (Proc.devRef .tc main_arg3)) :=
  (val6_keep V0 main_v1 (by decide)).trans (val5_main_v1 V0)
theorem val6_main_v3 (V0 : Valuation τ sig (Elt F)) : val6 V0 (no_index (Proc.devRef .tc main_v3)) = ReadP.val_main_v3 (F := F) (V0 (Proc.devRef .tc main_arg3)) :=
  (val6_keep V0 main_v3 (by decide)).trans (val5_main_v3 V0)
theorem val6_main_v32 (V0 : Valuation τ sig (Elt F)) : val6 V0 (no_index (Proc.devRef .tc main_v32)) = ReadP.val_main_v32 (F := F) (V0 (Proc.devRef .tc main_arg2)) :=
  (val6_keep V0 main_v32 (by decide)).trans (val5_main_v32 V0)
theorem val6_main_v61 (V0 : Valuation τ sig (Elt F)) : val6 V0 (no_index (Proc.devRef .tc main_v61)) = ReadP.val_main_v61 (F := F) (V0 (Proc.devRef .tc main_arg2)) := by
  unfold val6
  simp only [ops_c4]
  after_results_simp
  simp only [val5_main_v39] <;> rfl
theorem val6_main_v62 (V0 : Valuation τ sig (Elt F)) : val6 V0 (no_index (Proc.devRef .tc main_v62)) = ReadP.val_main_v62 (F := F) (V0 (Proc.devRef .tc main_arg2)) := by
  unfold val6
  simp only [ops_c4]
  after_results_simp
  simp only [val5_main_v46] <;> rfl
theorem val6_main_v63 (V0 : Valuation τ sig (Elt F)) : val6 V0 (no_index (Proc.devRef .tc main_v63)) = ReadP.val_main_v63 (F := F) (V0 (Proc.devRef .tc main_arg2)) := by
  unfold val6
  simp only [ops_c4]
  after_results_simp
  simp only [val5_main_v49, val5_main_v48] <;> rfl
theorem val6_main_v64 (V0 : Valuation τ sig (Elt F)) : val6 V0 (no_index (Proc.devRef .tc main_v64)) = ReadP.val_main_v64 (F := F) (V0 (Proc.devRef .tc main_arg2)) := by
  unfold val6
  simp only [ops_c4]
  after_results_simp
  simp only [val5_main_v11] <;> rfl

def val7 (V0 : Valuation τ sig (Elt F)) : Valuation τ sig (Elt F) := after ops_c5 (val6 V0)

theorem val7_keep (V0 : Valuation τ sig (Elt F)) (r : Ref sig .tc) (h : r ∉ ops_c5_W) :
    val7 V0 (Proc.devRef .tc r) = val6 V0 (Proc.devRef .tc r) :=
  after_of_writes_sub ops_c5 _ ops_c5_writes h
theorem val7_arg (V0 : Valuation τ sig (Elt F)) (r : Ref sig .tc) (h : r ∈ argRefs := by decide) :
    val7 V0 (no_index (Proc.devRef .tc r)) = V0 (Proc.devRef .tc r) :=
  (val7_keep V0 r ((by decide : ∀ r ∈ argRefs, r ∉ ops_c5_W) r h)).trans (val6_arg V0 r h)
theorem val7_main_v1 (V0 : Valuation τ sig (Elt F)) : val7 V0 (no_index (Proc.devRef .tc main_v1)) = ReadP.val_main_v1 (F := F) (V0 (Proc.devRef .tc main_arg3)) :=
  (val7_keep V0 main_v1 (by decide)).trans (val6_main_v1 V0)
theorem val7_main_v3 (V0 : Valuation τ sig (Elt F)) : val7 V0 (no_index (Proc.devRef .tc main_v3)) = ReadP.val_main_v3 (F := F) (V0 (Proc.devRef .tc main_arg3)) :=
  (val7_keep V0 main_v3 (by decide)).trans (val6_main_v3 V0)
theorem val7_main_v32 (V0 : Valuation τ sig (Elt F)) : val7 V0 (no_index (Proc.devRef .tc main_v32)) = ReadP.val_main_v32 (F := F) (V0 (Proc.devRef .tc main_arg2)) :=
  (val7_keep V0 main_v32 (by decide)).trans (val6_main_v32 V0)
theorem val7_main_v65 (V0 : Valuation τ sig (Elt F)) : val7 V0 (no_index (Proc.devRef .tc main_v65)) = ReadP.val_main_v65 (F := F) (V0 (Proc.devRef .tc main_arg2)) := by
  unfold val7
  simp only [ops_c5]
  after_results_simp
  try dsimp only [Matrix.cons_val]
  rw [val6_main_v64 V0, val6_main_v63 V0, val6_main_v62 V0, val6_main_v61 V0]
  rfl

def val8 (V0 : Valuation τ sig (Elt F)) : Valuation τ sig (Elt F) := after ops_c6a (val7 V0)

theorem val8_keep (V0 : Valuation τ sig (Elt F)) (r : Ref sig .tc) (h : r ∉ ops_c6a_W) :
    val8 V0 (Proc.devRef .tc r) = val7 V0 (Proc.devRef .tc r) :=
  after_of_writes_sub ops_c6a _ ops_c6a_writes h
theorem val8_arg (V0 : Valuation τ sig (Elt F)) (r : Ref sig .tc) (h : r ∈ argRefs := by decide) :
    val8 V0 (no_index (Proc.devRef .tc r)) = V0 (Proc.devRef .tc r) :=
  (val8_keep V0 r ((by decide : ∀ r ∈ argRefs, r ∉ ops_c6a_W) r h)).trans (val7_arg V0 r h)
theorem val8_main_v1 (V0 : Valuation τ sig (Elt F)) : val8 V0 (no_index (Proc.devRef .tc main_v1)) = ReadP.val_main_v1 (F := F) (V0 (Proc.devRef .tc main_arg3)) :=
  (val8_keep V0 main_v1 (by decide)).trans (val7_main_v1 V0)
theorem val8_main_v3 (V0 : Valuation τ sig (Elt F)) : val8 V0 (no_index (Proc.devRef .tc main_v3)) = ReadP.val_main_v3 (F := F) (V0 (Proc.devRef .tc main_arg3)) :=
  (val8_keep V0 main_v3 (by decide)).trans (val7_main_v3 V0)
theorem val8_main_v32 (V0 : Valuation τ sig (Elt F)) : val8 V0 (no_index (Proc.devRef .tc main_v32)) = ReadP.val_main_v32 (F := F) (V0 (Proc.devRef .tc main_arg2)) :=
  (val8_keep V0 main_v32 (by decide)).trans (val7_main_v32 V0)
theorem val8_main_v65 (V0 : Valuation τ sig (Elt F)) : val8 V0 (no_index (Proc.devRef .tc main_v65)) = ReadP.val_main_v65 (F := F) (V0 (Proc.devRef .tc main_arg2)) :=
  (val8_keep V0 main_v65 (by decide)).trans (val7_main_v65 V0)
theorem val8_main_v66 (V0 : Valuation τ sig (Elt F)) : val8 V0 (no_index (Proc.devRef .tc main_v66)) = ReadP.val_main_v66 (F := F) (V0 (Proc.devRef .tc main_arg0)) (V0 (Proc.devRef .tc main_arg1)) := by
  unfold val8
  simp only [ops_c6a]
  after_results_simp
  rw [val7_arg V0 main_arg1, val7_arg V0 main_arg0]
  rfl

def val9 (V0 : Valuation τ sig (Elt F)) : Valuation τ sig (Elt F) := after ops_c6b (val8 V0)

theorem val9_keep (V0 : Valuation τ sig (Elt F)) (r : Ref sig .tc) (h : r ∉ ops_c6b_W) :
    val9 V0 (Proc.devRef .tc r) = val8 V0 (Proc.devRef .tc r) :=
  after_of_writes_sub ops_c6b _ ops_c6b_writes h
theorem val9_arg (V0 : Valuation τ sig (Elt F)) (r : Ref sig .tc) (h : r ∈ argRefs := by decide) :
    val9 V0 (no_index (Proc.devRef .tc r)) = V0 (Proc.devRef .tc r) :=
  (val9_keep V0 r ((by decide : ∀ r ∈ argRefs, r ∉ ops_c6b_W) r h)).trans (val8_arg V0 r h)
theorem val9_main_v1 (V0 : Valuation τ sig (Elt F)) : val9 V0 (no_index (Proc.devRef .tc main_v1)) = ReadP.val_main_v1 (F := F) (V0 (Proc.devRef .tc main_arg3)) :=
  (val9_keep V0 main_v1 (by decide)).trans (val8_main_v1 V0)
theorem val9_main_v3 (V0 : Valuation τ sig (Elt F)) : val9 V0 (no_index (Proc.devRef .tc main_v3)) = ReadP.val_main_v3 (F := F) (V0 (Proc.devRef .tc main_arg3)) :=
  (val9_keep V0 main_v3 (by decide)).trans (val8_main_v3 V0)
theorem val9_main_v32 (V0 : Valuation τ sig (Elt F)) : val9 V0 (no_index (Proc.devRef .tc main_v32)) = ReadP.val_main_v32 (F := F) (V0 (Proc.devRef .tc main_arg2)) :=
  (val9_keep V0 main_v32 (by decide)).trans (val8_main_v32 V0)
theorem val9_main_v65 (V0 : Valuation τ sig (Elt F)) : val9 V0 (no_index (Proc.devRef .tc main_v65)) = ReadP.val_main_v65 (F := F) (V0 (Proc.devRef .tc main_arg2)) :=
  (val9_keep V0 main_v65 (by decide)).trans (val8_main_v65 V0)
theorem val9_main_v66 (V0 : Valuation τ sig (Elt F)) : val9 V0 (no_index (Proc.devRef .tc main_v66)) = ReadP.val_main_v66 (F := F) (V0 (Proc.devRef .tc main_arg0)) (V0 (Proc.devRef .tc main_arg1)) :=
  (val9_keep V0 main_v66 (by decide)).trans (val8_main_v66 V0)
theorem val9_main_v77 (V0 : Valuation τ sig (Elt F)) : val9 V0 (no_index (Proc.devRef .tc main_v77)) = ReadP.val_main_v77 (F := F) (V0 (Proc.devRef .tc main_arg0)) (V0 (Proc.devRef .tc main_arg1)) (V0 (Proc.devRef .tc main_arg12)) := by
  unfold val9
  simp only [ops_c6b]
  after_results_simp
  simp only [val8_arg _ main_arg12, val8_main_v66] <;> rfl
theorem val9_main_v80 (V0 : Valuation τ sig (Elt F)) : val9 V0 (no_index (Proc.devRef .tc main_v80)) = ReadP.val_main_v80 (F := F) (V0 (Proc.devRef .tc main_arg0)) (V0 (Proc.devRef .tc main_arg1)) (V0 (Proc.devRef .tc main_arg12)) := by
  unfold val9
  simp only [ops_c6b]
  after_results_simp
  simp only [val8_arg _ main_arg12, val8_main_v66] <;> rfl
theorem val9_main_cst_14 (V0 : Valuation τ sig (Elt F)) : val9 V0 (no_index (Proc.devRef .tc main_cst_14)) = ReadP.val_main_cst_14 (F := F) := by
  unfold val9
  simp only [ops_c6b]
  after_results_simp
  all_goals rfl

def val10 (V0 : Valuation τ sig (Elt F)) : Valuation τ sig (Elt F) := after ops_c7 (val9 V0)

theorem val10_keep (V0 : Valuation τ sig (Elt F)) (r : Ref sig .tc) (h : r ∉ ops_c7_W) :
    val10 V0 (Proc.devRef .tc r) = val9 V0 (Proc.devRef .tc r) :=
  after_of_writes_sub ops_c7 _ ops_c7_writes h
theorem val10_arg (V0 : Valuation τ sig (Elt F)) (r : Ref sig .tc) (h : r ∈ argRefs := by decide) :
    val10 V0 (no_index (Proc.devRef .tc r)) = V0 (Proc.devRef .tc r) :=
  (val10_keep V0 r ((by decide : ∀ r ∈ argRefs, r ∉ ops_c7_W) r h)).trans (val9_arg V0 r h)
theorem val10_main_v1 (V0 : Valuation τ sig (Elt F)) : val10 V0 (no_index (Proc.devRef .tc main_v1)) = ReadP.val_main_v1 (F := F) (V0 (Proc.devRef .tc main_arg3)) :=
  (val10_keep V0 main_v1 (by decide)).trans (val9_main_v1 V0)
theorem val10_main_v3 (V0 : Valuation τ sig (Elt F)) : val10 V0 (no_index (Proc.devRef .tc main_v3)) = ReadP.val_main_v3 (F := F) (V0 (Proc.devRef .tc main_arg3)) :=
  (val10_keep V0 main_v3 (by decide)).trans (val9_main_v3 V0)
theorem val10_main_v32 (V0 : Valuation τ sig (Elt F)) : val10 V0 (no_index (Proc.devRef .tc main_v32)) = ReadP.val_main_v32 (F := F) (V0 (Proc.devRef .tc main_arg2)) :=
  (val10_keep V0 main_v32 (by decide)).trans (val9_main_v32 V0)
theorem val10_main_v65 (V0 : Valuation τ sig (Elt F)) : val10 V0 (no_index (Proc.devRef .tc main_v65)) = ReadP.val_main_v65 (F := F) (V0 (Proc.devRef .tc main_arg2)) :=
  (val10_keep V0 main_v65 (by decide)).trans (val9_main_v65 V0)
theorem val10_main_v66 (V0 : Valuation τ sig (Elt F)) : val10 V0 (no_index (Proc.devRef .tc main_v66)) = ReadP.val_main_v66 (F := F) (V0 (Proc.devRef .tc main_arg0)) (V0 (Proc.devRef .tc main_arg1)) :=
  (val10_keep V0 main_v66 (by decide)).trans (val9_main_v66 V0)
theorem val10_main_v92 (V0 : Valuation τ sig (Elt F)) : val10 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) := by
  unfold val10
  simp only [ops_c7]
  after_results_simp
  simp only [val9_arg _ main_arg14, val9_arg _ main_arg13, val9_main_cst_14, val9_main_v77, val9_main_v80] <;> rfl
theorem val10_main_v98 (V0 : Valuation τ sig (Elt F)) : val10 V0 (no_index (Proc.devRef .tc main_v98)) = ReadP.val_main_v98 (F := F) (V0 (Proc.devRef .tc main_arg3)) := by
  unfold val10
  simp only [ops_c7]
  after_results_simp
  simp only [val9_main_v1] <;> rfl

def val11 (V0 : Valuation τ sig (Elt F)) : Valuation τ sig (Elt F) := after ops_c8 (val10 V0)

theorem val11_keep (V0 : Valuation τ sig (Elt F)) (r : Ref sig .tc) (h : r ∉ ops_c8_W) :
    val11 V0 (Proc.devRef .tc r) = val10 V0 (Proc.devRef .tc r) :=
  after_of_writes_sub ops_c8 _ ops_c8_writes h
theorem val11_arg (V0 : Valuation τ sig (Elt F)) (r : Ref sig .tc) (h : r ∈ argRefs := by decide) :
    val11 V0 (no_index (Proc.devRef .tc r)) = V0 (Proc.devRef .tc r) :=
  (val11_keep V0 r ((by decide : ∀ r ∈ argRefs, r ∉ ops_c8_W) r h)).trans (val10_arg V0 r h)
theorem val11_main_v1 (V0 : Valuation τ sig (Elt F)) : val11 V0 (no_index (Proc.devRef .tc main_v1)) = ReadP.val_main_v1 (F := F) (V0 (Proc.devRef .tc main_arg3)) :=
  (val11_keep V0 main_v1 (by decide)).trans (val10_main_v1 V0)
theorem val11_main_v3 (V0 : Valuation τ sig (Elt F)) : val11 V0 (no_index (Proc.devRef .tc main_v3)) = ReadP.val_main_v3 (F := F) (V0 (Proc.devRef .tc main_arg3)) :=
  (val11_keep V0 main_v3 (by decide)).trans (val10_main_v3 V0)
theorem val11_main_v32 (V0 : Valuation τ sig (Elt F)) : val11 V0 (no_index (Proc.devRef .tc main_v32)) = ReadP.val_main_v32 (F := F) (V0 (Proc.devRef .tc main_arg2)) :=
  (val11_keep V0 main_v32 (by decide)).trans (val10_main_v32 V0)
theorem val11_main_v65 (V0 : Valuation τ sig (Elt F)) : val11 V0 (no_index (Proc.devRef .tc main_v65)) = ReadP.val_main_v65 (F := F) (V0 (Proc.devRef .tc main_arg2)) :=
  (val11_keep V0 main_v65 (by decide)).trans (val10_main_v65 V0)
theorem val11_main_v66 (V0 : Valuation τ sig (Elt F)) : val11 V0 (no_index (Proc.devRef .tc main_v66)) = ReadP.val_main_v66 (F := F) (V0 (Proc.devRef .tc main_arg0)) (V0 (Proc.devRef .tc main_arg1)) :=
  (val11_keep V0 main_v66 (by decide)).trans (val10_main_v66 V0)
theorem val11_main_v92 (V0 : Valuation τ sig (Elt F)) : val11 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val11_keep V0 main_v92 (by decide)).trans (val10_main_v92 V0)
theorem val11_main_v99 (V0 : Valuation τ sig (Elt F)) : val11 V0 (no_index (Proc.devRef .tc main_v99)) = ReadP.val_main_v99 (F := F) (V0 (Proc.devRef .tc main_arg0)) (V0 (Proc.devRef .tc main_arg1)) (V0 (Proc.devRef .tc main_arg3)) := by
  unfold val11
  simp only [ops_c8]
  after_results_simp
  simp only [val10_main_v98, val10_main_v66] <;> rfl
theorem val11_main_cst_17 (V0 : Valuation τ sig (Elt F)) : val11 V0 (no_index (Proc.devRef .tc main_cst_17)) = ReadP.val_main_cst_17 (F := F) := by
  unfold val11
  simp only [ops_c8]
  after_results_simp
  all_goals rfl

end Cert.ReferenceIdeal.RunP

end
-- ==== Proof.Ref.Ops2.lean ====
import proofs.«412279_j89026082111590_3_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_c9 : List (HloOp τ sig (Elt F)) :=
  [ unary main_cst_17 main_v100 (broadcastInDim S1250000x32 ![] bcast_S_S1250000x32),
    unary main_v32 main_v101 (extractStridedSlice S800000x1 ![0, 0] · slices_S800000x4_S800000x1_0_0),
    unary main_v101 main_v102 (broadcastInDim S800000x32 ![0, 1] bcast_S800000x1_S800000x32_0_1),
    binary main_v99 main_v102 main_v103 mulf,
    nullary main_c_18 (constantI S_ 32 25#32),
    unary main_c_18 main_v104 (broadcastInDim S800000 ![] bcast_S_S800000),
    binary main_v3 main_v104 main_v105 muli,
    unary main_v65 main_v106 (extractStridedSlice S800000x1 ![0, 0] · slices_S800000x4_S800000x1_0_0),
    reshape main_v106 main_v107 rfl shapeCasts_S800000x1_S800000,
    binary main_v105 main_v107 main_v108 addi,
    nullary main_cst_19 (constant S_ .f32 0x00000000#32),
    unary main_cst_19 main_v109 (broadcastInDim S1250000x32 ![] bcast_S_S1250000x32),
    unary main_v108 main_v110 (broadcastInDim S800000x1 ![0] bcast_S800000_S800000x1_0),
    ternary main_v109 main_v110 main_v103 main_v111 (fun x i u => Host.scatterAdd scatter_S1250000x32_S800000x1_S800000x32_1_0_0_1 x i u),
    binary main_v100 main_v111 main_v112 addf,
    unary main_v32 main_v113 (extractStridedSlice S800000x1 ![0, 1] · slices_S800000x4_S800000x1_0_1),
    unary main_v113 main_v114 (broadcastInDim S800000x32 ![0, 1] bcast_S800000x1_S800000x32_0_1),
    binary main_v99 main_v114 main_v115 mulf,
    nullary main_c_20 (constantI S_ 32 25#32),
    unary main_c_20 main_v116 (broadcastInDim S800000 ![] bcast_S_S800000) ]
theorem ops_c9_sub : (ops_c9 : List (HloOp τ sig (Elt F))).Forall fun op => op.bufs ⊆ tcRefs τ sig :=
  ⟨unary_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    nullary_bufs_sub ..,
    unary_bufs_sub ..,
    unary_bufs_sub ..,
    ternary_bufs_sub ..,
    binary_bufs_sub ..,
    unary_bufs_sub ..,
    unary_bufs_sub ..,
    binary_bufs_sub ..,
    nullary_bufs_sub ..,
    unary_bufs_sub ..⟩
theorem ops_c9_fresh : (ops_c9 : List (HloOp τ sig (Elt F))).Forall fun op => op.fresh = ∅ := by
  simp only [List.Forall]; repeat' constructor

abbrev ops_c9_W : List (Ref sig .tc) := [main_v100, main_v101, main_v102, main_v103, main_c_18, main_v104, main_v105, main_v106, main_v107, main_v108, main_cst_19, main_v109, main_v110, main_v111, main_v112, main_v113, main_v114, main_v115, main_c_20, main_v116]
theorem ops_c9_writes : (ops_c9 : List (HloOp τ sig (Elt F))).Forall fun op => op.writes ⊆ (ops_c9_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c10 : List (HloOp τ sig (Elt F)) :=
  [ binary main_v3 main_v116 main_v117 muli,
    unary main_v65 main_v118 (extractStridedSlice S800000x1 ![0, 1] · slices_S800000x4_S800000x1_0_1),
    reshape main_v118 main_v119 rfl shapeCasts_S800000x1_S800000,
    binary main_v117 main_v119 main_v120 addi,
    nullary main_cst_21 (constant S_ .f32 0x00000000#32),
    unary main_cst_21 main_v121 (broadcastInDim S1250000x32 ![] bcast_S_S1250000x32),
    unary main_v120 main_v122 (broadcastInDim S800000x1 ![0] bcast_S800000_S800000x1_0),
    ternary main_v121 main_v122 main_v115 main_v123 (fun x i u => Host.scatterAdd scatter_S1250000x32_S800000x1_S800000x32_1_0_0_1 x i u),
    binary main_v112 main_v123 main_v124 addf,
    unary main_v32 main_v125 (extractStridedSlice S800000x1 ![0, 2] · slices_S800000x4_S800000x1_0_2),
    unary main_v125 main_v126 (broadcastInDim S800000x32 ![0, 1] bcast_S800000x1_S800000x32_0_1),
    binary main_v99 main_v126 main_v127 mulf,
    nullary main_c_22 (constantI S_ 32 25#32),
    unary main_c_22 main_v128 (broadcastInDim S800000 ![] bcast_S_S800000),
    binary main_v3 main_v128 main_v129 muli,
    unary main_v65 main_v130 (extractStridedSlice S800000x1 ![0, 2] · slices_S800000x4_S800000x1_0_2),
    reshape main_v130 main_v131 rfl shapeCasts_S800000x1_S800000,
    binary main_v129 main_v131 main_v132 addi,
    nullary main_cst_23 (constant S_ .f32 0x00000000#32),
    unary main_cst_23 main_v133 (broadcastInDim S1250000x32 ![] bcast_S_S1250000x32) ]
theorem ops_c10_sub : (ops_c10 : List (HloOp τ sig (Elt F))).Forall fun op => op.bufs ⊆ tcRefs τ sig :=
  ⟨binary_bufs_sub ..,
    unary_bufs_sub ..,
    reshape_bufs_sub ..,
    binary_bufs_sub ..,
    nullary_bufs_sub ..,
    unary_bufs_sub ..,
    unary_bufs_sub ..,
    ternary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    nullary_bufs_sub ..,
    unary_bufs_sub ..⟩
theorem ops_c10_fresh : (ops_c10 : List (HloOp τ sig (Elt F))).Forall fun op => op.fresh = ∅ := by
  simp only [List.Forall]; repeat' constructor

abbrev ops_c10_W : List (Ref sig .tc) := [main_v117, main_v118, main_v119, main_v120, main_cst_21, main_v121, main_v122, main_v123, main_v124, main_v125, main_v126, main_v127, main_c_22, main_v128, main_v129, main_v130, main_v131, main_v132, main_cst_23, main_v133]
theorem ops_c10_writes : (ops_c10 : List (HloOp τ sig (Elt F))).Forall fun op => op.writes ⊆ (ops_c10_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c11 : List (HloOp τ sig (Elt F)) :=
  [ unary main_v132 main_v134 (broadcastInDim S800000x1 ![0] bcast_S800000_S800000x1_0),
    ternary main_v133 main_v134 main_v127 main_v135 (fun x i u => Host.scatterAdd scatter_S1250000x32_S800000x1_S800000x32_1_0_0_1 x i u),
    binary main_v124 main_v135 main_v136 addf,
    unary main_v32 main_v137 (extractStridedSlice S800000x1 ![0, 3] · slices_S800000x4_S800000x1_0_3),
    unary main_v137 main_v138 (broadcastInDim S800000x32 ![0, 1] bcast_S800000x1_S800000x32_0_1),
    binary main_v99 main_v138 main_v139 mulf,
    nullary main_c_24 (constantI S_ 32 25#32),
    unary main_c_24 main_v140 (broadcastInDim S800000 ![] bcast_S_S800000),
    binary main_v3 main_v140 main_v141 muli,
    unary main_v65 main_v142 (extractStridedSlice S800000x1 ![0, 3] · slices_S800000x4_S800000x1_0_3),
    reshape main_v142 main_v143 rfl shapeCasts_S800000x1_S800000,
    binary main_v141 main_v143 main_v144 addi,
    nullary main_cst_25 (constant S_ .f32 0x00000000#32),
    unary main_cst_25 main_v145 (broadcastInDim S1250000x32 ![] bcast_S_S1250000x32),
    unary main_v144 main_v146 (broadcastInDim S800000x1 ![0] bcast_S800000_S800000x1_0),
    ternary main_v145 main_v146 main_v139 main_v147 (fun x i u => Host.scatterAdd scatter_S1250000x32_S800000x1_S800000x32_1_0_0_1 x i u),
    binary main_v136 main_v147 main_v148 addf,
    reshape main_v148 main_v149 rfl shapeCasts_S1250000x32_S50000x800,
    reshape main_arg4 main_v150 rfl shapeCasts_S25x32x64_S800x64,
    binary main_v149 main_v150 main_v151 (fun l r => Host.dotGeneral dot_S50000x800_S800x64_S50000x64_1_0_0_1_n_n none l r) ]
theorem ops_c11_sub : (ops_c11 : List (HloOp τ sig (Elt F))).Forall fun op => op.bufs ⊆ tcRefs τ sig :=
  ⟨unary_bufs_sub ..,
    ternary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    nullary_bufs_sub ..,
    unary_bufs_sub ..,
    unary_bufs_sub ..,
    ternary_bufs_sub ..,
    binary_bufs_sub ..,
    reshape_bufs_sub ..,
    reshape_bufs_sub ..,
    binary_bufs_sub ..⟩
theorem ops_c11_fresh : (ops_c11 : List (HloOp τ sig (Elt F))).Forall fun op => op.fresh = ∅ := by
  simp only [List.Forall]; repeat' constructor

abbrev ops_c11_W : List (Ref sig .tc) := [main_v134, main_v135, main_v136, main_v137, main_v138, main_v139, main_c_24, main_v140, main_v141, main_v142, main_v143, main_v144, main_cst_25, main_v145, main_v146, main_v147, main_v148, main_v149, main_v150, main_v151]
theorem ops_c11_writes : (ops_c11 : List (HloOp τ sig (Elt F))).Forall fun op => op.writes ⊆ (ops_c11_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_part2 : List (HloOp τ sig (Elt F)) := ops_c9 ++ ops_c10 ++ ops_c11

theorem main_part2_eq (c : Dev nD) : main_part2 (F := F) c = seq ops_part2 := rfl

end Cert.ReferenceIdeal.RunP

end
-- ==== Proof.Ref.Ops3.lean ====
import proofs.«412279_j89026082111590_3_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_c12 : List (HloOp τ sig (Elt F)) :=
  [ nullary main_cst_26 (constant S_ .f32 0x3F800000#32),
    unary main_cst_26 main_v152 (broadcastInDim S800000 ![] bcast_S_S800000),
    nullary main_cst_27 (constant S_ .f32 0x00000000#32),
    unary main_cst_27 main_v153 (broadcastInDim S50000 ![] bcast_S_S50000),
    unary main_v3 main_v154 (broadcastInDim S800000x1 ![0] bcast_S800000_S800000x1_0),
    ternary main_v153 main_v154 main_v152 main_v155 (fun x i u => Host.scatterAdd scatter_S50000_S800000x1_S800000_n_0_0_1 x i u),
    nullary main_cst_28 (constant S_ .f32 0x3F800000#32),
    unary main_cst_28 main_v156 (broadcastInDim S50000 ![] bcast_S_S50000),
    binary main_v155 main_v156 main_v157 maximumf,
    unary main_v157 main_v158 (broadcastInDim S50000x1 ![0] bcast_S50000_S50000x1_0),
    unary main_v158 main_v159 (broadcastInDim S50000x64 ![0, 1] bcast_S50000x1_S50000x64_0_1),
    binary main_v151 main_v159 main_v160 Host.divf,
    binary main_v66 main_arg5 main_v161 (fun l r => Host.dotGeneral dot_S50000x32_S32x64_S50000x64_1_0_0_1_n_n none l r),
    binary main_v160 main_v161 main_v162 addf,
    nullary main_cst_29 (constant S_ .f32 0x00000000#32),
    binary main_v162 main_cst_29 main_v163 (fun x v => Host.reduceAdd x v reducesTo_S50000x64_S64_d0 h_S_),
    nullary main_cst_30 (constant S_ .f32 0x47435000#32),
    unary main_cst_30 main_v164 (broadcastInDim S64 ![] bcast_S_S64),
    binary main_v163 main_v164 main_v165 Host.divf,
    unary main_v165 main_v166 (broadcastInDim S1x64 ![1] bcast_S64_S1x64_1) ]
theorem ops_c12_sub : (ops_c12 : List (HloOp τ sig (Elt F))).Forall fun op => op.bufs ⊆ tcRefs τ sig :=
  ⟨nullary_bufs_sub ..,
    unary_bufs_sub ..,
    nullary_bufs_sub ..,
    unary_bufs_sub ..,
    unary_bufs_sub ..,
    ternary_bufs_sub ..,
    nullary_bufs_sub ..,
    unary_bufs_sub ..,
    binary_bufs_sub ..,
    unary_bufs_sub ..,
    unary_bufs_sub ..,
    binary_bufs_sub ..,
    binary_bufs_sub ..,
    binary_bufs_sub ..,
    nullary_bufs_sub ..,
    binary_bufs_sub ..,
    nullary_bufs_sub ..,
    unary_bufs_sub ..,
    binary_bufs_sub ..,
    unary_bufs_sub ..⟩
theorem ops_c12_fresh : (ops_c12 : List (HloOp τ sig (Elt F))).Forall fun op => op.fresh = ∅ := by
  simp only [List.Forall]; repeat' constructor

abbrev ops_c12_W : List (Ref sig .tc) := [main_cst_26, main_v152, main_cst_27, main_v153, main_v154, main_v155, main_cst_28, main_v156, main_v157, main_v158, main_v159, main_v160, main_v161, main_v162, main_cst_29, main_v163, main_cst_30, main_v164, main_v165, main_v166]
theorem ops_c12_writes : (ops_c12 : List (HloOp τ sig (Elt F))).Forall fun op => op.writes ⊆ (ops_c12_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c13 : List (HloOp τ sig (Elt F)) :=
  [ unary main_v166 main_v167 (broadcastInDim S50000x64 ![0, 1] bcast_S1x64_S50000x64_0_1),
    binary main_v162 main_v167 main_v168 subf,
    binary main_v168 main_v168 main_v169 mulf,
    nullary main_cst_31 (constant S_ .f32 0x00000000#32),
    binary main_v169 main_cst_31 main_v170 (fun x v => Host.reduceAdd x v reducesTo_S50000x64_S64_d0 h_S_),
    nullary main_cst_32 (constant S_ .f32 0x47435000#32),
    unary main_cst_32 main_v171 (broadcastInDim S64 ![] bcast_S_S64),
    binary main_v170 main_v171 main_v172 Host.divf,
    unary main_v165 main_v173 (broadcastInDim S1x64 ![1] bcast_S64_S1x64_1),
    unary main_v173 main_v174 (broadcastInDim S50000x64 ![0, 1] bcast_S1x64_S50000x64_0_1),
    binary main_v162 main_v174 main_v175 subf,
    nullary main_cst_33 (constant S_ .f32 0x3727C5AC#32),
    unary main_cst_33 main_v176 (broadcastInDim S64 ![] bcast_S_S64),
    binary main_v172 main_v176 main_v177 addf,
    unary main_v177 main_v178 Host.rsqrt,
    unary main_v178 main_v179 (broadcastInDim S1x64 ![1] bcast_S64_S1x64_1),
    unary main_v179 main_v180 (broadcastInDim S50000x64 ![0, 1] bcast_S1x64_S50000x64_0_1),
    binary main_v175 main_v180 main_v181 mulf,
    unary main_arg6 main_v182 (broadcastInDim S1x64 ![1] bcast_S64_S1x64_1),
    unary main_v182 main_v183 (broadcastInDim S50000x64 ![0, 1] bcast_S1x64_S50000x64_0_1) ]
theorem ops_c13_sub : (ops_c13 : List (HloOp τ sig (Elt F))).Forall fun op => op.bufs ⊆ tcRefs τ sig :=
  ⟨unary_bufs_sub ..,
    binary_bufs_sub ..,
    binary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    unary_bufs_sub ..,
    unary_bufs_sub ..,
    binary_bufs_sub ..,
    unary_bufs_sub ..,
    unary_bufs_sub ..⟩
theorem ops_c13_fresh : (ops_c13 : List (HloOp τ sig (Elt F))).Forall fun op => op.fresh = ∅ := by
  simp only [List.Forall]; repeat' constructor

abbrev ops_c13_W : List (Ref sig .tc) := [main_v167, main_v168, main_v169, main_cst_31, main_v170, main_cst_32, main_v171, main_v172, main_v173, main_v174, main_v175, main_cst_33, main_v176, main_v177, main_v178, main_v179, main_v180, main_v181, main_v182, main_v183]
theorem ops_c13_writes : (ops_c13 : List (HloOp τ sig (Elt F))).Forall fun op => op.writes ⊆ (ops_c13_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c14 : List (HloOp τ sig (Elt F)) :=
  [ binary main_v181 main_v183 main_v184 mulf,
    unary main_arg7 main_v185 (broadcastInDim S1x64 ![1] bcast_S64_S1x64_1),
    unary main_v185 main_v186 (broadcastInDim S50000x64 ![0, 1] bcast_S1x64_S50000x64_0_1),
    binary main_v184 main_v186 main_v187 addf,
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v187) (TRef.of (T := ⟨S50000x64, .f32⟩) main_call1_v0) (TRef.of (T := ⟨S50000x64, .f32⟩) main_v188) maximumf,
    nullary main_c_34 (constantI S_ 32 0#32),
    unary main_c_34 main_v189 (broadcastInDim S800000 ![] bcast_S_S800000),
    binary main_v1 main_v189 main_v190 (cmpi .slt),
    nullary main_c_35 (constantI S_ 32 50000#32),
    unary main_c_35 main_v191 (broadcastInDim S800000 ![] bcast_S_S800000),
    binary main_v1 main_v191 main_v192 addi,
    ternary main_v190 main_v192 main_v1 main_v193 select,
    unary main_v193 main_v194 (broadcastInDim S800000x1 ![0] bcast_S800000_S800000x1_0),
    binary main_v188 main_v194 main_v195 (fun x i => Host.gather gather_S50000x64_S800000x1_S800000x64_1_0_n_n_0_1_164 x i),
    nullary main_cst_36 (constant S_ .f32 0x00000000#32),
    unary main_cst_36 main_v196 (broadcastInDim S1250000x64 ![] bcast_S_S1250000x64),
    unary main_v32 main_v197 (extractStridedSlice S800000x1 ![0, 0] · slices_S800000x4_S800000x1_0_0),
    unary main_v197 main_v198 (broadcastInDim S800000x64 ![0, 1] bcast_S800000x1_S800000x64_0_1) ]
theorem ops_c14_sub : (ops_c14 : List (HloOp τ sig (Elt F))).Forall fun op => op.bufs ⊆ tcRefs τ sig :=
  ⟨binary_bufs_sub ..,
    unary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    unary_bufs_sub ..,
    unary_bufs_sub ..⟩
theorem ops_c14_fresh : (ops_c14 : List (HloOp τ sig (Elt F))).Forall fun op => op.fresh = ∅ := by
  simp only [List.Forall]; repeat' constructor

abbrev ops_c14_W : List (Ref sig .tc) := [main_v184, main_v185, main_v186, main_v187, main_call1_cst, main_call1_v0, main_v188, main_c_34, main_v189, main_v190, main_c_35, main_v191, main_v192, main_v193, main_v194, main_v195, main_cst_36, main_v196, main_v197, main_v198]
theorem ops_c14_writes : (ops_c14 : List (HloOp τ sig (Elt F))).Forall fun op => op.writes ⊆ (ops_c14_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c15 : List (HloOp τ sig (Elt F)) :=
  [ binary main_v195 main_v198 main_v199 mulf,
    nullary main_c_37 (constantI S_ 32 25#32) ]
theorem ops_c15_sub : (ops_c15 : List (HloOp τ sig (Elt F))).Forall fun op => op.bufs ⊆ tcRefs τ sig :=
  ⟨binary_bufs_sub ..,
    nullary_bufs_sub ..⟩
theorem ops_c15_fresh : (ops_c15 : List (HloOp τ sig (Elt F))).Forall fun op => op.fresh = ∅ := by
  simp only [List.Forall]; repeat' constructor

abbrev ops_c15_W : List (Ref sig .tc) := [main_v199, main_c_37]
theorem ops_c15_writes : (ops_c15 : List (HloOp τ sig (Elt F))).Forall fun op => op.writes ⊆ (ops_c15_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_part3 : List (HloOp τ sig (Elt F)) := ops_c12 ++ ops_c13 ++ ops_c14 ++ ops_c15

theorem main_part3_eq (c : Dev nD) : main_part3 (F := F) c = seq ops_part3 := rfl

end Cert.ReferenceIdeal.RunP

end
-- ==== Proof.Ref.Vals1.lean ====
import proofs.«412279_j89026082111590_3_alg».proof.Proof.Ref.Vals0
import proofs.«412279_j89026082111590_3_alg».proof.Proof.Ref.Ops2
import proofs.«412279_j89026082111590_3_alg».proof.Proof.Ref.Ops3

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

def val12 (V0 : Valuation τ sig (Elt F)) : Valuation τ sig (Elt F) := after ops_c9 (val11 V0)

theorem val12_keep (V0 : Valuation τ sig (Elt F)) (r : Ref sig .tc) (h : r ∉ ops_c9_W) :
    val12 V0 (Proc.devRef .tc r) = val11 V0 (Proc.devRef .tc r) :=
  after_of_writes_sub ops_c9 _ ops_c9_writes h
theorem val12_arg (V0 : Valuation τ sig (Elt F)) (r : Ref sig .tc) (h : r ∈ argRefs := by decide) :
    val12 V0 (no_index (Proc.devRef .tc r)) = V0 (Proc.devRef .tc r) :=
  (val12_keep V0 r ((by decide : ∀ r ∈ argRefs, r ∉ ops_c9_W) r h)).trans (val11_arg V0 r h)
theorem val12_main_v1 (V0 : Valuation τ sig (Elt F)) : val12 V0 (no_index (Proc.devRef .tc main_v1)) = ReadP.val_main_v1 (F := F) (V0 (Proc.devRef .tc main_arg3)) :=
  (val12_keep V0 main_v1 (by decide)).trans (val11_main_v1 V0)
theorem val12_main_v3 (V0 : Valuation τ sig (Elt F)) : val12 V0 (no_index (Proc.devRef .tc main_v3)) = ReadP.val_main_v3 (F := F) (V0 (Proc.devRef .tc main_arg3)) :=
  (val12_keep V0 main_v3 (by decide)).trans (val11_main_v3 V0)
theorem val12_main_v32 (V0 : Valuation τ sig (Elt F)) : val12 V0 (no_index (Proc.devRef .tc main_v32)) = ReadP.val_main_v32 (F := F) (V0 (Proc.devRef .tc main_arg2)) :=
  (val12_keep V0 main_v32 (by decide)).trans (val11_main_v32 V0)
theorem val12_main_v65 (V0 : Valuation τ sig (Elt F)) : val12 V0 (no_index (Proc.devRef .tc main_v65)) = ReadP.val_main_v65 (F := F) (V0 (Proc.devRef .tc main_arg2)) :=
  (val12_keep V0 main_v65 (by decide)).trans (val11_main_v65 V0)
theorem val12_main_v66 (V0 : Valuation τ sig (Elt F)) : val12 V0 (no_index (Proc.devRef .tc main_v66)) = ReadP.val_main_v66 (F := F) (V0 (Proc.devRef .tc main_arg0)) (V0 (Proc.devRef .tc main_arg1)) :=
  (val12_keep V0 main_v66 (by decide)).trans (val11_main_v66 V0)
theorem val12_main_v92 (V0 : Valuation τ sig (Elt F)) : val12 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val12_keep V0 main_v92 (by decide)).trans (val11_main_v92 V0)
theorem val12_main_v99 (V0 : Valuation τ sig (Elt F)) : val12 V0 (no_index (Proc.devRef .tc main_v99)) = ReadP.val_main_v99 (F := F) (V0 (Proc.devRef .tc main_arg0)) (V0 (Proc.devRef .tc main_arg1)) (V0 (Proc.devRef .tc main_arg3)) :=
  (val12_keep V0 main_v99 (by decide)).trans (val11_main_v99 V0)
theorem val12_main_v112 (V0 : Valuation τ sig (Elt F)) : val12 V0 (no_index (Proc.devRef .tc main_v112)) = ReadP.val_main_v112 (F := F) (V0 (Proc.devRef .tc main_arg0)) (V0 (Proc.devRef .tc main_arg1)) (V0 (Proc.devRef .tc main_arg2)) (V0 (Proc.devRef .tc main_arg3)) := by
  unfold val12
  simp only [ops_c9]
  after_results_simp
  simp only [val11_main_v32, val11_main_v99, val11_main_v65, val11_main_v3, val11_main_cst_17] <;> rfl
theorem val12_main_v115 (V0 : Valuation τ sig (Elt F)) : val12 V0 (no_index (Proc.devRef .tc main_v115)) = ReadP.val_main_v115 (F := F) (V0 (Proc.devRef .tc main_arg0)) (V0 (Proc.devRef .tc main_arg1)) (V0 (Proc.devRef .tc main_arg2)) (V0 (Proc.devRef .tc main_arg3)) := by
  unfold val12
  simp only [ops_c9]
  after_results_simp
  simp only [val11_main_v32, val11_main_v99] <;> rfl
theorem val12_main_v116 (V0 : Valuation τ sig (Elt F)) : val12 V0 (no_index (Proc.devRef .tc main_v116)) = ReadP.val_main_v116 (F := F) := by
  unfold val12
  simp only [ops_c9]
  after_results_simp
  all_goals rfl

def val13 (V0 : Valuation τ sig (Elt F)) : Valuation τ sig (Elt F) := after ops_c10 (val12 V0)

theorem val13_keep (V0 : Valuation τ sig (Elt F)) (r : Ref sig .tc) (h : r ∉ ops_c10_W) :
    val13 V0 (Proc.devRef .tc r) = val12 V0 (Proc.devRef .tc r) :=
  after_of_writes_sub ops_c10 _ ops_c10_writes h
theorem val13_arg (V0 : Valuation τ sig (Elt F)) (r : Ref sig .tc) (h : r ∈ argRefs := by decide) :
    val13 V0 (no_index (Proc.devRef .tc r)) = V0 (Proc.devRef .tc r) :=
  (val13_keep V0 r ((by decide : ∀ r ∈ argRefs, r ∉ ops_c10_W) r h)).trans (val12_arg V0 r h)
theorem val13_main_v1 (V0 : Valuation τ sig (Elt F)) : val13 V0 (no_index (Proc.devRef .tc main_v1)) = ReadP.val_main_v1 (F := F) (V0 (Proc.devRef .tc main_arg3)) :=
  (val13_keep V0 main_v1 (by decide)).trans (val12_main_v1 V0)
theorem val13_main_v3 (V0 : Valuation τ sig (Elt F)) : val13 V0 (no_index (Proc.devRef .tc main_v3)) = ReadP.val_main_v3 (F := F) (V0 (Proc.devRef .tc main_arg3)) :=
  (val13_keep V0 main_v3 (by decide)).trans (val12_main_v3 V0)
theorem val13_main_v32 (V0 : Valuation τ sig (Elt F)) : val13 V0 (no_index (Proc.devRef .tc main_v32)) = ReadP.val_main_v32 (F := F) (V0 (Proc.devRef .tc main_arg2)) :=
  (val13_keep V0 main_v32 (by decide)).trans (val12_main_v32 V0)
theorem val13_main_v65 (V0 : Valuation τ sig (Elt F)) : val13 V0 (no_index (Proc.devRef .tc main_v65)) = ReadP.val_main_v65 (F := F) (V0 (Proc.devRef .tc main_arg2)) :=
  (val13_keep V0 main_v65 (by decide)).trans (val12_main_v65 V0)
theorem val13_main_v66 (V0 : Valuation τ sig (Elt F)) : val13 V0 (no_index (Proc.devRef .tc main_v66)) = ReadP.val_main_v66 (F := F) (V0 (Proc.devRef .tc main_arg0)) (V0 (Proc.devRef .tc main_arg1)) :=
  (val13_keep V0 main_v66 (by decide)).trans (val12_main_v66 V0)
theorem val13_main_v92 (V0 : Valuation τ sig (Elt F)) : val13 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val13_keep V0 main_v92 (by decide)).trans (val12_main_v92 V0)
theorem val13_main_v99 (V0 : Valuation τ sig (Elt F)) : val13 V0 (no_index (Proc.devRef .tc main_v99)) = ReadP.val_main_v99 (F := F) (V0 (Proc.devRef .tc main_arg0)) (V0 (Proc.devRef .tc main_arg1)) (V0 (Proc.devRef .tc main_arg3)) :=
  (val13_keep V0 main_v99 (by decide)).trans (val12_main_v99 V0)
theorem val13_main_v124 (V0 : Valuation τ sig (Elt F)) : val13 V0 (no_index (Proc.devRef .tc main_v124)) = ReadP.val_main_v124 (F := F) (V0 (Proc.devRef .tc main_arg0)) (V0 (Proc.devRef .tc main_arg1)) (V0 (Proc.devRef .tc main_arg2)) (V0 (Proc.devRef .tc main_arg3)) := by
  unfold val13
  simp only [ops_c10]
  after_results_simp
  simp only [val12_main_v115, val12_main_v65, val12_main_v116, val12_main_v3, val12_main_v112] <;> rfl
theorem val13_main_v127 (V0 : Valuation τ sig (Elt F)) : val13 V0 (no_index (Proc.devRef .tc main_v127)) = ReadP.val_main_v127 (F := F) (V0 (Proc.devRef .tc main_arg0)) (V0 (Proc.devRef .tc main_arg1)) (V0 (Proc.devRef .tc main_arg2)) (V0 (Proc.devRef .tc main_arg3)) := by
  unfold val13
  simp only [ops_c10]
  after_results_simp
  simp only [val12_main_v32, val12_main_v99] <;> rfl
theorem val13_main_v132 (V0 : Valuation τ sig (Elt F)) : val13 V0 (no_index (Proc.devRef .tc main_v132)) = ReadP.val_main_v132 (F := F) (V0 (Proc.devRef .tc main_arg2)) (V0 (Proc.devRef .tc main_arg3)) := by
  unfold val13
  simp only [ops_c10]
  after_results_simp
  simp only [val12_main_v65, val12_main_v3] <;> rfl
theorem val13_main_v133 (V0 : Valuation τ sig (Elt F)) : val13 V0 (no_index (Proc.devRef .tc main_v133)) = ReadP.val_main_v133 (F := F) := by
  unfold val13
  simp only [ops_c10]
  after_results_simp
  all_goals rfl

def val14 (V0 : Valuation τ sig (Elt F)) : Valuation τ sig (Elt F) := after ops_c11 (val13 V0)

theorem val14_keep (V0 : Valuation τ sig (Elt F)) (r : Ref sig .tc) (h : r ∉ ops_c11_W) :
    val14 V0 (Proc.devRef .tc r) = val13 V0 (Proc.devRef .tc r) :=
  after_of_writes_sub ops_c11 _ ops_c11_writes h
theorem val14_arg (V0 : Valuation τ sig (Elt F)) (r : Ref sig .tc) (h : r ∈ argRefs := by decide) :
    val14 V0 (no_index (Proc.devRef .tc r)) = V0 (Proc.devRef .tc r) :=
  (val14_keep V0 r ((by decide : ∀ r ∈ argRefs, r ∉ ops_c11_W) r h)).trans (val13_arg V0 r h)
theorem val14_main_v1 (V0 : Valuation τ sig (Elt F)) : val14 V0 (no_index (Proc.devRef .tc main_v1)) = ReadP.val_main_v1 (F := F) (V0 (Proc.devRef .tc main_arg3)) :=
  (val14_keep V0 main_v1 (by decide)).trans (val13_main_v1 V0)
theorem val14_main_v3 (V0 : Valuation τ sig (Elt F)) : val14 V0 (no_index (Proc.devRef .tc main_v3)) = ReadP.val_main_v3 (F := F) (V0 (Proc.devRef .tc main_arg3)) :=
  (val14_keep V0 main_v3 (by decide)).trans (val13_main_v3 V0)
theorem val14_main_v32 (V0 : Valuation τ sig (Elt F)) : val14 V0 (no_index (Proc.devRef .tc main_v32)) = ReadP.val_main_v32 (F := F) (V0 (Proc.devRef .tc main_arg2)) :=
  (val14_keep V0 main_v32 (by decide)).trans (val13_main_v32 V0)
theorem val14_main_v65 (V0 : Valuation τ sig (Elt F)) : val14 V0 (no_index (Proc.devRef .tc main_v65)) = ReadP.val_main_v65 (F := F) (V0 (Proc.devRef .tc main_arg2)) :=
  (val14_keep V0 main_v65 (by decide)).trans (val13_main_v65 V0)
theorem val14_main_v66 (V0 : Valuation τ sig (Elt F)) : val14 V0 (no_index (Proc.devRef .tc main_v66)) = ReadP.val_main_v66 (F := F) (V0 (Proc.devRef .tc main_arg0)) (V0 (Proc.devRef .tc main_arg1)) :=
  (val14_keep V0 main_v66 (by decide)).trans (val13_main_v66 V0)
theorem val14_main_v92 (V0 : Valuation τ sig (Elt F)) : val14 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val14_keep V0 main_v92 (by decide)).trans (val13_main_v92 V0)
theorem val14_main_v151 (V0 : Valuation τ sig (Elt F)) : val14 V0 (no_index (Proc.devRef .tc main_v151)) = ReadP.val_main_v151 (F := F) (V0 (Proc.devRef .tc main_arg0)) (V0 (Proc.devRef .tc main_arg1)) (V0 (Proc.devRef .tc main_arg2)) (V0 (Proc.devRef .tc main_arg3)) (V0 (Proc.devRef .tc main_arg4)) := by
  unfold val14
  simp only [ops_c11]
  after_results_simp
  simp only [val13_arg _ main_arg4, val13_main_v32, val13_main_v99, val13_main_v65, val13_main_v3, val13_main_v127, val13_main_v132, val13_main_v133, val13_main_v124] <;> rfl

def val15 (V0 : Valuation τ sig (Elt F)) : Valuation τ sig (Elt F) := after ops_c12 (val14 V0)

theorem val15_keep (V0 : Valuation τ sig (Elt F)) (r : Ref sig .tc) (h : r ∉ ops_c12_W) :
    val15 V0 (Proc.devRef .tc r) = val14 V0 (Proc.devRef .tc r) :=
  after_of_writes_sub ops_c12 _ ops_c12_writes h
theorem val15_arg (V0 : Valuation τ sig (Elt F)) (r : Ref sig .tc) (h : r ∈ argRefs := by decide) :
    val15 V0 (no_index (Proc.devRef .tc r)) = V0 (Proc.devRef .tc r) :=
  (val15_keep V0 r ((by decide : ∀ r ∈ argRefs, r ∉ ops_c12_W) r h)).trans (val14_arg V0 r h)
theorem val15_main_v1 (V0 : Valuation τ sig (Elt F)) : val15 V0 (no_index (Proc.devRef .tc main_v1)) = ReadP.val_main_v1 (F := F) (V0 (Proc.devRef .tc main_arg3)) :=
  (val15_keep V0 main_v1 (by decide)).trans (val14_main_v1 V0)
theorem val15_main_v3 (V0 : Valuation τ sig (Elt F)) : val15 V0 (no_index (Proc.devRef .tc main_v3)) = ReadP.val_main_v3 (F := F) (V0 (Proc.devRef .tc main_arg3)) :=
  (val15_keep V0 main_v3 (by decide)).trans (val14_main_v3 V0)
theorem val15_main_v32 (V0 : Valuation τ sig (Elt F)) : val15 V0 (no_index (Proc.devRef .tc main_v32)) = ReadP.val_main_v32 (F := F) (V0 (Proc.devRef .tc main_arg2)) :=
  (val15_keep V0 main_v32 (by decide)).trans (val14_main_v32 V0)
theorem val15_main_v65 (V0 : Valuation τ sig (Elt F)) : val15 V0 (no_index (Proc.devRef .tc main_v65)) = ReadP.val_main_v65 (F := F) (V0 (Proc.devRef .tc main_arg2)) :=
  (val15_keep V0 main_v65 (by decide)).trans (val14_main_v65 V0)
theorem val15_main_v92 (V0 : Valuation τ sig (Elt F)) : val15 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val15_keep V0 main_v92 (by decide)).trans (val14_main_v92 V0)
theorem val15_main_v162 (V0 : Valuation τ sig (Elt F)) : val15 V0 (no_index (Proc.devRef .tc main_v162)) = ReadP.val_main_v162 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val15
  simp only [ops_c12]
  after_results_simp
  simp only [val14_arg _ main_arg5, val14_main_v66, val14_main_v3, val14_main_v151] <;> rfl
theorem val15_main_v165 (V0 : Valuation τ sig (Elt F)) : val15 V0 (no_index (Proc.devRef .tc main_v165)) = ReadP.val_main_v165 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val15
  simp only [ops_c12]
  after_results_simp
  simp only [val14_arg _ main_arg5, val14_main_v66, val14_main_v3, val14_main_v151] <;> rfl
theorem val15_main_v166 (V0 : Valuation τ sig (Elt F)) : val15 V0 (no_index (Proc.devRef .tc main_v166)) = ReadP.val_main_v166 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val15
  simp only [ops_c12]
  after_results_simp
  simp only [val14_arg _ main_arg5, val14_main_v66, val14_main_v3, val14_main_v151] <;> rfl

def val16 (V0 : Valuation τ sig (Elt F)) : Valuation τ sig (Elt F) := after ops_c13 (val15 V0)

theorem val16_keep (V0 : Valuation τ sig (Elt F)) (r : Ref sig .tc) (h : r ∉ ops_c13_W) :
    val16 V0 (Proc.devRef .tc r) = val15 V0 (Proc.devRef .tc r) :=
  after_of_writes_sub ops_c13 _ ops_c13_writes h
theorem val16_arg (V0 : Valuation τ sig (Elt F)) (r : Ref sig .tc) (h : r ∈ argRefs := by decide) :
    val16 V0 (no_index (Proc.devRef .tc r)) = V0 (Proc.devRef .tc r) :=
  (val16_keep V0 r ((by decide : ∀ r ∈ argRefs, r ∉ ops_c13_W) r h)).trans (val15_arg V0 r h)
theorem val16_main_v1 (V0 : Valuation τ sig (Elt F)) : val16 V0 (no_index (Proc.devRef .tc main_v1)) = ReadP.val_main_v1 (F := F) (V0 (Proc.devRef .tc main_arg3)) :=
  (val16_keep V0 main_v1 (by decide)).trans (val15_main_v1 V0)
theorem val16_main_v3 (V0 : Valuation τ sig (Elt F)) : val16 V0 (no_index (Proc.devRef .tc main_v3)) = ReadP.val_main_v3 (F := F) (V0 (Proc.devRef .tc main_arg3)) :=
  (val16_keep V0 main_v3 (by decide)).trans (val15_main_v3 V0)
theorem val16_main_v32 (V0 : Valuation τ sig (Elt F)) : val16 V0 (no_index (Proc.devRef .tc main_v32)) = ReadP.val_main_v32 (F := F) (V0 (Proc.devRef .tc main_arg2)) :=
  (val16_keep V0 main_v32 (by decide)).trans (val15_main_v32 V0)
theorem val16_main_v65 (V0 : Valuation τ sig (Elt F)) : val16 V0 (no_index (Proc.devRef .tc main_v65)) = ReadP.val_main_v65 (F := F) (V0 (Proc.devRef .tc main_arg2)) :=
  (val16_keep V0 main_v65 (by decide)).trans (val15_main_v65 V0)
theorem val16_main_v92 (V0 : Valuation τ sig (Elt F)) : val16 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val16_keep V0 main_v92 (by decide)).trans (val15_main_v92 V0)
theorem val16_main_v181 (V0 : Valuation τ sig (Elt F)) : val16 V0 (no_index (Proc.devRef .tc main_v181)) = ReadP.val_main_v181 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val16
  simp only [ops_c13]
  after_results_simp
  simp only [val15_main_v166, val15_main_v162, val15_main_v165] <;> rfl
theorem val16_main_v183 (V0 : Valuation τ sig (Elt F)) : val16 V0 (no_index (Proc.devRef .tc main_v183)) = ReadP.val_main_v183 (F := F) (V0 (Proc.devRef .tc main_arg6)) := by
  unfold val16
  simp only [ops_c13]
  after_results_simp
  simp only [val15_arg _ main_arg6] <;> rfl

def val17 (V0 : Valuation τ sig (Elt F)) : Valuation τ sig (Elt F) := after ops_c14 (val16 V0)

theorem val17_keep (V0 : Valuation τ sig (Elt F)) (r : Ref sig .tc) (h : r ∉ ops_c14_W) :
    val17 V0 (Proc.devRef .tc r) = val16 V0 (Proc.devRef .tc r) :=
  after_of_writes_sub ops_c14 _ ops_c14_writes h
theorem val17_arg (V0 : Valuation τ sig (Elt F)) (r : Ref sig .tc) (h : r ∈ argRefs := by decide) :
    val17 V0 (no_index (Proc.devRef .tc r)) = V0 (Proc.devRef .tc r) :=
  (val17_keep V0 r ((by decide : ∀ r ∈ argRefs, r ∉ ops_c14_W) r h)).trans (val16_arg V0 r h)
theorem val17_main_v3 (V0 : Valuation τ sig (Elt F)) : val17 V0 (no_index (Proc.devRef .tc main_v3)) = ReadP.val_main_v3 (F := F) (V0 (Proc.devRef .tc main_arg3)) :=
  (val17_keep V0 main_v3 (by decide)).trans (val16_main_v3 V0)
theorem val17_main_v32 (V0 : Valuation τ sig (Elt F)) : val17 V0 (no_index (Proc.devRef .tc main_v32)) = ReadP.val_main_v32 (F := F) (V0 (Proc.devRef .tc main_arg2)) :=
  (val17_keep V0 main_v32 (by decide)).trans (val16_main_v32 V0)
theorem val17_main_v65 (V0 : Valuation τ sig (Elt F)) : val17 V0 (no_index (Proc.devRef .tc main_v65)) = ReadP.val_main_v65 (F := F) (V0 (Proc.devRef .tc main_arg2)) :=
  (val17_keep V0 main_v65 (by decide)).trans (val16_main_v65 V0)
theorem val17_main_v92 (V0 : Valuation τ sig (Elt F)) : val17 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val17_keep V0 main_v92 (by decide)).trans (val16_main_v92 V0)
theorem val17_main_v188 (V0 : Valuation τ sig (Elt F)) : val17 V0 (no_index (Proc.devRef .tc main_v188)) = ReadP.val_main_v188 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val17
  simp only [ops_c14]
  after_results_simp
  simp only [val16_arg _ main_arg7, val16_main_v183, val16_main_v181] <;> rfl
theorem val17_main_v195 (V0 : Valuation τ sig (Elt F)) : val17 V0 (no_index (Proc.devRef .tc main_v195)) = ReadP.val_main_v195 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val17
  simp only [ops_c14]
  after_results_simp
  simp only [val16_main_v1, val16_arg _ main_arg7, val16_main_v183, val16_main_v181] <;> rfl
theorem val17_main_v196 (V0 : Valuation τ sig (Elt F)) : val17 V0 (no_index (Proc.devRef .tc main_v196)) = ReadP.val_main_v196 (F := F) := by
  unfold val17
  simp only [ops_c14]
  after_results_simp
  all_goals rfl
theorem val17_main_v198 (V0 : Valuation τ sig (Elt F)) : val17 V0 (no_index (Proc.devRef .tc main_v198)) = ReadP.val_main_v198 (F := F) (V0 (Proc.devRef .tc main_arg2)) := by
  unfold val17
  simp only [ops_c14]
  after_results_simp
  simp only [val16_main_v32] <;> rfl

def val18 (V0 : Valuation τ sig (Elt F)) : Valuation τ sig (Elt F) := after ops_c15 (val17 V0)

theorem val18_keep (V0 : Valuation τ sig (Elt F)) (r : Ref sig .tc) (h : r ∉ ops_c15_W) :
    val18 V0 (Proc.devRef .tc r) = val17 V0 (Proc.devRef .tc r) :=
  after_of_writes_sub ops_c15 _ ops_c15_writes h
theorem val18_arg (V0 : Valuation τ sig (Elt F)) (r : Ref sig .tc) (h : r ∈ argRefs := by decide) :
    val18 V0 (no_index (Proc.devRef .tc r)) = V0 (Proc.devRef .tc r) :=
  (val18_keep V0 r ((by decide : ∀ r ∈ argRefs, r ∉ ops_c15_W) r h)).trans (val17_arg V0 r h)
theorem val18_main_v3 (V0 : Valuation τ sig (Elt F)) : val18 V0 (no_index (Proc.devRef .tc main_v3)) = ReadP.val_main_v3 (F := F) (V0 (Proc.devRef .tc main_arg3)) :=
  (val18_keep V0 main_v3 (by decide)).trans (val17_main_v3 V0)
theorem val18_main_v32 (V0 : Valuation τ sig (Elt F)) : val18 V0 (no_index (Proc.devRef .tc main_v32)) = ReadP.val_main_v32 (F := F) (V0 (Proc.devRef .tc main_arg2)) :=
  (val18_keep V0 main_v32 (by decide)).trans (val17_main_v32 V0)
theorem val18_main_v65 (V0 : Valuation τ sig (Elt F)) : val18 V0 (no_index (Proc.devRef .tc main_v65)) = ReadP.val_main_v65 (F := F) (V0 (Proc.devRef .tc main_arg2)) :=
  (val18_keep V0 main_v65 (by decide)).trans (val17_main_v65 V0)
theorem val18_main_v92 (V0 : Valuation τ sig (Elt F)) : val18 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val18_keep V0 main_v92 (by decide)).trans (val17_main_v92 V0)
theorem val18_main_v188 (V0 : Valuation τ sig (Elt F)) : val18 V0 (no_index (Proc.devRef .tc main_v188)) = ReadP.val_main_v188 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val18_keep V0 main_v188 (by decide)).trans (val17_main_v188 V0)
theorem val18_main_v195 (V0 : Valuation τ sig (Elt F)) : val18 V0 (no_index (Proc.devRef .tc main_v195)) = ReadP.val_main_v195 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val18_keep V0 main_v195 (by decide)).trans (val17_main_v195 V0)
theorem val18_main_v196 (V0 : Valuation τ sig (Elt F)) : val18 V0 (no_index (Proc.devRef .tc main_v196)) = ReadP.val_main_v196 (F := F) :=
  (val18_keep V0 main_v196 (by decide)).trans (val17_main_v196 V0)
theorem val18_main_v199 (V0 : Valuation τ sig (Elt F)) : val18 V0 (no_index (Proc.devRef .tc main_v199)) = ReadP.val_main_v199 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val18
  simp only [ops_c15]
  after_results_simp
  simp only [val17_main_v198, val17_main_v195] <;> rfl
theorem val18_main_c_37 (V0 : Valuation τ sig (Elt F)) : val18 V0 (no_index (Proc.devRef .tc main_c_37)) = ReadP.val_main_c_37 (F := F) := by
  unfold val18
  simp only [ops_c15]
  after_results_simp
  all_goals rfl

end Cert.ReferenceIdeal.RunP

end
-- ==== Proof.Ref.Ops4.lean ====
import proofs.«412279_j89026082111590_3_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_c16 : List (HloOp τ sig (Elt F)) :=
  [ unary main_c_37 main_v200 (broadcastInDim S800000 ![] bcast_S_S800000),
    binary main_v3 main_v200 main_v201 muli,
    unary main_v65 main_v202 (extractStridedSlice S800000x1 ![0, 0] · slices_S800000x4_S800000x1_0_0),
    reshape main_v202 main_v203 rfl shapeCasts_S800000x1_S800000,
    binary main_v201 main_v203 main_v204 addi,
    nullary main_cst_38 (constant S_ .f32 0x00000000#32),
    unary main_cst_38 main_v205 (broadcastInDim S1250000x64 ![] bcast_S_S1250000x64),
    unary main_v204 main_v206 (broadcastInDim S800000x1 ![0] bcast_S800000_S800000x1_0),
    ternary main_v205 main_v206 main_v199 main_v207 (fun x i u => Host.scatterAdd scatter_S1250000x64_S800000x1_S800000x64_1_0_0_1 x i u),
    binary main_v196 main_v207 main_v208 addf,
    unary main_v32 main_v209 (extractStridedSlice S800000x1 ![0, 1] · slices_S800000x4_S800000x1_0_1),
    unary main_v209 main_v210 (broadcastInDim S800000x64 ![0, 1] bcast_S800000x1_S800000x64_0_1),
    binary main_v195 main_v210 main_v211 mulf,
    nullary main_c_39 (constantI S_ 32 25#32),
    unary main_c_39 main_v212 (broadcastInDim S800000 ![] bcast_S_S800000),
    binary main_v3 main_v212 main_v213 muli,
    unary main_v65 main_v214 (extractStridedSlice S800000x1 ![0, 1] · slices_S800000x4_S800000x1_0_1),
    reshape main_v214 main_v215 rfl shapeCasts_S800000x1_S800000,
    binary main_v213 main_v215 main_v216 addi,
    nullary main_cst_40 (constant S_ .f32 0x00000000#32) ]
theorem ops_c16_sub : (ops_c16 : List (HloOp τ sig (Elt F))).Forall fun op => op.bufs ⊆ tcRefs τ sig :=
  ⟨unary_bufs_sub ..,
    binary_bufs_sub ..,
    unary_bufs_sub ..,
    reshape_bufs_sub ..,
    binary_bufs_sub ..,
    nullary_bufs_sub ..,
    unary_bufs_sub ..,
    unary_bufs_sub ..,
    ternary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    nullary_bufs_sub ..⟩
theorem ops_c16_fresh : (ops_c16 : List (HloOp τ sig (Elt F))).Forall fun op => op.fresh = ∅ := by
  simp only [List.Forall]; repeat' constructor

abbrev ops_c16_W : List (Ref sig .tc) := [main_v200, main_v201, main_v202, main_v203, main_v204, main_cst_38, main_v205, main_v206, main_v207, main_v208, main_v209, main_v210, main_v211, main_c_39, main_v212, main_v213, main_v214, main_v215, main_v216, main_cst_40]
theorem ops_c16_writes : (ops_c16 : List (HloOp τ sig (Elt F))).Forall fun op => op.writes ⊆ (ops_c16_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c17 : List (HloOp τ sig (Elt F)) :=
  [ unary main_cst_40 main_v217 (broadcastInDim S1250000x64 ![] bcast_S_S1250000x64),
    unary main_v216 main_v218 (broadcastInDim S800000x1 ![0] bcast_S800000_S800000x1_0),
    ternary main_v217 main_v218 main_v211 main_v219 (fun x i u => Host.scatterAdd scatter_S1250000x64_S800000x1_S800000x64_1_0_0_1 x i u),
    binary main_v208 main_v219 main_v220 addf,
    unary main_v32 main_v221 (extractStridedSlice S800000x1 ![0, 2] · slices_S800000x4_S800000x1_0_2),
    unary main_v221 main_v222 (broadcastInDim S800000x64 ![0, 1] bcast_S800000x1_S800000x64_0_1),
    binary main_v195 main_v222 main_v223 mulf,
    nullary main_c_41 (constantI S_ 32 25#32),
    unary main_c_41 main_v224 (broadcastInDim S800000 ![] bcast_S_S800000),
    binary main_v3 main_v224 main_v225 muli,
    unary main_v65 main_v226 (extractStridedSlice S800000x1 ![0, 2] · slices_S800000x4_S800000x1_0_2),
    reshape main_v226 main_v227 rfl shapeCasts_S800000x1_S800000,
    binary main_v225 main_v227 main_v228 addi,
    nullary main_cst_42 (constant S_ .f32 0x00000000#32),
    unary main_cst_42 main_v229 (broadcastInDim S1250000x64 ![] bcast_S_S1250000x64),
    unary main_v228 main_v230 (broadcastInDim S800000x1 ![0] bcast_S800000_S800000x1_0),
    ternary main_v229 main_v230 main_v223 main_v231 (fun x i u => Host.scatterAdd scatter_S1250000x64_S800000x1_S800000x64_1_0_0_1 x i u),
    binary main_v220 main_v231 main_v232 addf,
    unary main_v32 main_v233 (extractStridedSlice S800000x1 ![0, 3] · slices_S800000x4_S800000x1_0_3),
    unary main_v233 main_v234 (broadcastInDim S800000x64 ![0, 1] bcast_S800000x1_S800000x64_0_1) ]
theorem ops_c17_sub : (ops_c17 : List (HloOp τ sig (Elt F))).Forall fun op => op.bufs ⊆ tcRefs τ sig :=
  ⟨unary_bufs_sub ..,
    unary_bufs_sub ..,
    ternary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    reshape_bufs_sub ..,
    binary_bufs_sub ..,
    nullary_bufs_sub ..,
    unary_bufs_sub ..,
    unary_bufs_sub ..,
    ternary_bufs_sub ..,
    binary_bufs_sub ..,
    unary_bufs_sub ..,
    unary_bufs_sub ..⟩
theorem ops_c17_fresh : (ops_c17 : List (HloOp τ sig (Elt F))).Forall fun op => op.fresh = ∅ := by
  simp only [List.Forall]; repeat' constructor

abbrev ops_c17_W : List (Ref sig .tc) := [main_v217, main_v218, main_v219, main_v220, main_v221, main_v222, main_v223, main_c_41, main_v224, main_v225, main_v226, main_v227, main_v228, main_cst_42, main_v229, main_v230, main_v231, main_v232, main_v233, main_v234]
theorem ops_c17_writes : (ops_c17 : List (HloOp τ sig (Elt F))).Forall fun op => op.writes ⊆ (ops_c17_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c18 : List (HloOp τ sig (Elt F)) :=
  [ binary main_v195 main_v234 main_v235 mulf,
    nullary main_c_43 (constantI S_ 32 25#32),
    unary main_c_43 main_v236 (broadcastInDim S800000 ![] bcast_S_S800000),
    binary main_v3 main_v236 main_v237 muli,
    unary main_v65 main_v238 (extractStridedSlice S800000x1 ![0, 3] · slices_S800000x4_S800000x1_0_3),
    reshape main_v238 main_v239 rfl shapeCasts_S800000x1_S800000,
    binary main_v237 main_v239 main_v240 addi,
    nullary main_cst_44 (constant S_ .f32 0x00000000#32),
    unary main_cst_44 main_v241 (broadcastInDim S1250000x64 ![] bcast_S_S1250000x64),
    unary main_v240 main_v242 (broadcastInDim S800000x1 ![0] bcast_S800000_S800000x1_0),
    ternary main_v241 main_v242 main_v235 main_v243 (fun x i u => Host.scatterAdd scatter_S1250000x64_S800000x1_S800000x64_1_0_0_1 x i u),
    binary main_v232 main_v243 main_v244 addf,
    reshape main_v244 main_v245 rfl shapeCasts_S1250000x64_S50000x1600,
    reshape main_arg8 main_v246 rfl shapeCasts_S25x64x64_S1600x64,
    binary main_v245 main_v246 main_v247 (fun l r => Host.dotGeneral dot_S50000x1600_S1600x64_S50000x64_1_0_0_1_n_n none l r),
    nullary main_cst_45 (constant S_ .f32 0x3F800000#32),
    unary main_cst_45 main_v248 (broadcastInDim S800000 ![] bcast_S_S800000),
    nullary main_cst_46 (constant S_ .f32 0x00000000#32),
    unary main_cst_46 main_v249 (broadcastInDim S50000 ![] bcast_S_S50000),
    unary main_v3 main_v250 (broadcastInDim S800000x1 ![0] bcast_S800000_S800000x1_0) ]
theorem ops_c18_sub : (ops_c18 : List (HloOp τ sig (Elt F))).Forall fun op => op.bufs ⊆ tcRefs τ sig :=
  ⟨binary_bufs_sub ..,
    nullary_bufs_sub ..,
    unary_bufs_sub ..,
    binary_bufs_sub ..,
    unary_bufs_sub ..,
    reshape_bufs_sub ..,
    binary_bufs_sub ..,
    nullary_bufs_sub ..,
    unary_bufs_sub ..,
    unary_bufs_sub ..,
    ternary_bufs_sub ..,
    binary_bufs_sub ..,
    reshape_bufs_sub ..,
    reshape_bufs_sub ..,
    binary_bufs_sub ..,
    nullary_bufs_sub ..,
    unary_bufs_sub ..,
    nullary_bufs_sub ..,
    unary_bufs_sub ..,
    unary_bufs_sub ..⟩
theorem ops_c18_fresh : (ops_c18 : List (HloOp τ sig (Elt F))).Forall fun op => op.fresh = ∅ := by
  simp only [List.Forall]; repeat' constructor

abbrev ops_c18_W : List (Ref sig .tc) := [main_v235, main_c_43, main_v236, main_v237, main_v238, main_v239, main_v240, main_cst_44, main_v241, main_v242, main_v243, main_v244, main_v245, main_v246, main_v247, main_cst_45, main_v248, main_cst_46, main_v249, main_v250]
theorem ops_c18_writes : (ops_c18 : List (HloOp τ sig (Elt F))).Forall fun op => op.writes ⊆ (ops_c18_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_part4 : List (HloOp τ sig (Elt F)) := ops_c16 ++ ops_c17 ++ ops_c18

theorem main_part4_eq (c : Dev nD) : main_part4 (F := F) c = seq ops_part4 := rfl

end Cert.ReferenceIdeal.RunP

end
-- ==== Proof.Ref.Ops5.lean ====
import proofs.«412279_j89026082111590_3_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_c19 : List (HloOp τ sig (Elt F)) :=
  [ ternary main_v249 main_v250 main_v248 main_v251 (fun x i u => Host.scatterAdd scatter_S50000_S800000x1_S800000_n_0_0_1 x i u),
    nullary main_cst_47 (constant S_ .f32 0x3F800000#32),
    unary main_cst_47 main_v252 (broadcastInDim S50000 ![] bcast_S_S50000),
    binary main_v251 main_v252 main_v253 maximumf,
    unary main_v253 main_v254 (broadcastInDim S50000x1 ![0] bcast_S50000_S50000x1_0),
    unary main_v254 main_v255 (broadcastInDim S50000x64 ![0, 1] bcast_S50000x1_S50000x64_0_1),
    binary main_v247 main_v255 main_v256 Host.divf,
    binary main_v188 main_arg9 main_v257 (fun l r => Host.dotGeneral dot_S50000x64_S64x64_S50000x64_1_0_0_1_n_n none l r),
    binary main_v256 main_v257 main_v258 addf,
    nullary main_cst_48 (constant S_ .f32 0x00000000#32),
    binary main_v258 main_cst_48 main_v259 (fun x v => Host.reduceAdd x v reducesTo_S50000x64_S64_d0 h_S_),
    nullary main_cst_49 (constant S_ .f32 0x47435000#32),
    unary main_cst_49 main_v260 (broadcastInDim S64 ![] bcast_S_S64),
    binary main_v259 main_v260 main_v261 Host.divf,
    unary main_v261 main_v262 (broadcastInDim S1x64 ![1] bcast_S64_S1x64_1),
    unary main_v262 main_v263 (broadcastInDim S50000x64 ![0, 1] bcast_S1x64_S50000x64_0_1),
    binary main_v258 main_v263 main_v264 subf,
    binary main_v264 main_v264 main_v265 mulf,
    nullary main_cst_50 (constant S_ .f32 0x00000000#32),
    binary main_v265 main_cst_50 main_v266 (fun x v => Host.reduceAdd x v reducesTo_S50000x64_S64_d0 h_S_) ]
theorem ops_c19_sub : (ops_c19 : List (HloOp τ sig (Elt F))).Forall fun op => op.bufs ⊆ tcRefs τ sig :=
  ⟨ternary_bufs_sub ..,
    nullary_bufs_sub ..,
    unary_bufs_sub ..,
    binary_bufs_sub ..,
    unary_bufs_sub ..,
    unary_bufs_sub ..,
    binary_bufs_sub ..,
    binary_bufs_sub ..,
    binary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    binary_bufs_sub ..,
    nullary_bufs_sub ..,
    binary_bufs_sub ..⟩
theorem ops_c19_fresh : (ops_c19 : List (HloOp τ sig (Elt F))).Forall fun op => op.fresh = ∅ := by
  simp only [List.Forall]; repeat' constructor

abbrev ops_c19_W : List (Ref sig .tc) := [main_v251, main_cst_47, main_v252, main_v253, main_v254, main_v255, main_v256, main_v257, main_v258, main_cst_48, main_v259, main_cst_49, main_v260, main_v261, main_v262, main_v263, main_v264, main_v265, main_cst_50, main_v266]
theorem ops_c19_writes : (ops_c19 : List (HloOp τ sig (Elt F))).Forall fun op => op.writes ⊆ (ops_c19_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c20 : List (HloOp τ sig (Elt F)) :=
  [ nullary main_cst_51 (constant S_ .f32 0x47435000#32),
    unary main_cst_51 main_v267 (broadcastInDim S64 ![] bcast_S_S64),
    binary main_v266 main_v267 main_v268 Host.divf,
    unary main_v261 main_v269 (broadcastInDim S1x64 ![1] bcast_S64_S1x64_1),
    unary main_v269 main_v270 (broadcastInDim S50000x64 ![0, 1] bcast_S1x64_S50000x64_0_1),
    binary main_v258 main_v270 main_v271 subf,
    nullary main_cst_52 (constant S_ .f32 0x3727C5AC#32),
    unary main_cst_52 main_v272 (broadcastInDim S64 ![] bcast_S_S64),
    binary main_v268 main_v272 main_v273 addf,
    unary main_v273 main_v274 Host.rsqrt,
    unary main_v274 main_v275 (broadcastInDim S1x64 ![1] bcast_S64_S1x64_1),
    unary main_v275 main_v276 (broadcastInDim S50000x64 ![0, 1] bcast_S1x64_S50000x64_0_1),
    binary main_v271 main_v276 main_v277 mulf,
    unary main_arg10 main_v278 (broadcastInDim S1x64 ![1] bcast_S64_S1x64_1),
    unary main_v278 main_v279 (broadcastInDim S50000x64 ![0, 1] bcast_S1x64_S50000x64_0_1),
    binary main_v277 main_v279 main_v280 mulf,
    unary main_arg11 main_v281 (broadcastInDim S1x64 ![1] bcast_S64_S1x64_1),
    unary main_v281 main_v282 (broadcastInDim S50000x64 ![0, 1] bcast_S1x64_S50000x64_0_1),
    binary main_v280 main_v282 main_v283 addf,
    binary main_v283 main_v92 main_v284 addf ]
theorem ops_c20_sub : (ops_c20 : List (HloOp τ sig (Elt F))).Forall fun op => op.bufs ⊆ tcRefs τ sig :=
  ⟨nullary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    unary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    binary_bufs_sub ..⟩
theorem ops_c20_fresh : (ops_c20 : List (HloOp τ sig (Elt F))).Forall fun op => op.fresh = ∅ := by
  simp only [List.Forall]; repeat' constructor

abbrev ops_c20_W : List (Ref sig .tc) := [main_cst_51, main_v267, main_v268, main_v269, main_v270, main_v271, main_cst_52, main_v272, main_v273, main_v274, main_v275, main_v276, main_v277, main_v278, main_v279, main_v280, main_v281, main_v282, main_v283, main_v284]
theorem ops_c20_writes : (ops_c20 : List (HloOp τ sig (Elt F))).Forall fun op => op.writes ⊆ (ops_c20_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_c21 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v284) (TRef.of (T := ⟨S50000x64, .f32⟩) main_call2_v0) (TRef.of (T := ⟨S50000x64, .f32⟩) main_v285) maximumf ]
theorem ops_c21_sub : (ops_c21 : List (HloOp τ sig (Elt F))).Forall fun op => op.bufs ⊆ tcRefs τ sig :=
  ⟨nullary_bufs_sub ..,
    unary_bufs_sub ..,
    binary_bufs_sub ..⟩
theorem ops_c21_fresh : (ops_c21 : List (HloOp τ sig (Elt F))).Forall fun op => op.fresh = ∅ := by
  simp only [List.Forall]; repeat' constructor

abbrev ops_c21_W : List (Ref sig .tc) := [main_call2_cst, main_call2_v0, main_v285]
theorem ops_c21_writes : (ops_c21 : List (HloOp τ sig (Elt F))).Forall fun op => op.writes ⊆ (ops_c21_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

abbrev ops_part5 : List (HloOp τ sig (Elt F)) := ops_c19 ++ ops_c20 ++ ops_c21

theorem main_part5_eq (c : Dev nD) : main_part5 (F := F) c = seq ops_part5 := rfl

end Cert.ReferenceIdeal.RunP

end
-- ==== Proof.Ref.Vals2.lean ====
import proofs.«412279_j89026082111590_3_alg».proof.Proof.Ref.Vals1
import proofs.«412279_j89026082111590_3_alg».proof.Proof.Ref.Ops4
import proofs.«412279_j89026082111590_3_alg».proof.Proof.Ref.Ops5

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

def val19 (V0 : Valuation τ sig (Elt F)) : Valuation τ sig (Elt F) := after ops_c16 (val18 V0)

theorem val19_keep (V0 : Valuation τ sig (Elt F)) (r : Ref sig .tc) (h : r ∉ ops_c16_W) :
    val19 V0 (Proc.devRef .tc r) = val18 V0 (Proc.devRef .tc r) :=
  after_of_writes_sub ops_c16 _ ops_c16_writes h
theorem val19_arg (V0 : Valuation τ sig (Elt F)) (r : Ref sig .tc) (h : r ∈ argRefs := by decide) :
    val19 V0 (no_index (Proc.devRef .tc r)) = V0 (Proc.devRef .tc r) :=
  (val19_keep V0 r ((by decide : ∀ r ∈ argRefs, r ∉ ops_c16_W) r h)).trans (val18_arg V0 r h)
theorem val19_main_v3 (V0 : Valuation τ sig (Elt F)) : val19 V0 (no_index (Proc.devRef .tc main_v3)) = ReadP.val_main_v3 (F := F) (V0 (Proc.devRef .tc main_arg3)) :=
  (val19_keep V0 main_v3 (by decide)).trans (val18_main_v3 V0)
theorem val19_main_v32 (V0 : Valuation τ sig (Elt F)) : val19 V0 (no_index (Proc.devRef .tc main_v32)) = ReadP.val_main_v32 (F := F) (V0 (Proc.devRef .tc main_arg2)) :=
  (val19_keep V0 main_v32 (by decide)).trans (val18_main_v32 V0)
theorem val19_main_v65 (V0 : Valuation τ sig (Elt F)) : val19 V0 (no_index (Proc.devRef .tc main_v65)) = ReadP.val_main_v65 (F := F) (V0 (Proc.devRef .tc main_arg2)) :=
  (val19_keep V0 main_v65 (by decide)).trans (val18_main_v65 V0)
theorem val19_main_v92 (V0 : Valuation τ sig (Elt F)) : val19 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val19_keep V0 main_v92 (by decide)).trans (val18_main_v92 V0)
theorem val19_main_v188 (V0 : Valuation τ sig (Elt F)) : val19 V0 (no_index (Proc.devRef .tc main_v188)) = ReadP.val_main_v188 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val19_keep V0 main_v188 (by decide)).trans (val18_main_v188 V0)
theorem val19_main_v195 (V0 : Valuation τ sig (Elt F)) : val19 V0 (no_index (Proc.devRef .tc main_v195)) = ReadP.val_main_v195 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val19_keep V0 main_v195 (by decide)).trans (val18_main_v195 V0)
theorem val19_main_v208 (V0 : Valuation τ sig (Elt F)) : val19 V0 (no_index (Proc.devRef .tc main_v208)) = ReadP.val_main_v208 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val19
  simp only [ops_c16]
  after_results_simp
  simp only [val18_main_v199, val18_main_v65, val18_main_c_37, val18_main_v3, val18_main_v196] <;> rfl
theorem val19_main_v211 (V0 : Valuation τ sig (Elt F)) : val19 V0 (no_index (Proc.devRef .tc main_v211)) = ReadP.val_main_v211 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val19
  simp only [ops_c16]
  after_results_simp
  simp only [val18_main_v32, val18_main_v195] <;> rfl
theorem val19_main_v216 (V0 : Valuation τ sig (Elt F)) : val19 V0 (no_index (Proc.devRef .tc main_v216)) = ReadP.val_main_v216 (F := F) (V0 (Proc.devRef .tc main_arg2)) (V0 (Proc.devRef .tc main_arg3)) := by
  unfold val19
  simp only [ops_c16]
  after_results_simp
  simp only [val18_main_v65, val18_main_v3] <;> rfl
theorem val19_main_cst_40 (V0 : Valuation τ sig (Elt F)) : val19 V0 (no_index (Proc.devRef .tc main_cst_40)) = ReadP.val_main_cst_40 (F := F) := by
  unfold val19
  simp only [ops_c16]
  after_results_simp
  all_goals rfl

def val20 (V0 : Valuation τ sig (Elt F)) : Valuation τ sig (Elt F) := after ops_c17 (val19 V0)

theorem val20_keep (V0 : Valuation τ sig (Elt F)) (r : Ref sig .tc) (h : r ∉ ops_c17_W) :
    val20 V0 (Proc.devRef .tc r) = val19 V0 (Proc.devRef .tc r) :=
  after_of_writes_sub ops_c17 _ ops_c17_writes h
theorem val20_arg (V0 : Valuation τ sig (Elt F)) (r : Ref sig .tc) (h : r ∈ argRefs := by decide) :
    val20 V0 (no_index (Proc.devRef .tc r)) = V0 (Proc.devRef .tc r) :=
  (val20_keep V0 r ((by decide : ∀ r ∈ argRefs, r ∉ ops_c17_W) r h)).trans (val19_arg V0 r h)
theorem val20_main_v3 (V0 : Valuation τ sig (Elt F)) : val20 V0 (no_index (Proc.devRef .tc main_v3)) = ReadP.val_main_v3 (F := F) (V0 (Proc.devRef .tc main_arg3)) :=
  (val20_keep V0 main_v3 (by decide)).trans (val19_main_v3 V0)
theorem val20_main_v65 (V0 : Valuation τ sig (Elt F)) : val20 V0 (no_index (Proc.devRef .tc main_v65)) = ReadP.val_main_v65 (F := F) (V0 (Proc.devRef .tc main_arg2)) :=
  (val20_keep V0 main_v65 (by decide)).trans (val19_main_v65 V0)
theorem val20_main_v92 (V0 : Valuation τ sig (Elt F)) : val20 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val20_keep V0 main_v92 (by decide)).trans (val19_main_v92 V0)
theorem val20_main_v188 (V0 : Valuation τ sig (Elt F)) : val20 V0 (no_index (Proc.devRef .tc main_v188)) = ReadP.val_main_v188 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val20_keep V0 main_v188 (by decide)).trans (val19_main_v188 V0)
theorem val20_main_v195 (V0 : Valuation τ sig (Elt F)) : val20 V0 (no_index (Proc.devRef .tc main_v195)) = ReadP.val_main_v195 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val20_keep V0 main_v195 (by decide)).trans (val19_main_v195 V0)
theorem val20_main_v232 (V0 : Valuation τ sig (Elt F)) : val20 V0 (no_index (Proc.devRef .tc main_v232)) = ReadP.val_main_v232 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val20
  simp only [ops_c17]
  after_results_simp
  simp only [val19_main_v32, val19_main_v195, val19_main_v65, val19_main_v3, val19_main_v211, val19_main_v216, val19_main_cst_40, val19_main_v208] <;> rfl
theorem val20_main_v234 (V0 : Valuation τ sig (Elt F)) : val20 V0 (no_index (Proc.devRef .tc main_v234)) = ReadP.val_main_v234 (F := F) (V0 (Proc.devRef .tc main_arg2)) := by
  unfold val20
  simp only [ops_c17]
  after_results_simp
  simp only [val19_main_v32] <;> rfl

def val21 (V0 : Valuation τ sig (Elt F)) : Valuation τ sig (Elt F) := after ops_c18 (val20 V0)

theorem val21_keep (V0 : Valuation τ sig (Elt F)) (r : Ref sig .tc) (h : r ∉ ops_c18_W) :
    val21 V0 (Proc.devRef .tc r) = val20 V0 (Proc.devRef .tc r) :=
  after_of_writes_sub ops_c18 _ ops_c18_writes h
theorem val21_arg (V0 : Valuation τ sig (Elt F)) (r : Ref sig .tc) (h : r ∈ argRefs := by decide) :
    val21 V0 (no_index (Proc.devRef .tc r)) = V0 (Proc.devRef .tc r) :=
  (val21_keep V0 r ((by decide : ∀ r ∈ argRefs, r ∉ ops_c18_W) r h)).trans (val20_arg V0 r h)
theorem val21_main_v92 (V0 : Valuation τ sig (Elt F)) : val21 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val21_keep V0 main_v92 (by decide)).trans (val20_main_v92 V0)
theorem val21_main_v188 (V0 : Valuation τ sig (Elt F)) : val21 V0 (no_index (Proc.devRef .tc main_v188)) = ReadP.val_main_v188 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val21_keep V0 main_v188 (by decide)).trans (val20_main_v188 V0)
theorem val21_main_v247 (V0 : Valuation τ sig (Elt F)) : val21 V0 (no_index (Proc.devRef .tc main_v247)) = ReadP.val_main_v247 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val21
  simp only [ops_c18]
  after_results_simp
  simp only [val20_arg _ main_arg8, val20_main_v234, val20_main_v195, val20_main_v65, val20_main_v3, val20_main_v232] <;> rfl
theorem val21_main_v248 (V0 : Valuation τ sig (Elt F)) : val21 V0 (no_index (Proc.devRef .tc main_v248)) = ReadP.val_main_v248 (F := F) := by
  unfold val21
  simp only [ops_c18]
  after_results_simp
  all_goals rfl
theorem val21_main_v249 (V0 : Valuation τ sig (Elt F)) : val21 V0 (no_index (Proc.devRef .tc main_v249)) = ReadP.val_main_v249 (F := F) := by
  unfold val21
  simp only [ops_c18]
  after_results_simp
  all_goals rfl
theorem val21_main_v250 (V0 : Valuation τ sig (Elt F)) : val21 V0 (no_index (Proc.devRef .tc main_v250)) = ReadP.val_main_v250 (F := F) (V0 (Proc.devRef .tc main_arg3)) := by
  unfold val21
  simp only [ops_c18]
  after_results_simp
  simp only [val20_main_v3] <;> rfl

def val22 (V0 : Valuation τ sig (Elt F)) : Valuation τ sig (Elt F) := after ops_c19 (val21 V0)

theorem val22_keep (V0 : Valuation τ sig (Elt F)) (r : Ref sig .tc) (h : r ∉ ops_c19_W) :
    val22 V0 (Proc.devRef .tc r) = val21 V0 (Proc.devRef .tc r) :=
  after_of_writes_sub ops_c19 _ ops_c19_writes h
theorem val22_arg (V0 : Valuation τ sig (Elt F)) (r : Ref sig .tc) (h : r ∈ argRefs := by decide) :
    val22 V0 (no_index (Proc.devRef .tc r)) = V0 (Proc.devRef .tc r) :=
  (val22_keep V0 r ((by decide : ∀ r ∈ argRefs, r ∉ ops_c19_W) r h)).trans (val21_arg V0 r h)
theorem val22_main_v92 (V0 : Valuation τ sig (Elt F)) : val22 V0 (no_index (Proc.devRef .tc main_v92)) = ReadP.val_main_v92 (F := F) (V0 (Proc.devRef .tc main_arg0)) (V0 (Proc.devRef .tc main_arg1)) (V0 (Proc.devRef .tc main_arg12)) (V0 (Proc.devRef .tc main_arg13)) (V0 (Proc.devRef .tc main_arg14)) :=
  (val22_keep V0 main_v92 (by decide)).trans (val21_main_v92 V0)
theorem val22_main_v258 (V0 : Valuation τ sig (Elt F)) : val22 V0 (no_index (Proc.devRef .tc main_v258)) = ReadP.val_main_v258 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val22
  simp only [ops_c19]
  after_results_simp
  simp only [val21_arg _ main_arg9, val21_main_v188, val21_main_v248, val21_main_v250, val21_main_v249, val21_main_v247] <;> rfl
theorem val22_main_v261 (V0 : Valuation τ sig (Elt F)) : val22 V0 (no_index (Proc.devRef .tc main_v261)) = ReadP.val_main_v261 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val22
  simp only [ops_c19]
  after_results_simp
  simp only [val21_arg _ main_arg9, val21_main_v188, val21_main_v248, val21_main_v250, val21_main_v249, val21_main_v247] <;> rfl
theorem val22_main_v266 (V0 : Valuation τ sig (Elt F)) : val22 V0 (no_index (Proc.devRef .tc main_v266)) = ReadP.val_main_v266 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val22
  simp only [ops_c19]
  after_results_simp
  simp only [val21_arg _ main_arg9, val21_main_v188, val21_main_v248, val21_main_v250, val21_main_v249, val21_main_v247] <;> rfl

def val23 (V0 : Valuation τ sig (Elt F)) : Valuation τ sig (Elt F) := after ops_c20 (val22 V0)

theorem val23_keep (V0 : Valuation τ sig (Elt F)) (r : Ref sig .tc) (h : r ∉ ops_c20_W) :
    val23 V0 (Proc.devRef .tc r) = val22 V0 (Proc.devRef .tc r) :=
  after_of_writes_sub ops_c20 _ ops_c20_writes h
theorem val23_arg (V0 : Valuation τ sig (Elt F)) (r : Ref sig .tc) (h : r ∈ argRefs := by decide) :
    val23 V0 (no_index (Proc.devRef .tc r)) = V0 (Proc.devRef .tc r) :=
  (val23_keep V0 r ((by decide : ∀ r ∈ argRefs, r ∉ ops_c20_W) r h)).trans (val22_arg V0 r h)
theorem val23_main_v284 (V0 : Valuation τ sig (Elt F)) : val23 V0 (no_index (Proc.devRef .tc main_v284)) = ReadP.val_main_v284 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val23
  simp only [ops_c20]
  after_results_simp
  simp only [val22_main_v92, val22_arg _ main_arg11, val22_arg _ main_arg10, val22_main_v266, val22_main_v261, val22_main_v258] <;> rfl

def val24 (V0 : Valuation τ sig (Elt F)) : Valuation τ sig (Elt F) := after ops_c21 (val23 V0)

theorem val24_keep (V0 : Valuation τ sig (Elt F)) (r : Ref sig .tc) (h : r ∉ ops_c21_W) :
    val24 V0 (Proc.devRef .tc r) = val23 V0 (Proc.devRef .tc r) :=
  after_of_writes_sub ops_c21 _ ops_c21_writes h
theorem val24_arg (V0 : Valuation τ sig (Elt F)) (r : Ref sig .tc) (h : r ∈ argRefs := by decide) :
    val24 V0 (no_index (Proc.devRef .tc r)) = V0 (Proc.devRef .tc r) :=
  (val24_keep V0 r ((by decide : ∀ r ∈ argRefs, r ∉ ops_c21_W) r h)).trans (val23_arg V0 r h)
theorem val24_main_v285 (V0 : Valuation τ sig (Elt F)) : val24 V0 (no_index (Proc.devRef .tc main_v285)) = ReadP.val_main_v285 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val24
  simp only [ops_c21]
  after_results_simp
  simp only [val23_main_v284] <;> rfl

end Cert.ReferenceIdeal.RunP

end
-- ==== Proof.Ref.Run.lean ====
import proofs.«412279_j89026082111590_3_alg».proof.Proof.Ref.Vals2

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ (ops_part1 ++ (ops_part2 ++ (ops_part3 ++ (ops_part4 ++ ops_part5))))

theorem seq_six (a b c d e f : List (HloOp τ sig (Elt F))) :
    (seq (a ++ (b ++ (c ++ (d ++ (e ++ f))))) : Prog (TpuEff nD τ sig (Elt F) (Pipeline.Sig Λ₀ (Fin 0) fun p => (pcfgs (F := F) p).Adm) .tc) PUnit)
      = (seq a >>= fun _ => seq b >>= fun _ => seq c >>= fun _ => seq d >>= fun _ => seq e >>= fun _ => seq f) := by
  rw [seq_append, seq_append, seq_append, seq_append, seq_append]

theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c >>= fun _ => main_part5 (F := F) c) = _
  rw [main_part0_eq, main_part1_eq, main_part2_eq, main_part3_eq, main_part4_eq, main_part5_eq]
  exact (seq_six _ _ _ _ _ _).symm

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  (forall_append (forall_append (forall_append (forall_append (forall_append ops_c0_sub ops_c1_sub) ops_c2_sub) ops_c3a_sub) ops_c3b_sub) (forall_append (forall_append (forall_append (forall_append (forall_append (forall_append ops_c4_sub ops_c5_sub) ops_c6a_sub) ops_c6b_sub) ops_c7_sub) ops_c8_sub) (forall_append (forall_append (forall_append ops_c9_sub ops_c10_sub) ops_c11_sub) (forall_append (forall_append (forall_append (forall_append ops_c12_sub ops_c13_sub) ops_c14_sub) ops_c15_sub) (forall_append (forall_append (forall_append ops_c16_sub ops_c17_sub) ops_c18_sub) (forall_append (forall_append ops_c19_sub ops_c20_sub) ops_c21_sub))))))

theorem ops_fresh : ∀ op ∈ (ops : List (HloOp τ sig (Elt F))), op.fresh = ∅ :=
  List.forall_iff_forall_mem.mp
    (forall_append (forall_append (forall_append (forall_append (forall_append ops_c0_fresh ops_c1_fresh) ops_c2_fresh) ops_c3a_fresh) ops_c3b_fresh) (forall_append (forall_append (forall_append (forall_append (forall_append (forall_append ops_c4_fresh ops_c5_fresh) ops_c6a_fresh) ops_c6b_fresh) ops_c7_fresh) ops_c8_fresh) (forall_append (forall_append (forall_append ops_c9_fresh ops_c10_fresh) ops_c11_fresh) (forall_append (forall_append (forall_append (forall_append ops_c12_fresh ops_c13_fresh) ops_c14_fresh) ops_c15_fresh) (forall_append (forall_append (forall_append ops_c16_fresh ops_c17_fresh) ops_c18_fresh) (forall_append (forall_append ops_c19_fresh ops_c20_fresh) ops_c21_fresh))))))

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V0 : Valuation τ sig (Elt F)) : after ops V0 = val24 V0 := by
  unfold ops ops_part0 ops_part1 ops_part2 ops_part3 ops_part4 ops_part5
  simp only [after_app]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v285) = ReadP.val_main_v285 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v285).trans ((congrFun (after_ops (launchContents m c)) _).trans (val24_main_v285 (launchContents m c))),
      (h c main_arg0).trans ((congrFun (after_ops (launchContents m c)) _).trans (val24_arg (launchContents m c) main_arg0)),
      (h c main_arg1).trans ((congrFun (after_ops (launchContents m c)) _).trans (val24_arg (launchContents m c) main_arg1)),
      (h c main_arg2).trans ((congrFun (after_ops (launchContents m c)) _).trans (val24_arg (launchContents m c) main_arg2)),
      (h c main_arg3).trans ((congrFun (after_ops (launchContents m c)) _).trans (val24_arg (launchContents m c) main_arg3)),
      (h c main_arg4).trans ((congrFun (after_ops (launchContents m c)) _).trans (val24_arg (launchContents m c) main_arg4)),
      (h c main_arg5).trans ((congrFun (after_ops (launchContents m c)) _).trans (val24_arg (launchContents m c) main_arg5)),
      (h c main_arg6).trans ((congrFun (after_ops (launchContents m c)) _).trans (val24_arg (launchContents m c) main_arg6)),
      (h c main_arg7).trans ((congrFun (after_ops (launchContents m c)) _).trans (val24_arg (launchContents m c) main_arg7)),
      (h c main_arg8).trans ((congrFun (after_ops (launchContents m c)) _).trans (val24_arg (launchContents m c) main_arg8)),
      (h c main_arg9).trans ((congrFun (after_ops (launchContents m c)) _).trans (val24_arg (launchContents m c) main_arg9)),
      (h c main_arg10).trans ((congrFun (after_ops (launchContents m c)) _).trans (val24_arg (launchContents m c) main_arg10)),
      (h c main_arg11).trans ((congrFun (after_ops (launchContents m c)) _).trans (val24_arg (launchContents m c) main_arg11)),
      (h c main_arg12).trans ((congrFun (after_ops (launchContents m c)) _).trans (val24_arg (launchContents m c) main_arg12)),
      (h c main_arg13).trans ((congrFun (after_ops (launchContents m c)) _).trans (val24_arg (launchContents m c) main_arg13)),
      (h c main_arg14).trans ((congrFun (after_ops (launchContents m c)) _).trans (val24_arg (launchContents m c) main_arg14))⟩)
    (run_seq scopedRefs_eq scopedSems_eq defs main (fun _ => ops) main_eq (fun _ => ops_sub) m ρ (fun _ => ops_fresh))

end Cert.ReferenceIdeal.RunP

end
-- ==== Proof.Consts.lean ====
import Idealize.ShloMosaic.PureOps.Ideal

noncomputable section

namespace SplineConsts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_one_coe : Ideal.ofBits .f32 0x3F800000#32 = ((1 : ℝ) : EReal) := by
  rw [ofBits_one, EReal.coe_one]

theorem ofBits_four : Ideal.ofBits .f32 0x40800000#32 = ((4 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

end SplineConsts

end
-- ==== Proof.RefValueA.lean ====
import proofs.«412279_j89026082111590_3_alg».proof.Proof.Spec
import proofs.«412279_j89026082111590_3_alg».proof.Proof.SpecInputs
import proofs.«412279_j89026082111590_3_alg».proof.Proof.RefRead
import proofs.«412279_j89026082111590_3_alg».proof.Proof.Consts
import proofs.«412279_j89026082111590_3_alg».proof.Proof.ScatterGather

import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx
open scoped BigOperators

variable (X0 : S50000x30.Idx → EReal) (X1 : S50000x2.Idx → EReal) (X2 : S800000x2.Idx → EReal)
  (X3 : S2x800000.Idx → BitVec 32) (X4 : S25x32x64.Idx → EReal) (X5 : S32x64.Idx → EReal)
  (X6 X7 : S64.Idx → EReal) (X8 : S25x64x64.Idx → EReal) (X9 : S64x64.Idx → EReal)
  (X10 X11 : S64.Idx → EReal) (X12 : S32x64.Idx → EReal) (X13 X14 : S64.Idx → EReal)

theorem v66_apply (n : Fin 50000) (k : Fin 32) :
    val_main_v66 (F := Ideal) X0 X1 (ix2 n k) = Spline.xinF X0 X1 n k := by
  unfold val_main_v66 Spline.xinF
  split_ifs with h
  · exact concatenate_pair_apply_left 1 X0 X1 concatenates_S50000x30_S50000x2_S50000x32_d1 (ix2 n k) rfl (ix2 n ⟨k.val, h⟩)
      (fun b => match b with | ⟨0, _⟩ => rfl | ⟨1, _⟩ => rfl)
  · exact concatenate_pair_apply_right 1 X0 X1 concatenates_S50000x30_S50000x2_S50000x32_d1 (ix2 n k) rfl rfl
      (ix2 n ⟨k.val - 30, by have := k.isLt; omega⟩)
      (fun b hb => match b, hb with | ⟨0, _⟩, _ => rfl | ⟨1, _⟩, hb => absurd rfl hb)
      (by show (k.val - 30) + 30 = k.val; omega)

theorem v67_apply (n : Fin 50000) (o : Fin 64) :
    val_main_v67 (F := Ideal) X0 X1 X12 (ix2 n o) = Spline.mm (Spline.xinF X0 X1) (Spline.m2 X12) n o := by
  rw [val_main_v67_apply]
  unfold Spline.mm
  refine Finset.sum_congr rfl fun k _ => ?_
  have e1 : lidx_main_v67 (ix2 n o) k = ix2 n k := eq_ix2 _
  have e2 : ridx_main_v67 (ix2 n o) k = ix2 k o := eq_ix2 _
  rw [e1, e2, v66_apply]
  rfl

theorem mean_skip (o : Fin 64) :
    val_main_v70 (F := Ideal) X0 X1 X12 (ix1 o) = Spline.meanR (fun n o => val_main_v67 (F := Ideal) X0 X1 X12 (ix2 n o)) o := by
  rw [val_main_v70_apply, val_main_v68_apply, val_main_v69_apply]
  show Ideal.div (Ideal.ofBits .f32 0x00000000#32 + _) (Ideal.ofBits .f32 0x47435000#32) = _
  rw [SplineConsts.ofBits_zero]
  unfold Spline.meanR
  refine congrArg (fun t => Ideal.div ((0 : EReal) + t) Spline.cN) (Finset.sum_congr rfl fun k _ => ?_)
  exact congrArg _ (funext fun a => by match a with | ⟨0, _⟩ => rfl | ⟨1, _⟩ => rfl)

-- The column variance: the mean of the squared deviations from the column mean.
theorem var_skip (o : Fin 64) :
    val_main_v77 (F := Ideal) X0 X1 X12 (ix1 o) = Spline.varR (fun n o => val_main_v67 (F := Ideal) X0 X1 X12 (ix2 n o)) o := by
  rw [val_main_v77_apply, val_main_v75_apply, val_main_v76_apply]
  show Ideal.div (Ideal.ofBits .f32 0x00000000#32 + _) (Ideal.ofBits .f32 0x47435000#32) = _
  rw [SplineConsts.ofBits_zero]
  unfold Spline.varR
  refine congrArg (fun t => Ideal.div ((0 : EReal) + t) Spline.cN) (Finset.sum_congr rfl fun k _ => ?_)
  rw [(show idx_main_v75 (ix1 o) k = ix2 k o from eq_ix2 _), val_main_v74_apply, val_main_v73_apply, val_main_v72_apply, val_main_v71_apply,
    (show idx_main_v71 (idx_main_v72 (ix2 k o)) = ix1 o from eq_ix1 _), mean_skip]
  rfl

-- Normalise, scale and shift: ((y − mean) · rsqrt(var + eps)) · scale + shift.
theorem bn_skip (n : Fin 50000) (o : Fin 64) :
    val_main_v92 (F := Ideal) X0 X1 X12 X13 X14 (ix2 n o) = Spline.bnR (fun n o => val_main_v67 (F := Ideal) X0 X1 X12 (ix2 n o)) (Spline.v1 X13) (Spline.v1 X14) n o := by
  rw [val_main_v92_apply, val_main_v89_apply, val_main_v86_apply, val_main_v80_apply, val_main_v79_apply, val_main_v78_apply,
    val_main_v85_apply, val_main_v84_apply, val_main_v88_apply, val_main_v87_apply, val_main_v91_apply, val_main_v90_apply,
    (show idx_main_v78 (idx_main_v79 (ix2 n o)) = ix1 o from eq_ix1 _), (show idx_main_v84 (idx_main_v85 (ix2 n o)) = ix1 o from eq_ix1 _),
    (show idx_main_v87 (idx_main_v88 (ix2 n o)) = ix1 o from eq_ix1 _), (show idx_main_v90 (idx_main_v91 (ix2 n o)) = ix1 o from eq_ix1 _),
    mean_skip, val_main_v83_apply, val_main_v82_apply, var_skip, val_main_v81_apply]
  rfl

theorem skip_value (n : Fin 50000) (o : Fin 64) :
    val_main_v92 (F := Ideal) X0 X1 X12 X13 X14 (ix2 n o) = Spline.skipR X0 X1 X12 X13 X14 n o := by
  rw [bn_skip]
  have hy : (fun n o => val_main_v67 (F := Ideal) X0 X1 X12 (ix2 n o)) = Spline.mm (Spline.xinF X0 X1) (Spline.m2 X12) := by
    funext n o; exact v67_apply X0 X1 X12 n o
  rw [hy]
  rfl

end Cert.ReferenceIdeal.RefValue

end
-- ==== Proof.RefValueB.lean ====
import proofs.«412279_j89026082111590_3_alg».proof.Proof.Spec
import proofs.«412279_j89026082111590_3_alg».proof.Proof.SpecInputs
import proofs.«412279_j89026082111590_3_alg».proof.Proof.RefRead
import proofs.«412279_j89026082111590_3_alg».proof.Proof.Consts
import proofs.«412279_j89026082111590_3_alg».proof.Proof.ScatterGather
import proofs.«412279_j89026082111590_3_alg».proof.Proof.RefValueA
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx
open scoped BigOperators

variable (X0 : S50000x30.Idx → EReal) (X1 : S50000x2.Idx → EReal) (X2 : S800000x2.Idx → EReal)
  (X3 : S2x800000.Idx → BitVec 32) (X4 : S25x32x64.Idx → EReal) (X5 : S32x64.Idx → EReal)
  (X6 X7 : S64.Idx → EReal) (X8 : S25x64x64.Idx → EReal) (X9 : S64x64.Idx → EReal)
  (X10 X11 : S64.Idx → EReal) (X12 : S32x64.Idx → EReal) (X13 X14 : S64.Idx → EReal)

theorem wrap_select (w : BitVec 32) :
    Scalar.select (IntOp.cmpi .slt w 0#32) (IntOp.addi w 50000#32) w = if w.toInt < 0 then w + 50000#32 else w := by
  show Scalar.select (BitVec.ofBool (w.slt 0#32)) (IntOp.addi w 50000#32) w = _
  by_cases h : w.toInt < 0
  · have hs : w.slt 0#32 = true := by
      rw [BitVec.slt_eq_decide, BitVec.toInt_zero]; exact decide_eq_true h
    rw [hs, if_pos h]; rfl
  · have hs : w.slt 0#32 = false := by
      rw [BitVec.slt_eq_decide, BitVec.toInt_zero]; exact decide_eq_false h
    rw [hs, if_neg h]; rfl

theorem src_word (e : Fin 800000) : val_main_v1 (F := Ideal) X3 (ix1 e) = Spline.srcW X3 e := by
  rw [val_main_v1_apply, val_main_v0_apply]
  unfold Spline.srcW
  refine congrArg X3 (funext fun a => Fin.ext ?_)
  match a with
  | ⟨0, _⟩ => rfl
  | ⟨1, _⟩ => show e.val % 800000 = e.val; exact Nat.mod_eq_of_lt e.isLt

theorem dst_word (e : Fin 800000) : val_main_v3 (F := Ideal) X3 (ix1 e) = Spline.dstW X3 e := by
  rw [val_main_v3_apply, val_main_v2_apply]
  unfold Spline.dstW
  refine congrArg X3 (funext fun a => Fin.ext ?_)
  match a with
  | ⟨0, _⟩ => rfl
  | ⟨1, _⟩ => show e.val % 800000 = e.val; exact Nat.mod_eq_of_lt e.isLt

theorem srcIdx_c1 (e : Fin 800000) :
    val_main_v98 (F := Ideal) X3 (ix2 e (0 : Fin 1))
      = (if (Spline.srcW X3 e).toInt < 0 then Spline.srcW X3 e + 50000#32 else Spline.srcW X3 e) := by
  rw [val_main_v98_apply]
  have e1 : idx_main_v98 (ix2 e (0 : Fin 1)) = ix1 e := eq_ix1 _
  rw [e1, val_main_v97_apply, val_main_v94_apply, val_main_v96_apply, src_word, val_main_v93_apply, val_main_v95_apply, val_main_c_15_apply, val_main_c_16_apply]
  exact wrap_select _

theorem gather_c1 (e : Fin 800000) (c : Fin 32) :
    val_main_v99 (F := Ideal) X0 X1 X3 (ix2 e c) = val_main_v66 (F := Ideal) X0 X1 (ix2 (Spline.gIdx (Spline.srcW X3 e)) c) := by
  unfold val_main_v99
  generalize val_main_v66 (F := Ideal) X0 X1 = y
  refine (SplineSG.rows_gather_apply (R := 50000) (C := 32) (E := 800000) (by decide) gather_S50000x32_S800000x1_S800000x32_1_0_n_n_0_1_132
    rfl rfl rfl rfl rfl rfl rfl y (val_main_v98 (F := Ideal) X3) e c).trans ?_
  refine congrArg (fun r => y (ix2 r c)) (Fin.ext ?_)
  show min (val_main_v98 (F := Ideal) X3 (ix2 e (0 : Fin 1))).toInt.toNat (50000 - 1) = (Spline.gIdx (Spline.srcW X3 e)).val
  rw [srcIdx_c1]
  rfl

theorem upd0_c1 (e : Fin 800000) (c : Fin 32) :
    val_main_v103 (F := Ideal) X0 X1 X2 X3 (ix2 e c) = Spline.xg X3 (Spline.xinF X0 X1) e c * Spline.basisF X2 e 0 := by
  rw [val_main_v103_apply, gather_c1, v66_apply, val_main_v102_apply, val_main_v101_apply,
    (show idx_main_v101 (idx_main_v102 (ix2 e c)) = ix2 e (0 : Fin 4) from eq_ix2 _)]
  rfl

theorem slot0_c1 (e : Fin 800000) :
    val_main_v110 (F := Ideal) X2 X3 (ix2 e (0 : Fin 1)) = Spline.slot (Spline.dstW X3) (Spline.wiF X2) 0 e := by
  rw [val_main_v110_apply]
  have e1 : idx_main_v110 (ix2 e (0 : Fin 1)) = ix1 e := eq_ix1 _
  rw [e1, val_main_v108_apply, val_main_v105_apply, dst_word, val_main_v104_apply, val_main_c_18_apply, val_main_v107_apply, val_main_v106_apply]
  have e2 : idx_main_v106 (idx_main_v107 (ix1 e)) = ix2 e (0 : Fin 4) := funext fun a => Fin.ext (by
    match a with
    | ⟨0, _⟩ => exact Nat.div_one _
    | ⟨1, _⟩ => rfl)
  rw [e2]
  rfl

theorem scat0_c1 (r : Fin 1250000) (c : Fin 32) :
    val_main_v111 (F := Ideal) X0 X1 X2 X3 (ix2 r c)
      = Spline.scat (Spline.slot (Spline.dstW X3) (Spline.wiF X2) 0)
          (fun e c => Spline.xg X3 (Spline.xinF X0 X1) e c * Spline.basisF X2 e 0) r c := by
  unfold val_main_v111
  refine (SplineSG.rows_host_scatterAdd_apply (R := 1250000) (C := 32) (E := 800000) (φ := .f32) scatter_S1250000x32_S800000x1_S800000x32_1_0_0_1
    rfl rfl rfl rfl _ _ _ r c).trans ?_
  rw [val_main_v109_apply, val_main_cst_19_apply]
  show Ideal.ofBits .f32 0x00000000#32 + _ = _
  rw [SplineConsts.ofBits_zero]
  unfold Spline.scat
  simp only [slot0_c1, upd0_c1]

theorem upd1_c1 (e : Fin 800000) (c : Fin 32) :
    val_main_v115 (F := Ideal) X0 X1 X2 X3 (ix2 e c) = Spline.xg X3 (Spline.xinF X0 X1) e c * Spline.basisF X2 e 1 := by
  rw [val_main_v115_apply, gather_c1, v66_apply, val_main_v114_apply, val_main_v113_apply,
    (show idx_main_v113 (idx_main_v114 (ix2 e c)) = ix2 e (1 : Fin 4) from eq_ix2 _)]
  rfl

theorem slot1_c1 (e : Fin 800000) :
    val_main_v122 (F := Ideal) X2 X3 (ix2 e (0 : Fin 1)) = Spline.slot (Spline.dstW X3) (Spline.wiF X2) 1 e := by
  rw [val_main_v122_apply]
  have e1 : idx_main_v122 (ix2 e (0 : Fin 1)) = ix1 e := eq_ix1 _
  rw [e1, val_main_v120_apply, val_main_v117_apply, dst_word, val_main_v116_apply, val_main_c_20_apply, val_main_v119_apply, val_main_v118_apply]
  have e2 : idx_main_v118 (idx_main_v119 (ix1 e)) = ix2 e (1 : Fin 4) := funext fun a => Fin.ext (by
    match a with
    | ⟨0, _⟩ => exact Nat.div_one _
    | ⟨1, _⟩ => rfl)
  rw [e2]
  rfl

theorem scat1_c1 (r : Fin 1250000) (c : Fin 32) :
    val_main_v123 (F := Ideal) X0 X1 X2 X3 (ix2 r c)
      = Spline.scat (Spline.slot (Spline.dstW X3) (Spline.wiF X2) 1)
          (fun e c => Spline.xg X3 (Spline.xinF X0 X1) e c * Spline.basisF X2 e 1) r c := by
  unfold val_main_v123
  refine (SplineSG.rows_host_scatterAdd_apply (R := 1250000) (C := 32) (E := 800000) (φ := .f32) scatter_S1250000x32_S800000x1_S800000x32_1_0_0_1
    rfl rfl rfl rfl _ _ _ r c).trans ?_
  rw [val_main_v121_apply, val_main_cst_21_apply]
  show Ideal.ofBits .f32 0x00000000#32 + _ = _
  rw [SplineConsts.ofBits_zero]
  unfold Spline.scat
  simp only [slot1_c1, upd1_c1]

theorem upd2_c1 (e : Fin 800000) (c : Fin 32) :
    val_main_v127 (F := Ideal) X0 X1 X2 X3 (ix2 e c) = Spline.xg X3 (Spline.xinF X0 X1) e c * Spline.basisF X2 e 2 := by
  rw [val_main_v127_apply, gather_c1, v66_apply, val_main_v126_apply, val_main_v125_apply,
    (show idx_main_v125 (idx_main_v126 (ix2 e c)) = ix2 e (2 : Fin 4) from eq_ix2 _)]
  rfl

theorem slot2_c1 (e : Fin 800000) :
    val_main_v134 (F := Ideal) X2 X3 (ix2 e (0 : Fin 1)) = Spline.slot (Spline.dstW X3) (Spline.wiF X2) 2 e := by
  rw [val_main_v134_apply]
  have e1 : idx_main_v134 (ix2 e (0 : Fin 1)) = ix1 e := eq_ix1 _
  rw [e1, val_main_v132_apply, val_main_v129_apply, dst_word, val_main_v128_apply, val_main_c_22_apply, val_main_v131_apply, val_main_v130_apply]
  have e2 : idx_main_v130 (idx_main_v131 (ix1 e)) = ix2 e (2 : Fin 4) := funext fun a => Fin.ext (by
    match a with
    | ⟨0, _⟩ => exact Nat.div_one _
    | ⟨1, _⟩ => rfl)
  rw [e2]
  rfl

theorem scat2_c1 (r : Fin 1250000) (c : Fin 32) :
    val_main_v135 (F := Ideal) X0 X1 X2 X3 (ix2 r c)
      = Spline.scat (Spline.slot (Spline.dstW X3) (Spline.wiF X2) 2)
          (fun e c => Spline.xg X3 (Spline.xinF X0 X1) e c * Spline.basisF X2 e 2) r c := by
  unfold val_main_v135
  refine (SplineSG.rows_host_scatterAdd_apply (R := 1250000) (C := 32) (E := 800000) (φ := .f32) scatter_S1250000x32_S800000x1_S800000x32_1_0_0_1
    rfl rfl rfl rfl _ _ _ r c).trans ?_
  rw [val_main_v133_apply, val_main_cst_23_apply]
  show Ideal.ofBits .f32 0x00000000#32 + _ = _
  rw [SplineConsts.ofBits_zero]
  unfold Spline.scat
  simp only [slot2_c1, upd2_c1]

theorem upd3_c1 (e : Fin 800000) (c : Fin 32) :
    val_main_v139 (F := Ideal) X0 X1 X2 X3 (ix2 e c) = Spline.xg X3 (Spline.xinF X0 X1) e c * Spline.basisF X2 e 3 := by
  rw [val_main_v139_apply, gather_c1, v66_apply, val_main_v138_apply, val_main_v137_apply,
    (show idx_main_v137 (idx_main_v138 (ix2 e c)) = ix2 e (3 : Fin 4) from eq_ix2 _)]
  rfl

theorem slot3_c1 (e : Fin 800000) :
    val_main_v146 (F := Ideal) X2 X3 (ix2 e (0 : Fin 1)) = Spline.slot (Spline.dstW X3) (Spline.wiF X2) 3 e := by
  rw [val_main_v146_apply]
  have e1 : idx_main_v146 (ix2 e (0 : Fin 1)) = ix1 e := eq_ix1 _
  rw [e1, val_main_v144_apply, val_main_v141_apply, dst_word, val_main_v140_apply, val_main_c_24_apply, val_main_v143_apply, val_main_v142_apply]
  have e2 : idx_main_v142 (idx_main_v143 (ix1 e)) = ix2 e (3 : Fin 4) := funext fun a => Fin.ext (by
    match a with
    | ⟨0, _⟩ => exact Nat.div_one _
    | ⟨1, _⟩ => rfl)
  rw [e2]
  rfl

theorem scat3_c1 (r : Fin 1250000) (c : Fin 32) :
    val_main_v147 (F := Ideal) X0 X1 X2 X3 (ix2 r c)
      = Spline.scat (Spline.slot (Spline.dstW X3) (Spline.wiF X2) 3)
          (fun e c => Spline.xg X3 (Spline.xinF X0 X1) e c * Spline.basisF X2 e 3) r c := by
  unfold val_main_v147
  refine (SplineSG.rows_host_scatterAdd_apply (R := 1250000) (C := 32) (E := 800000) (φ := .f32) scatter_S1250000x32_S800000x1_S800000x32_1_0_0_1
    rfl rfl rfl rfl _ _ _ r c).trans ?_
  rw [val_main_v145_apply, val_main_cst_25_apply]
  show Ideal.ofBits .f32 0x00000000#32 + _ = _
  rw [SplineConsts.ofBits_zero]
  unfold Spline.scat
  simp only [slot3_c1, upd3_c1]

theorem acc_c1 (r : Fin 1250000) (c : Fin 32) :
    val_main_v148 (F := Ideal) X0 X1 X2 X3 (ix2 r c) = (Spline.acc (Spline.dstW X3) (Spline.wiF X2) (Spline.xg X3 (Spline.xinF X0 X1)) (Spline.basisF X2)) r c := by
  rw [val_main_v148_apply, val_main_v136_apply, val_main_v124_apply, val_main_v112_apply, val_main_v100_apply, val_main_cst_17_apply,
    scat0_c1, scat1_c1, scat2_c1, scat3_c1]
  show ((((Ideal.ofBits .f32 0x00000000#32 + _) + _) + _) + _ : EReal) = _
  rw [SplineConsts.ofBits_zero]
  rfl

theorem accRow_c1 (n : Fin 50000) (j : Fin 800) :
    val_main_v149 (F := Ideal) X0 X1 X2 X3 (ix2 n j) = Spline.accRow (by decide : 0 < 32) (Spline.acc (Spline.dstW X3) (Spline.wiF X2) (Spline.xg X3 (Spline.xinF X0 X1)) (Spline.basisF X2)) n j := by
  rw [val_main_v149_apply]
  have e1 : idx_main_v149 (ix2 n j)
      = ix2 (⟨25 * n.val + j.val / 32, by have := n.isLt; have := j.isLt; omega⟩ : Fin 1250000)
          (⟨j.val % 32, Nat.mod_lt _ (by decide)⟩ : Fin 32) :=
    funext fun a => Fin.ext (by
      match a with
      | ⟨0, _⟩ => show (n.val * 800 + j.val) / 32 = 25 * n.val + j.val / 32; omega
      | ⟨1, _⟩ => show (n.val * 800 + j.val) % 32 = j.val % 32; omega)
  rw [e1, acc_c1]
  rfl

theorem wFlat_c1 (j : Fin 800) (o : Fin 64) :
    val_main_v150 (F := Ideal) X4 (ix2 j o) = Spline.wFlat (by decide : 0 < 32) (Spline.w3 X4) j o := by
  rw [val_main_v150_apply]
  unfold Spline.wFlat Spline.w3
  refine congrArg X4 (funext fun a => Fin.ext ?_)
  have := o.isLt
  have := j.isLt
  match a with
  | ⟨0, _⟩ => show (j.val * 64 + o.val) / 2048 = j.val / 32; omega
  | ⟨1, _⟩ => show (j.val * 64 + o.val) / 64 % 32 = j.val % 32; omega
  | ⟨2, _⟩ => show (j.val * 64 + o.val) % 64 = o.val; omega

theorem contr_c1 (n : Fin 50000) (o : Fin 64) :
    val_main_v151 (F := Ideal) X0 X1 X2 X3 X4 (ix2 n o)
      = ∑ j : Fin 800, Spline.accRow (by decide : 0 < 32) (Spline.acc (Spline.dstW X3) (Spline.wiF X2) (Spline.xg X3 (Spline.xinF X0 X1)) (Spline.basisF X2)) n j * Spline.wFlat (by decide : 0 < 32) (Spline.w3 X4) j o := by
  rw [val_main_v151_apply]
  refine Finset.sum_congr rfl fun k _ => ?_
  have e1 : lidx_main_v151 (ix2 n o) k = ix2 n k := eq_ix2 _
  have e2 : ridx_main_v151 (ix2 n o) k = ix2 k o := eq_ix2 _
  rw [e1, e2, accRow_c1, wFlat_c1]

theorem dstIdx_c1 (e : Fin 800000) :
    val_main_v154 (F := Ideal) X3 (ix2 e (0 : Fin 1)) = Spline.dstW X3 e := by
  rw [val_main_v154_apply]
  have e1 : idx_main_v154 (ix2 e (0 : Fin 1)) = ix1 e := eq_ix1 _
  rw [e1, dst_word]

theorem ones_c1 (e : Fin 800000) : val_main_v152 (F := Ideal) (ix1 e) = 1 := by
  rw [val_main_v152_apply, val_main_cst_26_apply]
  exact SplineConsts.ofBits_one

theorem deg_c1 (n : Fin 50000) : val_main_v155 (F := Ideal) X3 (ix1 n) = Spline.deg (Spline.dstW X3) n := by
  unfold val_main_v155
  refine (SplineSG.flat_host_scatterAdd_apply (R := 50000) (E := 800000) (φ := .f32) scatter_S50000_S800000x1_S800000_n_0_0_1
    rfl rfl rfl rfl _ _ _ n).trans ?_
  rw [val_main_v153_apply, val_main_cst_27_apply]
  show Ideal.ofBits .f32 0x00000000#32 + _ = _
  rw [SplineConsts.ofBits_zero]
  unfold Spline.deg
  simp only [dstIdx_c1, ones_c1]

theorem degMaxRows_c1 (n : Fin 50000) (o : Fin 64) :
    val_main_v159 (F := Ideal) X3 (ix2 n o) = Spline.degMax (Spline.dstW X3) n := by
  rw [val_main_v159_apply, val_main_v158_apply]
  have e1 : idx_main_v158 (idx_main_v159 (ix2 n o)) = ix1 n := eq_ix1 _
  rw [e1, val_main_v157_apply, deg_c1, val_main_v156_apply, val_main_cst_28_apply]
  show max _ (Ideal.ofBits .f32 0x3F800000#32) = _
  rw [SplineConsts.ofBits_one]
  rfl

theorem root_c1 (n : Fin 50000) (o : Fin 64) :
    val_main_v161 (F := Ideal) X0 X1 X5 (ix2 n o) = ∑ k : Fin 32, (Spline.xinF X0 X1) n k * Spline.m2 X5 k o := by
  rw [val_main_v161_apply]
  refine Finset.sum_congr rfl fun k _ => ?_
  have e1 : lidx_main_v161 (ix2 n o) k = ix2 n k := eq_ix2 _
  have e2 : ridx_main_v161 (ix2 n o) k = ix2 k o := eq_ix2 _
  rw [e1, e2, v66_apply]
  rfl

theorem conv_c1 (n : Fin 50000) (o : Fin 64) :
    val_main_v162 (F := Ideal) X0 X1 X2 X3 X4 X5 (ix2 n o)
      = Spline.convR (by decide : 0 < 32) (Spline.dstW X3) (Spline.wiF X2) (Spline.basisF X2) (Spline.xg X3 (Spline.xinF X0 X1)) (Spline.xinF X0 X1)
          (Spline.w3 X4) (Spline.m2 X5) n o := by
  rw [val_main_v162_apply, val_main_v160_apply, contr_c1, degMaxRows_c1, root_c1]
  rfl

theorem mean_h1 (o : Fin 64) :
    val_main_v165 (F := Ideal) X0 X1 X2 X3 X4 X5 (ix1 o) = Spline.meanR (fun n o => val_main_v162 (F := Ideal) X0 X1 X2 X3 X4 X5 (ix2 n o)) o := by
  rw [val_main_v165_apply, val_main_v163_apply, val_main_v164_apply]
  show Ideal.div (Ideal.ofBits .f32 0x00000000#32 + _) (Ideal.ofBits .f32 0x47435000#32) = _
  rw [SplineConsts.ofBits_zero]
  unfold Spline.meanR
  refine congrArg (fun t => Ideal.div ((0 : EReal) + t) Spline.cN) (Finset.sum_congr rfl fun k _ => ?_)
  exact congrArg _ (funext fun a => by match a with | ⟨0, _⟩ => rfl | ⟨1, _⟩ => rfl)

-- The column variance: the mean of the squared deviations from the column mean.
theorem var_h1 (o : Fin 64) :
    val_main_v172 (F := Ideal) X0 X1 X2 X3 X4 X5 (ix1 o) = Spline.varR (fun n o => val_main_v162 (F := Ideal) X0 X1 X2 X3 X4 X5 (ix2 n o)) o := by
  rw [val_main_v172_apply, val_main_v170_apply, val_main_v171_apply]
  show Ideal.div (Ideal.ofBits .f32 0x00000000#32 + _) (Ideal.ofBits .f32 0x47435000#32) = _
  rw [SplineConsts.ofBits_zero]
  unfold Spline.varR
  refine congrArg (fun t => Ideal.div ((0 : EReal) + t) Spline.cN) (Finset.sum_congr rfl fun k _ => ?_)
  rw [(show idx_main_v170 (ix1 o) k = ix2 k o from eq_ix2 _), val_main_v169_apply, val_main_v168_apply, val_main_v167_apply, val_main_v166_apply,
    (show idx_main_v166 (idx_main_v167 (ix2 k o)) = ix1 o from eq_ix1 _), mean_h1]
  rfl

-- Normalise, scale and shift: ((y − mean) · rsqrt(var + eps)) · scale + shift.
theorem bn_h1 (n : Fin 50000) (o : Fin 64) :
    val_main_v187 (F := Ideal) X0 X1 X2 X3 X4 X5 X6 X7 (ix2 n o) = Spline.bnR (fun n o => val_main_v162 (F := Ideal) X0 X1 X2 X3 X4 X5 (ix2 n o)) (Spline.v1 X6) (Spline.v1 X7) n o := by
  rw [val_main_v187_apply, val_main_v184_apply, val_main_v181_apply, val_main_v175_apply, val_main_v174_apply, val_main_v173_apply,
    val_main_v180_apply, val_main_v179_apply, val_main_v183_apply, val_main_v182_apply, val_main_v186_apply, val_main_v185_apply,
    (show idx_main_v173 (idx_main_v174 (ix2 n o)) = ix1 o from eq_ix1 _), (show idx_main_v179 (idx_main_v180 (ix2 n o)) = ix1 o from eq_ix1 _),
    (show idx_main_v182 (idx_main_v183 (ix2 n o)) = ix1 o from eq_ix1 _), (show idx_main_v185 (idx_main_v186 (ix2 n o)) = ix1 o from eq_ix1 _),
    mean_h1, val_main_v178_apply, val_main_v177_apply, var_h1, val_main_v176_apply]
  rfl

theorem y1_fun : (fun n o => val_main_v162 (F := Ideal) X0 X1 X2 X3 X4 X5 (ix2 n o)) = Spline.y1R X0 X1 X2 X3 X4 X5 := by
  funext n o
  exact conv_c1 X0 X1 X2 X3 X4 X5 n o

theorem h1_value (n : Fin 50000) (o : Fin 64) :
    val_main_v188 (F := Ideal) X0 X1 X2 X3 X4 X5 X6 X7 (ix2 n o) = Spline.h1R X0 X1 X2 X3 X4 X5 X6 X7 n o := by
  rw [val_main_v188_apply, bn_h1, y1_fun, val_main_call1_v0_apply, val_main_call1_cst_apply]
  show max _ (Ideal.ofBits .f32 0x00000000#32) = _
  rw [SplineConsts.ofBits_zero]
  rfl

end Cert.ReferenceIdeal.RefValue

end
-- ==== Proof.RefValueC.lean ====
import proofs.«412279_j89026082111590_3_alg».proof.Proof.Spec
import proofs.«412279_j89026082111590_3_alg».proof.Proof.SpecInputs
import proofs.«412279_j89026082111590_3_alg».proof.Proof.RefRead
import proofs.«412279_j89026082111590_3_alg».proof.Proof.Consts
import proofs.«412279_j89026082111590_3_alg».proof.Proof.ScatterGather
import proofs.«412279_j89026082111590_3_alg».proof.Proof.RefValueA
import proofs.«412279_j89026082111590_3_alg».proof.Proof.RefValueB
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx
open scoped BigOperators

variable (X0 : S50000x30.Idx → EReal) (X1 : S50000x2.Idx → EReal) (X2 : S800000x2.Idx → EReal)
  (X3 : S2x800000.Idx → BitVec 32) (X4 : S25x32x64.Idx → EReal) (X5 : S32x64.Idx → EReal)
  (X6 X7 : S64.Idx → EReal) (X8 : S25x64x64.Idx → EReal) (X9 : S64x64.Idx → EReal)
  (X10 X11 : S64.Idx → EReal) (X12 : S32x64.Idx → EReal) (X13 X14 : S64.Idx → EReal)

-- The second layer forms its index words, slots and degrees from the same inputs by the same operations as the first.
theorem srcIdx_c2 (e : Fin 800000) :
    val_main_v194 (F := Ideal) X3 (ix2 e (0 : Fin 1))
      = (if (Spline.srcW X3 e).toInt < 0 then Spline.srcW X3 e + 50000#32 else Spline.srcW X3 e) :=
  srcIdx_c1 X3 e

theorem gather_c2 (e : Fin 800000) (c : Fin 64) :
    val_main_v195 (F := Ideal) X0 X1 X2 X3 X4 X5 X6 X7 (ix2 e c) = val_main_v188 (F := Ideal) X0 X1 X2 X3 X4 X5 X6 X7 (ix2 (Spline.gIdx (Spline.srcW X3 e)) c) := by
  unfold val_main_v195
  generalize val_main_v188 (F := Ideal) X0 X1 X2 X3 X4 X5 X6 X7 = y
  refine (SplineSG.rows_gather_apply (R := 50000) (C := 64) (E := 800000) (by decide) gather_S50000x64_S800000x1_S800000x64_1_0_n_n_0_1_164
    rfl rfl rfl rfl rfl rfl rfl y (val_main_v194 (F := Ideal) X3) e c).trans ?_
  refine congrArg (fun r => y (ix2 r c)) (Fin.ext ?_)
  show min (val_main_v194 (F := Ideal) X3 (ix2 e (0 : Fin 1))).toInt.toNat (50000 - 1) = (Spline.gIdx (Spline.srcW X3 e)).val
  rw [srcIdx_c2]
  rfl

theorem upd0_c2 (e : Fin 800000) (c : Fin 64) :
    val_main_v199 (F := Ideal) X0 X1 X2 X3 X4 X5 X6 X7 (ix2 e c) = Spline.xg X3 (Spline.h1R X0 X1 X2 X3 X4 X5 X6 X7) e c * Spline.basisF X2 e 0 := by
  rw [val_main_v199_apply, gather_c2, h1_value, val_main_v198_apply, val_main_v197_apply,
    (show idx_main_v197 (idx_main_v198 (ix2 e c)) = ix2 e (0 : Fin 4) from eq_ix2 _)]
  rfl

theorem slot0_c2 (e : Fin 800000) :
    val_main_v206 (F := Ideal) X2 X3 (ix2 e (0 : Fin 1)) = Spline.slot (Spline.dstW X3) (Spline.wiF X2) 0 e :=
  slot0_c1 X2 X3 e

theorem scat0_c2 (r : Fin 1250000) (c : Fin 64) :
    val_main_v207 (F := Ideal) X0 X1 X2 X3 X4 X5 X6 X7 (ix2 r c)
      = Spline.scat (Spline.slot (Spline.dstW X3) (Spline.wiF X2) 0)
          (fun e c => Spline.xg X3 (Spline.h1R X0 X1 X2 X3 X4 X5 X6 X7) e c * Spline.basisF X2 e 0) r c := by
  unfold val_main_v207
  refine (SplineSG.rows_host_scatterAdd_apply (R := 1250000) (C := 64) (E := 800000) (φ := .f32) scatter_S1250000x64_S800000x1_S800000x64_1_0_0_1
    rfl rfl rfl rfl _ _ _ r c).trans ?_
  rw [val_main_v205_apply, val_main_cst_38_apply]
  show Ideal.ofBits .f32 0x00000000#32 + _ = _
  rw [SplineConsts.ofBits_zero]
  unfold Spline.scat
  simp only [slot0_c2, upd0_c2]

theorem upd1_c2 (e : Fin 800000) (c : Fin 64) :
    val_main_v211 (F := Ideal) X0 X1 X2 X3 X4 X5 X6 X7 (ix2 e c) = Spline.xg X3 (Spline.h1R X0 X1 X2 X3 X4 X5 X6 X7) e c * Spline.basisF X2 e 1 := by
  rw [val_main_v211_apply, gather_c2, h1_value, val_main_v210_apply, val_main_v209_apply,
    (show idx_main_v209 (idx_main_v210 (ix2 e c)) = ix2 e (1 : Fin 4) from eq_ix2 _)]
  rfl

theorem slot1_c2 (e : Fin 800000) :
    val_main_v218 (F := Ideal) X2 X3 (ix2 e (0 : Fin 1)) = Spline.slot (Spline.dstW X3) (Spline.wiF X2) 1 e :=
  slot1_c1 X2 X3 e

theorem scat1_c2 (r : Fin 1250000) (c : Fin 64) :
    val_main_v219 (F := Ideal) X0 X1 X2 X3 X4 X5 X6 X7 (ix2 r c)
      = Spline.scat (Spline.slot (Spline.dstW X3) (Spline.wiF X2) 1)
          (fun e c => Spline.xg X3 (Spline.h1R X0 X1 X2 X3 X4 X5 X6 X7) e c * Spline.basisF X2 e 1) r c := by
  unfold val_main_v219
  refine (SplineSG.rows_host_scatterAdd_apply (R := 1250000) (C := 64) (E := 800000) (φ := .f32) scatter_S1250000x64_S800000x1_S800000x64_1_0_0_1
    rfl rfl rfl rfl _ _ _ r c).trans ?_
  rw [val_main_v217_apply, val_main_cst_40_apply]
  show Ideal.ofBits .f32 0x00000000#32 + _ = _
  rw [SplineConsts.ofBits_zero]
  unfold Spline.scat
  simp only [slot1_c2, upd1_c2]

theorem upd2_c2 (e : Fin 800000) (c : Fin 64) :
    val_main_v223 (F := Ideal) X0 X1 X2 X3 X4 X5 X6 X7 (ix2 e c) = Spline.xg X3 (Spline.h1R X0 X1 X2 X3 X4 X5 X6 X7) e c * Spline.basisF X2 e 2 := by
  rw [val_main_v223_apply, gather_c2, h1_value, val_main_v222_apply, val_main_v221_apply,
    (show idx_main_v221 (idx_main_v222 (ix2 e c)) = ix2 e (2 : Fin 4) from eq_ix2 _)]
  rfl

theorem slot2_c2 (e : Fin 800000) :
    val_main_v230 (F := Ideal) X2 X3 (ix2 e (0 : Fin 1)) = Spline.slot (Spline.dstW X3) (Spline.wiF X2) 2 e :=
  slot2_c1 X2 X3 e

theorem scat2_c2 (r : Fin 1250000) (c : Fin 64) :
    val_main_v231 (F := Ideal) X0 X1 X2 X3 X4 X5 X6 X7 (ix2 r c)
      = Spline.scat (Spline.slot (Spline.dstW X3) (Spline.wiF X2) 2)
          (fun e c => Spline.xg X3 (Spline.h1R X0 X1 X2 X3 X4 X5 X6 X7) e c * Spline.basisF X2 e 2) r c := by
  unfold val_main_v231
  refine (SplineSG.rows_host_scatterAdd_apply (R := 1250000) (C := 64) (E := 800000) (φ := .f32) scatter_S1250000x64_S800000x1_S800000x64_1_0_0_1
    rfl rfl rfl rfl _ _ _ r c).trans ?_
  rw [val_main_v229_apply, val_main_cst_42_apply]
  show Ideal.ofBits .f32 0x00000000#32 + _ = _
  rw [SplineConsts.ofBits_zero]
  unfold Spline.scat
  simp only [slot2_c2, upd2_c2]

theorem upd3_c2 (e : Fin 800000) (c : Fin 64) :
    val_main_v235 (F := Ideal) X0 X1 X2 X3 X4 X5 X6 X7 (ix2 e c) = Spline.xg X3 (Spline.h1R X0 X1 X2 X3 X4 X5 X6 X7) e c * Spline.basisF X2 e 3 := by
  rw [val_main_v235_apply, gather_c2, h1_value, val_main_v234_apply, val_main_v233_apply,
    (show idx_main_v233 (idx_main_v234 (ix2 e c)) = ix2 e (3 : Fin 4) from eq_ix2 _)]
  rfl

theorem slot3_c2 (e : Fin 800000) :
    val_main_v242 (F := Ideal) X2 X3 (ix2 e (0 : Fin 1)) = Spline.slot (Spline.dstW X3) (Spline.wiF X2) 3 e :=
  slot3_c1 X2 X3 e

theorem scat3_c2 (r : Fin 1250000) (c : Fin 64) :
    val_main_v243 (F := Ideal) X0 X1 X2 X3 X4 X5 X6 X7 (ix2 r c)
      = Spline.scat (Spline.slot (Spline.dstW X3) (Spline.wiF X2) 3)
          (fun e c => Spline.xg X3 (Spline.h1R X0 X1 X2 X3 X4 X5 X6 X7) e c * Spline.basisF X2 e 3) r c := by
  unfold val_main_v243
  refine (SplineSG.rows_host_scatterAdd_apply (R := 1250000) (C := 64) (E := 800000) (φ := .f32) scatter_S1250000x64_S800000x1_S800000x64_1_0_0_1
    rfl rfl rfl rfl _ _ _ r c).trans ?_
  rw [val_main_v241_apply, val_main_cst_44_apply]
  show Ideal.ofBits .f32 0x00000000#32 + _ = _
  rw [SplineConsts.ofBits_zero]
  unfold Spline.scat
  simp only [slot3_c2, upd3_c2]

theorem acc_c2 (r : Fin 1250000) (c : Fin 64) :
    val_main_v244 (F := Ideal) X0 X1 X2 X3 X4 X5 X6 X7 (ix2 r c) = (Spline.acc (Spline.dstW X3) (Spline.wiF X2) (Spline.xg X3 (Spline.h1R X0 X1 X2 X3 X4 X5 X6 X7)) (Spline.basisF X2)) r c := by
  rw [val_main_v244_apply, val_main_v232_apply, val_main_v220_apply, val_main_v208_apply, val_main_v196_apply, val_main_cst_36_apply,
    scat0_c2, scat1_c2, scat2_c2, scat3_c2]
  show ((((Ideal.ofBits .f32 0x00000000#32 + _) + _) + _) + _ : EReal) = _
  rw [SplineConsts.ofBits_zero]
  rfl

theorem accRow_c2 (n : Fin 50000) (j : Fin 1600) :
    val_main_v245 (F := Ideal) X0 X1 X2 X3 X4 X5 X6 X7 (ix2 n j) = Spline.accRow (by decide : 0 < 64) (Spline.acc (Spline.dstW X3) (Spline.wiF X2) (Spline.xg X3 (Spline.h1R X0 X1 X2 X3 X4 X5 X6 X7)) (Spline.basisF X2)) n j := by
  rw [val_main_v245_apply]
  have e1 : idx_main_v245 (ix2 n j)
      = ix2 (⟨25 * n.val + j.val / 64, by have := n.isLt; have := j.isLt; omega⟩ : Fin 1250000)
          (⟨j.val % 64, Nat.mod_lt _ (by decide)⟩ : Fin 64) :=
    funext fun a => Fin.ext (by
      match a with
      | ⟨0, _⟩ => show (n.val * 1600 + j.val) / 64 = 25 * n.val + j.val / 64; omega
      | ⟨1, _⟩ => show (n.val * 1600 + j.val) % 64 = j.val % 64; omega)
  rw [e1, acc_c2]
  rfl

theorem wFlat_c2 (j : Fin 1600) (o : Fin 64) :
    val_main_v246 (F := Ideal) X8 (ix2 j o) = Spline.wFlat (by decide : 0 < 64) (Spline.w3 X8) j o := by
  rw [val_main_v246_apply]
  unfold Spline.wFlat Spline.w3
  refine congrArg X8 (funext fun a => Fin.ext ?_)
  have := o.isLt
  have := j.isLt
  match a with
  | ⟨0, _⟩ => show (j.val * 64 + o.val) / 4096 = j.val / 64; omega
  | ⟨1, _⟩ => show (j.val * 64 + o.val) / 64 % 64 = j.val % 64; omega
  | ⟨2, _⟩ => show (j.val * 64 + o.val) % 64 = o.val; omega

theorem contr_c2 (n : Fin 50000) (o : Fin 64) :
    val_main_v247 (F := Ideal) X0 X1 X2 X3 X4 X5 X6 X7 X8 (ix2 n o)
      = ∑ j : Fin 1600, Spline.accRow (by decide : 0 < 64) (Spline.acc (Spline.dstW X3) (Spline.wiF X2) (Spline.xg X3 (Spline.h1R X0 X1 X2 X3 X4 X5 X6 X7)) (Spline.basisF X2)) n j * Spline.wFlat (by decide : 0 < 64) (Spline.w3 X8) j o := by
  rw [val_main_v247_apply]
  refine Finset.sum_congr rfl fun k _ => ?_
  have e1 : lidx_main_v247 (ix2 n o) k = ix2 n k := eq_ix2 _
  have e2 : ridx_main_v247 (ix2 n o) k = ix2 k o := eq_ix2 _
  rw [e1, e2, accRow_c2, wFlat_c2]

theorem dstIdx_c2 (e : Fin 800000) :
    val_main_v250 (F := Ideal) X3 (ix2 e (0 : Fin 1)) = Spline.dstW X3 e :=
  dstIdx_c1 X3 e

theorem ones_c2 (e : Fin 800000) : val_main_v248 (F := Ideal) (ix1 e) = 1 :=
  ones_c1 e

theorem deg_c2 (n : Fin 50000) : val_main_v251 (F := Ideal) X3 (ix1 n) = Spline.deg (Spline.dstW X3) n :=
  deg_c1 X3 n

theorem degMaxRows_c2 (n : Fin 50000) (o : Fin 64) :
    val_main_v255 (F := Ideal) X3 (ix2 n o) = Spline.degMax (Spline.dstW X3) n :=
  degMaxRows_c1 X3 n o

theorem root_c2 (n : Fin 50000) (o : Fin 64) :
    val_main_v257 (F := Ideal) X0 X1 X2 X3 X4 X5 X6 X7 X9 (ix2 n o) = ∑ k : Fin 64, (Spline.h1R X0 X1 X2 X3 X4 X5 X6 X7) n k * Spline.m2 X9 k o := by
  rw [val_main_v257_apply]
  refine Finset.sum_congr rfl fun k _ => ?_
  have e1 : lidx_main_v257 (ix2 n o) k = ix2 n k := eq_ix2 _
  have e2 : ridx_main_v257 (ix2 n o) k = ix2 k o := eq_ix2 _
  rw [e1, e2, h1_value]
  rfl

theorem conv_c2 (n : Fin 50000) (o : Fin 64) :
    val_main_v258 (F := Ideal) X0 X1 X2 X3 X4 X5 X6 X7 X8 X9 (ix2 n o)
      = Spline.convR (by decide : 0 < 64) (Spline.dstW X3) (Spline.wiF X2) (Spline.basisF X2) (Spline.xg X3 (Spline.h1R X0 X1 X2 X3 X4 X5 X6 X7)) (Spline.h1R X0 X1 X2 X3 X4 X5 X6 X7)
          (Spline.w3 X8) (Spline.m2 X9) n o := by
  rw [val_main_v258_apply, val_main_v256_apply, contr_c2, degMaxRows_c2, root_c2]
  rfl

theorem mean_y2 (o : Fin 64) :
    val_main_v261 (F := Ideal) X0 X1 X2 X3 X4 X5 X6 X7 X8 X9 (ix1 o) = Spline.meanR (fun n o => val_main_v258 (F := Ideal) X0 X1 X2 X3 X4 X5 X6 X7 X8 X9 (ix2 n o)) o := by
  rw [val_main_v261_apply, val_main_v259_apply, val_main_v260_apply]
  show Ideal.div (Ideal.ofBits .f32 0x00000000#32 + _) (Ideal.ofBits .f32 0x47435000#32) = _
  rw [SplineConsts.ofBits_zero]
  unfold Spline.meanR
  refine congrArg (fun t => Ideal.div ((0 : EReal) + t) Spline.cN) (Finset.sum_congr rfl fun k _ => ?_)
  exact congrArg _ (funext fun a => by match a with | ⟨0, _⟩ => rfl | ⟨1, _⟩ => rfl)

-- The column variance: the mean of the squared deviations from the column mean.
theorem var_y2 (o : Fin 64) :
    val_main_v268 (F := Ideal) X0 X1 X2 X3 X4 X5 X6 X7 X8 X9 (ix1 o) = Spline.varR (fun n o => val_main_v258 (F := Ideal) X0 X1 X2 X3 X4 X5 X6 X7 X8 X9 (ix2 n o)) o := by
  rw [val_main_v268_apply, val_main_v266_apply, val_main_v267_apply]
  show Ideal.div (Ideal.ofBits .f32 0x00000000#32 + _) (Ideal.ofBits .f32 0x47435000#32) = _
  rw [SplineConsts.ofBits_zero]
  unfold Spline.varR
  refine congrArg (fun t => Ideal.div ((0 : EReal) + t) Spline.cN) (Finset.sum_congr rfl fun k _ => ?_)
  rw [(show idx_main_v266 (ix1 o) k = ix2 k o from eq_ix2 _), val_main_v265_apply, val_main_v264_apply, val_main_v263_apply, val_main_v262_apply,
    (show idx_main_v262 (idx_main_v263 (ix2 k o)) = ix1 o from eq_ix1 _), mean_y2]
  rfl

-- Normalise, scale and shift: ((y − mean) · rsqrt(var + eps)) · scale + shift.
theorem bn_y2 (n : Fin 50000) (o : Fin 64) :
    val_main_v283 (F := Ideal) X0 X1 X2 X3 X4 X5 X6 X7 X8 X9 X10 X11 (ix2 n o) = Spline.bnR (fun n o => val_main_v258 (F := Ideal) X0 X1 X2 X3 X4 X5 X6 X7 X8 X9 (ix2 n o)) (Spline.v1 X10) (Spline.v1 X11) n o := by
  rw [val_main_v283_apply, val_main_v280_apply, val_main_v277_apply, val_main_v271_apply, val_main_v270_apply, val_main_v269_apply,
    val_main_v276_apply, val_main_v275_apply, val_main_v279_apply, val_main_v278_apply, val_main_v282_apply, val_main_v281_apply,
    (show idx_main_v269 (idx_main_v270 (ix2 n o)) = ix1 o from eq_ix1 _), (show idx_main_v275 (idx_main_v276 (ix2 n o)) = ix1 o from eq_ix1 _),
    (show idx_main_v278 (idx_main_v279 (ix2 n o)) = ix1 o from eq_ix1 _), (show idx_main_v281 (idx_main_v282 (ix2 n o)) = ix1 o from eq_ix1 _),
    mean_y2, val_main_v274_apply, val_main_v273_apply, var_y2, val_main_v272_apply]
  rfl

theorem y2_fun :
    (fun n o => val_main_v258 (F := Ideal) X0 X1 X2 X3 X4 X5 X6 X7 X8 X9 (ix2 n o)) = Spline.y2R X0 X1 X2 X3 X4 X5 X6 X7 X8 X9 := by
  funext n o
  exact conv_c2 X0 X1 X2 X3 X4 X5 X6 X7 X8 X9 n o

end Cert.ReferenceIdeal.RefValue

end
-- ==== Proof.RefValue.lean ====
import proofs.«412279_j89026082111590_3_alg».proof.Proof.Spec
import proofs.«412279_j89026082111590_3_alg».proof.Proof.SpecInputs
import proofs.«412279_j89026082111590_3_alg».proof.Proof.RefRead
import proofs.«412279_j89026082111590_3_alg».proof.Proof.Consts
import proofs.«412279_j89026082111590_3_alg».proof.Proof.ScatterGather
import proofs.«412279_j89026082111590_3_alg».proof.Proof.RefValueA
import proofs.«412279_j89026082111590_3_alg».proof.Proof.RefValueB
import proofs.«412279_j89026082111590_3_alg».proof.Proof.RefValueC
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx
open scoped BigOperators

variable (X0 : S50000x30.Idx → EReal) (X1 : S50000x2.Idx → EReal) (X2 : S800000x2.Idx → EReal)
  (X3 : S2x800000.Idx → BitVec 32) (X4 : S25x32x64.Idx → EReal) (X5 : S32x64.Idx → EReal)
  (X6 X7 : S64.Idx → EReal) (X8 : S25x64x64.Idx → EReal) (X9 : S64x64.Idx → EReal)
  (X10 X11 : S64.Idx → EReal) (X12 : S32x64.Idx → EReal) (X13 X14 : S64.Idx → EReal)

theorem ref_value (n : Fin 50000) (o : Fin 64) :
    val_main_v285 (F := Ideal) X0 X1 X2 X3 X4 X5 X6 X7 X8 X9 X10 X11 X12 X13 X14 (ix2 n o)
      = Spline.outR X0 X1 X2 X3 X4 X5 X6 X7 X8 X9 X10 X11 X12 X13 X14 n o := by
  rw [val_main_v285_apply, val_main_v284_apply, bn_y2, y2_fun, skip_value, val_main_call2_v0_apply, val_main_call2_cst_apply]
  show max _ (Ideal.ofBits .f32 0x00000000#32) = _
  rw [SplineConsts.ofBits_zero]
  rfl

end Cert.ReferenceIdeal.RefValue

end
-- ==== Proof.LibEdgeSum.lean ====
import Mathlib.Data.EReal.Operations
import Mathlib.Algebra.BigOperators.Group.Finset.Basic
import Mathlib.Algebra.BigOperators.Ring.Finset

open Finset

namespace EdgeSum

-- The coercion ℝ → EReal commutes with finite sums.
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

theorem zero_add_sum_coe {α : Type*} (s : Finset α) (f : α → ℝ) :
    (0 : EReal) + ∑ e ∈ s, (f e : EReal) = ((∑ e ∈ s, f e : ℝ) : EReal) := by
  rw [zero_add, coe_finset_sum]

theorem zero_add_sum_one_eq_card {α : Type*} (s : Finset α) :
    (0 : EReal) + ∑ _e ∈ s, (1 : EReal) = ((s.card : ℝ) : EReal) := by
  rw [zero_add, ← EReal.coe_one, ← coe_finset_sum, Finset.sum_const, nsmul_eq_mul, mul_one]

variable {E I J : Type*} [Fintype E] [DecidableEq I] [DecidableEq J]

variable [Fintype I] [Fintype J]

end EdgeSum
-- ==== Proof.MathLemmas.lean ====
import Mathlib.Data.EReal.Operations
import Mathlib.Algebra.BigOperators.Group.Finset.Basic
import Mathlib.Algebra.BigOperators.Ring.Finset
import Mathlib.Algebra.BigOperators.Fin
import Mathlib.Algebra.Order.BigOperators.Ring.Finset
import Mathlib.Logic.Equiv.Fin.Basic
import Mathlib.Tactic.FieldSimp
import Mathlib.Tactic.Ring
import Mathlib.Tactic.Linarith
import Idealize.ShloMosaic.PureOps.Ideal
import Idealize.ShloMosaic.PureOps.Ideal.Laws
import proofs.«412279_j89026082111590_3_alg».proof.Proof.LibEdgeSum

open Finset
open Idealize.ShloMosaic

namespace SplineMath

theorem sum_blocks {M : Type*} [AddCommMonoid M] (m n : ℕ) (f : Fin (m * n) → M) :
    ∑ t : Fin m, ∑ r : Fin n, f (finProdFinEquiv (t, r)) = ∑ k : Fin (m * n), f k := by
  rw [← Fintype.sum_prod_type' (fun t r => f (finProdFinEquiv (t, r)))]
  exact Fintype.sum_equiv finProdFinEquiv _ _ fun _ => rfl

theorem sum_tiles {M : Type*} [AddCommMonoid M] {m n N : ℕ} (hN : m * n = N) (f : Fin N → M)
    (idx : Fin m → Fin n → Fin N) (hidx : ∀ t r, (idx t r).val = n * t.val + r.val) :
    ∑ t : Fin m, ∑ r : Fin n, f (idx t r) = ∑ k : Fin N, f k := by
  subst hN
  rw [← sum_blocks m n f]
  refine Finset.sum_congr rfl fun t _ => Finset.sum_congr rfl fun r _ => ?_
  congr 1
  apply Fin.ext
  rw [hidx]
  simp only [finProdFinEquiv, Equiv.coe_fn_mk]
  omega

theorem sum_tiles_25_2000 {M : Type*} [AddCommMonoid M] (f : Fin 50000 → M)
    (h : ∀ (t : Fin 25) (r : Fin 2000), 2000 * t.val + r.val < 50000 := fun t r => by omega) :
    ∑ t : Fin 25, ∑ r : Fin 2000, f ⟨2000 * t.val + r.val, h t r⟩ = ∑ n : Fin 50000, f n :=
  sum_tiles (by norm_num) f (fun t r => ⟨2000 * t.val + r.val, h t r⟩) fun _ _ => rfl

end SplineMath

namespace SplineMath

theorem add_mul_coe_of_nonneg {d : ℝ} (hd : 0 ≤ d) (a b : EReal) :
    (a + b) * (d : EReal) = a * (d : EReal) + b * (d : EReal) :=
  EReal.right_distrib_of_nonneg_of_ne_top (EReal.coe_nonneg.mpr hd) (EReal.coe_ne_top d) a b

theorem zero_add_mul (a d : EReal) : ((0 : EReal) + a) * d = (0 : EReal) + a * d := by
  rw [zero_add, zero_add]

theorem sum_mul_coe_of_nonneg {α : Type*} {d : ℝ} (hd : 0 ≤ d) (s : Finset α) (f : α → EReal) :
    ∑ a ∈ s, f a * (d : EReal) = (∑ a ∈ s, f a) * (d : EReal) := by
  classical
  induction s using Finset.induction_on with
  | empty => rw [Finset.sum_empty, Finset.sum_empty, zero_mul]
  | insert a s ha ih =>
    rw [Finset.sum_insert ha, Finset.sum_insert ha, add_mul_coe_of_nonneg hd, ih]

theorem zero_add_sum_mul_coe_of_nonneg {α : Type*} {d : ℝ} (hd : 0 ≤ d) (s : Finset α)
    (f : α → EReal) :
    (0 : EReal) + ∑ a ∈ s, f a * (d : EReal) = ((0 : EReal) + ∑ a ∈ s, f a) * (d : EReal) := by
  rw [zero_add, zero_add, sum_mul_coe_of_nonneg hd]

theorem div_coe_of_one_le {m : ℝ} (hm : 1 ≤ m) (x : EReal) :
    Ideal.div x (m : EReal) = x * ((1 / m : ℝ) : EReal) :=
  Ideal.div_coe (by linarith) x

theorem one_div_coe_of_one_le {m : ℝ} (hm : 1 ≤ m) :
    Ideal.div (1 : EReal) (m : EReal) = ((1 / m : ℝ) : EReal) := by
  rw [div_coe_of_one_le hm, one_mul]

theorem one_div_nonneg_of_one_le {m : ℝ} (hm : 1 ≤ m) : 0 ≤ 1 / m :=
  one_div_nonneg.mpr (by linarith)

theorem div_coe_coe {a m : ℝ} (hm : m ≠ 0) :
    Ideal.div (a : EReal) (m : EReal) = ((a / m : ℝ) : EReal) := by
  rw [Ideal.div_coe hm, ← EReal.coe_mul, mul_one_div]

theorem max_coe_coe (a b : ℝ) : max (a : EReal) (b : EReal) = ((max a b : ℝ) : EReal) :=
  (EReal.coe_strictMono.monotone.map_max).symm

theorem min_coe_coe (a b : ℝ) : min (a : EReal) (b : EReal) = ((min a b : ℝ) : EReal) :=
  (EReal.coe_strictMono.monotone.map_min).symm

theorem max_coe_one (k : ℝ) : max (k : EReal) 1 = ((max k 1 : ℝ) : EReal) := by
  rw [← EReal.coe_one, max_coe_coe]

theorem max_coe_zero (k : ℝ) : max (k : EReal) 0 = ((max k 0 : ℝ) : EReal) := by
  rw [← EReal.coe_zero, max_coe_coe]

section Moments

variable {ι : Type*} [Fintype ι]

noncomputable def meanR (c : ℝ) (y : ι → ℝ) : ℝ := (∑ i, y i) / c

noncomputable def varR (c : ℝ) (y : ι → ℝ) : ℝ :=
  (∑ i, (y i - meanR c y) * (y i - meanR c y)) / c

theorem sum_centred_sq {c : ℝ} (hc : (Fintype.card ι : ℝ) = c) (hc0 : c ≠ 0) (y : ι → ℝ) :
    ∑ i, (y i - meanR c y) * (y i - meanR c y)
      = (∑ i, y i * y i) - c * (meanR c y * meanR c y) := by
  have hS : ∑ i, y i = c * meanR c y := by unfold meanR; field_simp
  have hpt : ∀ i, (y i - meanR c y) * (y i - meanR c y)
      = y i * y i - 2 * meanR c y * y i + meanR c y * meanR c y := fun i => by ring
  simp only [hpt, Finset.sum_add_distrib, Finset.sum_sub_distrib, ← Finset.mul_sum,
    Finset.sum_const, Finset.card_univ, nsmul_eq_mul, hc, hS]
  ring

theorem varR_eq {c : ℝ} (hc : (Fintype.card ι : ℝ) = c) (hc0 : c ≠ 0) (y : ι → ℝ) :
    varR c y = (∑ i, y i * y i) / c - meanR c y * meanR c y := by
  unfold varR
  rw [sum_centred_sq hc hc0]
  field_simp

theorem varR_nonneg {c : ℝ} (hc0 : 0 < c) (y : ι → ℝ) : 0 ≤ varR c y :=
  div_nonneg (Finset.sum_nonneg fun i _ => mul_self_nonneg _) hc0.le

theorem mean_eq_coe {c : ℝ} (hc0 : c ≠ 0) (y : ι → ℝ) :
    Ideal.div ((0 : EReal) + ∑ i, (y i : EReal)) (c : EReal) = ((meanR c y : ℝ) : EReal) := by
  rw [EdgeSum.zero_add_sum_coe, div_coe_coe hc0]
  rfl

theorem var_centred_eq_coe {c : ℝ} (hc0 : c ≠ 0) (y : ι → ℝ) :
    Ideal.div ((0 : EReal) + ∑ i, ((y i : EReal) - (meanR c y : EReal))
        * ((y i : EReal) - (meanR c y : EReal))) (c : EReal) = ((varR c y : ℝ) : EReal) := by
  simp only [← EReal.coe_sub, ← EReal.coe_mul]
  rw [EdgeSum.zero_add_sum_coe, div_coe_coe hc0]
  rfl

theorem var_moment_eq_coe {c : ℝ} (hc : (Fintype.card ι : ℝ) = c) (hc0 : 0 < c) (y : ι → ℝ) :
    max (Ideal.div ((0 : EReal) + ∑ i, (y i : EReal) * (y i : EReal)) (c : EReal)
        - (meanR c y : EReal) * (meanR c y : EReal)) 0 = ((varR c y : ℝ) : EReal) := by
  simp only [← EReal.coe_mul]
  rw [EdgeSum.zero_add_sum_coe, div_coe_coe hc0.ne', ← EReal.coe_sub, ← varR_eq hc hc0.ne',
    max_coe_zero, max_eq_left (varR_nonneg hc0 y)]

end Moments

theorem card_rows : (Fintype.card (Fin 50000) : ℝ) = 50000 := by
  rw [Fintype.card_fin]; norm_num

end SplineMath

namespace SplineMath

theorem sub_coe_coe (a b : ℝ) : (a : EReal) - (b : EReal) = ((a - b : ℝ) : EReal) :=
  (EReal.coe_sub a b).symm

theorem floor_coe (x : ℝ) : Ideal.liftRound Int.floor (x : EReal) = (((⌊x⌋ : ℤ) : ℝ) : EReal) :=
  Ideal.liftRound_coe x Int.floor

theorem rsqrt_coe_pos {x : ℝ} (hx : 0 < x) :
    Ideal.rsqrt (x : EReal) = (((Real.sqrt x)⁻¹ : ℝ) : EReal) := by
  rw [Ideal.rsqrt_coe, if_neg (not_lt.mpr hx.le), if_neg hx.ne']

-- On reals with variance v ≥ 0 and ε > 0 the normalised point is again a real.
theorem batchnorm_point_real {y μ v ε g b : ℝ} (hv : 0 ≤ v) (hε : 0 < ε) :
    ∃ r : ℝ, (((y : EReal) - (μ : EReal)) * Ideal.rsqrt ((v : EReal) + (ε : EReal))) * (g : EReal)
      + (b : EReal) = (r : EReal) :=
  ⟨_, by rw [← EReal.coe_add, rsqrt_coe_pos (by linarith), ← EReal.coe_sub, ← EReal.coe_mul, ← EReal.coe_mul,
    ← EReal.coe_add]⟩

end SplineMath

namespace SplineMath

end SplineMath
-- ==== Proof.MathBN.lean ====
import Mathlib.Data.EReal.Operations
import Mathlib.Algebra.BigOperators.Group.Finset.Basic
import Mathlib.Tactic.NormNum
import Mathlib.Tactic.Positivity
import Idealize.ShloMosaic.PureOps.Ideal
import proofs.«412279_j89026082111590_3_alg».proof.Proof.Spec
import proofs.«412279_j89026082111590_3_alg».proof.Proof.MathLemmas
import proofs.«412279_j89026082111590_3_alg».proof.Proof.Consts

noncomputable section

namespace Spline

open Idealize.ShloMosaic Finset

def epsR : ℝ := 10995116 / 2 ^ 40

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]
  norm_num

theorem epsBN_eq : epsBN = ((epsR : ℝ) : EReal) := ofBits_eps

theorem cN_eq : cN = ((50000 : ℝ) : EReal) := SplineConsts.ofBits_50000

theorem sum_tileSum (y : Fin 50000 → Fin 64 → EReal) (o : Fin 64) :
    ∑ t : Fin 25, tileSum y t o = ∑ n : Fin 50000, y n o := by
  unfold tileSum tileRow
  exact SplineMath.sum_tiles_25_2000 (fun n => y n o)

theorem sum_tileSq (y : Fin 50000 → Fin 64 → EReal) (o : Fin 64) :
    ∑ t : Fin 25, tileSq y t o = ∑ n : Fin 50000, y n o * y n o := by
  unfold tileSq tileRow
  exact SplineMath.sum_tiles_25_2000 (fun n => y n o * y n o)

theorem meanK_eq (y : Fin 50000 → Fin 64 → EReal) (o : Fin 64) : meanK y o = meanR y o := by
  unfold meanK meanR
  rw [sum_tileSum]

theorem meanR_coe (y' : Fin 50000 → Fin 64 → ℝ) (o : Fin 64) :
    meanR (fun n o => ((y' n o : ℝ) : EReal)) o
      = ((SplineMath.meanR 50000 (fun n => y' n o) : ℝ) : EReal) := by
  unfold meanR
  rw [cN_eq]
  exact SplineMath.mean_eq_coe (by norm_num) (fun n => y' n o)

theorem varR_coe (y' : Fin 50000 → Fin 64 → ℝ) (o : Fin 64) :
    varR (fun n o => ((y' n o : ℝ) : EReal)) o
      = ((SplineMath.varR 50000 (fun n => y' n o) : ℝ) : EReal) := by
  unfold varR
  rw [meanR_coe, cN_eq]
  exact SplineMath.var_centred_eq_coe (by norm_num) (fun n => y' n o)

theorem varK_coe (y' : Fin 50000 → Fin 64 → ℝ) (o : Fin 64) :
    varK (fun n o => ((y' n o : ℝ) : EReal)) o
      = ((SplineMath.varR 50000 (fun n => y' n o) : ℝ) : EReal) := by
  unfold varK
  rw [meanK_eq, meanR_coe, sum_tileSq, cN_eq]
  exact SplineMath.var_moment_eq_coe SplineMath.card_rows (by norm_num) (fun n => y' n o)

theorem varK_eq (y : Fin 50000 → Fin 64 → EReal) (hy : ∀ n o, ∃ r : ℝ, y n o = (r : EReal)) (o : Fin 64) :
    varK y o = varR y o := by
  choose y' hy' using hy
  obtain rfl : y = fun n o => ((y' n o : ℝ) : EReal) := funext fun n => funext fun o => hy' n o
  rw [varK_coe, varR_coe]

theorem bn_eq (y : Fin 50000 → Fin 64 → EReal) (hy : ∀ n o, ∃ r : ℝ, y n o = (r : EReal))
    (g b : Fin 64 → EReal) : bnK y g b = bnR y g b := by
  funext n o
  unfold bnK bnR
  rw [meanK_eq, varK_eq y hy]

theorem bnR_real (y : Fin 50000 → Fin 64 → EReal) (hy : ∀ n o, ∃ r : ℝ, y n o = (r : EReal))
    (g b : Fin 64 → EReal) (hg : ∀ o, ∃ r : ℝ, g o = (r : EReal)) (hb : ∀ o, ∃ r : ℝ, b o = (r : EReal)) :
    ∀ n o, ∃ r : ℝ, bnR y g b n o = (r : EReal) := by
  choose y' hy' using hy
  choose g' hg' using hg
  choose b' hb' using hb
  obtain rfl : y = fun n o => ((y' n o : ℝ) : EReal) := funext fun n => funext fun o => hy' n o
  intro n o
  unfold bnR bnPt
  rw [meanR_coe, varR_coe, hg', hb', epsBN_eq]
  exact SplineMath.batchnorm_point_real (SplineMath.varR_nonneg (by norm_num) _) epsR_pos

theorem bnR_relu_real (y : Fin 50000 → Fin 64 → EReal) (hy : ∀ n o, ∃ r : ℝ, y n o = (r : EReal))
    (g b : Fin 64 → EReal) (hg : ∀ o, ∃ r : ℝ, g o = (r : EReal)) (hb : ∀ o, ∃ r : ℝ, b o = (r : EReal)) :
    ∀ n o, ∃ r : ℝ, max (bnR y g b n o) 0 = (r : EReal) := by
  intro n o
  obtain ⟨r, hr⟩ := bnR_real y hy g b hg hb n o
  exact ⟨max r 0, by rw [hr, SplineMath.max_coe_zero]⟩

end Spline

end
-- ==== Proof.MathConv.lean ====
import Mathlib.Data.EReal.Operations
import Mathlib.Data.BitVec
import Mathlib.Algebra.BigOperators.Group.Finset.Basic
import Mathlib.Tactic.NormNum
import Mathlib.Tactic.Linarith
import Idealize.ShloMosaic.PureOps.Ideal
import proofs.«412279_j89026082111590_3_alg».proof.Proof.Spec
import proofs.«412279_j89026082111590_3_alg».proof.Proof.MathLemmas
import proofs.«412279_j89026082111590_3_alg».proof.Proof.LibEdgeSum

noncomputable section

namespace Spline

open Idealize.ShloMosaic Finset

def degN (dst : Fin 800000 → BitVec 32) (n : Fin 50000) : ℕ :=
  (univ.filter (fun e : Fin 800000 => (dst e).toInt = (n.val : ℤ))).card

def degR (dst : Fin 800000 → BitVec 32) (n : Fin 50000) : ℝ := max (degN dst n : ℝ) 1

theorem deg_eq (dst : Fin 800000 → BitVec 32) (n : Fin 50000) :
    deg dst n = (((degN dst n : ℕ) : ℝ) : EReal) := by
  unfold deg degN
  exact EdgeSum.zero_add_sum_one_eq_card _

theorem one_le_degR (dst : Fin 800000 → BitVec 32) (n : Fin 50000) : 1 ≤ degR dst n := le_max_right _ _

theorem degMax_eq (dst : Fin 800000 → BitVec 32) (n : Fin 50000) :
    degMax dst n = ((degR dst n : ℝ) : EReal) := by
  unfold degMax degR
  rw [deg_eq, SplineMath.max_coe_one]

theorem invDeg_eq (dst : Fin 800000 → BitVec 32) (n : Fin 50000) :
    invDeg dst n = ((1 / degR dst n : ℝ) : EReal) := by
  unfold invDeg
  rw [degMax_eq, SplineMath.one_div_coe_of_one_le (one_le_degR dst n)]

theorem invDegR_nonneg (dst : Fin 800000 → BitVec 32) (n : Fin 50000) : 0 ≤ 1 / degR dst n :=
  SplineMath.one_div_nonneg_of_one_le (one_le_degR dst n)

theorem toInt_mul25_add (a w : BitVec 32) (ha0 : 0 ≤ a.toInt) (ha : a.toInt < 50000)
    (hw0 : 0 ≤ w.toInt) (hw : w.toInt < 25) : (a * 25#32 + w).toInt = 25 * a.toInt + w.toInt := by
  have h25 : (25#32 : BitVec 32).toInt = 25 := by decide
  rw [BitVec.toInt_add, BitVec.toInt_mul, h25]
  simp only [Int.bmod_def]
  omega

theorem dstRow_of_slot (dst : Fin 800000 → BitVec 32) (wi : Fin 800000 → Fin 4 → BitVec 32)
    (dstRow : Fin 800000 → Fin 50000) (hdst : ∀ e, (dst e).toInt = ((dstRow e).val : ℤ))
    (hwi : ∀ e b, 0 ≤ (wi e b).toInt ∧ (wi e b).toInt < 25) (b : Fin 4) (e : Fin 800000)
    (r : Fin 1250000) (n : Fin 50000) (hrn : r.val / 25 = n.val)
    (h : (slot dst wi b e).toInt = (r.val : ℤ)) : dstRow e = n := by
  unfold slot at h
  have hd := hdst e
  have hlt := (dstRow e).isLt
  obtain ⟨hw0, hw⟩ := hwi e b
  rw [toInt_mul25_add _ _ (by omega) (by omega) hw0 hw, hd] at h
  apply Fin.ext
  omega

variable {C : ℕ}

theorem scat_fold (dst : Fin 800000 → BitVec 32) (wi : Fin 800000 → Fin 4 → BitVec 32)
    (dstRow : Fin 800000 → Fin 50000) (hdst : ∀ e, (dst e).toInt = ((dstRow e).val : ℤ))
    (hwi : ∀ e b, 0 ≤ (wi e b).toInt ∧ (wi e b).toInt < 25)
    (xg : Fin 800000 → Fin C → EReal) (basis : Fin 800000 → Fin 4 → EReal) (b : Fin 4)
    (r : Fin 1250000) (n : Fin 50000) (hrn : r.val / 25 = n.val) (c : Fin C) :
    scat (slot dst wi b) (fun e c => xg e c * (basis e b * invDeg dst (dstRow e))) r c
      = scat (slot dst wi b) (fun e c => xg e c * basis e b) r c * ((1 / degR dst n : ℝ) : EReal) := by
  unfold scat
  rw [← SplineMath.zero_add_sum_mul_coe_of_nonneg (invDegR_nonneg dst n)]
  have key : ∀ e ∈ univ.filter (fun e : Fin 800000 => (slot dst wi b e).toInt = (r.val : ℤ)),
      xg e c * (basis e b * invDeg dst (dstRow e))
        = xg e c * basis e b * ((1 / degR dst n : ℝ) : EReal) := by
    intro e he
    have h := (Finset.mem_filter.1 he).2
    rw [dstRow_of_slot dst wi dstRow hdst hwi b e r n hrn h, invDeg_eq, mul_assoc]
  rw [Finset.sum_congr rfl key]

theorem acc_fold (dst : Fin 800000 → BitVec 32) (wi : Fin 800000 → Fin 4 → BitVec 32)
    (dstRow : Fin 800000 → Fin 50000) (hdst : ∀ e, (dst e).toInt = ((dstRow e).val : ℤ))
    (hwi : ∀ e b, 0 ≤ (wi e b).toInt ∧ (wi e b).toInt < 25)
    (xg : Fin 800000 → Fin C → EReal) (basis : Fin 800000 → Fin 4 → EReal)
    (r : Fin 1250000) (n : Fin 50000) (hrn : r.val / 25 = n.val) (c : Fin C) :
    acc dst wi xg (fun e b => basis e b * invDeg dst (dstRow e)) r c
      = acc dst wi xg basis r c * ((1 / degR dst n : ℝ) : EReal) := by
  have hd := invDegR_nonneg dst n
  unfold acc
  rw [scat_fold dst wi dstRow hdst hwi xg basis 0 r n hrn c, scat_fold dst wi dstRow hdst hwi xg basis 1 r n hrn c,
    scat_fold dst wi dstRow hdst hwi xg basis 2 r n hrn c, scat_fold dst wi dstRow hdst hwi xg basis 3 r n hrn c,
    SplineMath.add_mul_coe_of_nonneg hd, SplineMath.add_mul_coe_of_nonneg hd, SplineMath.add_mul_coe_of_nonneg hd,
    SplineMath.zero_add_mul]

theorem accRow_fold (hC : 0 < C) (dst : Fin 800000 → BitVec 32) (wi : Fin 800000 → Fin 4 → BitVec 32)
    (dstRow : Fin 800000 → Fin 50000) (hdst : ∀ e, (dst e).toInt = ((dstRow e).val : ℤ))
    (hwi : ∀ e b, 0 ≤ (wi e b).toInt ∧ (wi e b).toInt < 25)
    (xg : Fin 800000 → Fin C → EReal) (basis : Fin 800000 → Fin 4 → EReal)
    (n : Fin 50000) (j : Fin (25 * C)) :
    accRow hC (acc dst wi xg (fun e b => basis e b * invDeg dst (dstRow e))) n j
      = accRow hC (acc dst wi xg basis) n j * ((1 / degR dst n : ℝ) : EReal) := by
  have h1 : j.val / C < 25 := Nat.div_lt_of_lt_mul (by have := j.isLt; omega)
  have hrn : (25 * n.val + j.val / C) / 25 = n.val := by
    generalize j.val / C = q at h1
    omega
  unfold accRow
  exact acc_fold dst wi dstRow hdst hwi xg basis _ n hrn _

theorem conv_eq (hC : 0 < C) (dst : Fin 800000 → BitVec 32) (wi : Fin 800000 → Fin 4 → BitVec 32)
    (basis : Fin 800000 → Fin 4 → EReal) (dstRow : Fin 800000 → Fin 50000)
    (xg : Fin 800000 → Fin C → EReal) (feat : Fin 50000 → Fin C → EReal)
    (W : Fin 25 → Fin C → Fin 64 → EReal) (root : Fin C → Fin 64 → EReal)
    (hdst : ∀ e, (dst e).toInt = ((dstRow e).val : ℤ))
    (hwi : ∀ e b, 0 ≤ (wi e b).toInt ∧ (wi e b).toInt < 25) :
    convK hC dst wi basis dstRow xg feat W root = convR hC dst wi basis xg feat W root := by
  funext n o
  unfold convK convR
  rw [degMax_eq, SplineMath.div_coe_of_one_le (one_le_degR dst n),
    ← SplineMath.sum_mul_coe_of_nonneg (invDegR_nonneg dst n)]
  have key : ∀ j ∈ (univ : Finset (Fin (25 * C))),
      accRow hC (acc dst wi xg (fun e b => basis e b * invDeg dst (dstRow e))) n j * wFlat hC W j o
        = accRow hC (acc dst wi xg basis) n j * wFlat hC W j o * ((1 / degR dst n : ℝ) : EReal) := by
    intro j _
    rw [accRow_fold hC dst wi dstRow hdst hwi xg basis n j, mul_right_comm]
  rw [Finset.sum_congr rfl key]

theorem isReal_zero : ∃ r : ℝ, (0 : EReal) = (r : EReal) := ⟨0, EReal.coe_zero.symm⟩

theorem isReal_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem isReal_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem isReal_sum {α : Type*} (s : Finset α) (f : α → EReal) (hf : ∀ a, ∃ r : ℝ, f a = (r : EReal)) :
    ∃ r : ℝ, ∑ a ∈ s, f a = (r : EReal) := by
  choose f' hf' using hf
  exact ⟨∑ a ∈ s, f' a, by rw [EdgeSum.coe_finset_sum]; exact Finset.sum_congr rfl fun a _ => hf' a⟩

theorem isReal_div_of_one_le {x : EReal} (hx : ∃ r : ℝ, x = (r : EReal)) {m : ℝ} (hm : 1 ≤ m) :
    ∃ r : ℝ, Ideal.div x (m : EReal) = (r : EReal) := by
  rw [SplineMath.div_coe_of_one_le hm]
  exact isReal_mul hx ⟨_, rfl⟩

theorem mm_real {N K : ℕ} (a : Fin N → Fin K → EReal) (w : Fin K → Fin 64 → EReal)
    (ha : ∀ n k, ∃ r : ℝ, a n k = (r : EReal)) (hw : ∀ k o, ∃ r : ℝ, w k o = (r : EReal)) :
    ∀ n o, ∃ r : ℝ, mm a w n o = (r : EReal) := by
  intro n o
  unfold mm
  exact isReal_sum _ _ fun k => isReal_mul (ha n k) (hw k o)

theorem scat_real {R : ℕ} (idx : Fin 800000 → BitVec 32) (upd : Fin 800000 → Fin C → EReal)
    (hupd : ∀ e c, ∃ r : ℝ, upd e c = (r : EReal)) (r : Fin R) (c : Fin C) :
    ∃ x : ℝ, scat idx upd r c = (x : EReal) := by
  unfold scat
  exact isReal_add isReal_zero (isReal_sum _ _ fun e => hupd e c)

theorem acc_real (dst : Fin 800000 → BitVec 32) (wi : Fin 800000 → Fin 4 → BitVec 32)
    (xg : Fin 800000 → Fin C → EReal) (w : Fin 800000 → Fin 4 → EReal)
    (hxg : ∀ e c, ∃ r : ℝ, xg e c = (r : EReal)) (hw : ∀ e b, ∃ r : ℝ, w e b = (r : EReal))
    (r : Fin 1250000) (c : Fin C) : ∃ x : ℝ, acc dst wi xg w r c = (x : EReal) := by
  unfold acc
  exact isReal_add (isReal_add (isReal_add (isReal_add isReal_zero
    (scat_real _ _ (fun e c => isReal_mul (hxg e c) (hw e 0)) r c))
    (scat_real _ _ (fun e c => isReal_mul (hxg e c) (hw e 1)) r c))
    (scat_real _ _ (fun e c => isReal_mul (hxg e c) (hw e 2)) r c))
    (scat_real _ _ (fun e c => isReal_mul (hxg e c) (hw e 3)) r c)

theorem contract_real (hC : 0 < C) (A : Fin 1250000 → Fin C → EReal)
    (hA : ∀ r c, ∃ x : ℝ, A r c = (x : EReal)) (W : Fin 25 → Fin C → Fin 64 → EReal)
    (hW : ∀ k c o, ∃ r : ℝ, W k c o = (r : EReal)) (n : Fin 50000) (o : Fin 64) :
    ∃ x : ℝ, ∑ j : Fin (25 * C), accRow hC A n j * wFlat hC W j o = (x : EReal) := by
  refine isReal_sum _ _ fun j => isReal_mul ?_ ?_
  · unfold accRow; exact hA _ _
  · unfold wFlat; exact hW _ _ _

theorem convR_real (hC : 0 < C) (dst : Fin 800000 → BitVec 32) (wi : Fin 800000 → Fin 4 → BitVec 32)
    (basis : Fin 800000 → Fin 4 → EReal) (xg : Fin 800000 → Fin C → EReal)
    (feat : Fin 50000 → Fin C → EReal) (W : Fin 25 → Fin C → Fin 64 → EReal) (root : Fin C → Fin 64 → EReal)
    (hbasis : ∀ e b, ∃ r : ℝ, basis e b = (r : EReal)) (hxg : ∀ e c, ∃ r : ℝ, xg e c = (r : EReal))
    (hfeat : ∀ n c, ∃ r : ℝ, feat n c = (r : EReal)) (hW : ∀ k c o, ∃ r : ℝ, W k c o = (r : EReal))
    (hroot : ∀ c o, ∃ r : ℝ, root c o = (r : EReal)) :
    ∀ n o, ∃ r : ℝ, convR hC dst wi basis xg feat W root n o = (r : EReal) := by
  intro n o
  unfold convR
  rw [degMax_eq]
  exact isReal_add
    (isReal_div_of_one_le (contract_real hC _ (acc_real dst wi xg basis hxg hbasis) W hW n o) (one_le_degR dst n))
    (isReal_sum _ _ fun k => isReal_mul (hfeat n k) (hroot k o))

end Spline

end
-- ==== Proof.MathOut.lean ====
import proofs.«412279_j89026082111590_3_alg».proof.Proof.SpecInputs
import proofs.«412279_j89026082111590_3_alg».proof.Proof.MathBN
import proofs.«412279_j89026082111590_3_alg».proof.Proof.MathConv

noncomputable section

namespace Spline

open Idealize.ShloMosaic ValueIdx

theorem gIdx_of_range (w : BitVec 32) (h0 : 0 ≤ w.toInt) (h1 : w.toInt < 50000) :
    w.toInt = ((gIdx w).val : ℤ) := by
  show w.toInt = ((min (if w.toInt < 0 then w + 50000#32 else w).toInt.toNat 49999 : ℕ) : ℤ)
  rw [if_neg (not_lt.mpr h0)]
  omega

theorem xinF_real (X0 : (⟨2, ![50000, 30]⟩ : Shape).Idx → EReal) (X1 : (⟨2, ![50000, 2]⟩ : Shape).Idx → EReal)
    (h0 : ∀ i, ∃ r : ℝ, X0 i = (r : EReal)) (h1 : ∀ i, ∃ r : ℝ, X1 i = (r : EReal)) :
    ∀ n k, ∃ r : ℝ, xinF X0 X1 n k = (r : EReal) := by
  intro n k
  unfold xinF
  split
  · exact h0 _
  · exact h1 _

theorem w3_real {C : ℕ} (X : (⟨3, ![25, C, 64]⟩ : Shape).Idx → EReal) (h : ∀ i, ∃ r : ℝ, X i = (r : EReal)) :
    ∀ k c o, ∃ r : ℝ, w3 X k c o = (r : EReal) := fun _ _ _ => h _

theorem m2_real {A B : ℕ} (X : (⟨2, ![A, B]⟩ : Shape).Idx → EReal) (h : ∀ i, ∃ r : ℝ, X i = (r : EReal)) :
    ∀ a b, ∃ r : ℝ, m2 X a b = (r : EReal) := fun _ _ => h _

theorem v1_real {A : ℕ} (X : (⟨1, ![A]⟩ : Shape).Idx → EReal) (h : ∀ i, ∃ r : ℝ, X i = (r : EReal)) :
    ∀ a, ∃ r : ℝ, v1 X a = (r : EReal) := fun _ => h _

theorem xg_real {C : ℕ} (X3 : (⟨2, ![2, 800000]⟩ : Shape).Idx → BitVec 32) (feat : Fin 50000 → Fin C → EReal)
    (hfeat : ∀ n c, ∃ r : ℝ, feat n c = (r : EReal)) : ∀ e c, ∃ r : ℝ, xg X3 feat e c = (r : EReal) :=
  fun _ _ => hfeat _ _

section Layer

variable (X0 : (⟨2, ![50000, 30]⟩ : Shape).Idx → EReal) (X1 : (⟨2, ![50000, 2]⟩ : Shape).Idx → EReal)
  (X2 : (⟨2, ![800000, 2]⟩ : Shape).Idx → EReal) (X3 : (⟨2, ![2, 800000]⟩ : Shape).Idx → BitVec 32)
  (X4 : (⟨3, ![25, 32, 64]⟩ : Shape).Idx → EReal) (X5 : (⟨2, ![32, 64]⟩ : Shape).Idx → EReal)
  (X6 X7 : (⟨1, ![64]⟩ : Shape).Idx → EReal) (X8 : (⟨3, ![25, 64, 64]⟩ : Shape).Idx → EReal)
  (X9 : (⟨2, ![64, 64]⟩ : Shape).Idx → EReal) (X10 X11 : (⟨1, ![64]⟩ : Shape).Idx → EReal)
  (X12 : (⟨2, ![32, 64]⟩ : Shape).Idx → EReal) (X13 X14 : (⟨1, ![64]⟩ : Shape).Idx → EReal)

theorem skip_eq (h0 : ∀ i, ∃ r : ℝ, X0 i = (r : EReal)) (h1 : ∀ i, ∃ r : ℝ, X1 i = (r : EReal))
    (h12 : ∀ i, ∃ r : ℝ, X12 i = (r : EReal)) :
    skipK X0 X1 X12 X13 X14 = skipR X0 X1 X12 X13 X14 := by
  unfold skipK skipR
  exact bn_eq _ (mm_real _ _ (xinF_real X0 X1 h0 h1) (m2_real X12 h12)) _ _

theorem y1_eq (hwi : ∀ e b, 0 ≤ (wiF X2 e b).toInt ∧ (wiF X2 e b).toInt < 25)
    (hdst : ∀ e, 0 ≤ (dstW X3 e).toInt ∧ (dstW X3 e).toInt < 50000) :
    y1K X0 X1 X2 X3 X4 X5 = y1R X0 X1 X2 X3 X4 X5 := by
  unfold y1K y1R
  exact conv_eq _ _ _ _ _ _ _ _ _ (fun e => gIdx_of_range _ (hdst e).1 (hdst e).2) hwi

theorem y1R_real (h0 : ∀ i, ∃ r : ℝ, X0 i = (r : EReal)) (h1 : ∀ i, ∃ r : ℝ, X1 i = (r : EReal))
    (h4 : ∀ i, ∃ r : ℝ, X4 i = (r : EReal)) (h5 : ∀ i, ∃ r : ℝ, X5 i = (r : EReal))
    (hbasis : ∀ e b, ∃ r : ℝ, basisF X2 e b = (r : EReal)) :
    ∀ n o, ∃ r : ℝ, y1R X0 X1 X2 X3 X4 X5 n o = (r : EReal) := by
  have hxin := xinF_real X0 X1 h0 h1
  unfold y1R
  exact convR_real _ _ _ _ _ _ _ _ hbasis (xg_real X3 _ hxin) hxin (w3_real X4 h4) (m2_real X5 h5)

theorem h1_eq (h0 : ∀ i, ∃ r : ℝ, X0 i = (r : EReal)) (h1 : ∀ i, ∃ r : ℝ, X1 i = (r : EReal))
    (h4 : ∀ i, ∃ r : ℝ, X4 i = (r : EReal)) (h5 : ∀ i, ∃ r : ℝ, X5 i = (r : EReal))
    (hbasis : ∀ e b, ∃ r : ℝ, basisF X2 e b = (r : EReal))
    (hwi : ∀ e b, 0 ≤ (wiF X2 e b).toInt ∧ (wiF X2 e b).toInt < 25)
    (hdst : ∀ e, 0 ≤ (dstW X3 e).toInt ∧ (dstW X3 e).toInt < 50000) :
    h1K X0 X1 X2 X3 X4 X5 X6 X7 = h1R X0 X1 X2 X3 X4 X5 X6 X7 := by
  funext n o
  unfold h1K h1R
  rw [y1_eq X0 X1 X2 X3 X4 X5 hwi hdst, bn_eq _ (y1R_real X0 X1 X2 X3 X4 X5 h0 h1 h4 h5 hbasis)]

theorem h1R_real (h0 : ∀ i, ∃ r : ℝ, X0 i = (r : EReal)) (h1 : ∀ i, ∃ r : ℝ, X1 i = (r : EReal))
    (h4 : ∀ i, ∃ r : ℝ, X4 i = (r : EReal)) (h5 : ∀ i, ∃ r : ℝ, X5 i = (r : EReal))
    (h6 : ∀ i, ∃ r : ℝ, X6 i = (r : EReal)) (h7 : ∀ i, ∃ r : ℝ, X7 i = (r : EReal))
    (hbasis : ∀ e b, ∃ r : ℝ, basisF X2 e b = (r : EReal)) :
    ∀ n o, ∃ r : ℝ, h1R X0 X1 X2 X3 X4 X5 X6 X7 n o = (r : EReal) := by
  intro n o
  unfold h1R
  exact bnR_relu_real _ (y1R_real X0 X1 X2 X3 X4 X5 h0 h1 h4 h5 hbasis) _ _ (v1_real X6 h6) (v1_real X7 h7) n o

theorem y2_eq (h0 : ∀ i, ∃ r : ℝ, X0 i = (r : EReal)) (h1 : ∀ i, ∃ r : ℝ, X1 i = (r : EReal))
    (h4 : ∀ i, ∃ r : ℝ, X4 i = (r : EReal)) (h5 : ∀ i, ∃ r : ℝ, X5 i = (r : EReal))
    (hbasis : ∀ e b, ∃ r : ℝ, basisF X2 e b = (r : EReal))
    (hwi : ∀ e b, 0 ≤ (wiF X2 e b).toInt ∧ (wiF X2 e b).toInt < 25)
    (hdst : ∀ e, 0 ≤ (dstW X3 e).toInt ∧ (dstW X3 e).toInt < 50000) :
    y2K X0 X1 X2 X3 X4 X5 X6 X7 X8 X9 = y2R X0 X1 X2 X3 X4 X5 X6 X7 X8 X9 := by
  unfold y2K y2R
  rw [h1_eq X0 X1 X2 X3 X4 X5 X6 X7 h0 h1 h4 h5 hbasis hwi hdst]
  exact conv_eq _ _ _ _ _ _ _ _ _ (fun e => gIdx_of_range _ (hdst e).1 (hdst e).2) hwi

theorem y2R_real (h0 : ∀ i, ∃ r : ℝ, X0 i = (r : EReal)) (h1 : ∀ i, ∃ r : ℝ, X1 i = (r : EReal))
    (h4 : ∀ i, ∃ r : ℝ, X4 i = (r : EReal)) (h5 : ∀ i, ∃ r : ℝ, X5 i = (r : EReal))
    (h6 : ∀ i, ∃ r : ℝ, X6 i = (r : EReal)) (h7 : ∀ i, ∃ r : ℝ, X7 i = (r : EReal))
    (h8 : ∀ i, ∃ r : ℝ, X8 i = (r : EReal)) (h9 : ∀ i, ∃ r : ℝ, X9 i = (r : EReal))
    (hbasis : ∀ e b, ∃ r : ℝ, basisF X2 e b = (r : EReal)) :
    ∀ n o, ∃ r : ℝ, y2R X0 X1 X2 X3 X4 X5 X6 X7 X8 X9 n o = (r : EReal) := by
  have hh := h1R_real X0 X1 X2 X3 X4 X5 X6 X7 h0 h1 h4 h5 h6 h7 hbasis
  unfold y2R
  exact convR_real _ _ _ _ _ _ _ _ hbasis (xg_real X3 _ hh) hh (w3_real X8 h8) (m2_real X9 h9)

theorem out_eq (h0 : ∀ i, ∃ r : ℝ, X0 i = (r : EReal)) (h1 : ∀ i, ∃ r : ℝ, X1 i = (r : EReal))
    (h4 : ∀ i, ∃ r : ℝ, X4 i = (r : EReal)) (h5 : ∀ i, ∃ r : ℝ, X5 i = (r : EReal))
    (h6 : ∀ i, ∃ r : ℝ, X6 i = (r : EReal)) (h7 : ∀ i, ∃ r : ℝ, X7 i = (r : EReal))
    (h8 : ∀ i, ∃ r : ℝ, X8 i = (r : EReal)) (h9 : ∀ i, ∃ r : ℝ, X9 i = (r : EReal))
    (_h10 : ∀ i, ∃ r : ℝ, X10 i = (r : EReal)) (_h11 : ∀ i, ∃ r : ℝ, X11 i = (r : EReal))
    (h12 : ∀ i, ∃ r : ℝ, X12 i = (r : EReal))
    (_h13 : ∀ i, ∃ r : ℝ, X13 i = (r : EReal)) (_h14 : ∀ i, ∃ r : ℝ, X14 i = (r : EReal))
    (hbasis : ∀ e b, ∃ r : ℝ, basisF X2 e b = (r : EReal))
    (hwi : ∀ e b, 0 ≤ (wiF X2 e b).toInt ∧ (wiF X2 e b).toInt < 25)
    (hdst : ∀ e, 0 ≤ (dstW X3 e).toInt ∧ (dstW X3 e).toInt < 50000) :
    ∀ n o, outK X0 X1 X2 X3 X4 X5 X6 X7 X8 X9 X10 X11 X12 X13 X14 n o
      = outR X0 X1 X2 X3 X4 X5 X6 X7 X8 X9 X10 X11 X12 X13 X14 n o := by
  intro n o
  unfold outK outR
  rw [y2_eq X0 X1 X2 X3 X4 X5 X6 X7 X8 X9 h0 h1 h4 h5 hbasis hwi hdst, skip_eq X0 X1 X12 X13 X14 h0 h1 h12,
    bn_eq _ (y2R_real X0 X1 X2 X3 X4 X5 X6 X7 X8 X9 h0 h1 h4 h5 h6 h7 h8 h9 hbasis)]

end Layer

end Spline

end
-- ==== Proof.PreFacts.lean ====
import proofs.«412279_j89026082111590_3_alg».proof.Pre_finite_inputs
import proofs.«412279_j89026082111590_3_alg».proof.Proof.Gen.Pre_finite_inputs
import Idealize.ShloMosaic.Lib.ReduceAll
import Idealize.ShloMosaic.Lib.StableHlo.Predicate
import Idealize.ShloMosaic.PureOps.Ideal
import Idealize.ShloMosaic.Lib.ValueIdx
import Idealize.ShloMosaic.Lib.ValueLayout

noncomputable section

namespace Cert.PreFacts

open Cert.Pre_finite_inputs
open Idealize.ShloMosaic Idealize.ShloMosaic.ValueIdx

instance : Subsingleton S_.Idx := ⟨fun a b => funext fun d => d.elim0⟩

theorem inf_bits : Ideal.ofBits .f32 0x7F800000#32 = (⊤ : EReal) := by simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_bits] at h
  induction x using EReal.rec with
  | bot => simp [Ideal.cmp] at h
  | coe r => exact ⟨r, rfl⟩
  | top => simp [Ideal.cmp] at h

theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf x) (broadcastInDim s ![] hb (constant (F := Ideal) S_ .f32 0x7F800000#32))) init hr hu ix0 = 1#1)
    (i : s.Idx) : ∃ r : ℝ, x i = (r : EReal) :=
  real_of_abs_lt_inf (x i) (Host.reduce_andi_all _ init hr hu ix0 e i)

theorem row1_apply (a3 : IVec S2x800000 32) (hsl : S2x800000.Slices ![1, 0] S1x800000)
    (hsc : S1x800000.ShapeCasts S800000) (k : Fin 800000) :
    shapeCast S800000 (extractStridedSlice S1x800000 ![1, 0] a3 hsl) hsc (ix1 k) = a3 (ix2 (1 : Fin 2) k) := by
  rw [shapeCast_1a_a_apply]
  unfold extractStridedSlice
  refine congrArg a3 (funext fun a => ?_)
  match a with
  | ⟨0, _⟩ => exact Fin.ext rfl
  | ⟨1, _⟩ => exact Fin.ext (Nat.zero_add _)

theorem row1_range (a3 : IVec S2x800000 32) (hsl : S2x800000.Slices ![1, 0] S1x800000)
    (hsc : S1x800000.ShapeCasts S800000) (hb : S_.BroadcastsInDim S800000 (![] : Fin 0 → Fin S800000.rank))
    (hr : S800000.ReducesTo [0] S_) (hu : 0 < S_.numel) (init : IVec S_ 1)
    (e : Host.reduce IntOp.andi
      (andi
        (cmpi .sge (shapeCast S800000 (extractStridedSlice S1x800000 ![1, 0] a3 hsl) hsc)
          (broadcastInDim S800000 ![] hb (constantI S_ 32 0#32)))
        (cmpi .slt (shapeCast S800000 (extractStridedSlice S1x800000 ![1, 0] a3 hsl) hsc)
          (broadcastInDim S800000 ![] hb (constantI S_ 32 50000#32)))) init hr hu ix0 = 1#1)
    (k : Fin 800000) : 0 ≤ (a3 (ix2 (1 : Fin 2) k)).toInt ∧ (a3 (ix2 (1 : Fin 2) k)).toInt < 50000 := by
  have hk := Host.reduce_andi_all _ init hr hu ix0 e (ix1 k)
  change IntOp.andi
    (IntOp.cmpi .sge (shapeCast S800000 (extractStridedSlice S1x800000 ![1, 0] a3 hsl) hsc (ix1 k)) (0#32))
    (IntOp.cmpi .slt (shapeCast S800000 (extractStridedSlice S1x800000 ![1, 0] a3 hsl) hsc (ix1 k)) (50000#32)) = 1#1 at hk
  rw [row1_apply] at hk
  obtain ⟨h0, h1⟩ := IntOp.andi_eq_one.1 hk
  have z0 : (0#32 : BitVec 32).toInt = 0 := by decide
  have z1 : (50000#32 : BitVec 32).toInt = 50000 := by decide
  have g0 := IntOp.cmpi_sge.1 h0
  have g1 := IntOp.cmpi_slt.1 h1
  rw [z0] at g0
  rw [z1] at g1
  exact ⟨g0, g1⟩

variable [Facts]

theorem real_of_pre
    (a0 : FVec Ideal S50000x30 .f32) (a1 : FVec Ideal S50000x2 .f32) (a2 : FVec Ideal S800000x2 .f32)
    (a3 : IVec S2x800000 32) (a4 : FVec Ideal S25x32x64 .f32) (a5 : FVec Ideal S32x64 .f32)
    (a6 : FVec Ideal S64 .f32) (a7 : FVec Ideal S64 .f32) (a8 : FVec Ideal S25x64x64 .f32)
    (a9 : FVec Ideal S64x64 .f32) (a10 : FVec Ideal S64 .f32) (a11 : FVec Ideal S64 .f32)
    (a12 : FVec Ideal S32x64 .f32) (a13 : FVec Ideal S64 .f32) (a14 : FVec Ideal S64 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧ (∀ i, ∃ r : ℝ, a12 i = (r : EReal)) ∧
    (∀ i, ∃ r : ℝ, a13 i = (r : EReal)) ∧ (∀ i, ∃ r : ℝ, a14 i = (r : EReal)) ∧
    (∀ k : Fin 800000, 0 ≤ (a3 (ix2 (1 : Fin 2) k)).toInt ∧ (a3 (ix2 (1 : Fin 2) k)).toInt < 50000) := by
  have e := congrFun h ix0
  dsimp only [fn, fn_part1, fn_part2, fn_part3, fn_part4] at e
  change IntOp.andi _ _ = 1#1 at e
  obtain ⟨e, h3⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨all_real a0 _ _ _ _ h0, all_real a1 _ _ _ _ h1, all_real a2 _ _ _ _ h2, all_real a4 _ _ _ _ h4,
    all_real a5 _ _ _ _ h5, all_real a6 _ _ _ _ h6, all_real a7 _ _ _ _ h7, all_real a8 _ _ _ _ h8,
    all_real a9 _ _ _ _ h9, all_real a10 _ _ _ _ h10, all_real a11 _ _ _ _ h11, all_real a12 _ _ _ _ h12,
    all_real a13 _ _ _ _ h13, all_real a14 _ _ _ _ h14, row1_range a3 _ _ _ _ _ _ h3⟩

end Cert.PreFacts

end
-- ==== Proof.PrefixFacts.lean ====
import proofs.«412279_j89026082111590_3_alg».proof.Proof.SpecInputs
import proofs.«412279_j89026082111590_3_alg».proof.Proof.MathLemmas
import proofs.«412279_j89026082111590_3_alg».proof.Proof.Consts
import proofs.«412279_j89026082111590_3_alg».proof.Proof.ScatterGather
import Idealize.ShloMosaic.Lib.Pipeline.Value
import Idealize.ShloMosaic.Lib.ValueIdx
import Idealize.ShloMosaic.PureOps.Ideal
import Idealize.ShloMosaic.PureOps.Ideal.Laws

noncomputable section

namespace Spline

open Idealize.ShloMosaic ValueIdx Cert.ReferenceIdeal Cert.ReferenceIdeal.Gen Cert.ReferenceIdeal.ReadP

def cellZ (r : ℝ) : ℤ := min 3 (max 0 ⌊r * 4⌋)

theorem cellZ_nonneg (r : ℝ) : 0 ≤ cellZ r := by unfold cellZ; omega
theorem cellZ_le (r : ℝ) : cellZ r ≤ 3 := by unfold cellZ; omega

theorem fptosi_intCast (n : ℤ) (h0 : 0 ≤ n) (h3 : n ≤ 3) :
    (Ideal.fptosi 32 (((n : ℤ) : ℝ) : EReal)).toInt = n := by
  have hn : (0 : ℝ) ≤ ((n : ℤ) : ℝ) := by exact_mod_cast h0
  rw [Ideal.fptosi, Ideal.toIntClamped_coe, if_pos hn, Int.floor_intCast, BitVec.toInt_ofInt, Int.bmod_def]
  norm_num
  omega

section Point

variable (X2 : (⟨2, ![800000, 2]⟩ : Shape).Idx → EReal) (i : (⟨2, ![800000, 2]⟩ : Shape).Idx) (r : ℝ) (h : X2 i = (r : EReal))
include h

theorem v5_coe : val_main_v5 (F := Ideal) X2 i = ((r * 4 : ℝ) : EReal) := by
  rw [val_main_v5_apply, val_main_v4_apply, val_main_cst_apply, h, Ideal.mulf_def, Ideal.ofBits_def,
    SplineConsts.ofBits_four, ← EReal.coe_mul]

theorem v6_coe : val_main_v6 (F := Ideal) X2 i = (((⌊r * 4⌋ : ℤ) : ℝ) : EReal) := by
  rw [val_main_v6_apply, v5_coe X2 i r h, Ideal.hostUnary_floor_def, SplineMath.floor_coe]

theorem v7_coe : val_main_v7 (F := Ideal) X2 i = (((cellZ r : ℤ) : ℝ) : EReal) := by
  rw [val_main_v7_apply, val_main_call0_v4_apply, val_main_call0_v3_apply, val_main_c_apply,
    val_main_call0_v2_apply, val_main_call0_v1_apply, val_main_call0_v0_apply, val_main_cst_0_apply,
    v6_coe X2 i r h, Ideal.ofBits_def, SplineConsts.ofBits_zero, Ideal.maximumf_def, Ideal.minimumf_def]
  have t3 : (3#32 : BitVec 32).toInt = 3 := by decide
  have e3 : FloatOps.sitofp (F := Ideal) .f32 (3#32) = ((3 : ℝ) : EReal) := by
    show (((3#32 : BitVec 32).toInt : ℝ) : EReal) = _
    rw [t3]; norm_num
  rw [e3, ← EReal.coe_zero, SplineMath.max_coe_coe, SplineMath.min_coe_coe]
  unfold cellZ
  push_cast
  rfl

theorem v8_coe : val_main_v8 (F := Ideal) X2 i = ((r * 4 - ((cellZ r : ℤ) : ℝ) : ℝ) : EReal) := by
  rw [val_main_v8_apply, v5_coe X2 i r h, v7_coe X2 i r h, Ideal.subf_def, SplineMath.sub_coe_coe]

theorem v9_toInt : (val_main_v9 (F := Ideal) X2 i).toInt = cellZ r := by
  rw [val_main_v9_apply, v7_coe X2 i r h]
  exact fptosi_intCast _ (cellZ_nonneg r) (cellZ_le r)

end Point

theorem concat4_forall {α : Type} (P : α → Prop) (x0 x1 x2 x3 : S800000x1.Idx → α)
    (p0 : ∀ i, P (x0 i)) (p1 : ∀ i, P (x1 i)) (p2 : ∀ i, P (x2 i)) (p3 : ∀ i, P (x3 i)) (j : S800000x4.Idx) :
    P (concatenate S800000x4 1 [⟨S800000x1, x0⟩, ⟨S800000x1, x1⟩, ⟨S800000x1, x2⟩, ⟨S800000x1, x3⟩]
      concatenates_S800000x1_S800000x1_S800000x1_S800000x1_S800000x4_d1 j) := by
  have hi : ∀ b : Fin S800000x1.rank, b.cast (rfl : S800000x1.rank = S800000x4.rank) ≠ (1 : Fin S800000x4.rank) →
      ((ix2 (j 0) (0 : Fin 1) : S800000x1.Idx) b).val = (j (b.cast (rfl : S800000x1.rank = S800000x4.rank))).val := by
    intro b hb
    match b, hb with
    | ⟨0, _⟩, _ => rfl
    | ⟨1, _⟩, hb => exact absurd rfl hb
  have hj : (j 1).val < 4 := (j 1).isLt
  rcases Nat.lt_or_ge (j 1).val 1 with c0 | c0
  · rw [concatenate_apply_piece (1 : Fin S800000x4.rank) _ _ j 0 (by show (0 : Nat) < 4; omega) S800000x1 x0 rfl rfl 0 rfl
      (ix2 (j 0) (0 : Fin 1)) hi (by show 0 + 0 = (j 1).val; omega)]
    exact p0 _
  rcases Nat.lt_or_ge (j 1).val 2 with c1 | c1
  · rw [concatenate_apply_piece (1 : Fin S800000x4.rank) _ _ j 1 (by show (1 : Nat) < 4; omega) S800000x1 x1 rfl rfl 1 rfl
      (ix2 (j 0) (0 : Fin 1)) hi (by show 1 + 0 = (j 1).val; omega)]
    exact p1 _
  rcases Nat.lt_or_ge (j 1).val 3 with c2 | c2
  · rw [concatenate_apply_piece (1 : Fin S800000x4.rank) _ _ j 2 (by show (2 : Nat) < 4; omega) S800000x1 x2 rfl rfl 2 rfl
      (ix2 (j 0) (0 : Fin 1)) hi (by show 2 + 0 = (j 1).val; omega)]
    exact p2 _
  · rw [concatenate_apply_piece (1 : Fin S800000x4.rank) _ _ j 3 (by show (3 : Nat) < 4; omega) S800000x1 x3 rfl rfl 3 rfl
      (ix2 (j 0) (0 : Fin 1)) hi (by show 3 + 0 = (j 1).val; omega)]
    exact p3 _

theorem idx_word_range (a b : BitVec 32) (ha : 0 ≤ a.toInt ∧ a.toInt ≤ 4) (hb : 0 ≤ b.toInt ∧ b.toInt ≤ 4) :
    0 ≤ (IntOp.addi a (IntOp.muli 5#32 b)).toInt ∧ (IntOp.addi a (IntOp.muli 5#32 b)).toInt < 25 := by
  have t5 : (5#32 : BitVec 32).toInt = 5 := by decide
  have e : IntOp.addi a (IntOp.muli 5#32 b) = 5#32 * b + a := by
    unfold IntOp.addi IntOp.muli; exact BitVec.add_comm _ _
  rw [e, SplineSG.toInt_mul_add 5#32 b a (by rw [t5]; omega) hb.1 ha.1 (by rw [t5]; omega), t5]
  omega

section Words

variable (X2 : (⟨2, ![800000, 2]⟩ : Shape).Idx → EReal) (h2 : ∀ i, ∃ r : ℝ, X2 i = (r : EReal))
include h2

theorem v9_range (i : S800000x2.Idx) :
    0 ≤ (val_main_v9 (F := Ideal) X2 i).toInt ∧ (val_main_v9 (F := Ideal) X2 i).toInt ≤ 3 := by
  obtain ⟨r, h⟩ := h2 i
  rw [v9_toInt X2 i r h]
  exact ⟨cellZ_nonneg r, cellZ_le r⟩

theorem v9_range4 (i : S800000x2.Idx) :
    0 ≤ (val_main_v9 (F := Ideal) X2 i).toInt ∧ (val_main_v9 (F := Ideal) X2 i).toInt ≤ 4 := by
  have := v9_range X2 h2 i
  omega

theorem v11_range4 (i : S800000x2.Idx) :
    0 ≤ (val_main_v11 (F := Ideal) X2 i).toInt ∧ (val_main_v11 (F := Ideal) X2 i).toInt ≤ 4 := by
  have := v9_range X2 h2 i
  have t1 : (1#32 : BitVec 32).toInt = 1 := by decide
  rw [val_main_v11_apply, val_main_v10_apply, val_main_c_1_apply]
  unfold IntOp.addi
  rw [BitVec.toInt_add, t1, Int.bmod_def]
  omega

theorem v39_range (i : S800000.Idx) :
    0 ≤ (val_main_v39 (F := Ideal) X2 i).toInt ∧ (val_main_v39 (F := Ideal) X2 i).toInt < 25 := by
  rw [val_main_v39_apply, val_main_v38_apply, val_main_v37_apply, val_main_c_6_apply, val_main_v34_apply,
    val_main_v33_apply, val_main_v36_apply, val_main_v35_apply]
  exact idx_word_range _ _ (v9_range4 X2 h2 _) (v9_range4 X2 h2 _)

theorem v46_range (i : S800000.Idx) :
    0 ≤ (val_main_v46 (F := Ideal) X2 i).toInt ∧ (val_main_v46 (F := Ideal) X2 i).toInt < 25 := by
  rw [val_main_v46_apply, val_main_v45_apply, val_main_v44_apply, val_main_c_7_apply, val_main_v41_apply,
    val_main_v40_apply, val_main_v43_apply, val_main_v42_apply]
  exact idx_word_range _ _ (v11_range4 X2 h2 _) (v9_range4 X2 h2 _)

theorem v53_range (i : S800000.Idx) :
    0 ≤ (val_main_v53 (F := Ideal) X2 i).toInt ∧ (val_main_v53 (F := Ideal) X2 i).toInt < 25 := by
  rw [val_main_v53_apply, val_main_v52_apply, val_main_v51_apply, val_main_c_8_apply, val_main_v48_apply,
    val_main_v47_apply, val_main_v50_apply, val_main_v49_apply]
  exact idx_word_range _ _ (v9_range4 X2 h2 _) (v11_range4 X2 h2 _)

theorem v60_range (i : S800000.Idx) :
    0 ≤ (val_main_v60 (F := Ideal) X2 i).toInt ∧ (val_main_v60 (F := Ideal) X2 i).toInt < 25 := by
  rw [val_main_v60_apply, val_main_v59_apply, val_main_v58_apply, val_main_c_9_apply, val_main_v55_apply,
    val_main_v54_apply, val_main_v57_apply, val_main_v56_apply]
  exact idx_word_range _ _ (v11_range4 X2 h2 _) (v11_range4 X2 h2 _)

theorem v65_range (j : S800000x4.Idx) :
    0 ≤ (val_main_v65 (F := Ideal) X2 j).toInt ∧ (val_main_v65 (F := Ideal) X2 j).toInt < 25 := by
  unfold val_main_v65
  refine concat4_forall (fun w : BitVec 32 => 0 ≤ w.toInt ∧ w.toInt < 25) _ _ _ _ ?_ ?_ ?_ ?_ j
  · intro i; rw [val_main_v61_apply]; exact v39_range X2 h2 _
  · intro i; rw [val_main_v62_apply]; exact v46_range X2 h2 _
  · intro i; rw [val_main_v63_apply]; exact v53_range X2 h2 _
  · intro i; rw [val_main_v64_apply]; exact v60_range X2 h2 _

theorem wiF_range : ∀ e b, 0 ≤ (Spline.wiF X2 e b).toInt ∧ (Spline.wiF X2 e b).toInt < 25 :=
  fun e b => v65_range X2 h2 (ix2 e b)

end Words

theorem real_sub {x y : EReal} (hx : ∃ a : ℝ, x = (a : EReal)) (hy : ∃ b : ℝ, y = (b : EReal)) :
    ∃ c : ℝ, x - y = (c : EReal) := by
  obtain ⟨a, rfl⟩ := hx; obtain ⟨b, rfl⟩ := hy; exact ⟨a - b, SplineMath.sub_coe_coe a b⟩

theorem real_mul {x y : EReal} (hx : ∃ a : ℝ, x = (a : EReal)) (hy : ∃ b : ℝ, y = (b : EReal)) :
    ∃ c : ℝ, x * y = (c : EReal) := by
  obtain ⟨a, rfl⟩ := hx; obtain ⟨b, rfl⟩ := hy; exact ⟨a * b, (EReal.coe_mul a b).symm⟩

theorem real_one : ∃ r : ℝ, FloatOps.ofBits (F := Ideal) .f32 0x3F800000#32 = (r : EReal) :=
  ⟨1, by rw [Ideal.ofBits_def]; exact SplineConsts.ofBits_one_coe⟩

section Reals

variable (X2 : (⟨2, ![800000, 2]⟩ : Shape).Idx → EReal) (h2 : ∀ i, ∃ r : ℝ, X2 i = (r : EReal))
include h2

theorem v8_real (i : S800000x2.Idx) : ∃ r : ℝ, val_main_v8 (F := Ideal) X2 i = (r : EReal) := by
  obtain ⟨r, h⟩ := h2 i
  exact ⟨_, v8_coe X2 i r h⟩

theorem v13_real (i : S800000.Idx) : ∃ r : ℝ, val_main_v13 (F := Ideal) X2 i = (r : EReal) := by
  rw [val_main_v13_apply, val_main_v12_apply]; exact v8_real X2 h2 _

theorem v15_real (i : S800000.Idx) : ∃ r : ℝ, val_main_v15 (F := Ideal) X2 i = (r : EReal) := by
  rw [val_main_v15_apply, val_main_v14_apply]; exact v8_real X2 h2 _

theorem v17_real (i : S800000.Idx) : ∃ r : ℝ, val_main_v17 (F := Ideal) X2 i = (r : EReal) := by
  rw [val_main_v17_apply, val_main_v16_apply, val_main_cst_2_apply, Ideal.subf_def]
  exact real_sub real_one (v13_real X2 h2 i)

theorem v19_real (i : S800000.Idx) : ∃ r : ℝ, val_main_v19 (F := Ideal) X2 i = (r : EReal) := by
  rw [val_main_v19_apply, val_main_v18_apply, val_main_cst_3_apply, Ideal.subf_def]
  exact real_sub real_one (v15_real X2 h2 i)

theorem v20_real (i : S800000.Idx) : ∃ r : ℝ, val_main_v20 (F := Ideal) X2 i = (r : EReal) := by
  rw [val_main_v20_apply, Ideal.mulf_def]
  exact real_mul (v17_real X2 h2 i) (v19_real X2 h2 i)

theorem v22_real (i : S800000.Idx) : ∃ r : ℝ, val_main_v22 (F := Ideal) X2 i = (r : EReal) := by
  rw [val_main_v22_apply, val_main_v21_apply, val_main_cst_4_apply, Ideal.subf_def]
  exact real_sub real_one (v15_real X2 h2 i)

theorem v23_real (i : S800000.Idx) : ∃ r : ℝ, val_main_v23 (F := Ideal) X2 i = (r : EReal) := by
  rw [val_main_v23_apply, Ideal.mulf_def]
  exact real_mul (v13_real X2 h2 i) (v22_real X2 h2 i)

theorem v25_real (i : S800000.Idx) : ∃ r : ℝ, val_main_v25 (F := Ideal) X2 i = (r : EReal) := by
  rw [val_main_v25_apply, val_main_v24_apply, val_main_cst_5_apply, Ideal.subf_def]
  exact real_sub real_one (v13_real X2 h2 i)

theorem v26_real (i : S800000.Idx) : ∃ r : ℝ, val_main_v26 (F := Ideal) X2 i = (r : EReal) := by
  rw [val_main_v26_apply, Ideal.mulf_def]
  exact real_mul (v25_real X2 h2 i) (v15_real X2 h2 i)

theorem v27_real (i : S800000.Idx) : ∃ r : ℝ, val_main_v27 (F := Ideal) X2 i = (r : EReal) := by
  rw [val_main_v27_apply, Ideal.mulf_def]
  exact real_mul (v13_real X2 h2 i) (v15_real X2 h2 i)

theorem v32_real (j : S800000x4.Idx) : ∃ r : ℝ, val_main_v32 (F := Ideal) X2 j = (r : EReal) := by
  unfold val_main_v32
  refine concat4_forall (fun x : EReal => ∃ r : ℝ, x = (r : EReal)) _ _ _ _ ?_ ?_ ?_ ?_ j
  · intro i; rw [val_main_v28_apply]; exact v20_real X2 h2 _
  · intro i; rw [val_main_v29_apply]; exact v23_real X2 h2 _
  · intro i; rw [val_main_v30_apply]; exact v26_real X2 h2 _
  · intro i; rw [val_main_v31_apply]; exact v27_real X2 h2 _

theorem basisF_real : ∀ e b, ∃ r : ℝ, Spline.basisF X2 e b = (r : EReal) :=
  fun e b => v32_real X2 h2 (ix2 e b)

end Reals

end Spline

end
-- ==== Proof.lean ====
import proofs.«412279_j89026082111590_3_alg».proof.Defs
import proofs.«412279_j89026082111590_3_alg».proof.Proof.Gen.Kernel
import proofs.«412279_j89026082111590_3_alg».proof.Proof.Gen.KernelIdeal
import proofs.«412279_j89026082111590_3_alg».proof.Proof.Gen.ReferenceIdeal
import proofs.«412279_j89026082111590_3_alg».proof.Proof.Gen.Pre_finite_inputs
import proofs.«412279_j89026082111590_3_alg».proof.Proof.KB.Args
import proofs.«412279_j89026082111590_3_alg».proof.Proof.KI.Args
import proofs.«412279_j89026082111590_3_alg».proof.Proof.KAsm
import proofs.«412279_j89026082111590_3_alg».proof.Proof.Ref.Run
import proofs.«412279_j89026082111590_3_alg».proof.Proof.RefValue
import proofs.«412279_j89026082111590_3_alg».proof.Proof.MathOut
import proofs.«412279_j89026082111590_3_alg».proof.Proof.PreFacts
import proofs.«412279_j89026082111590_3_alg».proof.Proof.PrefixFacts
import Idealize.ShloMosaic.Adequacy
import Idealize.ShloMosaic.Init

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RunP.run (F := Ideal) m ρ)

-- Both results are one function of the inputs: the variance as mean of squares minus squared mean, and a nonnegative real factor moved through finite sums.
theorem algebraic : Cert.algebraic_KernelIdeal_ReferenceIdeal := by
  intro m ρ m' ρ' hpre hagree
  refine ⟨fun c => Cert.KernelIdeal.Hand.W15 m ρ c (Proc.devRef .tc Cert.KernelIdeal.main_v267), Cert.KernelIdeal.Hand.run_value m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8, a9, a10, a11, a12, a13, a14⟩ := hagree c
  rw [a0, a1, a2, a3, a4, a5, a6, a7, a8, a9, a10, a11, a12, a13, a14]
  obtain ⟨r0, r1, r2, r4, r5, r6, r7, r8, r9, r10, r11, r12, r13, r14, rdst⟩ := Cert.PreFacts.real_of_pre _ _ _ _ _ _ _ _ _ _ _ _ _ _ _ (hpre c)
  funext idx
  obtain ⟨n, o, rfl⟩ : ∃ (n : Fin 50000) (o : Fin 64), idx = ix2 n o := ⟨idx 0, idx 1, eq_ix2 idx⟩
  refine (Cert.ReferenceIdeal.RefValue.ref_value _ _ _ _ _ _ _ _ _ _ _ _ _ _ _ n o).trans ?_
  refine ((Spline.out_eq _ _ _ _ _ _ _ _ _ _ _ _ _ _ _ r0 r1 r4 r5 r6 r7 r8 r9 r10 r11 r12 r13 r14
    (Spline.basisF_real _ r2) (Spline.wiF_range _ r2) rdst n o).symm).trans ?_
  exact (Cert.KernelIdeal.KAsm.kernel_value m ρ c n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
